-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v127)) (v1 : (c : Dev Cert.KernelIdeal.nD) → Buf (Elt Ideal) ((c.tc : Thread Cert.KernelIdeal.nD Cert.KernelIdeal.τ).loc Cert.KernelIdeal.main_v136)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_v136) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_v195) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x3 : Shape := ⟨2, ![100000, 3]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S384x384 : Shape := ⟨2, ![384, 384]⟩
abbrev S384 : Shape := ⟨1, ![384]⟩
abbrev S384x7 : Shape := ⟨2, ![384, 7]⟩
abbrev S7 : Shape := ⟨1, ![7]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_
  bcast_S_S384x7 : S_.BroadcastsInDim S384x7 (![] : Fin 0 → Fin S384x7.rank)
  reducesTo_S384x7_S_d0_1 : S384x7.ReducesTo [0, 1] S_
  bcast_S_S7 : S_.BroadcastsInDim S7 (![] : Fin 0 → Fin S7.rank)
  reducesTo_S7_S_d0 : S7.ReducesTo [0] S_

variable [Facts]

def fn_part4 {F : FTy → Type} [FloatOps F] (main_arg16 : FVec F S384x7 .f32) (main_arg17 : FVec F S7 .f32) (main_v63 : IVec S_ 1) (main_v67 : IVec S_ 1) : IVec S_ 1 :=
  let main_v68 : IVec S_ 1 := andi main_v63 main_v67
  let main_v69 : FVec F S384x7 .f32 := Host.absf main_arg16
  let main_cst_26 : FVec F S_ .f32 := constant S_ .f32 0x7F800000#32
  let main_v70 : FVec F S384x7 .f32 := broadcastInDim S384x7 ![] bcast_S_S384x7 main_cst_26
  let main_v71 : IVec S384x7 1 := cmpf .olt main_v69 main_v70
  let main_c_27 : IVec S_ 1 := constantI S_ 1 1#1
  let main_v72 : IVec S_ 1 := (fun x v => Host.reduce IntOp.andi x v reducesTo_S384x7_S_d0_1 h_S_) main_v71 main_c_27
  let main_v73 : IVec S_ 1 := andi main_v68 main_v72
  let main_v74 : FVec F S7 .f32 := Host.absf main_arg17
  let main_cst_28 : FVec F S_ .f32 := constant S_ .f32 0x7F800000#32
  let main_v75 : FVec F S7 .f32 := broadcastInDim S7 ![] bcast_S_S7 main_cst_28
  let main_v76 : IVec S7 1 := cmpf .olt main_v74 main_v75
  let main_c_29 : IVec S_ 1 := constantI S_ 1 1#1
  let main_v77 : IVec S_ 1 := (fun x v => Host.reduce IntOp.andi x v reducesTo_S7_S_d0 h_S_) main_v76 main_c_29
  let main_v78 : IVec S_ 1 := andi main_v73 main_v77
  main_v78

def fn_part3 {F : FTy → Type} [FloatOps F] (main_arg13 : FVec F S3x128 .f32) (main_arg14 : FVec F S384x384 .f32) (main_arg15 : FVec F S384 .f32) (main_arg16 : FVec F S384x7 .f32) (main_arg17 : FVec F S7 .f32) (main_v48 : IVec S_ 1) (main_v49 : FVec F S3x128x128 .f32) (main_v50 : FVec F S3x128x128 .f32) : IVec S_ 1 :=
  let main_v51 : IVec S3x128x128 1 := cmpf .olt main_v49 main_v50
  let main_c_19 : IVec S_ 1 := constantI S_ 1 1#1
  let main_v52 : IVec S_ 1 := (fun x v => Host.reduce IntOp.andi x v reducesTo_S3x128x128_S_d0_1_2 h_S_) main_v51 main_c_19
  let main_v53 : IVec S_ 1 := andi main_v48 main_v52
  let main_v54 : FVec F S3x128 .f32 := Host.absf main_arg13
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S384x384 .f32 := Host.absf main_arg14
  let main_cst_22 : FVec F S_ .f32 := constant S_ .f32 0x7F800000#32
  let main_v60 : FVec F S384x384 .f32 := broadcastInDim S384x384 ![] bcast_S_S384x384 main_cst_22
  let main_v61 : IVec S384x384 1 := cmpf .olt main_v59 main_v60
  let main_c_23 : IVec S_ 1 := constantI S_ 1 1#1
  let main_v62 : IVec S_ 1 := (fun x v => Host.reduce IntOp.andi x v reducesTo_S384x384_S_d0_1 h_S_) main_v61 main_c_23
  let main_v63 : IVec S_ 1 := andi main_v58 main_v62
  let main_v64 : FVec F S384 .f32 := Host.absf main_arg15
  let main_cst_24 : FVec F S_ .f32 := constant S_ .f32 0x7F800000#32
  let main_v65 : FVec F S384 .f32 := broadcastInDim S384 ![] bcast_S_S384 main_cst_24
  let main_v66 : IVec S384 1 := cmpf .olt main_v64 main_v65
  let main_c_25 : IVec S_ 1 := constantI S_ 1 1#1
  let main_v67 : IVec S_ 1 := (fun x v => Host.reduce IntOp.andi x v reducesTo_S384_S_d0 h_S_) main_v66 main_c_25
  fn_part4 (F := F) main_arg16 main_arg17 main_v63 main_v67

def fn_part2 {F : FTy → Type} [FloatOps F] (main_arg9 : FVec F S3x128 .f32) (main_arg10 : FVec F S3x128 .f32) (main_arg11 : FVec F S3x128 .f32) (main_arg12 : FVec F S3x128x128 .f32) (main_arg13 : FVec F S3x128 .f32) (main_arg14 : FVec F S384x384 .f32) (main_arg15 : FVec F S384 .f32) (main_arg16 : FVec F S384x7 .f32) (main_arg17 : FVec F S7 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128 .f32 := Host.absf main_arg11
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3x128x128 .f32 := Host.absf main_arg12
  let main_cst_18 : FVec F S_ .f32 := constant S_ .f32 0x7F800000#32
  let main_v50 : FVec F S3x128x128 .f32 := broadcastInDim S3x128x128 ![] bcast_S_S3x128x128 main_cst_18
  fn_part3 (F := F) main_arg13 main_arg14 main_arg15 main_arg16 main_arg17 main_v48 main_v49 main_v50

def fn_part1 {F : FTy → Type} [FloatOps F] (main_arg6 : FVec F S3x128x128 .f32) (main_arg7 : FVec F S3x128 .f32) (main_arg8 : FVec F S3x128 .f32) (main_arg9 : FVec F S3x128 .f32) (main_arg10 : FVec F S3x128 .f32) (main_arg11 : FVec F S3x128 .f32) (main_arg12 : FVec F S3x128x128 .f32) (main_arg13 : FVec F S3x128 .f32) (main_arg14 : FVec F S384x384 .f32) (main_arg15 : FVec F S384 .f32) (main_arg16 : FVec F S384x7 .f32) (main_arg17 : FVec F S7 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x128x128 .f32 := Host.absf main_arg6
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x64 .f32) (main_arg1 : FVec F S100000x3 .f32) (main_arg2 : IVec S2x1600000 32) (main_arg3 : IVec S100000 32) (main_arg4 : FVec F S64x128 .f32) (main_arg5 : FVec F S128 .f32) (main_arg6 : FVec F S3x128x128 .f32) (main_arg7 : FVec F S3x128 .f32) (main_arg8 : FVec F S3x128 .f32) (main_arg9 : FVec F S3x128 .f32) (main_arg10 : FVec F S3x128 .f32) (main_arg11 : FVec F S3x128 .f32) (main_arg12 : FVec F S3x128x128 .f32) (main_arg13 : FVec F S3x128 .f32) (main_arg14 : FVec F S384x384 .f32) (main_arg15 : FVec F S384 .f32) (main_arg16 : FVec F S384x7 .f32) (main_arg17 : FVec F S7 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x64 : Shape := ⟨2, ![100000, 64]⟩
abbrev S100000x3 : Shape := ⟨2, ![100000, 3]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S384x384 : Shape := ⟨2, ![384, 384]⟩
abbrev S384 : Shape := ⟨1, ![384]⟩
abbrev S384x7 : Shape := ⟨2, ![384, 7]⟩
abbrev S7 : Shape := ⟨1, ![7]⟩
abbrev S1x1600000 : Shape := ⟨2, ![1, 1600000]⟩
abbrev S1600000 : Shape := ⟨1, ![1600000]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S4000x128 : Shape := ⟨2, ![4000, 128]⟩
abbrev S64 : Shape := ⟨1, ![64]⟩
abbrev S100000x1 : Shape := ⟨2, ![100000, 1]⟩
abbrev S64x1 : Shape := ⟨2, ![64, 1]⟩
abbrev S5000x1 : Shape := ⟨2, ![5000, 1]⟩
abbrev S64x384 : Shape := ⟨2, ![64, 384]⟩
abbrev S1x384 : Shape := ⟨2, ![1, 384]⟩
abbrev S64x7 : Shape := ⟨2, ![64, 7]⟩
abbrev S1x7 : Shape := ⟨2, ![1, 7]⟩

abbrev nBuf : Space → Nat
  | .hbm => 173
  | .vmem => 74
  | .smem => 0
  | _ => 0

abbrev hbmTy0_0 (i : Nat) : BufTy := match i % 128 with
  | 0 => ⟨S100000x64, .f32⟩
  | 1 => ⟨S100000x3, .f32⟩
  | 2 => ⟨S2x1600000, .i32⟩
  | 3 => ⟨S100000, .i32⟩
  | 4 => ⟨S64x128, .f32⟩
  | 5 => ⟨S128, .f32⟩
  | 6 => ⟨S3x128x128, .f32⟩
  | 7 => ⟨S3x128, .f32⟩
  | 8 => ⟨S3x128, .f32⟩
  | 9 => ⟨S3x128, .f32⟩
  | 10 => ⟨S3x128, .f32⟩
  | 11 => ⟨S3x128, .f32⟩
  | 12 => ⟨S3x128x128, .f32⟩
  | 13 => ⟨S3x128, .f32⟩
  | 14 => ⟨S384x384, .f32⟩
  | 15 => ⟨S384, .f32⟩
  | 16 => ⟨S384x7, .f32⟩
  | 17 => ⟨S7, .f32⟩
  | 18 => ⟨S1x1600000, .i32⟩
  | 19 => ⟨S1600000, .i32⟩
  | 20 => ⟨S1x1600000, .i32⟩
  | 21 => ⟨S1600000, .i32⟩
  | 22 => ⟨S1x128, .f32⟩
  | 23 => ⟨S100000x128, .f32⟩
  | 24 => ⟨S100000x128, .bf16⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x128, .bf16⟩
  | 34 => ⟨S1600000x128, .f32⟩
  | 35 => ⟨S_, .f32⟩
  | 36 => ⟨S100000x128, .f32⟩
  | 37 => ⟨S1600000x1, .i32⟩
  | 38 => ⟨S100000x128, .f32⟩
  | 39 => ⟨S1x128x128, .f32⟩
  | 40 => ⟨S128x128, .f32⟩
  | 41 => ⟨S1x128, .f32⟩
  | 42 => ⟨S128, .f32⟩
  | 43 => ⟨S1x128, .f32⟩
  | 44 => ⟨S128, .f32⟩
  | 45 => ⟨S1x128, .f32⟩
  | 46 => ⟨S128, .f32⟩
  | 47 => ⟨S1x128, .f32⟩
  | 48 => ⟨S128, .f32⟩
  | 49 => ⟨S1x128, .f32⟩
  | 50 => ⟨S128, .f32⟩
  | 51 => ⟨S1x128x128, .f32⟩
  | 52 => ⟨S128x128, .f32⟩
  | 53 => ⟨S1x128, .f32⟩
  | 54 => ⟨S128, .f32⟩
  | 55 => ⟨S1x128, .f32⟩
  | 56 => ⟨S1x128, .f32⟩
  | 57 => ⟨S1x128, .f32⟩
  | 58 => ⟨S1x128, .f32⟩
  | 59 => ⟨S1x128, .f32⟩
  | 60 => ⟨S1x128, .f32⟩
  | 61 => ⟨S100000x128, .f32⟩
  | 62 => ⟨S100000x128, .bf16⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x128, .bf16⟩
  | 72 => ⟨S1600000x128, .f32⟩
  | 73 => ⟨S_, .f32⟩
  | 74 => ⟨S100000x128, .f32⟩
  | 75 => ⟨S1600000x1, .i32⟩
  | 76 => ⟨S100000x128, .f32⟩
  | 77 => ⟨S1x128x128, .f32⟩
  | 78 => ⟨S128x128, .f32⟩
  | 79 => ⟨S1x128, .f32⟩
  | 80 => ⟨S128, .f32⟩
  | 81 => ⟨S1x128, .f32⟩
  | 82 => ⟨S128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S128, .f32⟩
  | 89 => ⟨S1x128x128, .f32⟩
  | 90 => ⟨S128x128, .f32⟩
  | 91 => ⟨S1x128, .f32⟩
  | 92 => ⟨S128, .f32⟩
  | 93 => ⟨S1x128, .f32⟩
  | 94 => ⟨S1x128, .f32⟩
  | 95 => ⟨S1x128, .f32⟩
  | 96 => ⟨S1x128, .f32⟩
  | 97 => ⟨S1x128, .f32⟩
  | 98 => ⟨S1x128, .f32⟩
  | 99 => ⟨S100000x128, .f32⟩
  | 100 => ⟨S100000x128, .bf16⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x128, .bf16⟩
  | 110 => ⟨S1600000x128, .f32⟩
  | 111 => ⟨S_, .f32⟩
  | 112 => ⟨S100000x128, .f32⟩
  | 113 => ⟨S1600000x1, .i32⟩
  | 114 => ⟨S100000x128, .f32⟩
  | 115 => ⟨S1x128x128, .f32⟩
  | 116 => ⟨S128x128, .f32⟩
  | 117 => ⟨S1x128, .f32⟩
  | 118 => ⟨S128, .f32⟩
  | 119 => ⟨S1x128, .f32⟩
  | 120 => ⟨S128, .f32⟩
  | 121 => ⟨S1x128, .f32⟩
  | 122 => ⟨S128, .f32⟩
  | 123 => ⟨S1x128, .f32⟩
  | 124 => ⟨S128, .f32⟩
  | 125 => ⟨S1x128, .f32⟩
  | 126 => ⟨S128, .f32⟩
  | 127 => ⟨S1x128x128, .f32⟩
  | _ => ⟨S100000x64, .f32⟩

abbrev hbmTy0_1 (i : Nat) : BufTy := match i % 128 with
  | 0 => ⟨S128x128, .f32⟩
  | 1 => ⟨S1x128, .f32⟩
  | 2 => ⟨S128, .f32⟩
  | 3 => ⟨S1x128, .f32⟩
  | 4 => ⟨S1x128, .f32⟩
  | 5 => ⟨S1x128, .f32⟩
  | 6 => ⟨S1x128, .f32⟩
  | 7 => ⟨S1x128, .f32⟩
  | 8 => ⟨S1x128, .f32⟩
  | 9 => ⟨S100000x128, .f32⟩
  | 10 => ⟨S100000x128, .bf16⟩
  | 11 => ⟨S_, .f32⟩
  | 12 => ⟨S100000, .f32⟩
  | 13 => ⟨S_, .f32⟩
  | 14 => ⟨S64, .f32⟩
  | 15 => ⟨S100000x1, .i32⟩
  | 16 => ⟨S64, .f32⟩
  | 17 => ⟨S_, .f32⟩
  | 18 => ⟨S64, .f32⟩
  | 19 => ⟨S64, .f32⟩
  | 20 => ⟨S64x1, .f32⟩
  | 21 => ⟨S100000x1, .i32⟩
  | 22 => ⟨S64x128, .f32⟩
  | 23 => ⟨S64x128, .f32⟩
  | 24 => ⟨S64x128, .f32⟩
  | 25 => ⟨S100000x1, .i32⟩
  | 26 => ⟨S64x128, .f32⟩
  | 27 => ⟨S64x128, .f32⟩
  | 28 => ⟨S64x128, .f32⟩
  | 29 => ⟨S100000x1, .i32⟩
  | 30 => ⟨S64x128, .f32⟩
  | 31 => ⟨S64x128, .f32⟩
  | 32 => ⟨S64x128, .f32⟩
  | 33 => ⟨S64x384, .f32⟩
  | 34 => ⟨S64x384, .f32⟩
  | 35 => ⟨S1x384, .f32⟩
  | 36 => ⟨S64x384, .f32⟩
  | 37 => ⟨S64x384, .f32⟩
  | 38 => ⟨S_, .f32⟩
  | 39 => ⟨S64x384, .f32⟩
  | 40 => ⟨S64x384, .f32⟩
  | 41 => ⟨S64x7, .f32⟩
  | 42 => ⟨S1x7, .f32⟩
  | 43 => ⟨S64x7, .f32⟩
  | 44 => ⟨S64x7, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .bf16⟩
  | .local _ .vmem, ⟨7, _⟩ => ⟨S5000x128, .bf16⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S4000x128, .f32⟩
  | .local _ .vmem, ⟨21, _⟩ => ⟨S4000x128, .f32⟩
  | .local _ .vmem, ⟨22, _⟩ => ⟨S4000x128, .bf16⟩
  | .local _ .vmem, ⟨23, _⟩ => ⟨S4000x128, .bf16⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S128x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S4000x128, .f32⟩
  | .local _ .vmem, ⟨37, _⟩ => ⟨S4000x128, .f32⟩
  | .local _ .vmem, ⟨38, _⟩ => ⟨S4000x128, .bf16⟩
  | .local _ .vmem, ⟨39, _⟩ => ⟨S4000x128, .bf16⟩
  | .local _ .vmem, ⟨40, _⟩ => ⟨S4000x128, .f32⟩
  | .local _ .vmem, ⟨41, _⟩ => ⟨S4000x128, .f32⟩
  | .local _ .vmem, ⟨42, _⟩ => ⟨S4000x128, .f32⟩
  | .local _ .vmem, ⟨43, _⟩ => ⟨S4000x128, .f32⟩
  | .local _ .vmem, ⟨44, _⟩ => ⟨S128x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S128x128, .f32⟩
  | .local _ .vmem, ⟨51, _⟩ => ⟨S1x128, .f32⟩
  | .local _ .vmem, ⟨52, _⟩ => ⟨S4000x128, .f32⟩
  | .local _ .vmem, ⟨53, _⟩ => ⟨S4000x128, .f32⟩
  | .local _ .vmem, ⟨54, _⟩ => ⟨S4000x128, .bf16⟩
  | .local _ .vmem, ⟨55, _⟩ => ⟨S4000x128, .bf16⟩
  | .local _ .vmem, ⟨56, _⟩ => ⟨S5000x1, .i32⟩
  | .local _ .vmem, ⟨57, _⟩ => ⟨S5000x1, .i32⟩
  | .local _ .vmem, ⟨58, _⟩ => ⟨S5000x128, .f32⟩
  | .local _ .vmem, ⟨59, _⟩ => ⟨S5000x128, .f32⟩
  | .local _ .vmem, ⟨60, _⟩ => ⟨S64x128, .f32⟩
  | .local _ .vmem, ⟨61, _⟩ => ⟨S64x128, .f32⟩
  | .local _ .vmem, ⟨62, _⟩ => ⟨S5000x1, .i32⟩
  | .local _ .vmem, ⟨63, _⟩ => ⟨S5000x1, .i32⟩
  | .local _ .vmem, ⟨64, _⟩ => ⟨S5000x128, .f32⟩
  | .local _ .vmem, ⟨65, _⟩ => ⟨S5000x128, .f32⟩
  | .local _ .vmem, ⟨66, _⟩ => ⟨S64x128, .f32⟩
  | .local _ .vmem, ⟨67, _⟩ => ⟨S64x128, .f32⟩
  | .local _ .vmem, ⟨68, _⟩ => ⟨S5000x1, .i32⟩
  | .local _ .vmem, ⟨69, _⟩ => ⟨S5000x1, .i32⟩
  | .local _ .vmem, ⟨70, _⟩ => ⟨S5000x128, .f32⟩
  | .local _ .vmem, ⟨71, _⟩ => ⟨S5000x128, .f32⟩
  | .local _ .vmem, ⟨72, _⟩ => ⟨S64x128, .f32⟩
  | .local _ .vmem, ⟨73, _⟩ => ⟨S64x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5_0 : Ref sig .tc := ⟨.hbm, 23, rfl⟩
abbrev main_v5_1 : Ref sig .tc := ⟨.hbm, 24, rfl⟩
abbrev main_c : Ref sig .tc := ⟨.hbm, 25, rfl⟩
abbrev main_v6 : Ref sig .tc := ⟨.hbm, 26, rfl⟩
abbrev main_v7 : Ref sig .tc := ⟨.hbm, 27, rfl⟩
abbrev main_c_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39_0 : Ref sig .tc := ⟨.hbm, 61, rfl⟩
abbrev main_v39_1 : Ref sig .tc := ⟨.hbm, 62, rfl⟩
abbrev main_c_1 : Ref sig .tc := ⟨.hbm, 63, rfl⟩
abbrev main_v40 : Ref sig .tc := ⟨.hbm, 64, rfl⟩
abbrev main_v41 : Ref sig .tc := ⟨.hbm, 65, rfl⟩
abbrev main_c_2 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_3 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73_0 : Ref sig .tc := ⟨.hbm, 99, rfl⟩
abbrev main_v73_1 : Ref sig .tc := ⟨.hbm, 100, rfl⟩
abbrev main_c_4 : Ref sig .tc := ⟨.hbm, 101, rfl⟩
abbrev main_v74 : Ref sig .tc := ⟨.hbm, 102, rfl⟩
abbrev main_v75 : Ref sig .tc := ⟨.hbm, 103, rfl⟩
abbrev main_c_5 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_6 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107_0 : Ref sig .tc := ⟨.hbm, 137, rfl⟩
abbrev main_v107_1 : Ref sig .tc := ⟨.hbm, 138, rfl⟩
abbrev main_cst_7 : Ref sig .tc := ⟨.hbm, 139, rfl⟩
abbrev main_v108 : Ref sig .tc := ⟨.hbm, 140, rfl⟩
abbrev main_cst_8 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_9 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_call0_cst : Ref sig .tc := ⟨.hbm, 166, rfl⟩
abbrev main_call0_v0 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg10_1 : Ref sig .tc := ⟨.vmem, 21, rfl⟩
abbrev cc1_stg11_0 : Ref sig .tc := ⟨.vmem, 22, rfl⟩
abbrev cc1_stg11_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg10_0 : Ref sig .tc := ⟨.vmem, 36, rfl⟩
abbrev cc2_stg10_1 : Ref sig .tc := ⟨.vmem, 37, rfl⟩
abbrev cc2_stg11_0 : Ref sig .tc := ⟨.vmem, 38, rfl⟩
abbrev cc2_stg11_1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg1_1 : Ref sig .tc := ⟨.vmem, 43, rfl⟩
abbrev cc3_stg2_0 : Ref sig .tc := ⟨.vmem, 44, rfl⟩
abbrev cc3_stg3_0 : Ref sig .tc := ⟨.vmem, 45, rfl⟩
abbrev cc3_stg4_0 : Ref sig .tc := ⟨.vmem, 46, rfl⟩
abbrev cc3_stg5_0 : Ref sig .tc := ⟨.vmem, 47, rfl⟩
abbrev cc3_stg6_0 : Ref sig .tc := ⟨.vmem, 48, rfl⟩
abbrev cc3_stg7_0 : Ref sig .tc := ⟨.vmem, 49, rfl⟩
abbrev cc3_stg8_0 : Ref sig .tc := ⟨.vmem, 50, rfl⟩
abbrev cc3_stg9_0 : Ref sig .tc := ⟨.vmem, 51, rfl⟩
abbrev cc3_stg10_0 : Ref sig .tc := ⟨.vmem, 52, rfl⟩
abbrev cc3_stg10_1 : Ref sig .tc := ⟨.vmem, 53, rfl⟩
abbrev cc3_stg11_0 : Ref sig .tc := ⟨.vmem, 54, rfl⟩
abbrev cc3_stg11_1 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg1_1 : Ref sig .tc := ⟨.vmem, 59, rfl⟩
abbrev cc4_stg2_0 : Ref sig .tc := ⟨.vmem, 60, rfl⟩
abbrev cc4_scratch0 : Ref sig .tc := ⟨.vmem, 61, rfl⟩
abbrev cc5_stg0_0 : Ref sig .tc := ⟨.vmem, 62, rfl⟩
abbrev cc5_stg0_1 : Ref sig .tc := ⟨.vmem, 63, rfl⟩
abbrev cc5_stg1_0 : Ref sig .tc := ⟨.vmem, 64, rfl⟩
abbrev cc5_stg1_1 : Ref sig .tc := ⟨.vmem, 65, rfl⟩
abbrev cc5_stg2_0 : Ref sig .tc := ⟨.vmem, 66, rfl⟩
abbrev cc5_scratch0 : Ref sig .tc := ⟨.vmem, 67, rfl⟩
abbrev cc6_stg0_0 : Ref sig .tc := ⟨.vmem, 68, rfl⟩
abbrev cc6_stg0_1 : Ref sig .tc := ⟨.vmem, 69, rfl⟩
abbrev cc6_stg1_0 : Ref sig .tc := ⟨.vmem, 70, rfl⟩
abbrev cc6_stg1_1 : Ref sig .tc := ⟨.vmem, 71, rfl⟩
abbrev cc6_stg2_0 : Ref sig .tc := ⟨.vmem, 72, rfl⟩
abbrev cc6_scratch0 : Ref sig .tc := ⟨.vmem, 73, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21
abbrev cc1_sem11_0 : DmaSem sig := 22
abbrev cc1_sem11_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem10_0 : DmaSem sig := 36
abbrev cc2_sem10_1 : DmaSem sig := 37
abbrev cc2_sem11_0 : DmaSem sig := 38
abbrev cc2_sem11_1 : DmaSem sig := 39
abbrev cc3_sem0_0 : DmaSem sig := 40
abbrev cc3_sem0_1 : DmaSem sig := 41
abbrev cc3_sem1_0 : DmaSem sig := 42
abbrev cc3_sem1_1 : DmaSem sig := 43
abbrev cc3_sem2_0 : DmaSem sig := 44
abbrev cc3_sem3_0 : DmaSem sig := 45
abbrev cc3_sem4_0 : DmaSem sig := 46
abbrev cc3_sem5_0 : DmaSem sig := 47
abbrev cc3_sem6_0 : DmaSem sig := 48
abbrev cc3_sem7_0 : DmaSem sig := 49
abbrev cc3_sem8_0 : DmaSem sig := 50
abbrev cc3_sem9_0 : DmaSem sig := 51
abbrev cc3_sem10_0 : DmaSem sig := 52
abbrev cc3_sem10_1 : DmaSem sig := 53
abbrev cc3_sem11_0 : DmaSem sig := 54
abbrev cc3_sem11_1 : DmaSem sig := 55
abbrev cc4_sem0_0 : DmaSem sig := 56
abbrev cc4_sem0_1 : DmaSem sig := 57
abbrev cc4_sem1_0 : DmaSem sig := 58
abbrev cc4_sem1_1 : DmaSem sig := 59
abbrev cc4_sem2_0 : DmaSem sig := 60
abbrev cc5_sem0_0 : DmaSem sig := 61
abbrev cc5_sem0_1 : DmaSem sig := 62
abbrev cc5_sem1_0 : DmaSem sig := 63
abbrev cc5_sem1_1 : DmaSem sig := 64
abbrev cc5_sem2_0 : DmaSem sig := 65
abbrev cc6_sem0_0 : DmaSem sig := 66
abbrev cc6_sem0_1 : DmaSem sig := 67
abbrev cc6_sem1_0 : DmaSem sig := 68
abbrev cc6_sem1_1 : DmaSem sig := 69
abbrev cc6_sem2_0 : DmaSem sig := 70

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S4000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S4000x128 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S4000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S4000x128 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S4000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S4000x128 .bf16 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_8 : BitVec 32 := 0#32
  let v22 : BitVec 1 := Scalar.cmpi .ne v21 c0_i32_8
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![20], ![false]⟩

def k5_cond2 (i : grid5.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_8 : BitVec 32 := 0#32
  let v22 : BitVec 1 := Scalar.cmpi .ne v21 c0_i32_8
  v22

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x1 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev grid6 : Pipeline.Grid := ⟨1, ![20], ![false]⟩

def k6_cond2 (i : grid6.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_8 : BitVec 32 := 0#32
  let v22 : BitVec 1 := Scalar.cmpi .ne v21 c0_i32_8
  v22

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x1 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S100000 : S_.BroadcastsInDim S100000 (![] : Fin 0 → Fin S100000.rank)
  bcast_S_S64 : S_.BroadcastsInDim S64 (![] : Fin 0 → Fin S64.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  shapeCasts_S100000_S100000x1 : S100000.ShapeCasts S100000x1
  shapeCasts_S64x128_S64x128 : S64x128.ShapeCasts S64x128
  iota_S5000x64_d1_w32 : S5000x64.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  natLt_1_32 : 1 < 32
  shapeCasts_S5000x128_S5000x128 : S5000x128.ShapeCasts S5000x128
  bcast_S64x1_S64x128_0_1 : S64x1.BroadcastsInDim S64x128 (![0, 1] : Fin 2 → Fin S64x128.rank)
  concatenates_S64x128_S64x128_S64x128_S64x384_d1 : Shape.Concatenates [S64x128, S64x128, S64x128] S64x384 1
  bcast_S384_S1x384_1 : S384.BroadcastsInDim S1x384 (![1] : Fin 1 → Fin S1x384.rank)
  bcast_S1x384_S64x384_0_1 : S1x384.BroadcastsInDim S64x384 (![0, 1] : Fin 2 → Fin S64x384.rank)
  bcast_S_S64x384 : S_.BroadcastsInDim S64x384 (![] : Fin 0 → Fin S64x384.rank)
  bcast_S7_S1x7_1 : S7.BroadcastsInDim S1x7 (![1] : Fin 1 → Fin S1x7.rank)
  bcast_S1x7_S64x7_0_1 : S1x7.BroadcastsInDim S64x7 (![0, 1] : Fin 2 → Fin S64x7.rank)
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  scatter_S64_S100000x1_S100000_n_0_0_1_wf : ScatterDims.WF S64 S100000x1 S100000 [] [0] [0] 1
  dot_S5000x64_S5000x128_S64x128_0_0_1_1_n_n_wf : DotDims.WF S5000x64 S5000x128 S64x128 [0] [0] [1] [1] [] []
  dot_S64x384_S384x384_S64x384_1_0_0_1_n_n_wf : DotDims.WF S64x384 S384x384 S64x384 [1] [0] [0] [1] [] []
  dot_S64x384_S384x7_S64x7_1_0_0_1_n_n_wf : DotDims.WF S64x384 S384x7 S64x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .bf16 = 32 ∨ (Rect.block (s := S100000x128) S5000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4000x128.size a ≤ S100000x128.size a
  hwx1_10 : ∀ i : grid1.Coords, EltTy.bits .f32 = 32 ∨ (Rect.block (s := S100000x128) S4000x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S4000x128.size a ≤ S100000x128.size a
  hwx1_11 : ∀ i : grid1.Coords, EltTy.bits .bf16 = 32 ∨ (Rect.block (s := S100000x128) S4000x128.size (cc1_transform_11 i) (hinb1_11 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S4000x128.size a ≤ S100000x128.size a
  hwx2_10 : ∀ i : grid2.Coords, EltTy.bits .f32 = 32 ∨ (Rect.block (s := S100000x128) S4000x128.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S4000x128.size a ≤ S100000x128.size a
  hwx2_11 : ∀ i : grid2.Coords, EltTy.bits .bf16 = 32 ∨ (Rect.block (s := S100000x128) S4000x128.size (cc2_transform_11 i) (hinb2_11 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .f32 = 32 ∨ (Rect.block (s := S128x128) S128x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S4000x128.size a ≤ S100000x128.size a
  hwx3_10 : ∀ i : grid3.Coords, EltTy.bits .f32 = 32 ∨ (Rect.block (s := S100000x128) S4000x128.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S4000x128.size a ≤ S100000x128.size a
  hwx3_11 : ∀ i : grid3.Coords, EltTy.bits .bf16 = 32 ∨ (Rect.block (s := S100000x128) S4000x128.size (cc3_transform_11 i) (hinb3_11 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x1.size a ≤ S100000x1.size a
  hwx4_0 : ∀ i : grid4.Coords, EltTy.bits .i32 = 32 ∨ (Rect.block (s := S100000x1) S5000x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x1.size a ≤ S100000x1.size a
  hwx5_0 : ∀ i : grid5.Coords, EltTy.bits .i32 = 32 ∨ (Rect.block (s := S100000x1) S5000x1.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x128.size a ≤ S64x128.size a
  hwx5_2 : ∀ i : grid5.Coords, EltTy.bits .f32 = 32 ∨ (Rect.block (s := S64x128) S64x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x1.size a ≤ S100000x1.size a
  hwx6_0 : ∀ i : grid6.Coords, EltTy.bits .i32 = 32 ∨ (Rect.block (s := S100000x1) S5000x1.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x128.size a ≤ S64x128.size a
  hwx6_2 : ∀ i : grid6.Coords, EltTy.bits .f32 = 32 ∨ (Rect.block (s := S64x128) S64x128.size (cc6_transform_2 i) (hinb6_2 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S64x384_S384x384_S64x384_1_0_0_1_n_n : DotDims S64x384 S384x384 S64x384 where
  lhsContracting := [1]
  rhsContracting := [0]
  lhsNonContracting := [0]
  rhsNonContracting := [1]
  lhsBatch := []
  rhsBatch := []
  wf := dot_S64x384_S384x384_S64x384_1_0_0_1_n_n_wf
def dot_S64x384_S384x7_S64x7_1_0_0_1_n_n : DotDims S64x384 S384x7 S64x7 where
  lhsContracting := [1]
  rhsContracting := [0]
  lhsNonContracting := [0]
  rhsNonContracting := [1]
  lhsBatch := []
  rhsBatch := []
  wf := dot_S64x384_S384x7_S64x7_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v38) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v39_0) S4000x128.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v39_1) S4000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v39_0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v70) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v71) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v64) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v72) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v73_0) S4000x128.size cc2_transform_10 reads2_10 true false 2 stage2_10 sem2_10
    hrank2 hreads2_10 hinb2_10 nbuf2_10 (Memref.isWhole_whole _) hwx2_10 hstage2_10

abbrev win2_11 : Pipeline.Window sig grid2 :=
  Pipeline.Window.ofSpec (Memref.whole main_v73_1) S4000x128.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev win3_0 : Pipeline.Window sig grid3 :=
  Pipeline.Window.ofSpec (Memref.whole main_v73_0) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v84) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v86) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v101) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v102) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v103) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v104) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v105) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v98) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v106) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v107_0) S4000x128.size cc3_transform_10 reads3_10 true false 2 stage3_10 sem3_10
    hrank3 hreads3_10 hinb3_10 nbuf3_10 (Memref.isWhole_whole _) hwx3_10 hstage3_10

abbrev win3_11 : Pipeline.Window sig grid3 :=
  Pipeline.Window.ofSpec (Memref.whole main_v107_1) S4000x128.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

abbrev win4_0 : Pipeline.Window sig grid4 :=
  Pipeline.Window.ofSpec (Memref.whole main_v115) S5000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v39_0) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v116) S64x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v119) S5000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73_0) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v120) S64x128.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v123) S5000x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v107_0) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v124) S64x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

class Facts : Prop extends Facts₀ where

variable [Facts]
-- ==== ReferenceIdeal.lean ====
abbrev S100000x64 : Shape := ⟨2, ![100000, 64]⟩
abbrev S100000x3 : Shape := ⟨2, ![100000, 3]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S384x384 : Shape := ⟨2, ![384, 384]⟩
abbrev S384 : Shape := ⟨1, ![384]⟩
abbrev S384x7 : Shape := ⟨2, ![384, 7]⟩
abbrev S7 : Shape := ⟨1, ![7]⟩
abbrev S1x1600000 : Shape := ⟨2, ![1, 1600000]⟩
abbrev S1600000 : Shape := ⟨1, ![1600000]⟩
abbrev S100000x128 : Shape := ⟨2, ![100000, 128]⟩
abbrev S1x128 : Shape := ⟨2, ![1, 128]⟩
abbrev S1x128x128 : Shape := ⟨3, ![1, 128, 128]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩
abbrev S64 : Shape := ⟨1, ![64]⟩
abbrev S100000x1 : Shape := ⟨2, ![100000, 1]⟩
abbrev S64x1 : Shape := ⟨2, ![64, 1]⟩
abbrev S64x384 : Shape := ⟨2, ![64, 384]⟩
abbrev S1x384 : Shape := ⟨2, ![1, 384]⟩
abbrev S64x7 : Shape := ⟨2, ![64, 7]⟩
abbrev S1x7 : Shape := ⟨2, ![1, 7]⟩

abbrev nBuf : Space → Nat
  | .hbm => 246
  | .vmem => 0
  | .smem => 0
  | _ => 0

abbrev hbmTy0_0 (i : Nat) : BufTy := match i % 128 with
  | 0 => ⟨S100000x64, .f32⟩
  | 1 => ⟨S100000x3, .f32⟩
  | 2 => ⟨S2x1600000, .i32⟩
  | 3 => ⟨S100000, .i32⟩
  | 4 => ⟨S64x128, .f32⟩
  | 5 => ⟨S128, .f32⟩
  | 6 => ⟨S3x128x128, .f32⟩
  | 7 => ⟨S3x128, .f32⟩
  | 8 => ⟨S3x128, .f32⟩
  | 9 => ⟨S3x128, .f32⟩
  | 10 => ⟨S3x128, .f32⟩
  | 11 => ⟨S3x128, .f32⟩
  | 12 => ⟨S3x128x128, .f32⟩
  | 13 => ⟨S3x128, .f32⟩
  | 14 => ⟨S384x384, .f32⟩
  | 15 => ⟨S384, .f32⟩
  | 16 => ⟨S384x7, .f32⟩
  | 17 => ⟨S7, .f32⟩
  | 18 => ⟨S1x1600000, .i32⟩
  | 19 => ⟨S1600000, .i32⟩
  | 20 => ⟨S1x1600000, .i32⟩
  | 21 => ⟨S1600000, .i32⟩
  | 22 => ⟨S100000x128, .f32⟩
  | 23 => ⟨S1x128, .f32⟩
  | 24 => ⟨S100000x128, .f32⟩
  | 25 => ⟨S100000x128, .f32⟩
  | 26 => ⟨S1x128x128, .f32⟩
  | 27 => ⟨S128x128, .f32⟩
  | 28 => ⟨S1x128, .f32⟩
  | 29 => ⟨S128, .f32⟩
  | 30 => ⟨S1x128, .f32⟩
  | 31 => ⟨S128, .f32⟩
  | 32 => ⟨S1x128, .f32⟩
  | 33 => ⟨S128, .f32⟩
  | 34 => ⟨S1x128, .f32⟩
  | 35 => ⟨S128, .f32⟩
  | 36 => ⟨S1x128, .f32⟩
  | 37 => ⟨S128, .f32⟩
  | 38 => ⟨S1x128x128, .f32⟩
  | 39 => ⟨S128x128, .f32⟩
  | 40 => ⟨S1x128, .f32⟩
  | 41 => ⟨S128, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x128, .f32⟩
  | 51 => ⟨S_, .f32⟩
  | 52 => ⟨S100000x128, .f32⟩
  | 53 => ⟨S1600000x1, .i32⟩
  | 54 => ⟨S100000x128, .f32⟩
  | 55 => ⟨S100000x128, .f32⟩
  | 56 => ⟨S100000x128, .f32⟩
  | 57 => ⟨S1x128, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S_, .f32⟩
  | 64 => ⟨S128, .f32⟩
  | 65 => ⟨S128, .f32⟩
  | 66 => ⟨S128, .f32⟩
  | 67 => ⟨S1x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S1x128x128, .f32⟩
  | 87 => ⟨S128x128, .f32⟩
  | 88 => ⟨S1x128, .f32⟩
  | 89 => ⟨S128, .f32⟩
  | 90 => ⟨S1x128, .f32⟩
  | 91 => ⟨S128, .f32⟩
  | 92 => ⟨S1x128, .f32⟩
  | 93 => ⟨S128, .f32⟩
  | 94 => ⟨S1x128, .f32⟩
  | 95 => ⟨S128, .f32⟩
  | 96 => ⟨S1x128, .f32⟩
  | 97 => ⟨S128, .f32⟩
  | 98 => ⟨S1x128x128, .f32⟩
  | 99 => ⟨S128x128, .f32⟩
  | 100 => ⟨S1x128, .f32⟩
  | 101 => ⟨S128, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x128, .f32⟩
  | 111 => ⟨S_, .f32⟩
  | 112 => ⟨S100000x128, .f32⟩
  | 113 => ⟨S1600000x1, .i32⟩
  | 114 => ⟨S100000x128, .f32⟩
  | 115 => ⟨S100000x128, .f32⟩
  | 116 => ⟨S100000x128, .f32⟩
  | 117 => ⟨S1x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S128, .f32⟩
  | 125 => ⟨S128, .f32⟩
  | 126 => ⟨S128, .f32⟩
  | 127 => ⟨S1x128, .f32⟩
  | _ => ⟨S100000x64, .f32⟩

abbrev hbmTy0_1 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | 5 => ⟨S1x128, .f32⟩
  | 6 => ⟨S100000x128, .f32⟩
  | 7 => ⟨S100000x128, .f32⟩
  | 8 => ⟨S_, .f32⟩
  | 9 => ⟨S100000x128, .f32⟩
  | 10 => ⟨S100000x128, .f32⟩
  | 11 => ⟨S100000x128, .f32⟩
  | 12 => ⟨S1x128, .f32⟩
  | 13 => ⟨S100000x128, .f32⟩
  | 14 => ⟨S100000x128, .f32⟩
  | 15 => ⟨S_, .f32⟩
  | 16 => ⟨S100000x128, .f32⟩
  | 17 => ⟨S100000x128, .f32⟩
  | 18 => ⟨S1x128x128, .f32⟩
  | 19 => ⟨S128x128, .f32⟩
  | 20 => ⟨S1x128, .f32⟩
  | 21 => ⟨S128, .f32⟩
  | 22 => ⟨S1x128, .f32⟩
  | 23 => ⟨S128, .f32⟩
  | 24 => ⟨S1x128, .f32⟩
  | 25 => ⟨S128, .f32⟩
  | 26 => ⟨S1x128, .f32⟩
  | 27 => ⟨S128, .f32⟩
  | 28 => ⟨S1x128, .f32⟩
  | 29 => ⟨S128, .f32⟩
  | 30 => ⟨S1x128x128, .f32⟩
  | 31 => ⟨S128x128, .f32⟩
  | 32 => ⟨S1x128, .f32⟩
  | 33 => ⟨S128, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x128, .f32⟩
  | 43 => ⟨S_, .f32⟩
  | 44 => ⟨S100000x128, .f32⟩
  | 45 => ⟨S1600000x1, .i32⟩
  | 46 => ⟨S100000x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S128, .f32⟩
  | 57 => ⟨S128, .f32⟩
  | 58 => ⟨S128, .f32⟩
  | 59 => ⟨S1x128, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S_, .f32⟩
  | 79 => ⟨S100000, .f32⟩
  | 80 => ⟨S_, .f32⟩
  | 81 => ⟨S64, .f32⟩
  | 82 => ⟨S100000x1, .i32⟩
  | 83 => ⟨S64, .f32⟩
  | 84 => ⟨S_, .f32⟩
  | 85 => ⟨S64, .f32⟩
  | 86 => ⟨S64, .f32⟩
  | 87 => ⟨S64x1, .f32⟩
  | 88 => ⟨S_, .f32⟩
  | 89 => ⟨S64x128, .f32⟩
  | 90 => ⟨S100000x1, .i32⟩
  | 91 => ⟨S64x128, .f32⟩
  | 92 => ⟨S64x128, .f32⟩
  | 93 => ⟨S64x128, .f32⟩
  | 94 => ⟨S_, .f32⟩
  | 95 => ⟨S64x128, .f32⟩
  | 96 => ⟨S100000x1, .i32⟩
  | 97 => ⟨S64x128, .f32⟩
  | 98 => ⟨S64x128, .f32⟩
  | 99 => ⟨S64x128, .f32⟩
  | 100 => ⟨S_, .f32⟩
  | 101 => ⟨S64x128, .f32⟩
  | 102 => ⟨S100000x1, .i32⟩
  | 103 => ⟨S64x128, .f32⟩
  | 104 => ⟨S64x128, .f32⟩
  | 105 => ⟨S64x128, .f32⟩
  | 106 => ⟨S64x384, .f32⟩
  | 107 => ⟨S64x384, .f32⟩
  | 108 => ⟨S1x384, .f32⟩
  | 109 => ⟨S64x384, .f32⟩
  | 110 => ⟨S64x384, .f32⟩
  | 111 => ⟨S_, .f32⟩
  | 112 => ⟨S64x384, .f32⟩
  | 113 => ⟨S64x384, .f32⟩
  | 114 => ⟨S64x7, .f32⟩
  | 115 => ⟨S1x7, .f32⟩
  | 116 => ⟨S64x7, .f32⟩
  | 117 => ⟨S64x7, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c : Ref sig .tc := ⟨.hbm, 42, rfl⟩
abbrev main_v24 : Ref sig .tc := ⟨.hbm, 43, rfl⟩
abbrev main_v25 : Ref sig .tc := ⟨.hbm, 44, rfl⟩
abbrev main_c_0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_1 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call0_cst : Ref sig .tc := ⟨.hbm, 76, rfl⟩
abbrev main_call0_v0 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_2 : Ref sig .tc := ⟨.hbm, 102, rfl⟩
abbrev main_v76 : Ref sig .tc := ⟨.hbm, 103, rfl⟩
abbrev main_v77 : Ref sig .tc := ⟨.hbm, 104, rfl⟩
abbrev main_c_3 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_4 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_5 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_call2_cst : Ref sig .tc := ⟨.hbm, 136, rfl⟩
abbrev main_call2_v0 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_call3_cst : Ref sig .tc := ⟨.hbm, 143, rfl⟩
abbrev main_call3_v0 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_c_6 : Ref sig .tc := ⟨.hbm, 162, rfl⟩
abbrev main_v128 : Ref sig .tc := ⟨.hbm, 163, rfl⟩
abbrev main_v129 : Ref sig .tc := ⟨.hbm, 164, rfl⟩
abbrev main_c_7 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_cst_8 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_cst_9 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_call4_cst : Ref sig .tc := ⟨.hbm, 196, rfl⟩
abbrev main_call4_v0 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_call5_cst : Ref sig .tc := ⟨.hbm, 203, rfl⟩
abbrev main_call5_v0 : Ref sig .tc := ⟨.hbm, 204, rfl⟩
abbrev main_v163 : Ref sig .tc := ⟨.hbm, 205, rfl⟩
abbrev main_cst_10 : Ref sig .tc := ⟨.hbm, 206, rfl⟩
abbrev main_v164 : Ref sig .tc := ⟨.hbm, 207, rfl⟩
abbrev main_cst_11 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_cst_12 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_cst_13 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_cst_14 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_cst_15 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_call6_cst : Ref sig .tc := ⟨.hbm, 239, rfl⟩
abbrev main_call6_v0 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S100000 : S_.BroadcastsInDim S100000 (![] : Fin 0 → Fin S100000.rank)
  bcast_S_S64 : S_.BroadcastsInDim S64 (![] : Fin 0 → Fin S64.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  bcast_S_S64x128 : S_.BroadcastsInDim S64x128 (![] : Fin 0 → Fin S64x128.rank)
  bcast_S64x1_S64x128_0_1 : S64x1.BroadcastsInDim S64x128 (![0, 1] : Fin 2 → Fin S64x128.rank)
  concatenates_S64x128_S64x128_S64x128_S64x384_d1 : Shape.Concatenates [S64x128, S64x128, S64x128] S64x384 1
  bcast_S384_S1x384_1 : S384.BroadcastsInDim S1x384 (![1] : Fin 1 → Fin S1x384.rank)
  bcast_S1x384_S64x384_0_1 : S1x384.BroadcastsInDim S64x384 (![0, 1] : Fin 2 → Fin S64x384.rank)
  bcast_S_S64x384 : S_.BroadcastsInDim S64x384 (![] : Fin 0 → Fin S64x384.rank)
  bcast_S7_S1x7_1 : S7.BroadcastsInDim S1x7 (![1] : Fin 1 → Fin S1x7.rank)
  bcast_S1x7_S64x7_0_1 : S1x7.BroadcastsInDim S64x7 (![0, 1] : Fin 2 → Fin S64x7.rank)
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x384_S384x384_S64x384_1_0_0_1_n_n_wf : DotDims.WF S64x384 S384x384 S64x384 [1] [0] [0] [1] [] []
  dot_S64x384_S384x7_S64x7_1_0_0_1_n_n_wf : DotDims.WF S64x384 S384x7 S64x7 [1] [0] [0] [1] [] []

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x384_S384x384_S64x384_1_0_0_1_n_n : DotDims S64x384 S384x384 S64x384 where
  lhsContracting := [1]
  rhsContracting := [0]
  lhsNonContracting := [0]
  rhsNonContracting := [1]
  lhsBatch := []
  rhsBatch := []
  wf := dot_S64x384_S384x384_S64x384_1_0_0_1_n_n_wf
def dot_S64x384_S384x7_S64x7_1_0_0_1_n_n : DotDims S64x384 S384x7 S64x7 where
  lhsContracting := [1]
  rhsContracting := [0]
  lhsNonContracting := [0]
  rhsNonContracting := [1]
  lhsBatch := []
  rhsBatch := []
  wf := dot_S64x384_S384x7_S64x7_1_0_0_1_n_n_wf

class Facts : Prop extends Facts₀ where

variable [Facts]
-- ==== Proof.K.Reg0.lean ====
import proofs.«405256_j52991306498534_2_alg».proof.Proof.Gen.Kernel.Launch
import proofs.«405256_j52991306498534_2_alg».proof.Proof.Gen.Kernel.Skeleton
import proofs.«405256_j52991306498534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S5000x64 := Rect.unit (s := S5000x64) ![0, 0] S5000x64.size inb_S5000x64_S5000x64_0_0
abbrev rW0 : Rect S64x128 := Rect.unit (s := S64x128) ![0, 0] S64x128.size inb_S64x128_S64x128_0_0
abbrev rB0 : Rect S1x128 := Rect.unit (s := S1x128) ![0, 0] S1x128.size inb_S1x128_S1x128_0_0
abbrev rO0 : Rect S5000x128 := Rect.unit (s := S5000x128) ![0, 0] S5000x128.size inb_S5000x128_S5000x128_0_0

def out0_3 (x0 : Vec F S5000x64 .f32) (x1 : Vec F S64x128 .f32) (x2 : Vec F S1x128 .f32) : Vec F S5000x128 .f32 :=
  View.canon [⟨rO0, k0_pay1 (View.ld x0 rX0) (View.ld x1 rW0) (View.ld x2 rB0)⟩]
def out0_4 (x0 : Vec F S5000x64 .f32) (x1 : Vec F S64x128 .f32) (x2 : Vec F S1x128 .f32) : Vec F S5000x128 .bf16 :=
  View.canon [⟨rO0, k0_pay2 (View.ld x0 rX0) (View.ld x1 rW0) (View.ld x2 rB0)⟩]

theorem cover0_3 (p0 : Vec F S5000x128 .f32) (y : S5000x128.Idx) :
    ∃ pc ∈ ([⟨rO0, p0⟩] : List (View.Piece (Elt F) S5000x128 .f32)), y ∈ pc.1.set :=
  View.cover_of_tiled [⟨rO0, p0⟩] S5000x128.size (by rfl) y
theorem cover0_4 (p0 : Vec F S5000x128 .bf16) (y : S5000x128.Idx) :
    ∃ pc ∈ ([⟨rO0, p0⟩] : List (View.Piece (Elt F) S5000x128 .bf16)), y ∈ pc.1.set :=
  View.cover_of_tiled [⟨rO0, p0⟩] S5000x128.size (by rfl) y

-- Each output is written once, over its whole block, so it reads back as the stated function of the three inputs.
set_option maxHeartbeats 1000000 in
theorem sound_kernel0 (c : Dev nD) (E : Set ℕ) {i : grid0.Coords}
    {arg1 : Memref sig .tc .vmem S5000x64 .f32} {harg1 : arg1.IsWhole} {arg2 : Memref sig .tc .vmem S64x128 .f32} {harg2 : arg2.IsWhole}
    {arg3 : Memref sig .tc .vmem S1x128 .f32} {harg3 : arg3.IsWhole} {arg4 : Memref sig .tc .vmem S5000x128 .f32} {harg4 : arg4.IsWhole}
    {arg5 : Memref sig .tc .vmem S5000x128 .bf16} {harg5 : arg5.IsWhole}
    (x0 : Vec F S5000x64 .f32) (x1 : Vec F S64x128 .f32) (x2 : Vec F S1x128 .f32)
    {d3 : Vec F S5000x128 .f32} {d4 : Vec F S5000x128 .bf16} {K : PUnit → sProp 𝕄} :
    iprop(owns c arg1 fullShare x0 ∗ owns c arg2 fullShare x1 ∗ owns c arg3 fullShare x2 ∗ owns c arg4 fullShare d3 ∗ owns c arg5 fullShare d4
        ∗ (iprop(owns c arg4 fullShare (out0_3 x0 x1 x2) ∗ owns c arg5 fullShare (out0_4 x0 x1 x2)
            ∗ owns c arg1 fullShare x0 ∗ owns c arg2 fullShare x1 ∗ owns c arg3 fullShare x2) -∗ K ⟨⟩))
      ⊢ wp frame (wpE (defs₀ (F := F)) Variants.none c none) E (cc0__embed_kernel i arg1 harg1 arg2 harg2 arg3 harg3 arg4 harg4 arg5 harg5) K := by
  simp only [cc0__embed_kernel_eq_skeleton]; unfold cc0__embed_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec
  sl_step
  iapply Hk
  isplitl [H3]
  · iexists _; isplitr; swap; · iexact H3
    ipureintro; exact View.read_writes_eq_canon _ _ _ (cover0_3 _)
  isplitl [H4]
  · iexists _; isplitr; swap; · iexact H4
    ipureintro; exact View.read_writes_eq_canon _ _ _ (cover0_4 _)
  isplitl [H0]
  · iexists f0; isplitr; · ipureintro; rfl
    iexact H0
  isplitl [H1]
  · iexists f1; isplitr; · ipureintro; rfl
    iexact H1
  iexists f2; isplitr; · ipureintro; rfl
  iexact H2

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns c (st0_0 t) fullShare ((dat0 V c).before 0 t d))
    ∗ (∃ d, owns c (st0_1 t) fullShare ((dat0 V c).before 1 t d))
    ∗ (∃ d, owns c (st0_2 t) fullShare ((dat0 V c).before 2 t d))
    ∗ (∃ d, owns c (st0_3 t) fullShare ((dat0 V c).before 3 t d))
    ∗ (∃ d, owns c (st0_4 t) fullShare ((dat0 V c).before 4 t d)))

def bodyPost0 (c : Dev nD) (t : Fin cfg0.N) : sProp 𝕄 :=
  iprop((dat0 V c).Φ t.succ ∗ (dat0 V c).owesAt () t.succ
    ∗ owns c (st0_0 t) fullShare ((dat0 V c).after 0 t)
    ∗ owns c (st0_1 t) fullShare ((dat0 V c).after 1 t)
    ∗ owns c (st0_2 t) fullShare ((dat0 V c).after 2 t)
    ∗ owns c (st0_3 t) fullShare ((dat0 V c).after 3 t)
    ∗ owns c (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (iblk0 V c 0 t) (iblk0 V c 1 t) (iblk0 V c 2 t))
  iframe H0 H1 H2 H3 H4
  iintro ⟨H3, H4, H0, H1, H2⟩
  iframe

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«405256_j52991306498534_2_alg».proof.Proof.Gen.Kernel.Launch
import proofs.«405256_j52991306498534_2_alg».proof.Proof.Gen.Kernel.Skeleton
import proofs.«405256_j52991306498534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rc1_X : Rect S4000x128 := Rect.unit (s := S4000x128) ![0, 0] S4000x128.size inb_S4000x128_S4000x128_0_0
abbrev rc1_W : Rect S128x128 := Rect.unit (s := S128x128) ![0, 0] S128x128.size inb_S128x128_S128x128_0_0
abbrev rc1_B : Rect S1x128 := Rect.unit (s := S1x128) ![0, 0] S1x128.size inb_S1x128_S1x128_0_0

def out1_10 (x0 x1 : Vec F S4000x128 .f32) (x2 : Vec F S128x128 .f32) (x3 x4 x5 x6 x7 : Vec F S1x128 .f32) (x8 : Vec F S128x128 .f32) (x9 : Vec F S1x128 .f32) : Vec F S4000x128 .f32 :=
  View.canon [⟨rc1_X, k1_pay1 (k1_pay3 (View.ld x0 rc1_X) (View.ld x1 rc1_X) (View.ld x2 rc1_W) (View.ld x3 rc1_B) (View.ld x6 rc1_B) (View.ld x7 rc1_B) (View.ld x4 rc1_B) (View.ld x5 rc1_B)) (k1_pay4 (View.ld x8 rc1_W)) (View.ld x9 rc1_B)⟩]
def out1_11 (x0 x1 : Vec F S4000x128 .f32) (x2 : Vec F S128x128 .f32) (x3 x4 x5 x6 x7 : Vec F S1x128 .f32) (x8 : Vec F S128x128 .f32) (x9 : Vec F S1x128 .f32) : Vec F S4000x128 .bf16 :=
  View.canon [⟨rc1_X, k1_pay2 (k1_pay3 (View.ld x0 rc1_X) (View.ld x1 rc1_X) (View.ld x2 rc1_W) (View.ld x3 rc1_B) (View.ld x6 rc1_B) (View.ld x7 rc1_B) (View.ld x4 rc1_B) (View.ld x5 rc1_B)) (k1_pay4 (View.ld x8 rc1_W)) (View.ld x9 rc1_B)⟩]

set_option maxHeartbeats 4000000 in
theorem sound_kernel1 (c : Dev nD) (E : Set ℕ) {i : grid1.Coords}
    {arg1 arg2 arg11 : Memref sig .tc .vmem S4000x128 .f32} {arg12 : Memref sig .tc .vmem S4000x128 .bf16}
    {arg3 arg9 : Memref sig .tc .vmem S128x128 .f32} {arg4 arg5 arg6 arg7 arg8 arg10 : Memref sig .tc .vmem S1x128 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole}
    (x0 x1 : Vec F S4000x128 .f32) (x2 : Vec F S128x128 .f32) (x3 x4 x5 x6 x7 : Vec F S1x128 .f32) (x8 : Vec F S128x128 .f32) (x9 : Vec F S1x128 .f32)
    (d10 : Vec F S4000x128 .f32) (d11 : Vec F S4000x128 .bf16) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare d10 ∗ owns c arg12 fullShare d11
        ∗ ((owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9) ∗ owns c arg11 fullShare (out1_10 x0 x1 x2 x3 x4 x5 x6 x7 x8 x9) ∗ owns c arg12 fullShare (out1_11 x0 x1 x2 x3 x4 x5 x6 x7 x8 x9) -∗ K ⟨⟩))
      ⊢ wp frame (wpE (defs₀ (F := F)) Variants.none c none) E (cc1__gin_mlp_kernel i arg1 harg1 arg2 harg2 arg3 harg3 arg4 harg4 arg5 harg5 arg6 harg6 arg7 harg7 arg8 harg8 arg9 harg9 arg10 harg10 arg11 harg11 arg12 harg12) K := by
  simp only [cc1__gin_mlp_kernel_eq_skeleton]; unfold cc1__gin_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, -, H10⟩, ⟨%f11, -, H11⟩, Hk⟩
  subst_vars
  sl_exec
  sl_step
  iapply Hk
  isplitr [H10 H11]; · sl_close
  isplitl [H10] <;> (iexists _; isplitr; swap; iassumption; ipureintro; exact View.read_writes_eq_canon _ _ _ (View.cover_of_tiled _ S4000x128.size (by rfl)))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

theorem before1 (c : Dev nD) (t : Fin cfg1.N) (w : Fin cfg1.W) (hw : w.val < 10) :
    ∀ d, (dat1 V c).before w t d = (dat1 V c).fetched w t d := by
  fin_cases w <;> first
    | exact absurd hw (by decide)
    | exact (dat1 V c).before_in_eq_fetched _ rfl (fun _ => rfl) (fun _ _ _ => rfl) (fun _ => rfl) t

theorem body_obligation1 (c : Dev nD) : BodyObligation (dat1 (F := F) V c) (defs₀ (F := F)) Variants.none () Set.univ := fun t => by
  rw [bigSep_W1, bigSep_W1]
  show _ ⊢ wp _ _ _ (bodyAt1 t) _
  unfold bodyAt1
  simp (config := {decide := true}) only [before1 V c t]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨⟨H0, H1, H2, H3, H4, H5, H6, H7, H8, H9⟩, H10, H11⟩
  isplitl [HΦ]; · iexact HΦ
  isplitl [Ho]; · iexact Ho
  iframe

end Cert.Kernel.Hand

end
-- ==== Proof.K.Reg2.lean ====
import proofs.«405256_j52991306498534_2_alg».proof.Proof.Gen.Kernel.Launch
import proofs.«405256_j52991306498534_2_alg».proof.Proof.Gen.Kernel.Skeleton
import proofs.«405256_j52991306498534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rc2_X : Rect S4000x128 := Rect.unit (s := S4000x128) ![0, 0] S4000x128.size inb_S4000x128_S4000x128_0_0
abbrev rc2_W : Rect S128x128 := Rect.unit (s := S128x128) ![0, 0] S128x128.size inb_S128x128_S128x128_0_0
abbrev rc2_B : Rect S1x128 := Rect.unit (s := S1x128) ![0, 0] S1x128.size inb_S1x128_S1x128_0_0

def out2_10 (x0 x1 : Vec F S4000x128 .f32) (x2 : Vec F S128x128 .f32) (x3 x4 x5 x6 x7 : Vec F S1x128 .f32) (x8 : Vec F S128x128 .f32) (x9 : Vec F S1x128 .f32) : Vec F S4000x128 .f32 :=
  View.canon [⟨rc2_X, k2_pay1 (k2_pay3 (View.ld x0 rc2_X) (View.ld x1 rc2_X) (View.ld x2 rc2_W) (View.ld x3 rc2_B) (View.ld x6 rc2_B) (View.ld x7 rc2_B) (View.ld x4 rc2_B) (View.ld x5 rc2_B)) (k2_pay4 (View.ld x8 rc2_W)) (View.ld x9 rc2_B)⟩]
def out2_11 (x0 x1 : Vec F S4000x128 .f32) (x2 : Vec F S128x128 .f32) (x3 x4 x5 x6 x7 : Vec F S1x128 .f32) (x8 : Vec F S128x128 .f32) (x9 : Vec F S1x128 .f32) : Vec F S4000x128 .bf16 :=
  View.canon [⟨rc2_X, k2_pay2 (k2_pay3 (View.ld x0 rc2_X) (View.ld x1 rc2_X) (View.ld x2 rc2_W) (View.ld x3 rc2_B) (View.ld x6 rc2_B) (View.ld x7 rc2_B) (View.ld x4 rc2_B) (View.ld x5 rc2_B)) (k2_pay4 (View.ld x8 rc2_W)) (View.ld x9 rc2_B)⟩]

set_option maxHeartbeats 4000000 in
theorem sound_kernel2 (c : Dev nD) (E : Set ℕ) {i : grid2.Coords}
    {arg1 arg2 arg11 : Memref sig .tc .vmem S4000x128 .f32} {arg12 : Memref sig .tc .vmem S4000x128 .bf16}
    {arg3 arg9 : Memref sig .tc .vmem S128x128 .f32} {arg4 arg5 arg6 arg7 arg8 arg10 : Memref sig .tc .vmem S1x128 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole}
    (x0 x1 : Vec F S4000x128 .f32) (x2 : Vec F S128x128 .f32) (x3 x4 x5 x6 x7 : Vec F S1x128 .f32) (x8 : Vec F S128x128 .f32) (x9 : Vec F S1x128 .f32)
    (d10 : Vec F S4000x128 .f32) (d11 : Vec F S4000x128 .bf16) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare d10 ∗ owns c arg12 fullShare d11
        ∗ ((owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9) ∗ owns c arg11 fullShare (out2_10 x0 x1 x2 x3 x4 x5 x6 x7 x8 x9) ∗ owns c arg12 fullShare (out2_11 x0 x1 x2 x3 x4 x5 x6 x7 x8 x9) -∗ K ⟨⟩))
      ⊢ wp frame (wpE (defs₀ (F := F)) Variants.none c none) E (cc2__gin_mlp_kernel i arg1 harg1 arg2 harg2 arg3 harg3 arg4 harg4 arg5 harg5 arg6 harg6 arg7 harg7 arg8 harg8 arg9 harg9 arg10 harg10 arg11 harg11 arg12 harg12) K := by
  simp only [cc2__gin_mlp_kernel_eq_skeleton]; unfold cc2__gin_mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, -, H10⟩, ⟨%f11, -, H11⟩, Hk⟩
  subst_vars
  sl_exec
  sl_step
  iapply Hk
  isplitr [H10 H11]; · sl_close
  isplitl [H10] <;> (iexists _; isplitr; swap; iassumption; ipureintro; exact View.read_writes_eq_canon _ _ _ (View.cover_of_tiled _ S4000x128.size (by rfl)))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
    | ⟨11, _⟩ => out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]
theorem after2_11 (c : Dev nD) (t : Fin cfg2.N) : (dat2 V c).after 11 t = out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

theorem before2 (c : Dev nD) (t : Fin cfg2.N) (w : Fin cfg2.W) (hw : w.val < 10) :
    ∀ d, (dat2 V c).before w t d = (dat2 V c).fetched w t d := by
  fin_cases w <;> first
    | exact absurd hw (by decide)
    | exact (dat2 V c).before_in_eq_fetched _ rfl (fun _ => rfl) (fun _ _ _ => rfl) (fun _ => rfl) t

theorem body_obligation2 (c : Dev nD) : BodyObligation (dat2 (F := F) V c) (defs₀ (F := F)) Variants.none () Set.univ := fun t => by
  rw [bigSep_W2, bigSep_W2]
  show _ ⊢ wp _ _ _ (bodyAt2 t) _
  unfold bodyAt2
  simp (config := {decide := true}) only [before2 V c t]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel2 c Set.univ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨⟨H0, H1, H2, H3, H4, H5, H6, H7, H8, H9⟩, H10, H11⟩
  isplitl [HΦ]; · iexact HΦ
  isplitl [Ho]; · iexact Ho
  iframe

end Cert.Kernel.Hand

end
-- ==== Proof.K.Reg3.lean ====
import proofs.«405256_j52991306498534_2_alg».proof.Proof.Gen.Kernel.Launch
import proofs.«405256_j52991306498534_2_alg».proof.Proof.Gen.Kernel.Skeleton
import proofs.«405256_j52991306498534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rc3_X : Rect S4000x128 := Rect.unit (s := S4000x128) ![0, 0] S4000x128.size inb_S4000x128_S4000x128_0_0
abbrev rc3_W : Rect S128x128 := Rect.unit (s := S128x128) ![0, 0] S128x128.size inb_S128x128_S128x128_0_0
abbrev rc3_B : Rect S1x128 := Rect.unit (s := S1x128) ![0, 0] S1x128.size inb_S1x128_S1x128_0_0

def out3_10 (x0 x1 : Vec F S4000x128 .f32) (x2 : Vec F S128x128 .f32) (x3 x4 x5 x6 x7 : Vec F S1x128 .f32) (x8 : Vec F S128x128 .f32) (x9 : Vec F S1x128 .f32) : Vec F S4000x128 .f32 :=
  View.canon [⟨rc3_X, k3_pay1 (k3_pay3 (View.ld x0 rc3_X) (View.ld x1 rc3_X) (View.ld x2 rc3_W) (View.ld x3 rc3_B) (View.ld x6 rc3_B) (View.ld x7 rc3_B) (View.ld x4 rc3_B) (View.ld x5 rc3_B)) (k3_pay4 (View.ld x8 rc3_W)) (View.ld x9 rc3_B)⟩]
def out3_11 (x0 x1 : Vec F S4000x128 .f32) (x2 : Vec F S128x128 .f32) (x3 x4 x5 x6 x7 : Vec F S1x128 .f32) (x8 : Vec F S128x128 .f32) (x9 : Vec F S1x128 .f32) : Vec F S4000x128 .bf16 :=
  View.canon [⟨rc3_X, k3_pay2 (k3_pay3 (View.ld x0 rc3_X) (View.ld x1 rc3_X) (View.ld x2 rc3_W) (View.ld x3 rc3_B) (View.ld x6 rc3_B) (View.ld x7 rc3_B) (View.ld x4 rc3_B) (View.ld x5 rc3_B)) (k3_pay4 (View.ld x8 rc3_W)) (View.ld x9 rc3_B)⟩]

set_option maxHeartbeats 4000000 in
theorem sound_kernel3 (c : Dev nD) (E : Set ℕ) {i : grid3.Coords}
    {arg1 arg2 arg11 : Memref sig .tc .vmem S4000x128 .f32} {arg12 : Memref sig .tc .vmem S4000x128 .bf16}
    {arg3 arg9 : Memref sig .tc .vmem S128x128 .f32} {arg4 arg5 arg6 arg7 arg8 arg10 : Memref sig .tc .vmem S1x128 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole}
    (x0 x1 : Vec F S4000x128 .f32) (x2 : Vec F S128x128 .f32) (x3 x4 x5 x6 x7 : Vec F S1x128 .f32) (x8 : Vec F S128x128 .f32) (x9 : Vec F S1x128 .f32)
    (d10 : Vec F S4000x128 .f32) (d11 : Vec F S4000x128 .bf16) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare d10 ∗ owns c arg12 fullShare d11
        ∗ ((owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9) ∗ owns c arg11 fullShare (out3_10 x0 x1 x2 x3 x4 x5 x6 x7 x8 x9) ∗ owns c arg12 fullShare (out3_11 x0 x1 x2 x3 x4 x5 x6 x7 x8 x9) -∗ K ⟨⟩))
      ⊢ wp frame (wpE (defs₀ (F := F)) Variants.none c none) E (cc3__gin_mlp_kernel i arg1 harg1 arg2 harg2 arg3 harg3 arg4 harg4 arg5 harg5 arg6 harg6 arg7 harg7 arg8 harg8 arg9 harg9 arg10 harg10 arg11 harg11 arg12 harg12) K := by
  simp only [cc3__gin_mlp_kernel_eq_skeleton]; unfold cc3__gin_mlp_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, -, H10⟩, ⟨%f11, -, H11⟩, Hk⟩
  subst_vars
  sl_exec
  sl_step
  iapply Hk
  isplitr [H10 H11]; · sl_close
  isplitl [H10] <;> (iexists _; isplitr; swap; iassumption; ipureintro; exact View.read_writes_eq_canon _ _ _ (View.cover_of_tiled _ S4000x128.size (by rfl)))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)
    | ⟨11, _⟩ => out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_10 (c : Dev nD) (t : Fin cfg3.N) : (dat3 V c).after 10 t = out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) := by dsimp only [dat3]
theorem after3_11 (c : Dev nD) (t : Fin cfg3.N) : (dat3 V c).after 11 t = out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) := by dsimp only [dat3]

theorem before3 (c : Dev nD) (t : Fin cfg3.N) (w : Fin cfg3.W) (hw : w.val < 10) :
    ∀ d, (dat3 V c).before w t d = (dat3 V c).fetched w t d := by
  fin_cases w <;> first
    | exact absurd hw (by decide)
    | exact (dat3 V c).before_in_eq_fetched _ rfl (fun _ => rfl) (fun _ _ _ => rfl) (fun _ => rfl) t

theorem body_obligation3 (c : Dev nD) : BodyObligation (dat3 (F := F) V c) (defs₀ (F := F)) Variants.none () Set.univ := fun t => by
  rw [bigSep_W3, bigSep_W3]
  show _ ⊢ wp _ _ _ (bodyAt3 t) _
  unfold bodyAt3
  simp (config := {decide := true}) only [before3 V c t]
  dsimp only [dat3]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 c Set.univ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨⟨H0, H1, H2, H3, H4, H5, H6, H7, H8, H9⟩, H10, H11⟩
  isplitl [HΦ]; · iexact HΦ
  isplitl [Ho]; · iexact Ho
  iframe

end Cert.Kernel.Hand

end
-- ==== Proof.K.Reg4.lean ====
import proofs.«405256_j52991306498534_2_alg».proof.Proof.Gen.Kernel.Launch
import proofs.«405256_j52991306498534_2_alg».proof.Proof.Gen.Kernel.Skeleton
import proofs.«405256_j52991306498534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem off4_zero : (![0, 0] : Fin 2 → Nat) = fun _ => 0 := funext fun a => by fin_cases a <;> rfl

abbrev rect4_acc : Rect S64x128 := Rect.unit (s := S64x128) ![0, 0] S64x128.size inb_S64x128_S64x128_0_0

abbrev cond4_1 (i : grid4.Coords) : Prop := (Scalar.cmpi .ne (Scalar.extui (Scalar.cmpi .eq (BitVec.ofNat 32 (i 0).val) 0#32)) 0#32) = 1#1
abbrev cond4_2 (i : grid4.Coords) : Prop := k4_cond2 i = 1#1

theorem cover4_cons (p0 : Vec F S64x128 .f32) (L : List (View.Piece (Elt F) S64x128 .f32)) (y : S64x128.Idx) :
    ∃ pc ∈ ((⟨rect4_acc, p0⟩ : View.Piece (Elt F) S64x128 .f32) :: L), y ∈ pc.1.set :=
  ⟨_, List.mem_cons.mpr (Or.inl rfl), View.mem_set_unit_zero off4_zero inb_S64x128_S64x128_0_0 y⟩

-- The first point: the sum starts from zero.
set_option maxHeartbeats 1000000 in
theorem sound_kernel4_A (c : Dev nD) (E : Set ℕ) {i : grid4.Coords}
    {arg1 : Memref sig .tc .vmem S5000x1 .i32} {harg1 : arg1.IsWhole} {arg2 : Memref sig .tc .vmem S5000x128 .f32} {harg2 : arg2.IsWhole}
    {arg3 argS : Memref sig .tc .vmem S64x128 .f32} {harg3 : arg3.IsWhole} {hargS : argS.IsWhole}
    (x0 : Vec F S5000x1 .i32) (x1 : Vec F S5000x128 .f32) {xi xs : Vec F S64x128 .f32} {K : PUnit → sProp 𝕄}
    (hc0 : cond4_1 i) (hc1 : ¬cond4_2 i) :
    iprop(owns c arg1 fullShare x0 ∗ owns c arg2 fullShare x1 ∗ owns c arg3 fullShare xi ∗ owns c argS fullShare xs
        ∗ (iprop(owns c argS fullShare (k4_pay2 x0 x1 k4_pay1) ∗ owns c arg1 fullShare x0 ∗ owns c arg2 fullShare x1 ∗ owns c arg3 fullShare xi) -∗ K ⟨⟩))
      ⊢ wp frame (wpE (defs₀ (F := F)) Variants.none c none) E (cc4__pool_kernel i arg1 harg1 arg2 harg2 arg3 harg3 argS hargS) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H3]
  · iexists _; isplitr; swap; · iexact H3
    ipureintro
    rw [View.read_writes_eq_canon _ _ _ (cover4_cons _ _), View.canon_cons_unit_zero off4_zero]
    sl_unfold_words
    rw [View.readCov_unit_zero (S := S64x128) _ off4_zero]
    simp only [View.readAt_eq_ld, View.ld_unit_zero (S := S5000x1) off4_zero, View.ld_unit_zero (S := S5000x128) off4_zero]
  isplitl [H0]
  · iexists f0; isplitr; · ipureintro; rfl
    iexact H0
  isplitl [H1]
  · iexists f1; isplitr; · ipureintro; rfl
    iexact H1
  iexists f2; isplitr; · ipureintro; rfl
  iexact H2

-- A point between: the block's product is added to the sum so far.
set_option maxHeartbeats 1000000 in
theorem sound_kernel4_B (c : Dev nD) (E : Set ℕ) {i : grid4.Coords}
    {arg1 : Memref sig .tc .vmem S5000x1 .i32} {harg1 : arg1.IsWhole} {arg2 : Memref sig .tc .vmem S5000x128 .f32} {harg2 : arg2.IsWhole}
    {arg3 argS : Memref sig .tc .vmem S64x128 .f32} {harg3 : arg3.IsWhole} {hargS : argS.IsWhole}
    (x0 : Vec F S5000x1 .i32) (x1 : Vec F S5000x128 .f32) {xi xs : Vec F S64x128 .f32} {K : PUnit → sProp 𝕄}
    (hc0 : ¬cond4_1 i) (hc1 : ¬cond4_2 i) :
    iprop(owns c arg1 fullShare x0 ∗ owns c arg2 fullShare x1 ∗ owns c arg3 fullShare xi ∗ owns c argS fullShare xs
        ∗ (iprop(owns c argS fullShare (k4_pay2 x0 x1 xs) ∗ owns c arg1 fullShare x0 ∗ owns c arg2 fullShare x1 ∗ owns c arg3 fullShare xi) -∗ K ⟨⟩))
      ⊢ wp frame (wpE (defs₀ (F := F)) Variants.none c none) E (cc4__pool_kernel i arg1 harg1 arg2 harg2 arg3 harg3 argS hargS) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H3]
  · iexists _; isplitr; swap; · iexact H3
    ipureintro
    rw [View.read_writes_eq_canon _ _ _ (cover4_cons _ _), View.canon_unit_zero off4_zero]
    simp only [View.readAt_eq_ld, View.ld_unit_zero (S := S5000x1) off4_zero, View.ld_unit_zero (S := S5000x128) off4_zero, View.ld_unit_zero (S := S64x128) off4_zero]
  isplitl [H0]
  · iexists f0; isplitr; · ipureintro; rfl
    iexact H0
  isplitl [H1]
  · iexists f1; isplitr; · ipureintro; rfl
    iexact H1
  iexists f2; isplitr; · ipureintro; rfl
  iexact H2

-- The last point: the new sum is also what the output block receives.
set_option maxHeartbeats 1000000 in
theorem sound_kernel4_C (c : Dev nD) (E : Set ℕ) {i : grid4.Coords}
    {arg1 : Memref sig .tc .vmem S5000x1 .i32} {harg1 : arg1.IsWhole} {arg2 : Memref sig .tc .vmem S5000x128 .f32} {harg2 : arg2.IsWhole}
    {arg3 argS : Memref sig .tc .vmem S64x128 .f32} {harg3 : arg3.IsWhole} {hargS : argS.IsWhole}
    (x0 : Vec F S5000x1 .i32) (x1 : Vec F S5000x128 .f32) {xi xs : Vec F S64x128 .f32} {K : PUnit → sProp 𝕄}
    (hc0 : ¬cond4_1 i) (hc1 : cond4_2 i) :
    iprop(owns c arg1 fullShare x0 ∗ owns c arg2 fullShare x1 ∗ owns c arg3 fullShare xi ∗ owns c argS fullShare xs
        ∗ (iprop(owns c arg3 fullShare (k4_pay2 x0 x1 xs) ∗ owns c argS fullShare (k4_pay2 x0 x1 xs) ∗ owns c arg1 fullShare x0 ∗ owns c arg2 fullShare x1) -∗ K ⟨⟩))
      ⊢ wp frame (wpE (defs₀ (F := F)) Variants.none c none) E (cc4__pool_kernel i arg1 harg1 arg2 harg2 arg3 harg3 argS hargS) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H2]
  · iexists _; isplitr; swap; · iexact H2
    ipureintro
    rw [View.read_writes_eq_canon _ _ _ (cover4_cons _ _), View.canon_unit_zero off4_zero]
    sl_unfold_words
    rw [View.readCov_unit_zero (S := S64x128) _ off4_zero]
    simp only [View.readAt_eq_ld, View.ld_unit_zero (S := S5000x1) off4_zero, View.ld_unit_zero (S := S5000x128) off4_zero, View.ld_unit_zero (S := S64x128) off4_zero]
  isplitl [H3]
  · iexists _; isplitr; swap; · iexact H3
    ipureintro
    sl_unfold_words
    rw [View.read_writes_eq_canon _ _ _ (cover4_cons _ _), View.canon_unit_zero off4_zero]
    simp only [View.readAt_eq_ld, View.ld_unit_zero (S := S5000x1) off4_zero, View.ld_unit_zero (S := S5000x128) off4_zero, View.ld_unit_zero (S := S64x128) off4_zero]
  isplitl [H0]
  · iexists f0; isplitr; · ipureintro; rfl
    iexact H0
  iexists f1; isplitr; · ipureintro; rfl
  iexact H1

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem hcond4_1 : ∀ t : Fin cfg4.N, cond4_1 (grid4.coords t) ↔ t.val = 0 :=
  (by decide +kernel : ∀ t : Fin grid4.N, cond4_1 (grid4.coords t) ↔ t.val = 0)
theorem hcond4_2 : ∀ t : Fin cfg4.N, cond4_2 (grid4.coords t) ↔ t.val = 19 :=
  (by decide +kernel : ∀ t : Fin grid4.N, cond4_2 (grid4.coords t) ↔ t.val = 19)

theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2 : ∀ t : Fin cfg4.N, t.val ≠ 19 → cfg4.idle 2 (grid4.coords t) = true := by decide +kernel
theorem noFlush4_2 : ∀ t : Fin cfg4.N, t.val ≠ 19 → (cfg4.win 2).flush t = false := by decide +kernel
theorem liveAt4_2 : ∀ t : Fin cfg4.N, t.val = 19 → cfg4.idle 2 (grid4.coords t) = false := by decide +kernel

abbrev scr4_mem : Memref sig .tc .vmem S64x128 .f32 := Memref.whole cc4_scratch0

def acc4 (c : Dev nD) : (n : ℕ) → n < cfg4.N → Vec F S64x128 .f32
  | 0, h => k4_pay2 (iblk4 V c 0 ⟨0, h⟩) (iblk4 V c 1 ⟨0, h⟩) k4_pay1
  | n + 1, h => k4_pay2 (iblk4 V c 0 ⟨n + 1, h⟩) (iblk4 V c 1 ⟨n + 1, h⟩) (acc4 c n (Nat.lt_of_succ_lt h))

theorem acc4_zero (c : Dev nD) (h : 0 < cfg4.N) :
    acc4 V c 0 h = k4_pay2 (iblk4 V c 0 ⟨0, h⟩) (iblk4 V c 1 ⟨0, h⟩) k4_pay1 := rfl
theorem acc4_succ (c : Dev nD) (n : ℕ) (h : n + 1 < cfg4.N) :
    acc4 V c (n + 1) h = k4_pay2 (iblk4 V c 0 ⟨n + 1, h⟩) (iblk4 V c 1 ⟨n + 1, h⟩) (acc4 V c n (Nat.lt_of_succ_lt h)) := rfl

theorem acc4_first (c : Dev nD) (t : Fin cfg4.N) (h0 : t.val = 0) :
    acc4 V c t.val t.isLt = k4_pay2 (iblk4 V c 0 t) (iblk4 V c 1 t) k4_pay1 := by
  obtain ⟨n, hn⟩ := t
  cases n with
  | zero => rfl
  | succ n => exact absurd h0 (Nat.succ_ne_zero n)
theorem acc4_pos (c : Dev nD) (t : Fin cfg4.N) (h0 : t.val ≠ 0) :
    acc4 V c t.val t.isLt = k4_pay2 (iblk4 V c 0 t) (iblk4 V c 1 t) (acc4 V c (t.val - 1) (Nat.lt_of_le_of_lt (Nat.sub_le _ _) t.isLt)) := by
  obtain ⟨n, hn⟩ := t
  cases n with
  | zero => exact absurd rfl h0
  | succ n => rfl

theorem PhiA4_eq (c : Dev nD) :
    (Pipeline.ΦA spec4 c : sProp 𝕄)
      = iprop(iprop((∃ d, owns c scr4_mem fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scr4_mem, owns_whole]; try rfl

def Phi4 (c : Dev nD) : (n : ℕ) → n ≤ cfg4.N → sProp 𝕄
  | 0, _ => Pipeline.ΦA spec4 c
  | n + 1, hn => iprop(iprop(owns c scr4_mem fullShare (acc4 V c n hn) ∗ Pipeline.scopedRestBut (Ix := Unit) (Name := ℕ) (U := UR sig nD τ) (Lvl := ℕ) (Val := Elt F) spec4 c [cc4_scratch0]) ∗ (∃ r, prngReg c r))

theorem Phi4_zero (c : Dev nD) (n : ℕ) (h : n ≤ cfg4.N) (hz : n = 0) : Phi4 V c n h = Pipeline.ΦA spec4 c := by
  subst hz; rfl
theorem Phi4_succ (c : Dev nD) (n : ℕ) (hn : n < cfg4.N) :
    Phi4 V c (n + 1) hn = iprop(iprop(owns c scr4_mem fullShare (acc4 V c n hn) ∗ Pipeline.scopedRestBut (Ix := Unit) (Name := ℕ) (U := UR sig nD τ) (Lvl := ℕ) (Val := Elt F) spec4 c [cc4_scratch0]) ∗ (∃ r, prngReg c r)) := rfl
theorem Phi4_pos (c : Dev nD) (n : ℕ) (h : n ≤ cfg4.N) (hz : n ≠ 0) :
    Phi4 V c n h = iprop(iprop(owns c scr4_mem fullShare (acc4 V c (n - 1) (by omega)) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4 V c t.val t.isLt := by dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem Phi4_first (c : Dev nD) : (dat4 V c).Φ 0 = Pipeline.ΦA spec4 c := rfl

theorem Phi4_last (c : Dev nD) : (dat4 V c).Φ (Fin.last cfg4.N) ⊢ Pipeline.ΦA spec4 c := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 20 := N_4; omega), PhiA4_eq]
  iintro ⟨⟨HS, Hr⟩, Hg⟩
  iframe
  iexists _; iexact HS

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d

def bodyPre4 (c : Dev nD) (t : Fin cfg4.N) : sProp 𝕄 :=
  iprop((dat4 V c).Φ t.castSucc ∗ (dat4 V c).owesAt () t.castSucc
    ∗ (∃ d, owns c (st4_0 t) fullShare ((dat4 V c).before 0 t d))
    ∗ (∃ d, owns c (st4_1 t) fullShare ((dat4 V c).before 1 t d))
    ∗ (∃ d, owns c (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

-- By cases on the point: the first, the last, or one between.
set_option maxHeartbeats 2000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl,
    show (dat4 V c).Φ t.succ = Phi4 V c (t.val + 1) t.isLt from rfl, Phi4_succ, Phi4_castSucc V c t,
    show (dat4 V c).leavesExact 0 t = owns c (st4_0 t) fullShare ((dat4 V c).after 0 t) from by unfold Dat.leavesExact; rw [liveAt4_0 t],
    show (dat4 V c).leavesExact 1 t = owns c (st4_1 t) fullShare ((dat4 V c).after 1 t) from by unfold Dat.leavesExact; rw [liveAt4_1 t],
    after4_0, after4_1]
  have hN : t.val < 20 := lt_of_lt_of_eq t.isLt N_4
  by_cases h0 : t.val = 0
  · rw [Dat.leavesExact_idle _ 2 t (idleAt4_2 t (by omega)) (noFlush4_2 t (by omega)), Phi4_zero V c _ _ h0, PhiA4_eq, acc4_first V c t h0]
    iintro ⟨⟨⟨⟨%ds, HS⟩, Hr⟩, Hg⟩, Ho, ⟨%d0, H0⟩, ⟨%d1, H1⟩, ⟨%d2, H2⟩⟩
    iapply (sound_kernel4_A c Set.univ (iblk4 V c 0 t) (iblk4 V c 1 t) ((hcond4_1 t).mpr h0) fun h => by have := (hcond4_2 t).mp h; omega)
    iframe H0 H1 H2 HS
    iintro ⟨HS, H0, H1, H2⟩
    iframe
    iexists _; iexact H2
  · have hc0 : ¬cond4_1 (grid4.coords t) := fun h => h0 ((hcond4_1 t).mp h)
    rw [Phi4_pos V c _ _ h0, acc4_pos V c t h0]
    by_cases h1 : t.val = 19
    · rw [show (dat4 V c).leavesExact 2 t = owns c (st4_2 t) fullShare ((dat4 V c).after 2 t) from by unfold Dat.leavesExact; rw [liveAt4_2 t h1],
        after4_2, acc4_pos V c t h0]
      iintro ⟨⟨⟨HS, Hr⟩, Hg⟩, Ho, ⟨%d0, H0⟩, ⟨%d1, H1⟩, ⟨%d2, H2⟩⟩
      iapply (sound_kernel4_C c Set.univ (iblk4 V c 0 t) (iblk4 V c 1 t) hc0 ((hcond4_2 t).mpr h1))
      iframe H0 H1 H2 HS
      iintro ⟨H2, HS, H0, H1⟩
      iframe
    · rw [Dat.leavesExact_idle _ 2 t (idleAt4_2 t h1) (noFlush4_2 t h1)]
      iintro ⟨⟨⟨HS, Hr⟩, Hg⟩, Ho, ⟨%d0, H0⟩, ⟨%d1, H1⟩, ⟨%d2, H2⟩⟩
      iapply (sound_kernel4_B c Set.univ (iblk4 V c 0 t) (iblk4 V c 1 t) hc0 fun h => h1 ((hcond4_2 t).mp h))
      iframe H0 H1 H2 HS
      iintro ⟨HS, H0, H1, H2⟩
      iframe
      iexists _; iexact H2

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Reg5.lean ====
import proofs.«405256_j52991306498534_2_alg».proof.Proof.Gen.Kernel.Launch
import proofs.«405256_j52991306498534_2_alg».proof.Proof.Gen.Kernel.Skeleton
import proofs.«405256_j52991306498534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem off5_zero : (![0, 0] : Fin 2 → Nat) = fun _ => 0 := funext fun a => by fin_cases a <;> rfl

abbrev rect5_acc : Rect S64x128 := Rect.unit (s := S64x128) ![0, 0] S64x128.size inb_S64x128_S64x128_0_0

abbrev cond5_1 (i : grid5.Coords) : Prop := (Scalar.cmpi .ne (Scalar.extui (Scalar.cmpi .eq (BitVec.ofNat 32 (i 0).val) 0#32)) 0#32) = 1#1
abbrev cond5_2 (i : grid5.Coords) : Prop := k5_cond2 i = 1#1

theorem cover5_cons (p0 : Vec F S64x128 .f32) (L : List (View.Piece (Elt F) S64x128 .f32)) (y : S64x128.Idx) :
    ∃ pc ∈ ((⟨rect5_acc, p0⟩ : View.Piece (Elt F) S64x128 .f32) :: L), y ∈ pc.1.set :=
  ⟨_, List.mem_cons.mpr (Or.inl rfl), View.mem_set_unit_zero off5_zero inb_S64x128_S64x128_0_0 y⟩

-- The first point: the sum starts from zero.
set_option maxHeartbeats 1000000 in
theorem sound_kernel5_A (c : Dev nD) (E : Set ℕ) {i : grid5.Coords}
    {arg1 : Memref sig .tc .vmem S5000x1 .i32} {harg1 : arg1.IsWhole} {arg2 : Memref sig .tc .vmem S5000x128 .f32} {harg2 : arg2.IsWhole}
    {arg3 argS : Memref sig .tc .vmem S64x128 .f32} {harg3 : arg3.IsWhole} {hargS : argS.IsWhole}
    (x0 : Vec F S5000x1 .i32) (x1 : Vec F S5000x128 .f32) {xi xs : Vec F S64x128 .f32} {K : PUnit → sProp 𝕄}
    (hc0 : cond5_1 i) (hc1 : ¬cond5_2 i) :
    iprop(owns c arg1 fullShare x0 ∗ owns c arg2 fullShare x1 ∗ owns c arg3 fullShare xi ∗ owns c argS fullShare xs
        ∗ (iprop(owns c argS fullShare (k5_pay2 x0 x1 k5_pay1) ∗ owns c arg1 fullShare x0 ∗ owns c arg2 fullShare x1 ∗ owns c arg3 fullShare xi) -∗ K ⟨⟩))
      ⊢ wp frame (wpE (defs₀ (F := F)) Variants.none c none) E (cc5__pool_kernel i arg1 harg1 arg2 harg2 arg3 harg3 argS hargS) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H3]
  · iexists _; isplitr; swap; · iexact H3
    ipureintro
    rw [View.read_writes_eq_canon _ _ _ (cover5_cons _ _), View.canon_cons_unit_zero off5_zero]
    sl_unfold_words
    rw [View.readCov_unit_zero (S := S64x128) _ off5_zero]
    simp only [View.readAt_eq_ld, View.ld_unit_zero (S := S5000x1) off5_zero, View.ld_unit_zero (S := S5000x128) off5_zero]
  isplitl [H0]
  · iexists f0; isplitr; · ipureintro; rfl
    iexact H0
  isplitl [H1]
  · iexists f1; isplitr; · ipureintro; rfl
    iexact H1
  iexists f2; isplitr; · ipureintro; rfl
  iexact H2

-- A point between: the block's product is added to the sum so far.
set_option maxHeartbeats 1000000 in
theorem sound_kernel5_B (c : Dev nD) (E : Set ℕ) {i : grid5.Coords}
    {arg1 : Memref sig .tc .vmem S5000x1 .i32} {harg1 : arg1.IsWhole} {arg2 : Memref sig .tc .vmem S5000x128 .f32} {harg2 : arg2.IsWhole}
    {arg3 argS : Memref sig .tc .vmem S64x128 .f32} {harg3 : arg3.IsWhole} {hargS : argS.IsWhole}
    (x0 : Vec F S5000x1 .i32) (x1 : Vec F S5000x128 .f32) {xi xs : Vec F S64x128 .f32} {K : PUnit → sProp 𝕄}
    (hc0 : ¬cond5_1 i) (hc1 : ¬cond5_2 i) :
    iprop(owns c arg1 fullShare x0 ∗ owns c arg2 fullShare x1 ∗ owns c arg3 fullShare xi ∗ owns c argS fullShare xs
        ∗ (iprop(owns c argS fullShare (k5_pay2 x0 x1 xs) ∗ owns c arg1 fullShare x0 ∗ owns c arg2 fullShare x1 ∗ owns c arg3 fullShare xi) -∗ K ⟨⟩))
      ⊢ wp frame (wpE (defs₀ (F := F)) Variants.none c none) E (cc5__pool_kernel i arg1 harg1 arg2 harg2 arg3 harg3 argS hargS) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H3]
  · iexists _; isplitr; swap; · iexact H3
    ipureintro
    rw [View.read_writes_eq_canon _ _ _ (cover5_cons _ _), View.canon_unit_zero off5_zero]
    simp only [View.readAt_eq_ld, View.ld_unit_zero (S := S5000x1) off5_zero, View.ld_unit_zero (S := S5000x128) off5_zero, View.ld_unit_zero (S := S64x128) off5_zero]
  isplitl [H0]
  · iexists f0; isplitr; · ipureintro; rfl
    iexact H0
  isplitl [H1]
  · iexists f1; isplitr; · ipureintro; rfl
    iexact H1
  iexists f2; isplitr; · ipureintro; rfl
  iexact H2

-- The last point: the new sum is also what the output block receives.
set_option maxHeartbeats 1000000 in
theorem sound_kernel5_C (c : Dev nD) (E : Set ℕ) {i : grid5.Coords}
    {arg1 : Memref sig .tc .vmem S5000x1 .i32} {harg1 : arg1.IsWhole} {arg2 : Memref sig .tc .vmem S5000x128 .f32} {harg2 : arg2.IsWhole}
    {arg3 argS : Memref sig .tc .vmem S64x128 .f32} {harg3 : arg3.IsWhole} {hargS : argS.IsWhole}
    (x0 : Vec F S5000x1 .i32) (x1 : Vec F S5000x128 .f32) {xi xs : Vec F S64x128 .f32} {K : PUnit → sProp 𝕄}
    (hc0 : ¬cond5_1 i) (hc1 : cond5_2 i) :
    iprop(owns c arg1 fullShare x0 ∗ owns c arg2 fullShare x1 ∗ owns c arg3 fullShare xi ∗ owns c argS fullShare xs
        ∗ (iprop(owns c arg3 fullShare (k5_pay2 x0 x1 xs) ∗ owns c argS fullShare (k5_pay2 x0 x1 xs) ∗ owns c arg1 fullShare x0 ∗ owns c arg2 fullShare x1) -∗ K ⟨⟩))
      ⊢ wp frame (wpE (defs₀ (F := F)) Variants.none c none) E (cc5__pool_kernel i arg1 harg1 arg2 harg2 arg3 harg3 argS hargS) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H2]
  · iexists _; isplitr; swap; · iexact H2
    ipureintro
    rw [View.read_writes_eq_canon _ _ _ (cover5_cons _ _), View.canon_unit_zero off5_zero]
    sl_unfold_words
    rw [View.readCov_unit_zero (S := S64x128) _ off5_zero]
    simp only [View.readAt_eq_ld, View.ld_unit_zero (S := S5000x1) off5_zero, View.ld_unit_zero (S := S5000x128) off5_zero, View.ld_unit_zero (S := S64x128) off5_zero]
  isplitl [H3]
  · iexists _; isplitr; swap; · iexact H3
    ipureintro
    sl_unfold_words
    rw [View.read_writes_eq_canon _ _ _ (cover5_cons _ _), View.canon_unit_zero off5_zero]
    simp only [View.readAt_eq_ld, View.ld_unit_zero (S := S5000x1) off5_zero, View.ld_unit_zero (S := S5000x128) off5_zero, View.ld_unit_zero (S := S64x128) off5_zero]
  isplitl [H0]
  · iexists f0; isplitr; · ipureintro; rfl
    iexact H0
  iexists f1; isplitr; · ipureintro; rfl
  iexact H1

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem hcond5_1 : ∀ t : Fin cfg5.N, cond5_1 (grid5.coords t) ↔ t.val = 0 :=
  (by decide +kernel : ∀ t : Fin grid5.N, cond5_1 (grid5.coords t) ↔ t.val = 0)
theorem hcond5_2 : ∀ t : Fin cfg5.N, cond5_2 (grid5.coords t) ↔ t.val = 19 :=
  (by decide +kernel : ∀ t : Fin grid5.N, cond5_2 (grid5.coords t) ↔ t.val = 19)

theorem liveAt5_0 : ∀ t : Fin cfg5.N, cfg5.idle 0 (grid5.coords t) = false := by decide +kernel
theorem liveAt5_1 : ∀ t : Fin cfg5.N, cfg5.idle 1 (grid5.coords t) = false := by decide +kernel
theorem idleAt5_2 : ∀ t : Fin cfg5.N, t.val ≠ 19 → cfg5.idle 2 (grid5.coords t) = true := by decide +kernel
theorem noFlush5_2 : ∀ t : Fin cfg5.N, t.val ≠ 19 → (cfg5.win 2).flush t = false := by decide +kernel
theorem liveAt5_2 : ∀ t : Fin cfg5.N, t.val = 19 → cfg5.idle 2 (grid5.coords t) = false := by decide +kernel

abbrev scr5_mem : Memref sig .tc .vmem S64x128 .f32 := Memref.whole cc5_scratch0

def acc5 (c : Dev nD) : (n : ℕ) → n < cfg5.N → Vec F S64x128 .f32
  | 0, h => k5_pay2 (iblk5 V c 0 ⟨0, h⟩) (iblk5 V c 1 ⟨0, h⟩) k5_pay1
  | n + 1, h => k5_pay2 (iblk5 V c 0 ⟨n + 1, h⟩) (iblk5 V c 1 ⟨n + 1, h⟩) (acc5 c n (Nat.lt_of_succ_lt h))

theorem acc5_zero (c : Dev nD) (h : 0 < cfg5.N) :
    acc5 V c 0 h = k5_pay2 (iblk5 V c 0 ⟨0, h⟩) (iblk5 V c 1 ⟨0, h⟩) k5_pay1 := rfl
theorem acc5_succ (c : Dev nD) (n : ℕ) (h : n + 1 < cfg5.N) :
    acc5 V c (n + 1) h = k5_pay2 (iblk5 V c 0 ⟨n + 1, h⟩) (iblk5 V c 1 ⟨n + 1, h⟩) (acc5 V c n (Nat.lt_of_succ_lt h)) := rfl

theorem acc5_first (c : Dev nD) (t : Fin cfg5.N) (h0 : t.val = 0) :
    acc5 V c t.val t.isLt = k5_pay2 (iblk5 V c 0 t) (iblk5 V c 1 t) k5_pay1 := by
  obtain ⟨n, hn⟩ := t
  cases n with
  | zero => rfl
  | succ n => exact absurd h0 (Nat.succ_ne_zero n)
theorem acc5_pos (c : Dev nD) (t : Fin cfg5.N) (h0 : t.val ≠ 0) :
    acc5 V c t.val t.isLt = k5_pay2 (iblk5 V c 0 t) (iblk5 V c 1 t) (acc5 V c (t.val - 1) (Nat.lt_of_le_of_lt (Nat.sub_le _ _) t.isLt)) := by
  obtain ⟨n, hn⟩ := t
  cases n with
  | zero => exact absurd rfl h0
  | succ n => rfl

theorem PhiA5_eq (c : Dev nD) :
    (Pipeline.ΦA spec5 c : sProp 𝕄)
      = iprop(iprop((∃ d, owns c scr5_mem fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scr5_mem, owns_whole]; try rfl

def Phi5 (c : Dev nD) : (n : ℕ) → n ≤ cfg5.N → sProp 𝕄
  | 0, _ => Pipeline.ΦA spec5 c
  | n + 1, hn => iprop(iprop(owns c scr5_mem fullShare (acc5 V c n hn) ∗ Pipeline.scopedRestBut (Ix := Unit) (Name := ℕ) (U := UR sig nD τ) (Lvl := ℕ) (Val := Elt F) spec5 c [cc5_scratch0]) ∗ (∃ r, prngReg c r))

theorem Phi5_zero (c : Dev nD) (n : ℕ) (h : n ≤ cfg5.N) (hz : n = 0) : Phi5 V c n h = Pipeline.ΦA spec5 c := by
  subst hz; rfl
theorem Phi5_succ (c : Dev nD) (n : ℕ) (hn : n < cfg5.N) :
    Phi5 V c (n + 1) hn = iprop(iprop(owns c scr5_mem fullShare (acc5 V c n hn) ∗ Pipeline.scopedRestBut (Ix := Unit) (Name := ℕ) (U := UR sig nD τ) (Lvl := ℕ) (Val := Elt F) spec5 c [cc5_scratch0]) ∗ (∃ r, prngReg c r)) := rfl
theorem Phi5_pos (c : Dev nD) (n : ℕ) (h : n ≤ cfg5.N) (hz : n ≠ 0) :
    Phi5 V c n h = iprop(iprop(owns c scr5_mem fullShare (acc5 V c (n - 1) (by omega)) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => acc5 V c t.val t.isLt
  Φ t := Phi5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = acc5 V c t.val t.isLt := by dsimp only [dat5]

theorem Phi5_castSucc (c : Dev nD) (t : Fin cfg5.N) :
    (dat5 V c).Φ t.castSucc = Phi5 V c t.val (Nat.le_of_lt t.isLt) := by
  dsimp only [dat5]; simp only [Fin.coe_castSucc]

theorem Phi5_first (c : Dev nD) : (dat5 V c).Φ 0 = Pipeline.ΦA spec5 c := rfl

theorem Phi5_last (c : Dev nD) : (dat5 V c).Φ (Fin.last cfg5.N) ⊢ Pipeline.ΦA spec5 c := by
  rw [show (dat5 V c).Φ (Fin.last cfg5.N) = Phi5 V c (Fin.last cfg5.N).val (Nat.le_of_lt_succ (Fin.last cfg5.N).isLt) from rfl,
    Phi5_pos V c _ _ (by rw [Fin.val_last]; have : cfg5.N = 20 := N_5; omega), PhiA5_eq]
  iintro ⟨⟨HS, Hr⟩, Hg⟩
  iframe
  iexists _; iexact HS

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d

def bodyPre5 (c : Dev nD) (t : Fin cfg5.N) : sProp 𝕄 :=
  iprop((dat5 V c).Φ t.castSucc ∗ (dat5 V c).owesAt () t.castSucc
    ∗ (∃ d, owns c (st5_0 t) fullShare ((dat5 V c).before 0 t d))
    ∗ (∃ d, owns c (st5_1 t) fullShare ((dat5 V c).before 1 t d))
    ∗ (∃ d, owns c (st5_2 t) fullShare ((dat5 V c).before 2 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

-- By cases on the point: the first, the last, or one between.
set_option maxHeartbeats 2000000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl,
    show (dat5 V c).Φ t.succ = Phi5 V c (t.val + 1) t.isLt from rfl, Phi5_succ, Phi5_castSucc V c t,
    show (dat5 V c).leavesExact 0 t = owns c (st5_0 t) fullShare ((dat5 V c).after 0 t) from by unfold Dat.leavesExact; rw [liveAt5_0 t],
    show (dat5 V c).leavesExact 1 t = owns c (st5_1 t) fullShare ((dat5 V c).after 1 t) from by unfold Dat.leavesExact; rw [liveAt5_1 t],
    after5_0, after5_1]
  have hN : t.val < 20 := lt_of_lt_of_eq t.isLt N_5
  by_cases h0 : t.val = 0
  · rw [Dat.leavesExact_idle _ 2 t (idleAt5_2 t (by omega)) (noFlush5_2 t (by omega)), Phi5_zero V c _ _ h0, PhiA5_eq, acc5_first V c t h0]
    iintro ⟨⟨⟨⟨%ds, HS⟩, Hr⟩, Hg⟩, Ho, ⟨%d0, H0⟩, ⟨%d1, H1⟩, ⟨%d2, H2⟩⟩
    iapply (sound_kernel5_A c Set.univ (iblk5 V c 0 t) (iblk5 V c 1 t) ((hcond5_1 t).mpr h0) fun h => by have := (hcond5_2 t).mp h; omega)
    iframe H0 H1 H2 HS
    iintro ⟨HS, H0, H1, H2⟩
    iframe
    iexists _; iexact H2
  · have hc0 : ¬cond5_1 (grid5.coords t) := fun h => h0 ((hcond5_1 t).mp h)
    rw [Phi5_pos V c _ _ h0, acc5_pos V c t h0]
    by_cases h1 : t.val = 19
    · rw [show (dat5 V c).leavesExact 2 t = owns c (st5_2 t) fullShare ((dat5 V c).after 2 t) from by unfold Dat.leavesExact; rw [liveAt5_2 t h1],
        after5_2, acc5_pos V c t h0]
      iintro ⟨⟨⟨HS, Hr⟩, Hg⟩, Ho, ⟨%d0, H0⟩, ⟨%d1, H1⟩, ⟨%d2, H2⟩⟩
      iapply (sound_kernel5_C c Set.univ (iblk5 V c 0 t) (iblk5 V c 1 t) hc0 ((hcond5_2 t).mpr h1))
      iframe H0 H1 H2 HS
      iintro ⟨H2, HS, H0, H1⟩
      iframe
    · rw [Dat.leavesExact_idle _ 2 t (idleAt5_2 t h1) (noFlush5_2 t h1)]
      iintro ⟨⟨⟨HS, Hr⟩, Hg⟩, Ho, ⟨%d0, H0⟩, ⟨%d1, H1⟩, ⟨%d2, H2⟩⟩
      iapply (sound_kernel5_B c Set.univ (iblk5 V c 0 t) (iblk5 V c 1 t) hc0 fun h => h1 ((hcond5_2 t).mp h))
      iframe H0 H1 H2 HS
      iintro ⟨HS, H0, H1, H2⟩
      iframe
      iexists _; iexact H2

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Reg6.lean ====
import proofs.«405256_j52991306498534_2_alg».proof.Proof.Gen.Kernel.Launch
import proofs.«405256_j52991306498534_2_alg».proof.Proof.Gen.Kernel.Skeleton
import proofs.«405256_j52991306498534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem off6_zero : (![0, 0] : Fin 2 → Nat) = fun _ => 0 := funext fun a => by fin_cases a <;> rfl

abbrev rect6_acc : Rect S64x128 := Rect.unit (s := S64x128) ![0, 0] S64x128.size inb_S64x128_S64x128_0_0

abbrev cond6_1 (i : grid6.Coords) : Prop := (Scalar.cmpi .ne (Scalar.extui (Scalar.cmpi .eq (BitVec.ofNat 32 (i 0).val) 0#32)) 0#32) = 1#1
abbrev cond6_2 (i : grid6.Coords) : Prop := k6_cond2 i = 1#1

theorem cover6_cons (p0 : Vec F S64x128 .f32) (L : List (View.Piece (Elt F) S64x128 .f32)) (y : S64x128.Idx) :
    ∃ pc ∈ ((⟨rect6_acc, p0⟩ : View.Piece (Elt F) S64x128 .f32) :: L), y ∈ pc.1.set :=
  ⟨_, List.mem_cons.mpr (Or.inl rfl), View.mem_set_unit_zero off6_zero inb_S64x128_S64x128_0_0 y⟩

-- The first point: the sum starts from zero.
set_option maxHeartbeats 1000000 in
theorem sound_kernel6_A (c : Dev nD) (E : Set ℕ) {i : grid6.Coords}
    {arg1 : Memref sig .tc .vmem S5000x1 .i32} {harg1 : arg1.IsWhole} {arg2 : Memref sig .tc .vmem S5000x128 .f32} {harg2 : arg2.IsWhole}
    {arg3 argS : Memref sig .tc .vmem S64x128 .f32} {harg3 : arg3.IsWhole} {hargS : argS.IsWhole}
    (x0 : Vec F S5000x1 .i32) (x1 : Vec F S5000x128 .f32) {xi xs : Vec F S64x128 .f32} {K : PUnit → sProp 𝕄}
    (hc0 : cond6_1 i) (hc1 : ¬cond6_2 i) :
    iprop(owns c arg1 fullShare x0 ∗ owns c arg2 fullShare x1 ∗ owns c arg3 fullShare xi ∗ owns c argS fullShare xs
        ∗ (iprop(owns c argS fullShare (k6_pay2 x0 x1 k6_pay1) ∗ owns c arg1 fullShare x0 ∗ owns c arg2 fullShare x1 ∗ owns c arg3 fullShare xi) -∗ K ⟨⟩))
      ⊢ wp frame (wpE (defs₀ (F := F)) Variants.none c none) E (cc6__pool_kernel i arg1 harg1 arg2 harg2 arg3 harg3 argS hargS) K := by
  simp only [cc6__pool_kernel_eq_skeleton]; unfold cc6__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H3]
  · iexists _; isplitr; swap; · iexact H3
    ipureintro
    rw [View.read_writes_eq_canon _ _ _ (cover6_cons _ _), View.canon_cons_unit_zero off6_zero]
    sl_unfold_words
    rw [View.readCov_unit_zero (S := S64x128) _ off6_zero]
    simp only [View.readAt_eq_ld, View.ld_unit_zero (S := S5000x1) off6_zero, View.ld_unit_zero (S := S5000x128) off6_zero]
  isplitl [H0]
  · iexists f0; isplitr; · ipureintro; rfl
    iexact H0
  isplitl [H1]
  · iexists f1; isplitr; · ipureintro; rfl
    iexact H1
  iexists f2; isplitr; · ipureintro; rfl
  iexact H2

-- A point between: the block's product is added to the sum so far.
set_option maxHeartbeats 1000000 in
theorem sound_kernel6_B (c : Dev nD) (E : Set ℕ) {i : grid6.Coords}
    {arg1 : Memref sig .tc .vmem S5000x1 .i32} {harg1 : arg1.IsWhole} {arg2 : Memref sig .tc .vmem S5000x128 .f32} {harg2 : arg2.IsWhole}
    {arg3 argS : Memref sig .tc .vmem S64x128 .f32} {harg3 : arg3.IsWhole} {hargS : argS.IsWhole}
    (x0 : Vec F S5000x1 .i32) (x1 : Vec F S5000x128 .f32) {xi xs : Vec F S64x128 .f32} {K : PUnit → sProp 𝕄}
    (hc0 : ¬cond6_1 i) (hc1 : ¬cond6_2 i) :
    iprop(owns c arg1 fullShare x0 ∗ owns c arg2 fullShare x1 ∗ owns c arg3 fullShare xi ∗ owns c argS fullShare xs
        ∗ (iprop(owns c argS fullShare (k6_pay2 x0 x1 xs) ∗ owns c arg1 fullShare x0 ∗ owns c arg2 fullShare x1 ∗ owns c arg3 fullShare xi) -∗ K ⟨⟩))
      ⊢ wp frame (wpE (defs₀ (F := F)) Variants.none c none) E (cc6__pool_kernel i arg1 harg1 arg2 harg2 arg3 harg3 argS hargS) K := by
  simp only [cc6__pool_kernel_eq_skeleton]; unfold cc6__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H3]
  · iexists _; isplitr; swap; · iexact H3
    ipureintro
    rw [View.read_writes_eq_canon _ _ _ (cover6_cons _ _), View.canon_unit_zero off6_zero]
    simp only [View.readAt_eq_ld, View.ld_unit_zero (S := S5000x1) off6_zero, View.ld_unit_zero (S := S5000x128) off6_zero, View.ld_unit_zero (S := S64x128) off6_zero]
  isplitl [H0]
  · iexists f0; isplitr; · ipureintro; rfl
    iexact H0
  isplitl [H1]
  · iexists f1; isplitr; · ipureintro; rfl
    iexact H1
  iexists f2; isplitr; · ipureintro; rfl
  iexact H2

-- The last point: the new sum is also what the output block receives.
set_option maxHeartbeats 1000000 in
theorem sound_kernel6_C (c : Dev nD) (E : Set ℕ) {i : grid6.Coords}
    {arg1 : Memref sig .tc .vmem S5000x1 .i32} {harg1 : arg1.IsWhole} {arg2 : Memref sig .tc .vmem S5000x128 .f32} {harg2 : arg2.IsWhole}
    {arg3 argS : Memref sig .tc .vmem S64x128 .f32} {harg3 : arg3.IsWhole} {hargS : argS.IsWhole}
    (x0 : Vec F S5000x1 .i32) (x1 : Vec F S5000x128 .f32) {xi xs : Vec F S64x128 .f32} {K : PUnit → sProp 𝕄}
    (hc0 : ¬cond6_1 i) (hc1 : cond6_2 i) :
    iprop(owns c arg1 fullShare x0 ∗ owns c arg2 fullShare x1 ∗ owns c arg3 fullShare xi ∗ owns c argS fullShare xs
        ∗ (iprop(owns c arg3 fullShare (k6_pay2 x0 x1 xs) ∗ owns c argS fullShare (k6_pay2 x0 x1 xs) ∗ owns c arg1 fullShare x0 ∗ owns c arg2 fullShare x1) -∗ K ⟨⟩))
      ⊢ wp frame (wpE (defs₀ (F := F)) Variants.none c none) E (cc6__pool_kernel i arg1 harg1 arg2 harg2 arg3 harg3 argS hargS) K := by
  simp only [cc6__pool_kernel_eq_skeleton]; unfold cc6__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H2]
  · iexists _; isplitr; swap; · iexact H2
    ipureintro
    rw [View.read_writes_eq_canon _ _ _ (cover6_cons _ _), View.canon_unit_zero off6_zero]
    sl_unfold_words
    rw [View.readCov_unit_zero (S := S64x128) _ off6_zero]
    simp only [View.readAt_eq_ld, View.ld_unit_zero (S := S5000x1) off6_zero, View.ld_unit_zero (S := S5000x128) off6_zero, View.ld_unit_zero (S := S64x128) off6_zero]
  isplitl [H3]
  · iexists _; isplitr; swap; · iexact H3
    ipureintro
    sl_unfold_words
    rw [View.read_writes_eq_canon _ _ _ (cover6_cons _ _), View.canon_unit_zero off6_zero]
    simp only [View.readAt_eq_ld, View.ld_unit_zero (S := S5000x1) off6_zero, View.ld_unit_zero (S := S5000x128) off6_zero, View.ld_unit_zero (S := S64x128) off6_zero]
  isplitl [H0]
  · iexists f0; isplitr; · ipureintro; rfl
    iexact H0
  iexists f1; isplitr; · ipureintro; rfl
  iexact H1

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem hcond6_1 : ∀ t : Fin cfg6.N, cond6_1 (grid6.coords t) ↔ t.val = 0 :=
  (by decide +kernel : ∀ t : Fin grid6.N, cond6_1 (grid6.coords t) ↔ t.val = 0)
theorem hcond6_2 : ∀ t : Fin cfg6.N, cond6_2 (grid6.coords t) ↔ t.val = 19 :=
  (by decide +kernel : ∀ t : Fin grid6.N, cond6_2 (grid6.coords t) ↔ t.val = 19)

theorem liveAt6_0 : ∀ t : Fin cfg6.N, cfg6.idle 0 (grid6.coords t) = false := by decide +kernel
theorem liveAt6_1 : ∀ t : Fin cfg6.N, cfg6.idle 1 (grid6.coords t) = false := by decide +kernel
theorem idleAt6_2 : ∀ t : Fin cfg6.N, t.val ≠ 19 → cfg6.idle 2 (grid6.coords t) = true := by decide +kernel
theorem noFlush6_2 : ∀ t : Fin cfg6.N, t.val ≠ 19 → (cfg6.win 2).flush t = false := by decide +kernel
theorem liveAt6_2 : ∀ t : Fin cfg6.N, t.val = 19 → cfg6.idle 2 (grid6.coords t) = false := by decide +kernel

abbrev scr6_mem : Memref sig .tc .vmem S64x128 .f32 := Memref.whole cc6_scratch0

def acc6 (c : Dev nD) : (n : ℕ) → n < cfg6.N → Vec F S64x128 .f32
  | 0, h => k6_pay2 (iblk6 V c 0 ⟨0, h⟩) (iblk6 V c 1 ⟨0, h⟩) k6_pay1
  | n + 1, h => k6_pay2 (iblk6 V c 0 ⟨n + 1, h⟩) (iblk6 V c 1 ⟨n + 1, h⟩) (acc6 c n (Nat.lt_of_succ_lt h))

theorem acc6_zero (c : Dev nD) (h : 0 < cfg6.N) :
    acc6 V c 0 h = k6_pay2 (iblk6 V c 0 ⟨0, h⟩) (iblk6 V c 1 ⟨0, h⟩) k6_pay1 := rfl
theorem acc6_succ (c : Dev nD) (n : ℕ) (h : n + 1 < cfg6.N) :
    acc6 V c (n + 1) h = k6_pay2 (iblk6 V c 0 ⟨n + 1, h⟩) (iblk6 V c 1 ⟨n + 1, h⟩) (acc6 V c n (Nat.lt_of_succ_lt h)) := rfl

theorem acc6_first (c : Dev nD) (t : Fin cfg6.N) (h0 : t.val = 0) :
    acc6 V c t.val t.isLt = k6_pay2 (iblk6 V c 0 t) (iblk6 V c 1 t) k6_pay1 := by
  obtain ⟨n, hn⟩ := t
  cases n with
  | zero => rfl
  | succ n => exact absurd h0 (Nat.succ_ne_zero n)
theorem acc6_pos (c : Dev nD) (t : Fin cfg6.N) (h0 : t.val ≠ 0) :
    acc6 V c t.val t.isLt = k6_pay2 (iblk6 V c 0 t) (iblk6 V c 1 t) (acc6 V c (t.val - 1) (Nat.lt_of_le_of_lt (Nat.sub_le _ _) t.isLt)) := by
  obtain ⟨n, hn⟩ := t
  cases n with
  | zero => exact absurd rfl h0
  | succ n => rfl

theorem PhiA6_eq (c : Dev nD) :
    (Pipeline.ΦA spec6 c : sProp 𝕄)
      = iprop(iprop((∃ d, owns c scr6_mem fullShare d) ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scr6_mem, owns_whole]; try rfl

def Phi6 (c : Dev nD) : (n : ℕ) → n ≤ cfg6.N → sProp 𝕄
  | 0, _ => Pipeline.ΦA spec6 c
  | n + 1, hn => iprop(iprop(owns c scr6_mem fullShare (acc6 V c n hn) ∗ Pipeline.scopedRestBut (Ix := Unit) (Name := ℕ) (U := UR sig nD τ) (Lvl := ℕ) (Val := Elt F) spec6 c [cc6_scratch0]) ∗ (∃ r, prngReg c r))

theorem Phi6_zero (c : Dev nD) (n : ℕ) (h : n ≤ cfg6.N) (hz : n = 0) : Phi6 V c n h = Pipeline.ΦA spec6 c := by
  subst hz; rfl
theorem Phi6_succ (c : Dev nD) (n : ℕ) (hn : n < cfg6.N) :
    Phi6 V c (n + 1) hn = iprop(iprop(owns c scr6_mem fullShare (acc6 V c n hn) ∗ Pipeline.scopedRestBut (Ix := Unit) (Name := ℕ) (U := UR sig nD τ) (Lvl := ℕ) (Val := Elt F) spec6 c [cc6_scratch0]) ∗ (∃ r, prngReg c r)) := rfl
theorem Phi6_pos (c : Dev nD) (n : ℕ) (h : n ≤ cfg6.N) (hz : n ≠ 0) :
    Phi6 V c n h = iprop(iprop(owns c scr6_mem fullShare (acc6 V c (n - 1) (by omega)) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => acc6 V c t.val t.isLt
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = acc6 V c t.val t.isLt := by dsimp only [dat6]

theorem Phi6_castSucc (c : Dev nD) (t : Fin cfg6.N) :
    (dat6 V c).Φ t.castSucc = Phi6 V c t.val (Nat.le_of_lt t.isLt) := by
  dsimp only [dat6]; simp only [Fin.coe_castSucc]

theorem Phi6_first (c : Dev nD) : (dat6 V c).Φ 0 = Pipeline.ΦA spec6 c := rfl

theorem Phi6_last (c : Dev nD) : (dat6 V c).Φ (Fin.last cfg6.N) ⊢ Pipeline.ΦA spec6 c := by
  rw [show (dat6 V c).Φ (Fin.last cfg6.N) = Phi6 V c (Fin.last cfg6.N).val (Nat.le_of_lt_succ (Fin.last cfg6.N).isLt) from rfl,
    Phi6_pos V c _ _ (by rw [Fin.val_last]; have : cfg6.N = 20 := N_6; omega), PhiA6_eq]
  iintro ⟨⟨HS, Hr⟩, Hg⟩
  iframe
  iexists _; iexact HS

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d

def bodyPre6 (c : Dev nD) (t : Fin cfg6.N) : sProp 𝕄 :=
  iprop((dat6 V c).Φ t.castSucc ∗ (dat6 V c).owesAt () t.castSucc
    ∗ (∃ d, owns c (st6_0 t) fullShare ((dat6 V c).before 0 t d))
    ∗ (∃ d, owns c (st6_1 t) fullShare ((dat6 V c).before 1 t d))
    ∗ (∃ d, owns c (st6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

-- By cases on the point: the first, the last, or one between.
set_option maxHeartbeats 2000000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl,
    show (dat6 V c).Φ t.succ = Phi6 V c (t.val + 1) t.isLt from rfl, Phi6_succ, Phi6_castSucc V c t,
    show (dat6 V c).leavesExact 0 t = owns c (st6_0 t) fullShare ((dat6 V c).after 0 t) from by unfold Dat.leavesExact; rw [liveAt6_0 t],
    show (dat6 V c).leavesExact 1 t = owns c (st6_1 t) fullShare ((dat6 V c).after 1 t) from by unfold Dat.leavesExact; rw [liveAt6_1 t],
    after6_0, after6_1]
  have hN : t.val < 20 := lt_of_lt_of_eq t.isLt N_6
  by_cases h0 : t.val = 0
  · rw [Dat.leavesExact_idle _ 2 t (idleAt6_2 t (by omega)) (noFlush6_2 t (by omega)), Phi6_zero V c _ _ h0, PhiA6_eq, acc6_first V c t h0]
    iintro ⟨⟨⟨⟨%ds, HS⟩, Hr⟩, Hg⟩, Ho, ⟨%d0, H0⟩, ⟨%d1, H1⟩, ⟨%d2, H2⟩⟩
    iapply (sound_kernel6_A c Set.univ (iblk6 V c 0 t) (iblk6 V c 1 t) ((hcond6_1 t).mpr h0) fun h => by have := (hcond6_2 t).mp h; omega)
    iframe H0 H1 H2 HS
    iintro ⟨HS, H0, H1, H2⟩
    iframe
    iexists _; iexact H2
  · have hc0 : ¬cond6_1 (grid6.coords t) := fun h => h0 ((hcond6_1 t).mp h)
    rw [Phi6_pos V c _ _ h0, acc6_pos V c t h0]
    by_cases h1 : t.val = 19
    · rw [show (dat6 V c).leavesExact 2 t = owns c (st6_2 t) fullShare ((dat6 V c).after 2 t) from by unfold Dat.leavesExact; rw [liveAt6_2 t h1],
        after6_2, acc6_pos V c t h0]
      iintro ⟨⟨⟨HS, Hr⟩, Hg⟩, Ho, ⟨%d0, H0⟩, ⟨%d1, H1⟩, ⟨%d2, H2⟩⟩
      iapply (sound_kernel6_C c Set.univ (iblk6 V c 0 t) (iblk6 V c 1 t) hc0 ((hcond6_2 t).mpr h1))
      iframe H0 H1 H2 HS
      iintro ⟨H2, HS, H0, H1⟩
      iframe
    · rw [Dat.leavesExact_idle _ 2 t (idleAt6_2 t h1) (noFlush6_2 t h1)]
      iintro ⟨⟨⟨HS, Hr⟩, Hg⟩, Ho, ⟨%d0, H0⟩, ⟨%d1, H1⟩, ⟨%d2, H2⟩⟩
      iapply (sound_kernel6_B c Set.univ (iblk6 V c 0 t) (iblk6 V c 1 t) hc0 fun h => h1 ((hcond6_2 t).mp h))
      iframe H0 H1 H2 HS
      iintro ⟨HS, H0, H1, H2⟩
      iframe
      iexists _; iexact H2

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Run.lean ====
import proofs.«405256_j52991306498534_2_alg».proof.Proof.Gen.Kernel.Regions
import proofs.«405256_j52991306498534_2_alg».proof.Proof.K.Reg0
import proofs.«405256_j52991306498534_2_alg».proof.Proof.K.Reg1
import proofs.«405256_j52991306498534_2_alg».proof.Proof.K.Reg2
import proofs.«405256_j52991306498534_2_alg».proof.Proof.K.Reg3
import proofs.«405256_j52991306498534_2_alg».proof.Proof.K.Reg4
import proofs.«405256_j52991306498534_2_alg».proof.Proof.K.Reg5
import proofs.«405256_j52991306498534_2_alg».proof.Proof.K.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev B0 : Dev nD → Valuation τ sig (Elt F) := fun c b => (s₀ m ρ).mem ((c : Dev nD), b)
abbrev B1 : Dev nD → Valuation τ sig (Elt F) := fun c => StableHlo.after hostOps0 (B0 m ρ c)
abbrev R1 : (c : Dev nD) → (b : Ref sig .tc) → Buf (Elt F) ((c : Thread nD τ).loc b) := fun c b => B1 m ρ c b
theorem B1_of (c : Dev nD) (r : Ref sig .tc) (h : r ∉ hostOps0_W) : B1 m ρ c r = B0 m ρ c r :=
  StableHlo.after_of_writes_sub hostOps0 _ hostOps0_writes h
def B2 (c : Dev nD) : Valuation τ sig (Elt F) :=
  Pipeline.withArrays spec0 c (B1 m ρ c) fun w => (dat0 (R1 m ρ) c).arrAt w cfg0.N
theorem B2_arr (c : Dev nD) (w : Fin cfg0.W) :
    B2 m ρ c (Proc.devRef .tc (Pipeline.arrRef spec0 w)) = (dat0 (R1 m ρ) c).arrAt w cfg0.N :=
  Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) :=
  Pipeline.withArrays_of_ne spec0 c _ _ b hb
abbrev B3 : Dev nD → Valuation τ sig (Elt F) := fun c => StableHlo.after hostOps1 (B2 m ρ c)
abbrev R3 : (c : Dev nD) → (b : Ref sig .tc) → Buf (Elt F) ((c : Thread nD τ).loc b) := fun c b => B3 m ρ c b
theorem B3_of (c : Dev nD) (r : Ref sig .tc) (h : r ∉ hostOps1_W) : B3 m ρ c r = B2 m ρ c r :=
  StableHlo.after_of_writes_sub hostOps1 _ hostOps1_writes h
def B4 (c : Dev nD) : Valuation τ sig (Elt F) :=
  Pipeline.withArrays spec1 c (B3 m ρ c) fun w => (dat1 (R3 m ρ) c).arrAt w cfg1.N
theorem B4_arr (c : Dev nD) (w : Fin cfg1.W) :
    B4 m ρ c (Proc.devRef .tc (Pipeline.arrRef spec1 w)) = (dat1 (R3 m ρ) c).arrAt w cfg1.N :=
  Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) :=
  Pipeline.withArrays_of_ne spec1 c _ _ b hb
abbrev B5 : Dev nD → Valuation τ sig (Elt F) := fun c => StableHlo.after hostOps2 (B4 m ρ c)
abbrev R5 : (c : Dev nD) → (b : Ref sig .tc) → Buf (Elt F) ((c : Thread nD τ).loc b) := fun c b => B5 m ρ c b
theorem B5_of (c : Dev nD) (r : Ref sig .tc) (h : r ∉ hostOps2_W) : B5 m ρ c r = B4 m ρ c r :=
  StableHlo.after_of_writes_sub hostOps2 _ hostOps2_writes h
def B6 (c : Dev nD) : Valuation τ sig (Elt F) :=
  Pipeline.withArrays spec2 c (B5 m ρ c) fun w => (dat2 (R5 m ρ) c).arrAt w cfg2.N
theorem B6_arr (c : Dev nD) (w : Fin cfg2.W) :
    B6 m ρ c (Proc.devRef .tc (Pipeline.arrRef spec2 w)) = (dat2 (R5 m ρ) c).arrAt w cfg2.N :=
  Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) :=
  Pipeline.withArrays_of_ne spec2 c _ _ b hb
abbrev B7 : Dev nD → Valuation τ sig (Elt F) := fun c => StableHlo.after hostOps3 (B6 m ρ c)
abbrev R7 : (c : Dev nD) → (b : Ref sig .tc) → Buf (Elt F) ((c : Thread nD τ).loc b) := fun c b => B7 m ρ c b
theorem B7_of (c : Dev nD) (r : Ref sig .tc) (h : r ∉ hostOps3_W) : B7 m ρ c r = B6 m ρ c r :=
  StableHlo.after_of_writes_sub hostOps3 _ hostOps3_writes h
def B8 (c : Dev nD) : Valuation τ sig (Elt F) :=
  Pipeline.withArrays spec3 c (B7 m ρ c) fun w => (dat3 (R7 m ρ) c).arrAt w cfg3.N
theorem B8_arr (c : Dev nD) (w : Fin cfg3.W) :
    B8 m ρ c (Proc.devRef .tc (Pipeline.arrRef spec3 w)) = (dat3 (R7 m ρ) c).arrAt w cfg3.N :=
  Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) :=
  Pipeline.withArrays_of_ne spec3 c _ _ b hb
abbrev B9 : Dev nD → Valuation τ sig (Elt F) := fun c => StableHlo.after hostOps4 (B8 m ρ c)
abbrev R9 : (c : Dev nD) → (b : Ref sig .tc) → Buf (Elt F) ((c : Thread nD τ).loc b) := fun c b => B9 m ρ c b
theorem B9_of (c : Dev nD) (r : Ref sig .tc) (h : r ∉ hostOps4_W) : B9 m ρ c r = B8 m ρ c r :=
  StableHlo.after_of_writes_sub hostOps4 _ hostOps4_writes h
def B10 (c : Dev nD) : Valuation τ sig (Elt F) :=
  Pipeline.withArrays spec4 c (B9 m ρ c) fun w => (dat4 (R9 m ρ) c).arrAt w cfg4.N
theorem B10_arr (c : Dev nD) (w : Fin cfg4.W) :
    B10 m ρ c (Proc.devRef .tc (Pipeline.arrRef spec4 w)) = (dat4 (R9 m ρ) c).arrAt w cfg4.N :=
  Pipeline.withArrays_arr spec4 launch4.win.arr_inj c _ _ w
theorem B10_of_ne (c : Dev nD) (b : Ref sig .tc) (hb : ∀ w, Pipeline.arrRef spec4 w ≠ b) :
    B10 m ρ c (Proc.devRef .tc b) = B9 m ρ c (Proc.devRef .tc b) :=
  Pipeline.withArrays_of_ne spec4 c _ _ b hb
abbrev B11 : Dev nD → Valuation τ sig (Elt F) := fun c => StableHlo.after hostOps5 (B10 m ρ c)
abbrev R11 : (c : Dev nD) → (b : Ref sig .tc) → Buf (Elt F) ((c : Thread nD τ).loc b) := fun c b => B11 m ρ c b
theorem B11_of (c : Dev nD) (r : Ref sig .tc) (h : r ∉ hostOps5_W) : B11 m ρ c r = B10 m ρ c r :=
  StableHlo.after_of_writes_sub hostOps5 _ hostOps5_writes h
def B12 (c : Dev nD) : Valuation τ sig (Elt F) :=
  Pipeline.withArrays spec5 c (B11 m ρ c) fun w => (dat5 (R11 m ρ) c).arrAt w cfg5.N
theorem B12_arr (c : Dev nD) (w : Fin cfg5.W) :
    B12 m ρ c (Proc.devRef .tc (Pipeline.arrRef spec5 w)) = (dat5 (R11 m ρ) c).arrAt w cfg5.N :=
  Pipeline.withArrays_arr spec5 launch5.win.arr_inj c _ _ w
theorem B12_of_ne (c : Dev nD) (b : Ref sig .tc) (hb : ∀ w, Pipeline.arrRef spec5 w ≠ b) :
    B12 m ρ c (Proc.devRef .tc b) = B11 m ρ c (Proc.devRef .tc b) :=
  Pipeline.withArrays_of_ne spec5 c _ _ b hb
abbrev B13 : Dev nD → Valuation τ sig (Elt F) := fun c => StableHlo.after hostOps6 (B12 m ρ c)
abbrev R13 : (c : Dev nD) → (b : Ref sig .tc) → Buf (Elt F) ((c : Thread nD τ).loc b) := fun c b => B13 m ρ c b
theorem B13_of (c : Dev nD) (r : Ref sig .tc) (h : r ∉ hostOps6_W) : B13 m ρ c r = B12 m ρ c r :=
  StableHlo.after_of_writes_sub hostOps6 _ hostOps6_writes h
def B14 (c : Dev nD) : Valuation τ sig (Elt F) :=
  Pipeline.withArrays spec6 c (B13 m ρ c) fun w => (dat6 (R13 m ρ) c).arrAt w cfg6.N
theorem B14_arr (c : Dev nD) (w : Fin cfg6.W) :
    B14 m ρ c (Proc.devRef .tc (Pipeline.arrRef spec6 w)) = (dat6 (R13 m ρ) c).arrAt w cfg6.N :=
  Pipeline.withArrays_arr spec6 launch6.win.arr_inj c _ _ w
theorem B14_of_ne (c : Dev nD) (b : Ref sig .tc) (hb : ∀ w, Pipeline.arrRef spec6 w ≠ b) :
    B14 m ρ c (Proc.devRef .tc b) = B13 m ρ c (Proc.devRef .tc b) :=
  Pipeline.withArrays_of_ne spec6 c _ _ b hb
abbrev B15 : Dev nD → Valuation τ sig (Elt F) := fun c => StableHlo.after hostOps7 (B14 m ρ c)
theorem B15_of (c : Dev nD) (r : Ref sig .tc) (h : r ∉ hostOps7_W) : B15 m ρ c r = B14 m ρ c r :=
  StableHlo.after_of_writes_sub hostOps7 _ hostOps7_writes h
abbrev B16 : Dev nD → Valuation τ sig (Elt F) := fun c => StableHlo.after hostOps7_1 (B15 m ρ c)
theorem B16_of (c : Dev nD) (r : Ref sig .tc) (h : r ∉ hostOps7_1_W) : B16 m ρ c r = B15 m ρ c r :=
  StableHlo.after_of_writes_sub hostOps7_1 _ hostOps7_1_writes h
abbrev B17 : Dev nD → Valuation τ sig (Elt F) := fun c => StableHlo.after hostOps7_2 (B16 m ρ c)
theorem B17_of (c : Dev nD) (r : Ref sig .tc) (h : r ∉ hostOps7_2_W) : B17 m ρ c r = B16 m ρ c r :=
  StableHlo.after_of_writes_sub hostOps7_2 _ hostOps7_2_writes h

def pdats : (p : Fin 7) → (c : Dev nD) → Dat τ (Elt F) Unit ℕ (UR sig nD τ) ℕ (Pipeline.pin (pcfgs (F := F)) adm p) c
  | ⟨0, _⟩ => dat0 (R1 m ρ)
  | ⟨1, _⟩ => dat1 (R3 m ρ)
  | ⟨2, _⟩ => dat2 (R5 m ρ)
  | ⟨3, _⟩ => dat3 (R7 m ρ)
  | ⟨4, _⟩ => dat4 (R9 m ρ)
  | ⟨5, _⟩ => dat5 (R11 m ρ)
  | ⟨6, _⟩ => dat6 (R13 m ρ)
abbrev 𝒱₀ : Variants := Variants.none
abbrev L : GSem nD τ sig → Finset Unit := fun _ => ∅
abbrev lv : GSem nD τ sig → Unit → ℕ := fun _ _ => 0
abbrev Rst (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tfin (c : Dev nD) : sProp 𝕄 := iprop(StableHlo.held (c : Thread nD τ) (Pipeline.ucRefs τ sig) (B17 m ρ c) ∗ ∃ r, prngReg c r)

set_option backward.isDefEq.respectTransparency.types false in
-- A region gives up its arrays at entry and takes them back at their last contents at exit; every other buffer is carried across.
def regOf (p : Fin 7) (lf : Pipeline.LaunchFacts (nD := nD) (τ := τ) cfgs p) (V : Dev nD → Valuation τ sig (Elt F))
    (hb : ∀ c, BodyObligation (pdats m ρ p c) (defs₀ (F := F)) 𝒱₀ () Set.univ)
    (hq : ∀ c w, (pdats m ρ p c).q w = fullShare)
    (hA : ∀ c w, (pdats m ρ p c).A w = V c (Pipeline.arrRef (cfgs p).spec w))
    (ho : ∀ c t, (pdats m ρ p c).owed t = 0)
    (hr : ∀ c, (pdats m ρ p c).recorded 0 = Set.univ)
    (h0 : ∀ c, Pipeline.ΦA (cfgs p).spec c ⊢ (pdats m ρ p c).Φ 0)
    (hN : ∀ c, (pdats m ρ p c).Φ (Fin.last _) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (V c) ∗ Rst c)
  post c := iprop(StableHlo.held (c : Thread nD τ) (Pipeline.ucRefs τ sig)
    (Pipeline.withArrays (cfgs p).spec c (V c) fun w => (pdats m ρ p c).arrAt w (cfgs p).N) ∗ Rst c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none, Pipeline.Dat.owesAt, ho c 0]
    have hsplit := Pipeline.arrays_of_unscopedBufs (p := p) (pcfgs (F := F)) adm (pdats m ρ) lf.win lf.arr_whole c
      ((pdats m ρ p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.owesWithin
      icases HO with ⟨%W, HO⟩; iexists W; isplitr; · ipureintro; exact fun _ _ => Or.inl (hr c ▸ trivial)
      iexact HO
    isplitl [Hp]; · iexact Hp
    iexact Hrest
  hin c := by
    refine .trans ?_ (h0 c); unfold Pipeline.ΦA
    iintro ⟨Hp, -, Hr⟩
    isplitl [Hr]; · iexact Hr
    iexact Hp
  hout c := by
    rw [Pipeline.ownSems0_none]
    refine (hN c).trans ?_
    unfold Pipeline.ΦA
    iintro ⟨Hr, Hp⟩
    isplitl [Hp]; · iexact Hp
    isplitr; · iempintro
    iexact Hr
  hexit c := by
    rw [Pipeline.Dat.owesAt, ho c (Fin.last _)]
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (fun b => V c b)
      (fun b => Pipeline.withArrays (cfgs p).spec c (V c) (fun w => (pdats m ρ p c).arrAt w (cfgs p).N) b) _
      (fun w => (Pipeline.withArrays_arr _ lf.win.arr_inj c _ _ w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.owesWithin
    icases HO with ⟨%W, -, HO⟩; iexists W; iexact HO

def reg0 := regOf m ρ 0 launch0 (B1 m ρ) (body_obligation0 (R1 m ρ)) (fun _ _ => rfl) (fun _ _ => rfl) (fun _ _ => rfl) (fun _ => rfl)
  (fun _ => .rfl) fun _ => .rfl
def reg1 := regOf m ρ 1 launch1 (B3 m ρ) (body_obligation1 (R3 m ρ)) (fun _ _ => rfl) (fun _ _ => rfl) (fun _ _ => rfl) (fun _ => rfl)
  (fun _ => .rfl) fun _ => .rfl
def reg2 := regOf m ρ 2 launch2 (B5 m ρ) (body_obligation2 (R5 m ρ)) (fun _ _ => rfl) (fun _ _ => rfl) (fun _ _ => rfl) (fun _ => rfl)
  (fun _ => .rfl) fun _ => .rfl
def reg3 := regOf m ρ 3 launch3 (B7 m ρ) (body_obligation3 (R7 m ρ)) (fun _ _ => rfl) (fun _ _ => rfl) (fun _ _ => rfl) (fun _ => rfl)
  (fun _ => .rfl) fun _ => .rfl
def reg4 := regOf m ρ 4 launch4 (B9 m ρ) (body_obligation4 (R9 m ρ)) (fun _ _ => rfl) (fun _ _ => rfl) (fun _ _ => rfl) (fun _ => rfl)
  (fun _ => .rfl) (Phi4_last (R9 m ρ))
def reg5 := regOf m ρ 5 launch5 (B11 m ρ) (body_obligation5 (R11 m ρ)) (fun _ _ => rfl) (fun _ _ => rfl) (fun _ _ => rfl) (fun _ => rfl)
  (fun _ => .rfl) (Phi5_last (R11 m ρ))
def reg6 := regOf m ρ 6 launch6 (B13 m ρ) (body_obligation6 (R13 m ρ)) (fun _ _ => rfl) (fun _ _ => rfl) (fun _ _ => rfl) (fun _ => rfl)
  (fun _ => .rfl) (Phi6_last (R13 m ρ))

abbrev segs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)),
    .region (reg3 m ρ),
    .host (hseg hostOps4 hostOps4_sub hostOps4_fresh (B8 m ρ)),
    .region (reg4 m ρ),
    .host (hseg hostOps5 hostOps5_sub hostOps5_fresh (B10 m ρ)),
    .region (reg5 m ρ),
    .host (hseg hostOps6 hostOps6_sub hostOps6_fresh (B12 m ρ)),
    .region (reg6 m ρ),
    .host (hseg hostOps7 hostOps7_sub hostOps7_fresh (B14 m ρ)),
    .host (hseg hostOps7_1 hostOps7_1_sub hostOps7_1_fresh (B15 m ρ)),
    .host (hseg hostOps7_2 hostOps7_2_sub hostOps7_2_fresh (B16 m ρ)) ]

theorem main_run (c : Dev nD) : main (F := F) c = Pipeline.Seg.run (segs m ρ) := (main_chain c).trans (by chain_rfl)

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem (((c : Thread nD τ)).1, b) = B17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]
      iintro Hu; imodintro
      isplitl [Hu]; · iapply (show (ownU _ : sProp 𝕄) ⊢ BI.own (emb₁ _) from .rfl); iexact Hu
      iempintro)
    (T₀ := fun c => iprop(StableHlo.held (c : Thread nD τ) (Pipeline.ucRefs τ sig) (B0 m ρ c) ∗ Rst c)) (Tₙ := Tfin m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B17 m ρ c b)
    (hfin := fun c s' => by
      iintro ⟨⟨Hh, -⟩, HSI⟩
      unfold StableHlo.held
      imodintro
      iapply (pointsTo_read_all (Pipeline.ucRefs τ sig) (fun b => (((c : Thread nD τ)).1, b)) (B17 m ρ c) s')
      isplitl [Hh] <;> iassumption)
    (hQ := fun s h c => h c)

end Cert.Kernel.Hand

end
-- ==== Proof.K.Keep.lean ====
import proofs.«405256_j52991306498534_2_alg».proof.Proof.K.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

namespace Cert.Kernel.Hand

open Cert.Kernel Cert.Kernel.Gen
open Idealize.ShloMosaic Idealize.ShloMosaic.TcCoe
open Idealize.ShloMosaic.Pipeline (Dat Cfg)

variable {F : FTy → Type} [FloatOps F]

variable (m : (ℓ : Loc nD τ sig) → Buf (Elt F) ℓ) (ρ : Dev nD → PrngReg)

-- By cases on whether `r` is some window's array, and if so whether that window is an output.
theorem region_keep {cfg : Cfg sig Λ₀} {c : Dev nD} (dat : Dat τ (Elt F) Unit ℕ (UR sig nD τ) ℕ cfg c)
    (hinj : Function.Injective (Pipeline.arrRef cfg.spec)) {V : Valuation τ sig (Elt F)}
    (hA : ∀ w, dat.A w = V (Proc.devRef .tc (Pipeline.arrRef cfg.spec w)))
    {outs : List (Ref sig .tc)} (houts : ∀ w, (cfg.win w).isOut = true → Pipeline.arrRef cfg.spec w ∈ outs)
    {r : Ref sig .tc} (h : r ∉ outs) :
    Pipeline.withArrays cfg.spec c V (fun w => dat.arrAt w cfg.N) (Proc.devRef .tc r) = V (Proc.devRef .tc r) := by
  by_cases hw : ∃ w, Pipeline.arrRef cfg.spec w = r
  · obtain ⟨w, rfl⟩ := hw
    cases hin : (cfg.win w).isOut with
    | false => exact (Pipeline.withArrays_arr _ hinj c V _ w).trans ((dat.arrAt_in w hin _).trans (hA w))
    | true => exact absurd (houts w hin) h
  · exact Pipeline.withArrays_of_ne _ c V _ r fun w e => hw ⟨w, e⟩

theorem B2_keep (c : Dev nD) (r : Ref sig .tc) (h : r ∉ ([main_v5_0, main_v5_1] : List (Ref sig .tc))) :
    B2 m ρ c (Proc.devRef .tc r) = B1 m ρ c (Proc.devRef .tc r) :=
  region_keep (dat0 (R1 m ρ) c) launch0.win.arr_inj (A_eq0 (R1 m ρ) c) (by decide) h
theorem B4_keep (c : Dev nD) (r : Ref sig .tc) (h : r ∉ ([main_v39_0, main_v39_1] : List (Ref sig .tc))) :
    B4 m ρ c (Proc.devRef .tc r) = B3 m ρ c (Proc.devRef .tc r) :=
  region_keep (dat1 (R3 m ρ) c) launch1.win.arr_inj (A_eq1 (R3 m ρ) c) (by decide) h
theorem B6_keep (c : Dev nD) (r : Ref sig .tc) (h : r ∉ ([main_v73_0, main_v73_1] : List (Ref sig .tc))) :
    B6 m ρ c (Proc.devRef .tc r) = B5 m ρ c (Proc.devRef .tc r) :=
  region_keep (dat2 (R5 m ρ) c) launch2.win.arr_inj (A_eq2 (R5 m ρ) c) (by decide) h
theorem B8_keep (c : Dev nD) (r : Ref sig .tc) (h : r ∉ ([main_v107_0, main_v107_1] : List (Ref sig .tc))) :
    B8 m ρ c (Proc.devRef .tc r) = B7 m ρ c (Proc.devRef .tc r) :=
  region_keep (dat3 (R7 m ρ) c) launch3.win.arr_inj (A_eq3 (R7 m ρ) c) (by decide) h
theorem B10_keep (c : Dev nD) (r : Ref sig .tc) (h : r ∉ ([main_v116] : List (Ref sig .tc))) :
    B10 m ρ c (Proc.devRef .tc r) = B9 m ρ c (Proc.devRef .tc r) :=
  region_keep (dat4 (R9 m ρ) c) launch4.win.arr_inj (A_eq4 (R9 m ρ) c) (by decide) h
theorem B12_keep (c : Dev nD) (r : Ref sig .tc) (h : r ∉ ([main_v120] : List (Ref sig .tc))) :
    B12 m ρ c (Proc.devRef .tc r) = B11 m ρ c (Proc.devRef .tc r) :=
  region_keep (dat5 (R11 m ρ) c) launch5.win.arr_inj (A_eq5 (R11 m ρ) c) (by decide) h
theorem B14_keep (c : Dev nD) (r : Ref sig .tc) (h : r ∉ ([main_v124] : List (Ref sig .tc))) :
    B14 m ρ c (Proc.devRef .tc r) = B13 m ρ c (Proc.devRef .tc r) :=
  region_keep (dat6 (R13 m ρ) c) launch6.win.arr_inj (A_eq6 (R13 m ρ) c) (by decide) h

end Cert.Kernel.Hand
-- ==== Proof.K.Args.lean ====
import proofs.«405256_j52991306498534_2_alg».proof.Proof.K.Keep
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

namespace Cert.Kernel.Hand

open Cert.Kernel Cert.Kernel.Gen
open Idealize.ShloMosaic Idealize.ShloMosaic.TcCoe Idealize.SL.Sem

variable {F : FTy → Type} [FloatOps F]

variable (m : (ℓ : Loc nD τ sig) → Buf (Elt F) ℓ) (ρ : Dev nD → PrngReg)

abbrev Untouched (r : Ref sig .tc) : Prop :=
  r ∉ hostOps7_2_W ∧ r ∉ hostOps7_1_W ∧ r ∉ hostOps7_W ∧ r ∉ [main_v124] ∧ r ∉ hostOps6_W ∧ r ∉ [main_v120]
  ∧ r ∉ hostOps5_W ∧ r ∉ [main_v116] ∧ r ∉ hostOps4_W ∧ r ∉ [main_v107_0, main_v107_1] ∧ r ∉ hostOps3_W
  ∧ r ∉ [main_v73_0, main_v73_1] ∧ r ∉ hostOps2_W ∧ r ∉ [main_v39_0, main_v39_1] ∧ r ∉ hostOps1_W ∧ r ∉ [main_v5_0, main_v5_1] ∧ r ∉ hostOps0_W

-- No host stretch writes `r` and no region has it as an output array, so each of the seventeen segments passes it on as found.
theorem B17_keep (c : Dev nD) (r : Ref sig .tc) (h : Untouched r) :
    B17 m ρ c (Proc.devRef .tc r) = m ((c : Thread nD τ).loc r) := by
  obtain ⟨h17, h16, h15, h14, h13, h12, h11, h10, h9, h8, h7, h6, h5, h4, h3, h2, h1⟩ := h
  exact (B17_of m ρ c r h17).trans <| (B16_of m ρ c r h16).trans <| (B15_of m ρ c r h15).trans <| (B14_keep m ρ c r h14).trans <|
    (B13_of m ρ c r h13).trans <| (B12_keep m ρ c r h12).trans <| (B11_of m ρ c r h11).trans <| (B10_keep m ρ c r h10).trans <|
    (B9_of m ρ c r h9).trans <| (B8_keep m ρ c r h8).trans <| (B7_of m ρ c r h7).trans <| (B6_keep m ρ c r h6).trans <|
    (B5_of m ρ c r h5).trans <| (B4_keep m ρ c r h4).trans <| (B3_of m ρ c r h3).trans <| (B2_keep m ρ c r h2).trans <|
    (B1_of m ρ c r h1)

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17]

abbrev ArgsKept (mem : (ℓ : Loc nD τ sig) → Buf (Elt F) ℓ) (c : Dev nD) : Prop :=
  args.Forall fun r => mem ((c.tc : Thread nD τ).loc r) = m ((c.tc : Thread nD τ).loc r)

-- That the arguments are untouched is decided once for the whole list; `B17_keep` then reads each back to the launch.
theorem args_kept (c : Dev nD) {mem : (ℓ : Loc nD τ sig) → Buf (Elt F) ℓ}
    (h : ∀ b ∈ Pipeline.ucRefs τ sig, mem (((c : Thread nD τ)).1, b) = B17 m ρ c b) : ArgsKept m mem c :=
  List.forall_iff_forall_mem.mpr fun r hr =>
    have hr := (by decide : ∀ r ∈ args, ¬ (Proc.devRef .tc r : DevRef τ sig).isScoped ∧ Untouched r) r hr
    (h _ (mem_uc r hr.1)).trans (B17_keep m ρ c r hr.2)

theorem frame : θ_run defs (onTc (τ := τ) (main (F := F))) ⟨m, fun _ => 0, ρ⟩ (fun r => ∀ c : Dev nD, ArgsKept m r.2.mem c) :=
  (θ_run defs _ _).mono (fun r h c => args_kept m ρ c (h c)) (run m ρ)

end Cert.Kernel.Hand
-- ==== Proof.KI.Reg0.lean ====
import proofs.«405256_j52991306498534_2_alg».proof.Proof.Gen.KernelIdeal.Launch
import proofs.«405256_j52991306498534_2_alg».proof.Proof.Gen.KernelIdeal.Skeleton
import proofs.«405256_j52991306498534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S5000x64 := Rect.unit (s := S5000x64) ![0, 0] S5000x64.size inb_S5000x64_S5000x64_0_0
abbrev rW0 : Rect S64x128 := Rect.unit (s := S64x128) ![0, 0] S64x128.size inb_S64x128_S64x128_0_0
abbrev rB0 : Rect S1x128 := Rect.unit (s := S1x128) ![0, 0] S1x128.size inb_S1x128_S1x128_0_0
abbrev rO0 : Rect S5000x128 := Rect.unit (s := S5000x128) ![0, 0] S5000x128.size inb_S5000x128_S5000x128_0_0

def out0_3 (x0 : Vec F S5000x64 .f32) (x1 : Vec F S64x128 .f32) (x2 : Vec F S1x128 .f32) : Vec F S5000x128 .f32 :=
  View.canon [⟨rO0, k0_pay1 (View.ld x0 rX0) (View.ld x1 rW0) (View.ld x2 rB0)⟩]
def out0_4 (x0 : Vec F S5000x64 .f32) (x1 : Vec F S64x128 .f32) (x2 : Vec F S1x128 .f32) : Vec F S5000x128 .bf16 :=
  View.canon [⟨rO0, k0_pay2 (View.ld x0 rX0) (View.ld x1 rW0) (View.ld x2 rB0)⟩]

theorem cover0_3 (p0 : Vec F S5000x128 .f32) (y : S5000x128.Idx) :
    ∃ pc ∈ ([⟨rO0, p0⟩] : List (View.Piece (Elt F) S5000x128 .f32)), y ∈ pc.1.set :=
  View.cover_of_tiled [⟨rO0, p0⟩] S5000x128.size (by rfl) y
theorem cover0_4 (p0 : Vec F S5000x128 .bf16) (y : S5000x128.Idx) :
    ∃ pc ∈ ([⟨rO0, p0⟩] : List (View.Piece (Elt F) S5000x128 .bf16)), y ∈ pc.1.set :=
  View.cover_of_tiled [⟨rO0, p0⟩] S5000x128.size (by rfl) y

-- Each output is written once, over its whole block, so it reads back as the stated function of the three inputs.
set_option maxHeartbeats 1000000 in
theorem sound_kernel0 (c : Dev nD) (E : Set ℕ) {i : grid0.Coords}
    {arg1 : Memref sig .tc .vmem S5000x64 .f32} {harg1 : arg1.IsWhole} {arg2 : Memref sig .tc .vmem S64x128 .f32} {harg2 : arg2.IsWhole}
    {arg3 : Memref sig .tc .vmem S1x128 .f32} {harg3 : arg3.IsWhole} {arg4 : Memref sig .tc .vmem S5000x128 .f32} {harg4 : arg4.IsWhole}
    {arg5 : Memref sig .tc .vmem S5000x128 .bf16} {harg5 : arg5.IsWhole}
    (x0 : Vec F S5000x64 .f32) (x1 : Vec F S64x128 .f32) (x2 : Vec F S1x128 .f32)
    {d3 : Vec F S5000x128 .f32} {d4 : Vec F S5000x128 .bf16} {K : PUnit → sProp 𝕄} :
    iprop(owns c arg1 fullShare x0 ∗ owns c arg2 fullShare x1 ∗ owns c arg3 fullShare x2 ∗ owns c arg4 fullShare d3 ∗ owns c arg5 fullShare d4
        ∗ (iprop(owns c arg4 fullShare (out0_3 x0 x1 x2) ∗ owns c arg5 fullShare (out0_4 x0 x1 x2)
            ∗ owns c arg1 fullShare x0 ∗ owns c arg2 fullShare x1 ∗ owns c arg3 fullShare x2) -∗ K ⟨⟩))
      ⊢ wp frame (wpE (defs₀ (F := F)) Variants.none c none) E (cc0__embed_kernel i arg1 harg1 arg2 harg2 arg3 harg3 arg4 harg4 arg5 harg5) K := by
  simp only [cc0__embed_kernel_eq_skeleton]; unfold cc0__embed_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec
  sl_step
  iapply Hk
  isplitl [H3]
  · iexists _; isplitr; swap; · iexact H3
    ipureintro; exact View.read_writes_eq_canon _ _ _ (cover0_3 _)
  isplitl [H4]
  · iexists _; isplitr; swap; · iexact H4
    ipureintro; exact View.read_writes_eq_canon _ _ _ (cover0_4 _)
  isplitl [H0]
  · iexists f0; isplitr; · ipureintro; rfl
    iexact H0
  isplitl [H1]
  · iexists f1; isplitr; · ipureintro; rfl
    iexact H1
  iexists f2; isplitr; · ipureintro; rfl
  iexact H2

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns c (st0_0 t) fullShare ((dat0 V c).before 0 t d))
    ∗ (∃ d, owns c (st0_1 t) fullShare ((dat0 V c).before 1 t d))
    ∗ (∃ d, owns c (st0_2 t) fullShare ((dat0 V c).before 2 t d))
    ∗ (∃ d, owns c (st0_3 t) fullShare ((dat0 V c).before 3 t d))
    ∗ (∃ d, owns c (st0_4 t) fullShare ((dat0 V c).before 4 t d)))

def bodyPost0 (c : Dev nD) (t : Fin cfg0.N) : sProp 𝕄 :=
  iprop((dat0 V c).Φ t.succ ∗ (dat0 V c).owesAt () t.succ
    ∗ owns c (st0_0 t) fullShare ((dat0 V c).after 0 t)
    ∗ owns c (st0_1 t) fullShare ((dat0 V c).after 1 t)
    ∗ owns c (st0_2 t) fullShare ((dat0 V c).after 2 t)
    ∗ owns c (st0_3 t) fullShare ((dat0 V c).after 3 t)
    ∗ owns c (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (iblk0 V c 0 t) (iblk0 V c 1 t) (iblk0 V c 2 t))
  iframe H0 H1 H2 H3 H4
  iintro ⟨H3, H4, H0, H1, H2⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«405256_j52991306498534_2_alg».proof.Proof.Gen.KernelIdeal.Launch
import proofs.«405256_j52991306498534_2_alg».proof.Proof.Gen.KernelIdeal.Skeleton
import proofs.«405256_j52991306498534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rc1_X : Rect S4000x128 := Rect.unit (s := S4000x128) ![0, 0] S4000x128.size inb_S4000x128_S4000x128_0_0
abbrev rc1_W : Rect S128x128 := Rect.unit (s := S128x128) ![0, 0] S128x128.size inb_S128x128_S128x128_0_0
abbrev rc1_B : Rect S1x128 := Rect.unit (s := S1x128) ![0, 0] S1x128.size inb_S1x128_S1x128_0_0

def out1_10 (x0 x1 : Vec F S4000x128 .f32) (x2 : Vec F S128x128 .f32) (x3 x4 x5 x6 x7 : Vec F S1x128 .f32) (x8 : Vec F S128x128 .f32) (x9 : Vec F S1x128 .f32) : Vec F S4000x128 .f32 :=
  View.canon [⟨rc1_X, k1_pay1 (k1_pay3 (View.ld x0 rc1_X) (View.ld x1 rc1_X) (View.ld x2 rc1_W) (View.ld x3 rc1_B) (View.ld x6 rc1_B) (View.ld x7 rc1_B) (View.ld x4 rc1_B) (View.ld x5 rc1_B)) (k1_pay4 (View.ld x8 rc1_W)) (View.ld x9 rc1_B)⟩]
def out1_11 (x0 x1 : Vec F S4000x128 .f32) (x2 : Vec F S128x128 .f32) (x3 x4 x5 x6 x7 : Vec F S1x128 .f32) (x8 : Vec F S128x128 .f32) (x9 : Vec F S1x128 .f32) : Vec F S4000x128 .bf16 :=
  View.canon [⟨rc1_X, k1_pay2 (k1_pay3 (View.ld x0 rc1_X) (View.ld x1 rc1_X) (View.ld x2 rc1_W) (View.ld x3 rc1_B) (View.ld x6 rc1_B) (View.ld x7 rc1_B) (View.ld x4 rc1_B) (View.ld x5 rc1_B)) (k1_pay4 (View.ld x8 rc1_W)) (View.ld x9 rc1_B)⟩]

set_option maxHeartbeats 4000000 in
theorem sound_kernel1 (c : Dev nD) (E : Set ℕ) {i : grid1.Coords}
    {arg1 arg2 arg11 : Memref sig .tc .vmem S4000x128 .f32} {arg12 : Memref sig .tc .vmem S4000x128 .bf16}
    {arg3 arg9 : Memref sig .tc .vmem S128x128 .f32} {arg4 arg5 arg6 arg7 arg8 arg10 : Memref sig .tc .vmem S1x128 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole}
    (x0 x1 : Vec F S4000x128 .f32) (x2 : Vec F S128x128 .f32) (x3 x4 x5 x6 x7 : Vec F S1x128 .f32) (x8 : Vec F S128x128 .f32) (x9 : Vec F S1x128 .f32)
    (d10 : Vec F S4000x128 .f32) (d11 : Vec F S4000x128 .bf16) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare d10 ∗ owns c arg12 fullShare d11
        ∗ ((owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9) ∗ owns c arg11 fullShare (out1_10 x0 x1 x2 x3 x4 x5 x6 x7 x8 x9) ∗ owns c arg12 fullShare (out1_11 x0 x1 x2 x3 x4 x5 x6 x7 x8 x9) -∗ K ⟨⟩))
      ⊢ wp frame (wpE (defs₀ (F := F)) Variants.none c none) E (cc1__gin_mlp_kernel i arg1 harg1 arg2 harg2 arg3 harg3 arg4 harg4 arg5 harg5 arg6 harg6 arg7 harg7 arg8 harg8 arg9 harg9 arg10 harg10 arg11 harg11 arg12 harg12) K := by
  simp only [cc1__gin_mlp_kernel_eq_skeleton]; unfold cc1__gin_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, -, H10⟩, ⟨%f11, -, H11⟩, Hk⟩
  subst_vars
  sl_exec
  sl_step
  iapply Hk
  isplitr [H10 H11]; · sl_close
  isplitl [H10] <;> (iexists _; isplitr; swap; iassumption; ipureintro; exact View.read_writes_eq_canon _ _ _ (View.cover_of_tiled _ S4000x128.size (by rfl)))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

theorem before1 (c : Dev nD) (t : Fin cfg1.N) (w : Fin cfg1.W) (hw : w.val < 10) :
    ∀ d, (dat1 V c).before w t d = (dat1 V c).fetched w t d := by
  fin_cases w <;> first
    | exact absurd hw (by decide)
    | exact (dat1 V c).before_in_eq_fetched _ rfl (fun _ => rfl) (fun _ _ _ => rfl) (fun _ => rfl) t

theorem body_obligation1 (c : Dev nD) : BodyObligation (dat1 (F := F) V c) (defs₀ (F := F)) Variants.none () Set.univ := fun t => by
  rw [bigSep_W1, bigSep_W1]
  show _ ⊢ wp _ _ _ (bodyAt1 t) _
  unfold bodyAt1
  simp (config := {decide := true}) only [before1 V c t]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨⟨H0, H1, H2, H3, H4, H5, H6, H7, H8, H9⟩, H10, H11⟩
  isplitl [HΦ]; · iexact HΦ
  isplitl [Ho]; · iexact Ho
  iframe

end Cert.KernelIdeal.Hand

end
-- ==== Proof.KI.Reg2.lean ====
import proofs.«405256_j52991306498534_2_alg».proof.Proof.Gen.KernelIdeal.Launch
import proofs.«405256_j52991306498534_2_alg».proof.Proof.Gen.KernelIdeal.Skeleton
import proofs.«405256_j52991306498534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rc2_X : Rect S4000x128 := Rect.unit (s := S4000x128) ![0, 0] S4000x128.size inb_S4000x128_S4000x128_0_0
abbrev rc2_W : Rect S128x128 := Rect.unit (s := S128x128) ![0, 0] S128x128.size inb_S128x128_S128x128_0_0
abbrev rc2_B : Rect S1x128 := Rect.unit (s := S1x128) ![0, 0] S1x128.size inb_S1x128_S1x128_0_0

def out2_10 (x0 x1 : Vec F S4000x128 .f32) (x2 : Vec F S128x128 .f32) (x3 x4 x5 x6 x7 : Vec F S1x128 .f32) (x8 : Vec F S128x128 .f32) (x9 : Vec F S1x128 .f32) : Vec F S4000x128 .f32 :=
  View.canon [⟨rc2_X, k2_pay1 (k2_pay3 (View.ld x0 rc2_X) (View.ld x1 rc2_X) (View.ld x2 rc2_W) (View.ld x3 rc2_B) (View.ld x6 rc2_B) (View.ld x7 rc2_B) (View.ld x4 rc2_B) (View.ld x5 rc2_B)) (k2_pay4 (View.ld x8 rc2_W)) (View.ld x9 rc2_B)⟩]
def out2_11 (x0 x1 : Vec F S4000x128 .f32) (x2 : Vec F S128x128 .f32) (x3 x4 x5 x6 x7 : Vec F S1x128 .f32) (x8 : Vec F S128x128 .f32) (x9 : Vec F S1x128 .f32) : Vec F S4000x128 .bf16 :=
  View.canon [⟨rc2_X, k2_pay2 (k2_pay3 (View.ld x0 rc2_X) (View.ld x1 rc2_X) (View.ld x2 rc2_W) (View.ld x3 rc2_B) (View.ld x6 rc2_B) (View.ld x7 rc2_B) (View.ld x4 rc2_B) (View.ld x5 rc2_B)) (k2_pay4 (View.ld x8 rc2_W)) (View.ld x9 rc2_B)⟩]

set_option maxHeartbeats 4000000 in
theorem sound_kernel2 (c : Dev nD) (E : Set ℕ) {i : grid2.Coords}
    {arg1 arg2 arg11 : Memref sig .tc .vmem S4000x128 .f32} {arg12 : Memref sig .tc .vmem S4000x128 .bf16}
    {arg3 arg9 : Memref sig .tc .vmem S128x128 .f32} {arg4 arg5 arg6 arg7 arg8 arg10 : Memref sig .tc .vmem S1x128 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole}
    (x0 x1 : Vec F S4000x128 .f32) (x2 : Vec F S128x128 .f32) (x3 x4 x5 x6 x7 : Vec F S1x128 .f32) (x8 : Vec F S128x128 .f32) (x9 : Vec F S1x128 .f32)
    (d10 : Vec F S4000x128 .f32) (d11 : Vec F S4000x128 .bf16) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare d10 ∗ owns c arg12 fullShare d11
        ∗ ((owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9) ∗ owns c arg11 fullShare (out2_10 x0 x1 x2 x3 x4 x5 x6 x7 x8 x9) ∗ owns c arg12 fullShare (out2_11 x0 x1 x2 x3 x4 x5 x6 x7 x8 x9) -∗ K ⟨⟩))
      ⊢ wp frame (wpE (defs₀ (F := F)) Variants.none c none) E (cc2__gin_mlp_kernel i arg1 harg1 arg2 harg2 arg3 harg3 arg4 harg4 arg5 harg5 arg6 harg6 arg7 harg7 arg8 harg8 arg9 harg9 arg10 harg10 arg11 harg11 arg12 harg12) K := by
  simp only [cc2__gin_mlp_kernel_eq_skeleton]; unfold cc2__gin_mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, -, H10⟩, ⟨%f11, -, H11⟩, Hk⟩
  subst_vars
  sl_exec
  sl_step
  iapply Hk
  isplitr [H10 H11]; · sl_close
  isplitl [H10] <;> (iexists _; isplitr; swap; iassumption; ipureintro; exact View.read_writes_eq_canon _ _ _ (View.cover_of_tiled _ S4000x128.size (by rfl)))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
    | ⟨11, _⟩ => out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]
theorem after2_11 (c : Dev nD) (t : Fin cfg2.N) : (dat2 V c).after 11 t = out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

theorem before2 (c : Dev nD) (t : Fin cfg2.N) (w : Fin cfg2.W) (hw : w.val < 10) :
    ∀ d, (dat2 V c).before w t d = (dat2 V c).fetched w t d := by
  fin_cases w <;> first
    | exact absurd hw (by decide)
    | exact (dat2 V c).before_in_eq_fetched _ rfl (fun _ => rfl) (fun _ _ _ => rfl) (fun _ => rfl) t

theorem body_obligation2 (c : Dev nD) : BodyObligation (dat2 (F := F) V c) (defs₀ (F := F)) Variants.none () Set.univ := fun t => by
  rw [bigSep_W2, bigSep_W2]
  show _ ⊢ wp _ _ _ (bodyAt2 t) _
  unfold bodyAt2
  simp (config := {decide := true}) only [before2 V c t]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel2 c Set.univ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨⟨H0, H1, H2, H3, H4, H5, H6, H7, H8, H9⟩, H10, H11⟩
  isplitl [HΦ]; · iexact HΦ
  isplitl [Ho]; · iexact Ho
  iframe

end Cert.KernelIdeal.Hand

end
-- ==== Proof.KI.Reg3.lean ====
import proofs.«405256_j52991306498534_2_alg».proof.Proof.Gen.KernelIdeal.Launch
import proofs.«405256_j52991306498534_2_alg».proof.Proof.Gen.KernelIdeal.Skeleton
import proofs.«405256_j52991306498534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rc3_X : Rect S4000x128 := Rect.unit (s := S4000x128) ![0, 0] S4000x128.size inb_S4000x128_S4000x128_0_0
abbrev rc3_W : Rect S128x128 := Rect.unit (s := S128x128) ![0, 0] S128x128.size inb_S128x128_S128x128_0_0
abbrev rc3_B : Rect S1x128 := Rect.unit (s := S1x128) ![0, 0] S1x128.size inb_S1x128_S1x128_0_0

def out3_10 (x0 x1 : Vec F S4000x128 .f32) (x2 : Vec F S128x128 .f32) (x3 x4 x5 x6 x7 : Vec F S1x128 .f32) (x8 : Vec F S128x128 .f32) (x9 : Vec F S1x128 .f32) : Vec F S4000x128 .f32 :=
  View.canon [⟨rc3_X, k3_pay1 (k3_pay3 (View.ld x0 rc3_X) (View.ld x1 rc3_X) (View.ld x2 rc3_W) (View.ld x3 rc3_B) (View.ld x6 rc3_B) (View.ld x7 rc3_B) (View.ld x4 rc3_B) (View.ld x5 rc3_B)) (k3_pay4 (View.ld x8 rc3_W)) (View.ld x9 rc3_B)⟩]
def out3_11 (x0 x1 : Vec F S4000x128 .f32) (x2 : Vec F S128x128 .f32) (x3 x4 x5 x6 x7 : Vec F S1x128 .f32) (x8 : Vec F S128x128 .f32) (x9 : Vec F S1x128 .f32) : Vec F S4000x128 .bf16 :=
  View.canon [⟨rc3_X, k3_pay2 (k3_pay3 (View.ld x0 rc3_X) (View.ld x1 rc3_X) (View.ld x2 rc3_W) (View.ld x3 rc3_B) (View.ld x6 rc3_B) (View.ld x7 rc3_B) (View.ld x4 rc3_B) (View.ld x5 rc3_B)) (k3_pay4 (View.ld x8 rc3_W)) (View.ld x9 rc3_B)⟩]

set_option maxHeartbeats 4000000 in
theorem sound_kernel3 (c : Dev nD) (E : Set ℕ) {i : grid3.Coords}
    {arg1 arg2 arg11 : Memref sig .tc .vmem S4000x128 .f32} {arg12 : Memref sig .tc .vmem S4000x128 .bf16}
    {arg3 arg9 : Memref sig .tc .vmem S128x128 .f32} {arg4 arg5 arg6 arg7 arg8 arg10 : Memref sig .tc .vmem S1x128 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole}
    (x0 x1 : Vec F S4000x128 .f32) (x2 : Vec F S128x128 .f32) (x3 x4 x5 x6 x7 : Vec F S1x128 .f32) (x8 : Vec F S128x128 .f32) (x9 : Vec F S1x128 .f32)
    (d10 : Vec F S4000x128 .f32) (d11 : Vec F S4000x128 .bf16) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare d10 ∗ owns c arg12 fullShare d11
        ∗ ((owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9) ∗ owns c arg11 fullShare (out3_10 x0 x1 x2 x3 x4 x5 x6 x7 x8 x9) ∗ owns c arg12 fullShare (out3_11 x0 x1 x2 x3 x4 x5 x6 x7 x8 x9) -∗ K ⟨⟩))
      ⊢ wp frame (wpE (defs₀ (F := F)) Variants.none c none) E (cc3__gin_mlp_kernel i arg1 harg1 arg2 harg2 arg3 harg3 arg4 harg4 arg5 harg5 arg6 harg6 arg7 harg7 arg8 harg8 arg9 harg9 arg10 harg10 arg11 harg11 arg12 harg12) K := by
  simp only [cc3__gin_mlp_kernel_eq_skeleton]; unfold cc3__gin_mlp_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, -, H10⟩, ⟨%f11, -, H11⟩, Hk⟩
  subst_vars
  sl_exec
  sl_step
  iapply Hk
  isplitr [H10 H11]; · sl_close
  isplitl [H10] <;> (iexists _; isplitr; swap; iassumption; ipureintro; exact View.read_writes_eq_canon _ _ _ (View.cover_of_tiled _ S4000x128.size (by rfl)))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)
    | ⟨11, _⟩ => out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_10 (c : Dev nD) (t : Fin cfg3.N) : (dat3 V c).after 10 t = out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) := by dsimp only [dat3]
theorem after3_11 (c : Dev nD) (t : Fin cfg3.N) : (dat3 V c).after 11 t = out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) := by dsimp only [dat3]

theorem before3 (c : Dev nD) (t : Fin cfg3.N) (w : Fin cfg3.W) (hw : w.val < 10) :
    ∀ d, (dat3 V c).before w t d = (dat3 V c).fetched w t d := by
  fin_cases w <;> first
    | exact absurd hw (by decide)
    | exact (dat3 V c).before_in_eq_fetched _ rfl (fun _ => rfl) (fun _ _ _ => rfl) (fun _ => rfl) t

theorem body_obligation3 (c : Dev nD) : BodyObligation (dat3 (F := F) V c) (defs₀ (F := F)) Variants.none () Set.univ := fun t => by
  rw [bigSep_W3, bigSep_W3]
  show _ ⊢ wp _ _ _ (bodyAt3 t) _
  unfold bodyAt3
  simp (config := {decide := true}) only [before3 V c t]
  dsimp only [dat3]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 c Set.univ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨⟨H0, H1, H2, H3, H4, H5, H6, H7, H8, H9⟩, H10, H11⟩
  isplitl [HΦ]; · iexact HΦ
  isplitl [Ho]; · iexact Ho
  iframe

end Cert.KernelIdeal.Hand

end
-- ==== Proof.KI.Reg4.lean ====
import proofs.«405256_j52991306498534_2_alg».proof.Proof.Gen.KernelIdeal.Launch
import proofs.«405256_j52991306498534_2_alg».proof.Proof.Gen.KernelIdeal.Skeleton
import proofs.«405256_j52991306498534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem off4_zero : (![0, 0] : Fin 2 → Nat) = fun _ => 0 := funext fun a => by fin_cases a <;> rfl

abbrev rect4_acc : Rect S64x128 := Rect.unit (s := S64x128) ![0, 0] S64x128.size inb_S64x128_S64x128_0_0

abbrev cond4_1 (i : grid4.Coords) : Prop := (Scalar.cmpi .ne (Scalar.extui (Scalar.cmpi .eq (BitVec.ofNat 32 (i 0).val) 0#32)) 0#32) = 1#1
abbrev cond4_2 (i : grid4.Coords) : Prop := k4_cond2 i = 1#1

theorem cover4_cons (p0 : Vec F S64x128 .f32) (L : List (View.Piece (Elt F) S64x128 .f32)) (y : S64x128.Idx) :
    ∃ pc ∈ ((⟨rect4_acc, p0⟩ : View.Piece (Elt F) S64x128 .f32) :: L), y ∈ pc.1.set :=
  ⟨_, List.mem_cons.mpr (Or.inl rfl), View.mem_set_unit_zero off4_zero inb_S64x128_S64x128_0_0 y⟩

-- The first point: the sum starts from zero.
set_option maxHeartbeats 1000000 in
theorem sound_kernel4_A (c : Dev nD) (E : Set ℕ) {i : grid4.Coords}
    {arg1 : Memref sig .tc .vmem S5000x1 .i32} {harg1 : arg1.IsWhole} {arg2 : Memref sig .tc .vmem S5000x128 .f32} {harg2 : arg2.IsWhole}
    {arg3 argS : Memref sig .tc .vmem S64x128 .f32} {harg3 : arg3.IsWhole} {hargS : argS.IsWhole}
    (x0 : Vec F S5000x1 .i32) (x1 : Vec F S5000x128 .f32) {xi xs : Vec F S64x128 .f32} {K : PUnit → sProp 𝕄}
    (hc0 : cond4_1 i) (hc1 : ¬cond4_2 i) :
    iprop(owns c arg1 fullShare x0 ∗ owns c arg2 fullShare x1 ∗ owns c arg3 fullShare xi ∗ owns c argS fullShare xs
        ∗ (iprop(owns c argS fullShare (k4_pay2 x0 x1 k4_pay1) ∗ owns c arg1 fullShare x0 ∗ owns c arg2 fullShare x1 ∗ owns c arg3 fullShare xi) -∗ K ⟨⟩))
      ⊢ wp frame (wpE (defs₀ (F := F)) Variants.none c none) E (cc4__pool_kernel i arg1 harg1 arg2 harg2 arg3 harg3 argS hargS) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H3]
  · iexists _; isplitr; swap; · iexact H3
    ipureintro
    rw [View.read_writes_eq_canon _ _ _ (cover4_cons _ _), View.canon_cons_unit_zero off4_zero]
    sl_unfold_words
    rw [View.readCov_unit_zero (S := S64x128) _ off4_zero]
    simp only [View.readAt_eq_ld, View.ld_unit_zero (S := S5000x1) off4_zero, View.ld_unit_zero (S := S5000x128) off4_zero]
  isplitl [H0]
  · iexists f0; isplitr; · ipureintro; rfl
    iexact H0
  isplitl [H1]
  · iexists f1; isplitr; · ipureintro; rfl
    iexact H1
  iexists f2; isplitr; · ipureintro; rfl
  iexact H2

-- A point between: the block's product is added to the sum so far.
set_option maxHeartbeats 1000000 in
theorem sound_kernel4_B (c : Dev nD) (E : Set ℕ) {i : grid4.Coords}
    {arg1 : Memref sig .tc .vmem S5000x1 .i32} {harg1 : arg1.IsWhole} {arg2 : Memref sig .tc .vmem S5000x128 .f32} {harg2 : arg2.IsWhole}
    {arg3 argS : Memref sig .tc .vmem S64x128 .f32} {harg3 : arg3.IsWhole} {hargS : argS.IsWhole}
    (x0 : Vec F S5000x1 .i32) (x1 : Vec F S5000x128 .f32) {xi xs : Vec F S64x128 .f32} {K : PUnit → sProp 𝕄}
    (hc0 : ¬cond4_1 i) (hc1 : ¬cond4_2 i) :
    iprop(owns c arg1 fullShare x0 ∗ owns c arg2 fullShare x1 ∗ owns c arg3 fullShare xi ∗ owns c argS fullShare xs
        ∗ (iprop(owns c argS fullShare (k4_pay2 x0 x1 xs) ∗ owns c arg1 fullShare x0 ∗ owns c arg2 fullShare x1 ∗ owns c arg3 fullShare xi) -∗ K ⟨⟩))
      ⊢ wp frame (wpE (defs₀ (F := F)) Variants.none c none) E (cc4__pool_kernel i arg1 harg1 arg2 harg2 arg3 harg3 argS hargS) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H3]
  · iexists _; isplitr; swap; · iexact H3
    ipureintro
    rw [View.read_writes_eq_canon _ _ _ (cover4_cons _ _), View.canon_unit_zero off4_zero]
    simp only [View.readAt_eq_ld, View.ld_unit_zero (S := S5000x1) off4_zero, View.ld_unit_zero (S := S5000x128) off4_zero, View.ld_unit_zero (S := S64x128) off4_zero]
  isplitl [H0]
  · iexists f0; isplitr; · ipureintro; rfl
    iexact H0
  isplitl [H1]
  · iexists f1; isplitr; · ipureintro; rfl
    iexact H1
  iexists f2; isplitr; · ipureintro; rfl
  iexact H2

-- The last point: the new sum is also what the output block receives.
set_option maxHeartbeats 1000000 in
theorem sound_kernel4_C (c : Dev nD) (E : Set ℕ) {i : grid4.Coords}
    {arg1 : Memref sig .tc .vmem S5000x1 .i32} {harg1 : arg1.IsWhole} {arg2 : Memref sig .tc .vmem S5000x128 .f32} {harg2 : arg2.IsWhole}
    {arg3 argS : Memref sig .tc .vmem S64x128 .f32} {harg3 : arg3.IsWhole} {hargS : argS.IsWhole}
    (x0 : Vec F S5000x1 .i32) (x1 : Vec F S5000x128 .f32) {xi xs : Vec F S64x128 .f32} {K : PUnit → sProp 𝕄}
    (hc0 : ¬cond4_1 i) (hc1 : cond4_2 i) :
    iprop(owns c arg1 fullShare x0 ∗ owns c arg2 fullShare x1 ∗ owns c arg3 fullShare xi ∗ owns c argS fullShare xs
        ∗ (iprop(owns c arg3 fullShare (k4_pay2 x0 x1 xs) ∗ owns c argS fullShare (k4_pay2 x0 x1 xs) ∗ owns c arg1 fullShare x0 ∗ owns c arg2 fullShare x1) -∗ K ⟨⟩))
      ⊢ wp frame (wpE (defs₀ (F := F)) Variants.none c none) E (cc4__pool_kernel i arg1 harg1 arg2 harg2 arg3 harg3 argS hargS) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H2]
  · iexists _; isplitr; swap; · iexact H2
    ipureintro
    rw [View.read_writes_eq_canon _ _ _ (cover4_cons _ _), View.canon_unit_zero off4_zero]
    sl_unfold_words
    rw [View.readCov_unit_zero (S := S64x128) _ off4_zero]
    simp only [View.readAt_eq_ld, View.ld_unit_zero (S := S5000x1) off4_zero, View.ld_unit_zero (S := S5000x128) off4_zero, View.ld_unit_zero (S := S64x128) off4_zero]
  isplitl [H3]
  · iexists _; isplitr; swap; · iexact H3
    ipureintro
    sl_unfold_words
    rw [View.read_writes_eq_canon _ _ _ (cover4_cons _ _), View.canon_unit_zero off4_zero]
    simp only [View.readAt_eq_ld, View.ld_unit_zero (S := S5000x1) off4_zero, View.ld_unit_zero (S := S5000x128) off4_zero, View.ld_unit_zero (S := S64x128) off4_zero]
  isplitl [H0]
  · iexists f0; isplitr; · ipureintro; rfl
    iexact H0
  iexists f1; isplitr; · ipureintro; rfl
  iexact H1

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem hcond4_1 : ∀ t : Fin cfg4.N, cond4_1 (grid4.coords t) ↔ t.val = 0 :=
  (by decide +kernel : ∀ t : Fin grid4.N, cond4_1 (grid4.coords t) ↔ t.val = 0)
theorem hcond4_2 : ∀ t : Fin cfg4.N, cond4_2 (grid4.coords t) ↔ t.val = 19 :=
  (by decide +kernel : ∀ t : Fin grid4.N, cond4_2 (grid4.coords t) ↔ t.val = 19)

theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2 : ∀ t : Fin cfg4.N, t.val ≠ 19 → cfg4.idle 2 (grid4.coords t) = true := by decide +kernel
theorem noFlush4_2 : ∀ t : Fin cfg4.N, t.val ≠ 19 → (cfg4.win 2).flush t = false := by decide +kernel
theorem liveAt4_2 : ∀ t : Fin cfg4.N, t.val = 19 → cfg4.idle 2 (grid4.coords t) = false := by decide +kernel

abbrev scr4_mem : Memref sig .tc .vmem S64x128 .f32 := Memref.whole cc4_scratch0

def acc4 (c : Dev nD) : (n : ℕ) → n < cfg4.N → Vec F S64x128 .f32
  | 0, h => k4_pay2 (iblk4 V c 0 ⟨0, h⟩) (iblk4 V c 1 ⟨0, h⟩) k4_pay1
  | n + 1, h => k4_pay2 (iblk4 V c 0 ⟨n + 1, h⟩) (iblk4 V c 1 ⟨n + 1, h⟩) (acc4 c n (Nat.lt_of_succ_lt h))

theorem acc4_zero (c : Dev nD) (h : 0 < cfg4.N) :
    acc4 V c 0 h = k4_pay2 (iblk4 V c 0 ⟨0, h⟩) (iblk4 V c 1 ⟨0, h⟩) k4_pay1 := rfl
theorem acc4_succ (c : Dev nD) (n : ℕ) (h : n + 1 < cfg4.N) :
    acc4 V c (n + 1) h = k4_pay2 (iblk4 V c 0 ⟨n + 1, h⟩) (iblk4 V c 1 ⟨n + 1, h⟩) (acc4 V c n (Nat.lt_of_succ_lt h)) := rfl

theorem acc4_first (c : Dev nD) (t : Fin cfg4.N) (h0 : t.val = 0) :
    acc4 V c t.val t.isLt = k4_pay2 (iblk4 V c 0 t) (iblk4 V c 1 t) k4_pay1 := by
  obtain ⟨n, hn⟩ := t
  cases n with
  | zero => rfl
  | succ n => exact absurd h0 (Nat.succ_ne_zero n)
theorem acc4_pos (c : Dev nD) (t : Fin cfg4.N) (h0 : t.val ≠ 0) :
    acc4 V c t.val t.isLt = k4_pay2 (iblk4 V c 0 t) (iblk4 V c 1 t) (acc4 V c (t.val - 1) (Nat.lt_of_le_of_lt (Nat.sub_le _ _) t.isLt)) := by
  obtain ⟨n, hn⟩ := t
  cases n with
  | zero => exact absurd rfl h0
  | succ n => rfl

theorem PhiA4_eq (c : Dev nD) :
    (Pipeline.ΦA spec4 c : sProp 𝕄)
      = iprop(iprop((∃ d, owns c scr4_mem fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scr4_mem, owns_whole]; try rfl

def Phi4 (c : Dev nD) : (n : ℕ) → n ≤ cfg4.N → sProp 𝕄
  | 0, _ => Pipeline.ΦA spec4 c
  | n + 1, hn => iprop(iprop(owns c scr4_mem fullShare (acc4 V c n hn) ∗ Pipeline.scopedRestBut (Ix := Unit) (Name := ℕ) (U := UR sig nD τ) (Lvl := ℕ) (Val := Elt F) spec4 c [cc4_scratch0]) ∗ (∃ r, prngReg c r))

theorem Phi4_zero (c : Dev nD) (n : ℕ) (h : n ≤ cfg4.N) (hz : n = 0) : Phi4 V c n h = Pipeline.ΦA spec4 c := by
  subst hz; rfl
theorem Phi4_succ (c : Dev nD) (n : ℕ) (hn : n < cfg4.N) :
    Phi4 V c (n + 1) hn = iprop(iprop(owns c scr4_mem fullShare (acc4 V c n hn) ∗ Pipeline.scopedRestBut (Ix := Unit) (Name := ℕ) (U := UR sig nD τ) (Lvl := ℕ) (Val := Elt F) spec4 c [cc4_scratch0]) ∗ (∃ r, prngReg c r)) := rfl
theorem Phi4_pos (c : Dev nD) (n : ℕ) (h : n ≤ cfg4.N) (hz : n ≠ 0) :
    Phi4 V c n h = iprop(iprop(owns c scr4_mem fullShare (acc4 V c (n - 1) (by omega)) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4 V c t.val t.isLt := by dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem Phi4_first (c : Dev nD) : (dat4 V c).Φ 0 = Pipeline.ΦA spec4 c := rfl

theorem Phi4_last (c : Dev nD) : (dat4 V c).Φ (Fin.last cfg4.N) ⊢ Pipeline.ΦA spec4 c := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 20 := N_4; omega), PhiA4_eq]
  iintro ⟨⟨HS, Hr⟩, Hg⟩
  iframe
  iexists _; iexact HS

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d

def bodyPre4 (c : Dev nD) (t : Fin cfg4.N) : sProp 𝕄 :=
  iprop((dat4 V c).Φ t.castSucc ∗ (dat4 V c).owesAt () t.castSucc
    ∗ (∃ d, owns c (st4_0 t) fullShare ((dat4 V c).before 0 t d))
    ∗ (∃ d, owns c (st4_1 t) fullShare ((dat4 V c).before 1 t d))
    ∗ (∃ d, owns c (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

-- By cases on the point: the first, the last, or one between.
set_option maxHeartbeats 2000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl,
    show (dat4 V c).Φ t.succ = Phi4 V c (t.val + 1) t.isLt from rfl, Phi4_succ, Phi4_castSucc V c t,
    show (dat4 V c).leavesExact 0 t = owns c (st4_0 t) fullShare ((dat4 V c).after 0 t) from by unfold Dat.leavesExact; rw [liveAt4_0 t],
    show (dat4 V c).leavesExact 1 t = owns c (st4_1 t) fullShare ((dat4 V c).after 1 t) from by unfold Dat.leavesExact; rw [liveAt4_1 t],
    after4_0, after4_1]
  have hN : t.val < 20 := lt_of_lt_of_eq t.isLt N_4
  by_cases h0 : t.val = 0
  · rw [Dat.leavesExact_idle _ 2 t (idleAt4_2 t (by omega)) (noFlush4_2 t (by omega)), Phi4_zero V c _ _ h0, PhiA4_eq, acc4_first V c t h0]
    iintro ⟨⟨⟨⟨%ds, HS⟩, Hr⟩, Hg⟩, Ho, ⟨%d0, H0⟩, ⟨%d1, H1⟩, ⟨%d2, H2⟩⟩
    iapply (sound_kernel4_A c Set.univ (iblk4 V c 0 t) (iblk4 V c 1 t) ((hcond4_1 t).mpr h0) fun h => by have := (hcond4_2 t).mp h; omega)
    iframe H0 H1 H2 HS
    iintro ⟨HS, H0, H1, H2⟩
    iframe
    iexists _; iexact H2
  · have hc0 : ¬cond4_1 (grid4.coords t) := fun h => h0 ((hcond4_1 t).mp h)
    rw [Phi4_pos V c _ _ h0, acc4_pos V c t h0]
    by_cases h1 : t.val = 19
    · rw [show (dat4 V c).leavesExact 2 t = owns c (st4_2 t) fullShare ((dat4 V c).after 2 t) from by unfold Dat.leavesExact; rw [liveAt4_2 t h1],
        after4_2, acc4_pos V c t h0]
      iintro ⟨⟨⟨HS, Hr⟩, Hg⟩, Ho, ⟨%d0, H0⟩, ⟨%d1, H1⟩, ⟨%d2, H2⟩⟩
      iapply (sound_kernel4_C c Set.univ (iblk4 V c 0 t) (iblk4 V c 1 t) hc0 ((hcond4_2 t).mpr h1))
      iframe H0 H1 H2 HS
      iintro ⟨H2, HS, H0, H1⟩
      iframe
    · rw [Dat.leavesExact_idle _ 2 t (idleAt4_2 t h1) (noFlush4_2 t h1)]
      iintro ⟨⟨⟨HS, Hr⟩, Hg⟩, Ho, ⟨%d0, H0⟩, ⟨%d1, H1⟩, ⟨%d2, H2⟩⟩
      iapply (sound_kernel4_B c Set.univ (iblk4 V c 0 t) (iblk4 V c 1 t) hc0 fun h => h1 ((hcond4_2 t).mp h))
      iframe H0 H1 H2 HS
      iintro ⟨HS, H0, H1, H2⟩
      iframe
      iexists _; iexact H2

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
import proofs.«405256_j52991306498534_2_alg».proof.Proof.Gen.KernelIdeal.Launch
import proofs.«405256_j52991306498534_2_alg».proof.Proof.Gen.KernelIdeal.Skeleton
import proofs.«405256_j52991306498534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem off5_zero : (![0, 0] : Fin 2 → Nat) = fun _ => 0 := funext fun a => by fin_cases a <;> rfl

abbrev rect5_acc : Rect S64x128 := Rect.unit (s := S64x128) ![0, 0] S64x128.size inb_S64x128_S64x128_0_0

abbrev cond5_1 (i : grid5.Coords) : Prop := (Scalar.cmpi .ne (Scalar.extui (Scalar.cmpi .eq (BitVec.ofNat 32 (i 0).val) 0#32)) 0#32) = 1#1
abbrev cond5_2 (i : grid5.Coords) : Prop := k5_cond2 i = 1#1

theorem cover5_cons (p0 : Vec F S64x128 .f32) (L : List (View.Piece (Elt F) S64x128 .f32)) (y : S64x128.Idx) :
    ∃ pc ∈ ((⟨rect5_acc, p0⟩ : View.Piece (Elt F) S64x128 .f32) :: L), y ∈ pc.1.set :=
  ⟨_, List.mem_cons.mpr (Or.inl rfl), View.mem_set_unit_zero off5_zero inb_S64x128_S64x128_0_0 y⟩

-- The first point: the sum starts from zero.
set_option maxHeartbeats 1000000 in
theorem sound_kernel5_A (c : Dev nD) (E : Set ℕ) {i : grid5.Coords}
    {arg1 : Memref sig .tc .vmem S5000x1 .i32} {harg1 : arg1.IsWhole} {arg2 : Memref sig .tc .vmem S5000x128 .f32} {harg2 : arg2.IsWhole}
    {arg3 argS : Memref sig .tc .vmem S64x128 .f32} {harg3 : arg3.IsWhole} {hargS : argS.IsWhole}
    (x0 : Vec F S5000x1 .i32) (x1 : Vec F S5000x128 .f32) {xi xs : Vec F S64x128 .f32} {K : PUnit → sProp 𝕄}
    (hc0 : cond5_1 i) (hc1 : ¬cond5_2 i) :
    iprop(owns c arg1 fullShare x0 ∗ owns c arg2 fullShare x1 ∗ owns c arg3 fullShare xi ∗ owns c argS fullShare xs
        ∗ (iprop(owns c argS fullShare (k5_pay2 x0 x1 k5_pay1) ∗ owns c arg1 fullShare x0 ∗ owns c arg2 fullShare x1 ∗ owns c arg3 fullShare xi) -∗ K ⟨⟩))
      ⊢ wp frame (wpE (defs₀ (F := F)) Variants.none c none) E (cc5__pool_kernel i arg1 harg1 arg2 harg2 arg3 harg3 argS hargS) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H3]
  · iexists _; isplitr; swap; · iexact H3
    ipureintro
    rw [View.read_writes_eq_canon _ _ _ (cover5_cons _ _), View.canon_cons_unit_zero off5_zero]
    sl_unfold_words
    rw [View.readCov_unit_zero (S := S64x128) _ off5_zero]
    simp only [View.readAt_eq_ld, View.ld_unit_zero (S := S5000x1) off5_zero, View.ld_unit_zero (S := S5000x128) off5_zero]
  isplitl [H0]
  · iexists f0; isplitr; · ipureintro; rfl
    iexact H0
  isplitl [H1]
  · iexists f1; isplitr; · ipureintro; rfl
    iexact H1
  iexists f2; isplitr; · ipureintro; rfl
  iexact H2

-- A point between: the block's product is added to the sum so far.
set_option maxHeartbeats 1000000 in
theorem sound_kernel5_B (c : Dev nD) (E : Set ℕ) {i : grid5.Coords}
    {arg1 : Memref sig .tc .vmem S5000x1 .i32} {harg1 : arg1.IsWhole} {arg2 : Memref sig .tc .vmem S5000x128 .f32} {harg2 : arg2.IsWhole}
    {arg3 argS : Memref sig .tc .vmem S64x128 .f32} {harg3 : arg3.IsWhole} {hargS : argS.IsWhole}
    (x0 : Vec F S5000x1 .i32) (x1 : Vec F S5000x128 .f32) {xi xs : Vec F S64x128 .f32} {K : PUnit → sProp 𝕄}
    (hc0 : ¬cond5_1 i) (hc1 : ¬cond5_2 i) :
    iprop(owns c arg1 fullShare x0 ∗ owns c arg2 fullShare x1 ∗ owns c arg3 fullShare xi ∗ owns c argS fullShare xs
        ∗ (iprop(owns c argS fullShare (k5_pay2 x0 x1 xs) ∗ owns c arg1 fullShare x0 ∗ owns c arg2 fullShare x1 ∗ owns c arg3 fullShare xi) -∗ K ⟨⟩))
      ⊢ wp frame (wpE (defs₀ (F := F)) Variants.none c none) E (cc5__pool_kernel i arg1 harg1 arg2 harg2 arg3 harg3 argS hargS) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H3]
  · iexists _; isplitr; swap; · iexact H3
    ipureintro
    rw [View.read_writes_eq_canon _ _ _ (cover5_cons _ _), View.canon_unit_zero off5_zero]
    simp only [View.readAt_eq_ld, View.ld_unit_zero (S := S5000x1) off5_zero, View.ld_unit_zero (S := S5000x128) off5_zero, View.ld_unit_zero (S := S64x128) off5_zero]
  isplitl [H0]
  · iexists f0; isplitr; · ipureintro; rfl
    iexact H0
  isplitl [H1]
  · iexists f1; isplitr; · ipureintro; rfl
    iexact H1
  iexists f2; isplitr; · ipureintro; rfl
  iexact H2

-- The last point: the new sum is also what the output block receives.
set_option maxHeartbeats 1000000 in
theorem sound_kernel5_C (c : Dev nD) (E : Set ℕ) {i : grid5.Coords}
    {arg1 : Memref sig .tc .vmem S5000x1 .i32} {harg1 : arg1.IsWhole} {arg2 : Memref sig .tc .vmem S5000x128 .f32} {harg2 : arg2.IsWhole}
    {arg3 argS : Memref sig .tc .vmem S64x128 .f32} {harg3 : arg3.IsWhole} {hargS : argS.IsWhole}
    (x0 : Vec F S5000x1 .i32) (x1 : Vec F S5000x128 .f32) {xi xs : Vec F S64x128 .f32} {K : PUnit → sProp 𝕄}
    (hc0 : ¬cond5_1 i) (hc1 : cond5_2 i) :
    iprop(owns c arg1 fullShare x0 ∗ owns c arg2 fullShare x1 ∗ owns c arg3 fullShare xi ∗ owns c argS fullShare xs
        ∗ (iprop(owns c arg3 fullShare (k5_pay2 x0 x1 xs) ∗ owns c argS fullShare (k5_pay2 x0 x1 xs) ∗ owns c arg1 fullShare x0 ∗ owns c arg2 fullShare x1) -∗ K ⟨⟩))
      ⊢ wp frame (wpE (defs₀ (F := F)) Variants.none c none) E (cc5__pool_kernel i arg1 harg1 arg2 harg2 arg3 harg3 argS hargS) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H2]
  · iexists _; isplitr; swap; · iexact H2
    ipureintro
    rw [View.read_writes_eq_canon _ _ _ (cover5_cons _ _), View.canon_unit_zero off5_zero]
    sl_unfold_words
    rw [View.readCov_unit_zero (S := S64x128) _ off5_zero]
    simp only [View.readAt_eq_ld, View.ld_unit_zero (S := S5000x1) off5_zero, View.ld_unit_zero (S := S5000x128) off5_zero, View.ld_unit_zero (S := S64x128) off5_zero]
  isplitl [H3]
  · iexists _; isplitr; swap; · iexact H3
    ipureintro
    sl_unfold_words
    rw [View.read_writes_eq_canon _ _ _ (cover5_cons _ _), View.canon_unit_zero off5_zero]
    simp only [View.readAt_eq_ld, View.ld_unit_zero (S := S5000x1) off5_zero, View.ld_unit_zero (S := S5000x128) off5_zero, View.ld_unit_zero (S := S64x128) off5_zero]
  isplitl [H0]
  · iexists f0; isplitr; · ipureintro; rfl
    iexact H0
  iexists f1; isplitr; · ipureintro; rfl
  iexact H1

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem hcond5_1 : ∀ t : Fin cfg5.N, cond5_1 (grid5.coords t) ↔ t.val = 0 :=
  (by decide +kernel : ∀ t : Fin grid5.N, cond5_1 (grid5.coords t) ↔ t.val = 0)
theorem hcond5_2 : ∀ t : Fin cfg5.N, cond5_2 (grid5.coords t) ↔ t.val = 19 :=
  (by decide +kernel : ∀ t : Fin grid5.N, cond5_2 (grid5.coords t) ↔ t.val = 19)

theorem liveAt5_0 : ∀ t : Fin cfg5.N, cfg5.idle 0 (grid5.coords t) = false := by decide +kernel
theorem liveAt5_1 : ∀ t : Fin cfg5.N, cfg5.idle 1 (grid5.coords t) = false := by decide +kernel
theorem idleAt5_2 : ∀ t : Fin cfg5.N, t.val ≠ 19 → cfg5.idle 2 (grid5.coords t) = true := by decide +kernel
theorem noFlush5_2 : ∀ t : Fin cfg5.N, t.val ≠ 19 → (cfg5.win 2).flush t = false := by decide +kernel
theorem liveAt5_2 : ∀ t : Fin cfg5.N, t.val = 19 → cfg5.idle 2 (grid5.coords t) = false := by decide +kernel

abbrev scr5_mem : Memref sig .tc .vmem S64x128 .f32 := Memref.whole cc5_scratch0

def acc5 (c : Dev nD) : (n : ℕ) → n < cfg5.N → Vec F S64x128 .f32
  | 0, h => k5_pay2 (iblk5 V c 0 ⟨0, h⟩) (iblk5 V c 1 ⟨0, h⟩) k5_pay1
  | n + 1, h => k5_pay2 (iblk5 V c 0 ⟨n + 1, h⟩) (iblk5 V c 1 ⟨n + 1, h⟩) (acc5 c n (Nat.lt_of_succ_lt h))

theorem acc5_zero (c : Dev nD) (h : 0 < cfg5.N) :
    acc5 V c 0 h = k5_pay2 (iblk5 V c 0 ⟨0, h⟩) (iblk5 V c 1 ⟨0, h⟩) k5_pay1 := rfl
theorem acc5_succ (c : Dev nD) (n : ℕ) (h : n + 1 < cfg5.N) :
    acc5 V c (n + 1) h = k5_pay2 (iblk5 V c 0 ⟨n + 1, h⟩) (iblk5 V c 1 ⟨n + 1, h⟩) (acc5 V c n (Nat.lt_of_succ_lt h)) := rfl

theorem acc5_first (c : Dev nD) (t : Fin cfg5.N) (h0 : t.val = 0) :
    acc5 V c t.val t.isLt = k5_pay2 (iblk5 V c 0 t) (iblk5 V c 1 t) k5_pay1 := by
  obtain ⟨n, hn⟩ := t
  cases n with
  | zero => rfl
  | succ n => exact absurd h0 (Nat.succ_ne_zero n)
theorem acc5_pos (c : Dev nD) (t : Fin cfg5.N) (h0 : t.val ≠ 0) :
    acc5 V c t.val t.isLt = k5_pay2 (iblk5 V c 0 t) (iblk5 V c 1 t) (acc5 V c (t.val - 1) (Nat.lt_of_le_of_lt (Nat.sub_le _ _) t.isLt)) := by
  obtain ⟨n, hn⟩ := t
  cases n with
  | zero => exact absurd rfl h0
  | succ n => rfl

theorem PhiA5_eq (c : Dev nD) :
    (Pipeline.ΦA spec5 c : sProp 𝕄)
      = iprop(iprop((∃ d, owns c scr5_mem fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scr5_mem, owns_whole]; try rfl

def Phi5 (c : Dev nD) : (n : ℕ) → n ≤ cfg5.N → sProp 𝕄
  | 0, _ => Pipeline.ΦA spec5 c
  | n + 1, hn => iprop(iprop(owns c scr5_mem fullShare (acc5 V c n hn) ∗ Pipeline.scopedRestBut (Ix := Unit) (Name := ℕ) (U := UR sig nD τ) (Lvl := ℕ) (Val := Elt F) spec5 c [cc5_scratch0]) ∗ (∃ r, prngReg c r))

theorem Phi5_zero (c : Dev nD) (n : ℕ) (h : n ≤ cfg5.N) (hz : n = 0) : Phi5 V c n h = Pipeline.ΦA spec5 c := by
  subst hz; rfl
theorem Phi5_succ (c : Dev nD) (n : ℕ) (hn : n < cfg5.N) :
    Phi5 V c (n + 1) hn = iprop(iprop(owns c scr5_mem fullShare (acc5 V c n hn) ∗ Pipeline.scopedRestBut (Ix := Unit) (Name := ℕ) (U := UR sig nD τ) (Lvl := ℕ) (Val := Elt F) spec5 c [cc5_scratch0]) ∗ (∃ r, prngReg c r)) := rfl
theorem Phi5_pos (c : Dev nD) (n : ℕ) (h : n ≤ cfg5.N) (hz : n ≠ 0) :
    Phi5 V c n h = iprop(iprop(owns c scr5_mem fullShare (acc5 V c (n - 1) (by omega)) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => acc5 V c t.val t.isLt
  Φ t := Phi5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = acc5 V c t.val t.isLt := by dsimp only [dat5]

theorem Phi5_castSucc (c : Dev nD) (t : Fin cfg5.N) :
    (dat5 V c).Φ t.castSucc = Phi5 V c t.val (Nat.le_of_lt t.isLt) := by
  dsimp only [dat5]; simp only [Fin.coe_castSucc]

theorem Phi5_first (c : Dev nD) : (dat5 V c).Φ 0 = Pipeline.ΦA spec5 c := rfl

theorem Phi5_last (c : Dev nD) : (dat5 V c).Φ (Fin.last cfg5.N) ⊢ Pipeline.ΦA spec5 c := by
  rw [show (dat5 V c).Φ (Fin.last cfg5.N) = Phi5 V c (Fin.last cfg5.N).val (Nat.le_of_lt_succ (Fin.last cfg5.N).isLt) from rfl,
    Phi5_pos V c _ _ (by rw [Fin.val_last]; have : cfg5.N = 20 := N_5; omega), PhiA5_eq]
  iintro ⟨⟨HS, Hr⟩, Hg⟩
  iframe
  iexists _; iexact HS

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d

def bodyPre5 (c : Dev nD) (t : Fin cfg5.N) : sProp 𝕄 :=
  iprop((dat5 V c).Φ t.castSucc ∗ (dat5 V c).owesAt () t.castSucc
    ∗ (∃ d, owns c (st5_0 t) fullShare ((dat5 V c).before 0 t d))
    ∗ (∃ d, owns c (st5_1 t) fullShare ((dat5 V c).before 1 t d))
    ∗ (∃ d, owns c (st5_2 t) fullShare ((dat5 V c).before 2 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

-- By cases on the point: the first, the last, or one between.
set_option maxHeartbeats 2000000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl,
    show (dat5 V c).Φ t.succ = Phi5 V c (t.val + 1) t.isLt from rfl, Phi5_succ, Phi5_castSucc V c t,
    show (dat5 V c).leavesExact 0 t = owns c (st5_0 t) fullShare ((dat5 V c).after 0 t) from by unfold Dat.leavesExact; rw [liveAt5_0 t],
    show (dat5 V c).leavesExact 1 t = owns c (st5_1 t) fullShare ((dat5 V c).after 1 t) from by unfold Dat.leavesExact; rw [liveAt5_1 t],
    after5_0, after5_1]
  have hN : t.val < 20 := lt_of_lt_of_eq t.isLt N_5
  by_cases h0 : t.val = 0
  · rw [Dat.leavesExact_idle _ 2 t (idleAt5_2 t (by omega)) (noFlush5_2 t (by omega)), Phi5_zero V c _ _ h0, PhiA5_eq, acc5_first V c t h0]
    iintro ⟨⟨⟨⟨%ds, HS⟩, Hr⟩, Hg⟩, Ho, ⟨%d0, H0⟩, ⟨%d1, H1⟩, ⟨%d2, H2⟩⟩
    iapply (sound_kernel5_A c Set.univ (iblk5 V c 0 t) (iblk5 V c 1 t) ((hcond5_1 t).mpr h0) fun h => by have := (hcond5_2 t).mp h; omega)
    iframe H0 H1 H2 HS
    iintro ⟨HS, H0, H1, H2⟩
    iframe
    iexists _; iexact H2
  · have hc0 : ¬cond5_1 (grid5.coords t) := fun h => h0 ((hcond5_1 t).mp h)
    rw [Phi5_pos V c _ _ h0, acc5_pos V c t h0]
    by_cases h1 : t.val = 19
    · rw [show (dat5 V c).leavesExact 2 t = owns c (st5_2 t) fullShare ((dat5 V c).after 2 t) from by unfold Dat.leavesExact; rw [liveAt5_2 t h1],
        after5_2, acc5_pos V c t h0]
      iintro ⟨⟨⟨HS, Hr⟩, Hg⟩, Ho, ⟨%d0, H0⟩, ⟨%d1, H1⟩, ⟨%d2, H2⟩⟩
      iapply (sound_kernel5_C c Set.univ (iblk5 V c 0 t) (iblk5 V c 1 t) hc0 ((hcond5_2 t).mpr h1))
      iframe H0 H1 H2 HS
      iintro ⟨H2, HS, H0, H1⟩
      iframe
    · rw [Dat.leavesExact_idle _ 2 t (idleAt5_2 t h1) (noFlush5_2 t h1)]
      iintro ⟨⟨⟨HS, Hr⟩, Hg⟩, Ho, ⟨%d0, H0⟩, ⟨%d1, H1⟩, ⟨%d2, H2⟩⟩
      iapply (sound_kernel5_B c Set.univ (iblk5 V c 0 t) (iblk5 V c 1 t) hc0 fun h => h1 ((hcond5_2 t).mp h))
      iframe H0 H1 H2 HS
      iintro ⟨HS, H0, H1, H2⟩
      iframe
      iexists _; iexact H2

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
import proofs.«405256_j52991306498534_2_alg».proof.Proof.Gen.KernelIdeal.Launch
import proofs.«405256_j52991306498534_2_alg».proof.Proof.Gen.KernelIdeal.Skeleton
import proofs.«405256_j52991306498534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem off6_zero : (![0, 0] : Fin 2 → Nat) = fun _ => 0 := funext fun a => by fin_cases a <;> rfl

abbrev rect6_acc : Rect S64x128 := Rect.unit (s := S64x128) ![0, 0] S64x128.size inb_S64x128_S64x128_0_0

abbrev cond6_1 (i : grid6.Coords) : Prop := (Scalar.cmpi .ne (Scalar.extui (Scalar.cmpi .eq (BitVec.ofNat 32 (i 0).val) 0#32)) 0#32) = 1#1
abbrev cond6_2 (i : grid6.Coords) : Prop := k6_cond2 i = 1#1

theorem cover6_cons (p0 : Vec F S64x128 .f32) (L : List (View.Piece (Elt F) S64x128 .f32)) (y : S64x128.Idx) :
    ∃ pc ∈ ((⟨rect6_acc, p0⟩ : View.Piece (Elt F) S64x128 .f32) :: L), y ∈ pc.1.set :=
  ⟨_, List.mem_cons.mpr (Or.inl rfl), View.mem_set_unit_zero off6_zero inb_S64x128_S64x128_0_0 y⟩

-- The first point: the sum starts from zero.
set_option maxHeartbeats 1000000 in
theorem sound_kernel6_A (c : Dev nD) (E : Set ℕ) {i : grid6.Coords}
    {arg1 : Memref sig .tc .vmem S5000x1 .i32} {harg1 : arg1.IsWhole} {arg2 : Memref sig .tc .vmem S5000x128 .f32} {harg2 : arg2.IsWhole}
    {arg3 argS : Memref sig .tc .vmem S64x128 .f32} {harg3 : arg3.IsWhole} {hargS : argS.IsWhole}
    (x0 : Vec F S5000x1 .i32) (x1 : Vec F S5000x128 .f32) {xi xs : Vec F S64x128 .f32} {K : PUnit → sProp 𝕄}
    (hc0 : cond6_1 i) (hc1 : ¬cond6_2 i) :
    iprop(owns c arg1 fullShare x0 ∗ owns c arg2 fullShare x1 ∗ owns c arg3 fullShare xi ∗ owns c argS fullShare xs
        ∗ (iprop(owns c argS fullShare (k6_pay2 x0 x1 k6_pay1) ∗ owns c arg1 fullShare x0 ∗ owns c arg2 fullShare x1 ∗ owns c arg3 fullShare xi) -∗ K ⟨⟩))
      ⊢ wp frame (wpE (defs₀ (F := F)) Variants.none c none) E (cc6__pool_kernel i arg1 harg1 arg2 harg2 arg3 harg3 argS hargS) K := by
  simp only [cc6__pool_kernel_eq_skeleton]; unfold cc6__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H3]
  · iexists _; isplitr; swap; · iexact H3
    ipureintro
    rw [View.read_writes_eq_canon _ _ _ (cover6_cons _ _), View.canon_cons_unit_zero off6_zero]
    sl_unfold_words
    rw [View.readCov_unit_zero (S := S64x128) _ off6_zero]
    simp only [View.readAt_eq_ld, View.ld_unit_zero (S := S5000x1) off6_zero, View.ld_unit_zero (S := S5000x128) off6_zero]
  isplitl [H0]
  · iexists f0; isplitr; · ipureintro; rfl
    iexact H0
  isplitl [H1]
  · iexists f1; isplitr; · ipureintro; rfl
    iexact H1
  iexists f2; isplitr; · ipureintro; rfl
  iexact H2

-- A point between: the block's product is added to the sum so far.
set_option maxHeartbeats 1000000 in
theorem sound_kernel6_B (c : Dev nD) (E : Set ℕ) {i : grid6.Coords}
    {arg1 : Memref sig .tc .vmem S5000x1 .i32} {harg1 : arg1.IsWhole} {arg2 : Memref sig .tc .vmem S5000x128 .f32} {harg2 : arg2.IsWhole}
    {arg3 argS : Memref sig .tc .vmem S64x128 .f32} {harg3 : arg3.IsWhole} {hargS : argS.IsWhole}
    (x0 : Vec F S5000x1 .i32) (x1 : Vec F S5000x128 .f32) {xi xs : Vec F S64x128 .f32} {K : PUnit → sProp 𝕄}
    (hc0 : ¬cond6_1 i) (hc1 : ¬cond6_2 i) :
    iprop(owns c arg1 fullShare x0 ∗ owns c arg2 fullShare x1 ∗ owns c arg3 fullShare xi ∗ owns c argS fullShare xs
        ∗ (iprop(owns c argS fullShare (k6_pay2 x0 x1 xs) ∗ owns c arg1 fullShare x0 ∗ owns c arg2 fullShare x1 ∗ owns c arg3 fullShare xi) -∗ K ⟨⟩))
      ⊢ wp frame (wpE (defs₀ (F := F)) Variants.none c none) E (cc6__pool_kernel i arg1 harg1 arg2 harg2 arg3 harg3 argS hargS) K := by
  simp only [cc6__pool_kernel_eq_skeleton]; unfold cc6__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H3]
  · iexists _; isplitr; swap; · iexact H3
    ipureintro
    rw [View.read_writes_eq_canon _ _ _ (cover6_cons _ _), View.canon_unit_zero off6_zero]
    simp only [View.readAt_eq_ld, View.ld_unit_zero (S := S5000x1) off6_zero, View.ld_unit_zero (S := S5000x128) off6_zero, View.ld_unit_zero (S := S64x128) off6_zero]
  isplitl [H0]
  · iexists f0; isplitr; · ipureintro; rfl
    iexact H0
  isplitl [H1]
  · iexists f1; isplitr; · ipureintro; rfl
    iexact H1
  iexists f2; isplitr; · ipureintro; rfl
  iexact H2

-- The last point: the new sum is also what the output block receives.
set_option maxHeartbeats 1000000 in
theorem sound_kernel6_C (c : Dev nD) (E : Set ℕ) {i : grid6.Coords}
    {arg1 : Memref sig .tc .vmem S5000x1 .i32} {harg1 : arg1.IsWhole} {arg2 : Memref sig .tc .vmem S5000x128 .f32} {harg2 : arg2.IsWhole}
    {arg3 argS : Memref sig .tc .vmem S64x128 .f32} {harg3 : arg3.IsWhole} {hargS : argS.IsWhole}
    (x0 : Vec F S5000x1 .i32) (x1 : Vec F S5000x128 .f32) {xi xs : Vec F S64x128 .f32} {K : PUnit → sProp 𝕄}
    (hc0 : ¬cond6_1 i) (hc1 : cond6_2 i) :
    iprop(owns c arg1 fullShare x0 ∗ owns c arg2 fullShare x1 ∗ owns c arg3 fullShare xi ∗ owns c argS fullShare xs
        ∗ (iprop(owns c arg3 fullShare (k6_pay2 x0 x1 xs) ∗ owns c argS fullShare (k6_pay2 x0 x1 xs) ∗ owns c arg1 fullShare x0 ∗ owns c arg2 fullShare x1) -∗ K ⟨⟩))
      ⊢ wp frame (wpE (defs₀ (F := F)) Variants.none c none) E (cc6__pool_kernel i arg1 harg1 arg2 harg2 arg3 harg3 argS hargS) K := by
  simp only [cc6__pool_kernel_eq_skeleton]; unfold cc6__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H2]
  · iexists _; isplitr; swap; · iexact H2
    ipureintro
    rw [View.read_writes_eq_canon _ _ _ (cover6_cons _ _), View.canon_unit_zero off6_zero]
    sl_unfold_words
    rw [View.readCov_unit_zero (S := S64x128) _ off6_zero]
    simp only [View.readAt_eq_ld, View.ld_unit_zero (S := S5000x1) off6_zero, View.ld_unit_zero (S := S5000x128) off6_zero, View.ld_unit_zero (S := S64x128) off6_zero]
  isplitl [H3]
  · iexists _; isplitr; swap; · iexact H3
    ipureintro
    sl_unfold_words
    rw [View.read_writes_eq_canon _ _ _ (cover6_cons _ _), View.canon_unit_zero off6_zero]
    simp only [View.readAt_eq_ld, View.ld_unit_zero (S := S5000x1) off6_zero, View.ld_unit_zero (S := S5000x128) off6_zero, View.ld_unit_zero (S := S64x128) off6_zero]
  isplitl [H0]
  · iexists f0; isplitr; · ipureintro; rfl
    iexact H0
  iexists f1; isplitr; · ipureintro; rfl
  iexact H1

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem hcond6_1 : ∀ t : Fin cfg6.N, cond6_1 (grid6.coords t) ↔ t.val = 0 :=
  (by decide +kernel : ∀ t : Fin grid6.N, cond6_1 (grid6.coords t) ↔ t.val = 0)
theorem hcond6_2 : ∀ t : Fin cfg6.N, cond6_2 (grid6.coords t) ↔ t.val = 19 :=
  (by decide +kernel : ∀ t : Fin grid6.N, cond6_2 (grid6.coords t) ↔ t.val = 19)

theorem liveAt6_0 : ∀ t : Fin cfg6.N, cfg6.idle 0 (grid6.coords t) = false := by decide +kernel
theorem liveAt6_1 : ∀ t : Fin cfg6.N, cfg6.idle 1 (grid6.coords t) = false := by decide +kernel
theorem idleAt6_2 : ∀ t : Fin cfg6.N, t.val ≠ 19 → cfg6.idle 2 (grid6.coords t) = true := by decide +kernel
theorem noFlush6_2 : ∀ t : Fin cfg6.N, t.val ≠ 19 → (cfg6.win 2).flush t = false := by decide +kernel
theorem liveAt6_2 : ∀ t : Fin cfg6.N, t.val = 19 → cfg6.idle 2 (grid6.coords t) = false := by decide +kernel

abbrev scr6_mem : Memref sig .tc .vmem S64x128 .f32 := Memref.whole cc6_scratch0

def acc6 (c : Dev nD) : (n : ℕ) → n < cfg6.N → Vec F S64x128 .f32
  | 0, h => k6_pay2 (iblk6 V c 0 ⟨0, h⟩) (iblk6 V c 1 ⟨0, h⟩) k6_pay1
  | n + 1, h => k6_pay2 (iblk6 V c 0 ⟨n + 1, h⟩) (iblk6 V c 1 ⟨n + 1, h⟩) (acc6 c n (Nat.lt_of_succ_lt h))

theorem acc6_zero (c : Dev nD) (h : 0 < cfg6.N) :
    acc6 V c 0 h = k6_pay2 (iblk6 V c 0 ⟨0, h⟩) (iblk6 V c 1 ⟨0, h⟩) k6_pay1 := rfl
theorem acc6_succ (c : Dev nD) (n : ℕ) (h : n + 1 < cfg6.N) :
    acc6 V c (n + 1) h = k6_pay2 (iblk6 V c 0 ⟨n + 1, h⟩) (iblk6 V c 1 ⟨n + 1, h⟩) (acc6 V c n (Nat.lt_of_succ_lt h)) := rfl

theorem acc6_first (c : Dev nD) (t : Fin cfg6.N) (h0 : t.val = 0) :
    acc6 V c t.val t.isLt = k6_pay2 (iblk6 V c 0 t) (iblk6 V c 1 t) k6_pay1 := by
  obtain ⟨n, hn⟩ := t
  cases n with
  | zero => rfl
  | succ n => exact absurd h0 (Nat.succ_ne_zero n)
theorem acc6_pos (c : Dev nD) (t : Fin cfg6.N) (h0 : t.val ≠ 0) :
    acc6 V c t.val t.isLt = k6_pay2 (iblk6 V c 0 t) (iblk6 V c 1 t) (acc6 V c (t.val - 1) (Nat.lt_of_le_of_lt (Nat.sub_le _ _) t.isLt)) := by
  obtain ⟨n, hn⟩ := t
  cases n with
  | zero => exact absurd rfl h0
  | succ n => rfl

theorem PhiA6_eq (c : Dev nD) :
    (Pipeline.ΦA spec6 c : sProp 𝕄)
      = iprop(iprop((∃ d, owns c scr6_mem fullShare d) ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scr6_mem, owns_whole]; try rfl

def Phi6 (c : Dev nD) : (n : ℕ) → n ≤ cfg6.N → sProp 𝕄
  | 0, _ => Pipeline.ΦA spec6 c
  | n + 1, hn => iprop(iprop(owns c scr6_mem fullShare (acc6 V c n hn) ∗ Pipeline.scopedRestBut (Ix := Unit) (Name := ℕ) (U := UR sig nD τ) (Lvl := ℕ) (Val := Elt F) spec6 c [cc6_scratch0]) ∗ (∃ r, prngReg c r))

theorem Phi6_zero (c : Dev nD) (n : ℕ) (h : n ≤ cfg6.N) (hz : n = 0) : Phi6 V c n h = Pipeline.ΦA spec6 c := by
  subst hz; rfl
theorem Phi6_succ (c : Dev nD) (n : ℕ) (hn : n < cfg6.N) :
    Phi6 V c (n + 1) hn = iprop(iprop(owns c scr6_mem fullShare (acc6 V c n hn) ∗ Pipeline.scopedRestBut (Ix := Unit) (Name := ℕ) (U := UR sig nD τ) (Lvl := ℕ) (Val := Elt F) spec6 c [cc6_scratch0]) ∗ (∃ r, prngReg c r)) := rfl
theorem Phi6_pos (c : Dev nD) (n : ℕ) (h : n ≤ cfg6.N) (hz : n ≠ 0) :
    Phi6 V c n h = iprop(iprop(owns c scr6_mem fullShare (acc6 V c (n - 1) (by omega)) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => acc6 V c t.val t.isLt
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = acc6 V c t.val t.isLt := by dsimp only [dat6]

theorem Phi6_castSucc (c : Dev nD) (t : Fin cfg6.N) :
    (dat6 V c).Φ t.castSucc = Phi6 V c t.val (Nat.le_of_lt t.isLt) := by
  dsimp only [dat6]; simp only [Fin.coe_castSucc]

theorem Phi6_first (c : Dev nD) : (dat6 V c).Φ 0 = Pipeline.ΦA spec6 c := rfl

theorem Phi6_last (c : Dev nD) : (dat6 V c).Φ (Fin.last cfg6.N) ⊢ Pipeline.ΦA spec6 c := by
  rw [show (dat6 V c).Φ (Fin.last cfg6.N) = Phi6 V c (Fin.last cfg6.N).val (Nat.le_of_lt_succ (Fin.last cfg6.N).isLt) from rfl,
    Phi6_pos V c _ _ (by rw [Fin.val_last]; have : cfg6.N = 20 := N_6; omega), PhiA6_eq]
  iintro ⟨⟨HS, Hr⟩, Hg⟩
  iframe
  iexists _; iexact HS

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d

def bodyPre6 (c : Dev nD) (t : Fin cfg6.N) : sProp 𝕄 :=
  iprop((dat6 V c).Φ t.castSucc ∗ (dat6 V c).owesAt () t.castSucc
    ∗ (∃ d, owns c (st6_0 t) fullShare ((dat6 V c).before 0 t d))
    ∗ (∃ d, owns c (st6_1 t) fullShare ((dat6 V c).before 1 t d))
    ∗ (∃ d, owns c (st6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

-- By cases on the point: the first, the last, or one between.
set_option maxHeartbeats 2000000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl,
    show (dat6 V c).Φ t.succ = Phi6 V c (t.val + 1) t.isLt from rfl, Phi6_succ, Phi6_castSucc V c t,
    show (dat6 V c).leavesExact 0 t = owns c (st6_0 t) fullShare ((dat6 V c).after 0 t) from by unfold Dat.leavesExact; rw [liveAt6_0 t],
    show (dat6 V c).leavesExact 1 t = owns c (st6_1 t) fullShare ((dat6 V c).after 1 t) from by unfold Dat.leavesExact; rw [liveAt6_1 t],
    after6_0, after6_1]
  have hN : t.val < 20 := lt_of_lt_of_eq t.isLt N_6
  by_cases h0 : t.val = 0
  · rw [Dat.leavesExact_idle _ 2 t (idleAt6_2 t (by omega)) (noFlush6_2 t (by omega)), Phi6_zero V c _ _ h0, PhiA6_eq, acc6_first V c t h0]
    iintro ⟨⟨⟨⟨%ds, HS⟩, Hr⟩, Hg⟩, Ho, ⟨%d0, H0⟩, ⟨%d1, H1⟩, ⟨%d2, H2⟩⟩
    iapply (sound_kernel6_A c Set.univ (iblk6 V c 0 t) (iblk6 V c 1 t) ((hcond6_1 t).mpr h0) fun h => by have := (hcond6_2 t).mp h; omega)
    iframe H0 H1 H2 HS
    iintro ⟨HS, H0, H1, H2⟩
    iframe
    iexists _; iexact H2
  · have hc0 : ¬cond6_1 (grid6.coords t) := fun h => h0 ((hcond6_1 t).mp h)
    rw [Phi6_pos V c _ _ h0, acc6_pos V c t h0]
    by_cases h1 : t.val = 19
    · rw [show (dat6 V c).leavesExact 2 t = owns c (st6_2 t) fullShare ((dat6 V c).after 2 t) from by unfold Dat.leavesExact; rw [liveAt6_2 t h1],
        after6_2, acc6_pos V c t h0]
      iintro ⟨⟨⟨HS, Hr⟩, Hg⟩, Ho, ⟨%d0, H0⟩, ⟨%d1, H1⟩, ⟨%d2, H2⟩⟩
      iapply (sound_kernel6_C c Set.univ (iblk6 V c 0 t) (iblk6 V c 1 t) hc0 ((hcond6_2 t).mpr h1))
      iframe H0 H1 H2 HS
      iintro ⟨H2, HS, H0, H1⟩
      iframe
    · rw [Dat.leavesExact_idle _ 2 t (idleAt6_2 t h1) (noFlush6_2 t h1)]
      iintro ⟨⟨⟨HS, Hr⟩, Hg⟩, Ho, ⟨%d0, H0⟩, ⟨%d1, H1⟩, ⟨%d2, H2⟩⟩
      iapply (sound_kernel6_B c Set.univ (iblk6 V c 0 t) (iblk6 V c 1 t) hc0 fun h => h1 ((hcond6_2 t).mp h))
      iframe H0 H1 H2 HS
      iintro ⟨HS, H0, H1, H2⟩
      iframe
      iexists _; iexact H2

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Run.lean ====
import proofs.«405256_j52991306498534_2_alg».proof.Proof.Gen.KernelIdeal.Regions
import proofs.«405256_j52991306498534_2_alg».proof.Proof.KI.Reg0
import proofs.«405256_j52991306498534_2_alg».proof.Proof.KI.Reg1
import proofs.«405256_j52991306498534_2_alg».proof.Proof.KI.Reg2
import proofs.«405256_j52991306498534_2_alg».proof.Proof.KI.Reg3
import proofs.«405256_j52991306498534_2_alg».proof.Proof.KI.Reg4
import proofs.«405256_j52991306498534_2_alg».proof.Proof.KI.Reg5
import proofs.«405256_j52991306498534_2_alg».proof.Proof.KI.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev B0 : Dev nD → Valuation τ sig (Elt F) := fun c b => (s₀ m ρ).mem ((c : Dev nD), b)
abbrev B1 : Dev nD → Valuation τ sig (Elt F) := fun c => StableHlo.after hostOps0 (B0 m ρ c)
abbrev R1 : (c : Dev nD) → (b : Ref sig .tc) → Buf (Elt F) ((c : Thread nD τ).loc b) := fun c b => B1 m ρ c b
theorem B1_of (c : Dev nD) (r : Ref sig .tc) (h : r ∉ hostOps0_W) : B1 m ρ c r = B0 m ρ c r :=
  StableHlo.after_of_writes_sub hostOps0 _ hostOps0_writes h
def B2 (c : Dev nD) : Valuation τ sig (Elt F) :=
  Pipeline.withArrays spec0 c (B1 m ρ c) fun w => (dat0 (R1 m ρ) c).arrAt w cfg0.N
theorem B2_arr (c : Dev nD) (w : Fin cfg0.W) :
    B2 m ρ c (Proc.devRef .tc (Pipeline.arrRef spec0 w)) = (dat0 (R1 m ρ) c).arrAt w cfg0.N :=
  Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) :=
  Pipeline.withArrays_of_ne spec0 c _ _ b hb
abbrev B3 : Dev nD → Valuation τ sig (Elt F) := fun c => StableHlo.after hostOps1 (B2 m ρ c)
abbrev R3 : (c : Dev nD) → (b : Ref sig .tc) → Buf (Elt F) ((c : Thread nD τ).loc b) := fun c b => B3 m ρ c b
theorem B3_of (c : Dev nD) (r : Ref sig .tc) (h : r ∉ hostOps1_W) : B3 m ρ c r = B2 m ρ c r :=
  StableHlo.after_of_writes_sub hostOps1 _ hostOps1_writes h
def B4 (c : Dev nD) : Valuation τ sig (Elt F) :=
  Pipeline.withArrays spec1 c (B3 m ρ c) fun w => (dat1 (R3 m ρ) c).arrAt w cfg1.N
theorem B4_arr (c : Dev nD) (w : Fin cfg1.W) :
    B4 m ρ c (Proc.devRef .tc (Pipeline.arrRef spec1 w)) = (dat1 (R3 m ρ) c).arrAt w cfg1.N :=
  Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) :=
  Pipeline.withArrays_of_ne spec1 c _ _ b hb
abbrev B5 : Dev nD → Valuation τ sig (Elt F) := fun c => StableHlo.after hostOps2 (B4 m ρ c)
abbrev R5 : (c : Dev nD) → (b : Ref sig .tc) → Buf (Elt F) ((c : Thread nD τ).loc b) := fun c b => B5 m ρ c b
theorem B5_of (c : Dev nD) (r : Ref sig .tc) (h : r ∉ hostOps2_W) : B5 m ρ c r = B4 m ρ c r :=
  StableHlo.after_of_writes_sub hostOps2 _ hostOps2_writes h
def B6 (c : Dev nD) : Valuation τ sig (Elt F) :=
  Pipeline.withArrays spec2 c (B5 m ρ c) fun w => (dat2 (R5 m ρ) c).arrAt w cfg2.N
theorem B6_arr (c : Dev nD) (w : Fin cfg2.W) :
    B6 m ρ c (Proc.devRef .tc (Pipeline.arrRef spec2 w)) = (dat2 (R5 m ρ) c).arrAt w cfg2.N :=
  Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) :=
  Pipeline.withArrays_of_ne spec2 c _ _ b hb
abbrev B7 : Dev nD → Valuation τ sig (Elt F) := fun c => StableHlo.after hostOps3 (B6 m ρ c)
abbrev R7 : (c : Dev nD) → (b : Ref sig .tc) → Buf (Elt F) ((c : Thread nD τ).loc b) := fun c b => B7 m ρ c b
theorem B7_of (c : Dev nD) (r : Ref sig .tc) (h : r ∉ hostOps3_W) : B7 m ρ c r = B6 m ρ c r :=
  StableHlo.after_of_writes_sub hostOps3 _ hostOps3_writes h
def B8 (c : Dev nD) : Valuation τ sig (Elt F) :=
  Pipeline.withArrays spec3 c (B7 m ρ c) fun w => (dat3 (R7 m ρ) c).arrAt w cfg3.N
theorem B8_arr (c : Dev nD) (w : Fin cfg3.W) :
    B8 m ρ c (Proc.devRef .tc (Pipeline.arrRef spec3 w)) = (dat3 (R7 m ρ) c).arrAt w cfg3.N :=
  Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) :=
  Pipeline.withArrays_of_ne spec3 c _ _ b hb
abbrev B9 : Dev nD → Valuation τ sig (Elt F) := fun c => StableHlo.after hostOps4 (B8 m ρ c)
abbrev R9 : (c : Dev nD) → (b : Ref sig .tc) → Buf (Elt F) ((c : Thread nD τ).loc b) := fun c b => B9 m ρ c b
theorem B9_of (c : Dev nD) (r : Ref sig .tc) (h : r ∉ hostOps4_W) : B9 m ρ c r = B8 m ρ c r :=
  StableHlo.after_of_writes_sub hostOps4 _ hostOps4_writes h
def B10 (c : Dev nD) : Valuation τ sig (Elt F) :=
  Pipeline.withArrays spec4 c (B9 m ρ c) fun w => (dat4 (R9 m ρ) c).arrAt w cfg4.N
theorem B10_arr (c : Dev nD) (w : Fin cfg4.W) :
    B10 m ρ c (Proc.devRef .tc (Pipeline.arrRef spec4 w)) = (dat4 (R9 m ρ) c).arrAt w cfg4.N :=
  Pipeline.withArrays_arr spec4 launch4.win.arr_inj c _ _ w
theorem B10_of_ne (c : Dev nD) (b : Ref sig .tc) (hb : ∀ w, Pipeline.arrRef spec4 w ≠ b) :
    B10 m ρ c (Proc.devRef .tc b) = B9 m ρ c (Proc.devRef .tc b) :=
  Pipeline.withArrays_of_ne spec4 c _ _ b hb
abbrev B11 : Dev nD → Valuation τ sig (Elt F) := fun c => StableHlo.after hostOps5 (B10 m ρ c)
abbrev R11 : (c : Dev nD) → (b : Ref sig .tc) → Buf (Elt F) ((c : Thread nD τ).loc b) := fun c b => B11 m ρ c b
theorem B11_of (c : Dev nD) (r : Ref sig .tc) (h : r ∉ hostOps5_W) : B11 m ρ c r = B10 m ρ c r :=
  StableHlo.after_of_writes_sub hostOps5 _ hostOps5_writes h
def B12 (c : Dev nD) : Valuation τ sig (Elt F) :=
  Pipeline.withArrays spec5 c (B11 m ρ c) fun w => (dat5 (R11 m ρ) c).arrAt w cfg5.N
theorem B12_arr (c : Dev nD) (w : Fin cfg5.W) :
    B12 m ρ c (Proc.devRef .tc (Pipeline.arrRef spec5 w)) = (dat5 (R11 m ρ) c).arrAt w cfg5.N :=
  Pipeline.withArrays_arr spec5 launch5.win.arr_inj c _ _ w
theorem B12_of_ne (c : Dev nD) (b : Ref sig .tc) (hb : ∀ w, Pipeline.arrRef spec5 w ≠ b) :
    B12 m ρ c (Proc.devRef .tc b) = B11 m ρ c (Proc.devRef .tc b) :=
  Pipeline.withArrays_of_ne spec5 c _ _ b hb
abbrev B13 : Dev nD → Valuation τ sig (Elt F) := fun c => StableHlo.after hostOps6 (B12 m ρ c)
abbrev R13 : (c : Dev nD) → (b : Ref sig .tc) → Buf (Elt F) ((c : Thread nD τ).loc b) := fun c b => B13 m ρ c b
theorem B13_of (c : Dev nD) (r : Ref sig .tc) (h : r ∉ hostOps6_W) : B13 m ρ c r = B12 m ρ c r :=
  StableHlo.after_of_writes_sub hostOps6 _ hostOps6_writes h
def B14 (c : Dev nD) : Valuation τ sig (Elt F) :=
  Pipeline.withArrays spec6 c (B13 m ρ c) fun w => (dat6 (R13 m ρ) c).arrAt w cfg6.N
theorem B14_arr (c : Dev nD) (w : Fin cfg6.W) :
    B14 m ρ c (Proc.devRef .tc (Pipeline.arrRef spec6 w)) = (dat6 (R13 m ρ) c).arrAt w cfg6.N :=
  Pipeline.withArrays_arr spec6 launch6.win.arr_inj c _ _ w
theorem B14_of_ne (c : Dev nD) (b : Ref sig .tc) (hb : ∀ w, Pipeline.arrRef spec6 w ≠ b) :
    B14 m ρ c (Proc.devRef .tc b) = B13 m ρ c (Proc.devRef .tc b) :=
  Pipeline.withArrays_of_ne spec6 c _ _ b hb
abbrev B15 : Dev nD → Valuation τ sig (Elt F) := fun c => StableHlo.after hostOps7 (B14 m ρ c)
theorem B15_of (c : Dev nD) (r : Ref sig .tc) (h : r ∉ hostOps7_W) : B15 m ρ c r = B14 m ρ c r :=
  StableHlo.after_of_writes_sub hostOps7 _ hostOps7_writes h
abbrev B16 : Dev nD → Valuation τ sig (Elt F) := fun c => StableHlo.after hostOps7_1 (B15 m ρ c)
theorem B16_of (c : Dev nD) (r : Ref sig .tc) (h : r ∉ hostOps7_1_W) : B16 m ρ c r = B15 m ρ c r :=
  StableHlo.after_of_writes_sub hostOps7_1 _ hostOps7_1_writes h
abbrev B17 : Dev nD → Valuation τ sig (Elt F) := fun c => StableHlo.after hostOps7_2 (B16 m ρ c)
theorem B17_of (c : Dev nD) (r : Ref sig .tc) (h : r ∉ hostOps7_2_W) : B17 m ρ c r = B16 m ρ c r :=
  StableHlo.after_of_writes_sub hostOps7_2 _ hostOps7_2_writes h

def pdats : (p : Fin 7) → (c : Dev nD) → Dat τ (Elt F) Unit ℕ (UR sig nD τ) ℕ (Pipeline.pin (pcfgs (F := F)) adm p) c
  | ⟨0, _⟩ => dat0 (R1 m ρ)
  | ⟨1, _⟩ => dat1 (R3 m ρ)
  | ⟨2, _⟩ => dat2 (R5 m ρ)
  | ⟨3, _⟩ => dat3 (R7 m ρ)
  | ⟨4, _⟩ => dat4 (R9 m ρ)
  | ⟨5, _⟩ => dat5 (R11 m ρ)
  | ⟨6, _⟩ => dat6 (R13 m ρ)
abbrev 𝒱₀ : Variants := Variants.none
abbrev L : GSem nD τ sig → Finset Unit := fun _ => ∅
abbrev lv : GSem nD τ sig → Unit → ℕ := fun _ _ => 0
abbrev Rst (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tfin (c : Dev nD) : sProp 𝕄 := iprop(StableHlo.held (c : Thread nD τ) (Pipeline.ucRefs τ sig) (B17 m ρ c) ∗ ∃ r, prngReg c r)

set_option backward.isDefEq.respectTransparency.types false in
-- A region gives up its arrays at entry and takes them back at their last contents at exit; every other buffer is carried across.
def regOf (p : Fin 7) (lf : Pipeline.LaunchFacts (nD := nD) (τ := τ) cfgs p) (V : Dev nD → Valuation τ sig (Elt F))
    (hb : ∀ c, BodyObligation (pdats m ρ p c) (defs₀ (F := F)) 𝒱₀ () Set.univ)
    (hq : ∀ c w, (pdats m ρ p c).q w = fullShare)
    (hA : ∀ c w, (pdats m ρ p c).A w = V c (Pipeline.arrRef (cfgs p).spec w))
    (ho : ∀ c t, (pdats m ρ p c).owed t = 0)
    (hr : ∀ c, (pdats m ρ p c).recorded 0 = Set.univ)
    (h0 : ∀ c, Pipeline.ΦA (cfgs p).spec c ⊢ (pdats m ρ p c).Φ 0)
    (hN : ∀ c, (pdats m ρ p c).Φ (Fin.last _) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (V c) ∗ Rst c)
  post c := iprop(StableHlo.held (c : Thread nD τ) (Pipeline.ucRefs τ sig)
    (Pipeline.withArrays (cfgs p).spec c (V c) fun w => (pdats m ρ p c).arrAt w (cfgs p).N) ∗ Rst c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none, Pipeline.Dat.owesAt, ho c 0]
    have hsplit := Pipeline.arrays_of_unscopedBufs (p := p) (pcfgs (F := F)) adm (pdats m ρ) lf.win lf.arr_whole c
      ((pdats m ρ p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.owesWithin
      icases HO with ⟨%W, HO⟩; iexists W; isplitr; · ipureintro; exact fun _ _ => Or.inl (hr c ▸ trivial)
      iexact HO
    isplitl [Hp]; · iexact Hp
    iexact Hrest
  hin c := by
    refine .trans ?_ (h0 c); unfold Pipeline.ΦA
    iintro ⟨Hp, -, Hr⟩
    isplitl [Hr]; · iexact Hr
    iexact Hp
  hout c := by
    rw [Pipeline.ownSems0_none]
    refine (hN c).trans ?_
    unfold Pipeline.ΦA
    iintro ⟨Hr, Hp⟩
    isplitl [Hp]; · iexact Hp
    isplitr; · iempintro
    iexact Hr
  hexit c := by
    rw [Pipeline.Dat.owesAt, ho c (Fin.last _)]
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (fun b => V c b)
      (fun b => Pipeline.withArrays (cfgs p).spec c (V c) (fun w => (pdats m ρ p c).arrAt w (cfgs p).N) b) _
      (fun w => (Pipeline.withArrays_arr _ lf.win.arr_inj c _ _ w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.owesWithin
    icases HO with ⟨%W, -, HO⟩; iexists W; iexact HO

def reg0 := regOf m ρ 0 launch0 (B1 m ρ) (body_obligation0 (R1 m ρ)) (fun _ _ => rfl) (fun _ _ => rfl) (fun _ _ => rfl) (fun _ => rfl)
  (fun _ => .rfl) fun _ => .rfl
def reg1 := regOf m ρ 1 launch1 (B3 m ρ) (body_obligation1 (R3 m ρ)) (fun _ _ => rfl) (fun _ _ => rfl) (fun _ _ => rfl) (fun _ => rfl)
  (fun _ => .rfl) fun _ => .rfl
def reg2 := regOf m ρ 2 launch2 (B5 m ρ) (body_obligation2 (R5 m ρ)) (fun _ _ => rfl) (fun _ _ => rfl) (fun _ _ => rfl) (fun _ => rfl)
  (fun _ => .rfl) fun _ => .rfl
def reg3 := regOf m ρ 3 launch3 (B7 m ρ) (body_obligation3 (R7 m ρ)) (fun _ _ => rfl) (fun _ _ => rfl) (fun _ _ => rfl) (fun _ => rfl)
  (fun _ => .rfl) fun _ => .rfl
def reg4 := regOf m ρ 4 launch4 (B9 m ρ) (body_obligation4 (R9 m ρ)) (fun _ _ => rfl) (fun _ _ => rfl) (fun _ _ => rfl) (fun _ => rfl)
  (fun _ => .rfl) (Phi4_last (R9 m ρ))
def reg5 := regOf m ρ 5 launch5 (B11 m ρ) (body_obligation5 (R11 m ρ)) (fun _ _ => rfl) (fun _ _ => rfl) (fun _ _ => rfl) (fun _ => rfl)
  (fun _ => .rfl) (Phi5_last (R11 m ρ))
def reg6 := regOf m ρ 6 launch6 (B13 m ρ) (body_obligation6 (R13 m ρ)) (fun _ _ => rfl) (fun _ _ => rfl) (fun _ _ => rfl) (fun _ => rfl)
  (fun _ => .rfl) (Phi6_last (R13 m ρ))

abbrev segs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)),
    .region (reg3 m ρ),
    .host (hseg hostOps4 hostOps4_sub hostOps4_fresh (B8 m ρ)),
    .region (reg4 m ρ),
    .host (hseg hostOps5 hostOps5_sub hostOps5_fresh (B10 m ρ)),
    .region (reg5 m ρ),
    .host (hseg hostOps6 hostOps6_sub hostOps6_fresh (B12 m ρ)),
    .region (reg6 m ρ),
    .host (hseg hostOps7 hostOps7_sub hostOps7_fresh (B14 m ρ)),
    .host (hseg hostOps7_1 hostOps7_1_sub hostOps7_1_fresh (B15 m ρ)),
    .host (hseg hostOps7_2 hostOps7_2_sub hostOps7_2_fresh (B16 m ρ)) ]

theorem main_run (c : Dev nD) : main (F := F) c = Pipeline.Seg.run (segs m ρ) := (main_chain c).trans (by chain_rfl)

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem (((c : Thread nD τ)).1, b) = B17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]
      iintro Hu; imodintro
      isplitl [Hu]; · iapply (show (ownU _ : sProp 𝕄) ⊢ BI.own (emb₁ _) from .rfl); iexact Hu
      iempintro)
    (T₀ := fun c => iprop(StableHlo.held (c : Thread nD τ) (Pipeline.ucRefs τ sig) (B0 m ρ c) ∗ Rst c)) (Tₙ := Tfin m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B17 m ρ c b)
    (hfin := fun c s' => by
      iintro ⟨⟨Hh, -⟩, HSI⟩
      unfold StableHlo.held
      imodintro
      iapply (pointsTo_read_all (Pipeline.ucRefs τ sig) (fun b => (((c : Thread nD τ)).1, b)) (B17 m ρ c) s')
      isplitl [Hh] <;> iassumption)
    (hQ := fun s h c => h c)

end Cert.KernelIdeal.Hand

end
-- ==== Proof.KI.Keep.lean ====
import proofs.«405256_j52991306498534_2_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

namespace Cert.KernelIdeal.Hand

open Cert.KernelIdeal Cert.KernelIdeal.Gen
open Idealize.ShloMosaic Idealize.ShloMosaic.TcCoe
open Idealize.ShloMosaic.Pipeline (Dat Cfg)

variable {F : FTy → Type} [FloatOps F]

variable (m : (ℓ : Loc nD τ sig) → Buf (Elt F) ℓ) (ρ : Dev nD → PrngReg)

-- By cases on whether `r` is some window's array, and if so whether that window is an output.
theorem region_keep {cfg : Cfg sig Λ₀} {c : Dev nD} (dat : Dat τ (Elt F) Unit ℕ (UR sig nD τ) ℕ cfg c)
    (hinj : Function.Injective (Pipeline.arrRef cfg.spec)) {V : Valuation τ sig (Elt F)}
    (hA : ∀ w, dat.A w = V (Proc.devRef .tc (Pipeline.arrRef cfg.spec w)))
    {outs : List (Ref sig .tc)} (houts : ∀ w, (cfg.win w).isOut = true → Pipeline.arrRef cfg.spec w ∈ outs)
    {r : Ref sig .tc} (h : r ∉ outs) :
    Pipeline.withArrays cfg.spec c V (fun w => dat.arrAt w cfg.N) (Proc.devRef .tc r) = V (Proc.devRef .tc r) := by
  by_cases hw : ∃ w, Pipeline.arrRef cfg.spec w = r
  · obtain ⟨w, rfl⟩ := hw
    cases hin : (cfg.win w).isOut with
    | false => exact (Pipeline.withArrays_arr _ hinj c V _ w).trans ((dat.arrAt_in w hin _).trans (hA w))
    | true => exact absurd (houts w hin) h
  · exact Pipeline.withArrays_of_ne _ c V _ r fun w e => hw ⟨w, e⟩

theorem B2_keep (c : Dev nD) (r : Ref sig .tc) (h : r ∉ ([main_v5_0, main_v5_1] : List (Ref sig .tc))) :
    B2 m ρ c (Proc.devRef .tc r) = B1 m ρ c (Proc.devRef .tc r) :=
  region_keep (dat0 (R1 m ρ) c) launch0.win.arr_inj (A_eq0 (R1 m ρ) c) (by decide) h
theorem B4_keep (c : Dev nD) (r : Ref sig .tc) (h : r ∉ ([main_v39_0, main_v39_1] : List (Ref sig .tc))) :
    B4 m ρ c (Proc.devRef .tc r) = B3 m ρ c (Proc.devRef .tc r) :=
  region_keep (dat1 (R3 m ρ) c) launch1.win.arr_inj (A_eq1 (R3 m ρ) c) (by decide) h
theorem B6_keep (c : Dev nD) (r : Ref sig .tc) (h : r ∉ ([main_v73_0, main_v73_1] : List (Ref sig .tc))) :
    B6 m ρ c (Proc.devRef .tc r) = B5 m ρ c (Proc.devRef .tc r) :=
  region_keep (dat2 (R5 m ρ) c) launch2.win.arr_inj (A_eq2 (R5 m ρ) c) (by decide) h
theorem B8_keep (c : Dev nD) (r : Ref sig .tc) (h : r ∉ ([main_v107_0, main_v107_1] : List (Ref sig .tc))) :
    B8 m ρ c (Proc.devRef .tc r) = B7 m ρ c (Proc.devRef .tc r) :=
  region_keep (dat3 (R7 m ρ) c) launch3.win.arr_inj (A_eq3 (R7 m ρ) c) (by decide) h
theorem B10_keep (c : Dev nD) (r : Ref sig .tc) (h : r ∉ ([main_v116] : List (Ref sig .tc))) :
    B10 m ρ c (Proc.devRef .tc r) = B9 m ρ c (Proc.devRef .tc r) :=
  region_keep (dat4 (R9 m ρ) c) launch4.win.arr_inj (A_eq4 (R9 m ρ) c) (by decide) h
theorem B12_keep (c : Dev nD) (r : Ref sig .tc) (h : r ∉ ([main_v120] : List (Ref sig .tc))) :
    B12 m ρ c (Proc.devRef .tc r) = B11 m ρ c (Proc.devRef .tc r) :=
  region_keep (dat5 (R11 m ρ) c) launch5.win.arr_inj (A_eq5 (R11 m ρ) c) (by decide) h
theorem B14_keep (c : Dev nD) (r : Ref sig .tc) (h : r ∉ ([main_v124] : List (Ref sig .tc))) :
    B14 m ρ c (Proc.devRef .tc r) = B13 m ρ c (Proc.devRef .tc r) :=
  region_keep (dat6 (R13 m ρ) c) launch6.win.arr_inj (A_eq6 (R13 m ρ) c) (by decide) h

end Cert.KernelIdeal.Hand
-- ==== Proof.KI.Args.lean ====
import proofs.«405256_j52991306498534_2_alg».proof.Proof.KI.Keep
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

namespace Cert.KernelIdeal.Hand

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ) (ρ : Dev nD → PrngReg)

abbrev Untouched (r : Ref sig .tc) : Prop :=
  r ∉ hostOps7_2_W ∧ r ∉ hostOps7_1_W ∧ r ∉ hostOps7_W ∧ r ∉ [main_v124] ∧ r ∉ hostOps6_W ∧ r ∉ [main_v120]
  ∧ r ∉ hostOps5_W ∧ r ∉ [main_v116] ∧ r ∉ hostOps4_W ∧ r ∉ [main_v107_0, main_v107_1] ∧ r ∉ hostOps3_W
  ∧ r ∉ [main_v73_0, main_v73_1] ∧ r ∉ hostOps2_W ∧ r ∉ [main_v39_0, main_v39_1] ∧ r ∉ hostOps1_W ∧ r ∉ [main_v5_0, main_v5_1] ∧ r ∉ hostOps0_W

-- No host stretch writes `r` and no region has it as an output array, so each of the seventeen segments passes it on as found.
theorem B17_keep (c : Dev nD) (r : Ref sig .tc) (h : Untouched r) :
    B17 m ρ c (Proc.devRef .tc r) = m ((c : Thread nD τ).loc r) := by
  obtain ⟨h17, h16, h15, h14, h13, h12, h11, h10, h9, h8, h7, h6, h5, h4, h3, h2, h1⟩ := h
  exact (B17_of m ρ c r h17).trans <| (B16_of m ρ c r h16).trans <| (B15_of m ρ c r h15).trans <| (B14_keep m ρ c r h14).trans <|
    (B13_of m ρ c r h13).trans <| (B12_keep m ρ c r h12).trans <| (B11_of m ρ c r h11).trans <| (B10_keep m ρ c r h10).trans <|
    (B9_of m ρ c r h9).trans <| (B8_keep m ρ c r h8).trans <| (B7_of m ρ c r h7).trans <| (B6_keep m ρ c r h6).trans <|
    (B5_of m ρ c r h5).trans <| (B4_keep m ρ c r h4).trans <| (B3_of m ρ c r h3).trans <| (B2_keep m ρ c r h2).trans <|
    (B1_of m ρ c r h1)

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17]

abbrev ArgsKept (mem : (ℓ : Loc nD τ sig) → Buf (Elt F) ℓ) (c : Dev nD) : Prop :=
  args.Forall fun r => mem ((c.tc : Thread nD τ).loc r) = m ((c.tc : Thread nD τ).loc r)

-- That the arguments are untouched is decided once for the whole list; `B17_keep` then reads each back to the launch.
theorem args_kept (c : Dev nD) {mem : (ℓ : Loc nD τ sig) → Buf (Elt F) ℓ}
    (h : ∀ b ∈ Pipeline.ucRefs τ sig, mem (((c : Thread nD τ)).1, b) = B17 m ρ c b) : ArgsKept m mem c :=
  List.forall_iff_forall_mem.mpr fun r hr =>
    have hr := (by decide : ∀ r ∈ args, ¬ (Proc.devRef .tc r : DevRef τ sig).isScoped ∧ Untouched r) r hr
    (h _ (mem_uc r hr.1)).trans (B17_keep m ρ c r hr.2)

theorem frame : θ_run defs (onTc (τ := τ) (main (F := F))) ⟨m, fun _ => 0, ρ⟩ (fun r => ∀ c : Dev nD, ArgsKept m r.2.mem c) :=
  (θ_run defs _ _).mono (fun r h c => args_kept m ρ c (h c)) (run m ρ)

end Cert.KernelIdeal.Hand
-- ==== Proof.Ref.ReadP.lean ====
import proofs.«405256_j52991306498534_2_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

def val_main_v0 (x2 : (⟨S2x1600000, .i32⟩ : BufTy).Contents (Elt F)) : (⟨S1x1600000, .i32⟩ : BufTy).Contents (Elt F) :=
  extractStridedSlice S1x1600000 ![0, 0] (x2) slices_S2x1600000_S1x1600000_0_0
def val_main_v1 (x2 : (⟨S2x1600000, .i32⟩ : BufTy).Contents (Elt F)) : (⟨S1600000, .i32⟩ : BufTy).Contents (Elt F) :=
  shapeCast _ (val_main_v0 (F := F) x2) shapeCasts_S1x1600000_S1600000
def val_main_v2 (x2 : (⟨S2x1600000, .i32⟩ : BufTy).Contents (Elt F)) : (⟨S1x1600000, .i32⟩ : BufTy).Contents (Elt F) :=
  extractStridedSlice S1x1600000 ![1, 0] (x2) slices_S2x1600000_S1x1600000_1_0
def val_main_v3 (x2 : (⟨S2x1600000, .i32⟩ : BufTy).Contents (Elt F)) : (⟨S1600000, .i32⟩ : BufTy).Contents (Elt F) :=
  shapeCast _ (val_main_v2 (F := F) x2) shapeCasts_S1x1600000_S1600000
def val_main_v4 (x0 : (⟨S100000x64, .f32⟩ : BufTy).Contents (Elt F)) (x4 : (⟨S64x128, .f32⟩ : BufTy).Contents (Elt F)) : (⟨S100000x128, .f32⟩ : BufTy).Contents (Elt F) :=
  Host.dotGeneral dot_S100000x64_S64x128_S100000x128_1_0_0_1_n_n none (x0) (x4)
theorem lhs_main_v4_0 (i : S100000x128.Idx) (q : dot_S100000x64_S64x128_S100000x128_1_0_0_1_n_n.contr.Idx) :
    (dot_S100000x64_S64x128_S100000x128_1_0_0_1_n_n.lhsIdx i q 0).val = (i 0).val := by
  unfold DotDims.lhsIdx
  rw [dif_neg (show ¬(0 : Fin S100000x64.rank) ∈ dot_S100000x64_S64x128_S100000x128_1_0_0_1_n_n.lhsBatch by decide), dif_pos (show (0 : Fin S100000x64.rank) ∈ dot_S100000x64_S64x128_S100000x128_1_0_0_1_n_n.lhsNonContracting by decide)]
  rfl
theorem lhs_main_v4_1 (i : S100000x128.Idx) (q : dot_S100000x64_S64x128_S100000x128_1_0_0_1_n_n.contr.Idx) :
    (dot_S100000x64_S64x128_S100000x128_1_0_0_1_n_n.lhsIdx i q 1).val = (q ⟨0, by decide⟩).val :=
  dot_S100000x64_S64x128_S100000x128_1_0_0_1_n_n.lhsIdx_val_of_single rfl i q
theorem rhs_main_v4_0 (i : S100000x128.Idx) (q : dot_S100000x64_S64x128_S100000x128_1_0_0_1_n_n.contr.Idx) :
    (dot_S100000x64_S64x128_S100000x128_1_0_0_1_n_n.rhsIdx i q 0).val = (q ⟨0, by decide⟩).val :=
  dot_S100000x64_S64x128_S100000x128_1_0_0_1_n_n.rhsIdx_val_of_single rfl i q
theorem rhs_main_v4_1 (i : S100000x128.Idx) (q : dot_S100000x64_S64x128_S100000x128_1_0_0_1_n_n.contr.Idx) :
    (dot_S100000x64_S64x128_S100000x128_1_0_0_1_n_n.rhsIdx i q 1).val = (i 1).val := by
  unfold DotDims.rhsIdx
  rw [dif_neg (show ¬(1 : Fin S64x128.rank) ∈ dot_S100000x64_S64x128_S100000x128_1_0_0_1_n_n.rhsBatch by decide), dif_pos (show (1 : Fin S64x128.rank) ∈ dot_S100000x64_S64x128_S100000x128_1_0_0_1_n_n.rhsNonContracting by decide)]
  rfl
abbrev lidx_main_v4 (i : S100000x128.Idx) (k : Fin 64) : S100000x64.Idx := fun a => match a with
  | ⟨0, _⟩ => ⟨(i 0).val, (i 0).isLt⟩
  | ⟨1, _⟩ => ⟨k.val, k.isLt⟩
abbrev ridx_main_v4 (i : S100000x128.Idx) (k : Fin 64) : S64x128.Idx := fun a => match a with
  | ⟨0, _⟩ => ⟨k.val, k.isLt⟩
  | ⟨1, _⟩ => ⟨(i 1).val, (i 1).isLt⟩
theorem val_main_v4_apply (x0 : (⟨S100000x64, .f32⟩ : BufTy).Contents (Elt Ideal)) (x4 : (⟨S64x128, .f32⟩ : BufTy).Contents (Elt Ideal)) (i : S100000x128.Idx) :
    val_main_v4 (F := Ideal) x0 x4 i = ∑ k : Fin 64, x0 (lidx_main_v4 i k) * x4 (ridx_main_v4 i k) := by
  unfold val_main_v4
  simp only [Host.dotGeneral]
  rw [Ideal.dotGeneral_apply, ← Equiv.sum_comp (ValueIdx.contrEquiv1 dot_S100000x64_S64x128_S100000x128_1_0_0_1_n_n 64 rfl rfl).symm]
  refine Finset.sum_congr rfl fun k _ => ?_
  have hk := ValueIdx.contrEquiv1_symm_val dot_S100000x64_S64x128_S100000x128_1_0_0_1_n_n 64 rfl rfl k
  have el : dot_S100000x64_S64x128_S100000x128_1_0_0_1_n_n.lhsIdx i ((ValueIdx.contrEquiv1 dot_S100000x64_S64x128_S100000x128_1_0_0_1_n_n 64 rfl rfl).symm k) = lidx_main_v4 i k := funext fun a => Fin.ext (by
    match a with
    | ⟨0, _⟩ => exact lhs_main_v4_0 _ _
    | ⟨1, _⟩ => exact (lhs_main_v4_1 _ _).trans hk)
  have er : dot_S100000x64_S64x128_S100000x128_1_0_0_1_n_n.rhsIdx i ((ValueIdx.contrEquiv1 dot_S100000x64_S64x128_S100000x128_1_0_0_1_n_n 64 rfl rfl).symm k) = ridx_main_v4 i k := funext fun a => Fin.ext (by
    match a with
    | ⟨0, _⟩ => exact (rhs_main_v4_0 _ _).trans hk
    | ⟨1, _⟩ => exact rhs_main_v4_1 _ _)
  rw [el, er]

def val_main_v5 (x5 : (⟨S128, .f32⟩ : BufTy).Contents (Elt F)) : (⟨S1x128, .f32⟩ : BufTy).Contents (Elt F) :=
  broadcastInDim S1x128 ![1] bcast_S128_S1x128_1 (x5)
abbrev idx_main_v5 (i : S1x128.Idx) : S128.Idx := fun a => match a with
  | ⟨0, _⟩ => ⟨(i 1).val, (i 1).isLt⟩
theorem val_main_v5_apply (x5 : (⟨S128, .f32⟩ : BufTy).Contents (Elt F)) (i : S1x128.Idx) :
    val_main_v5 (F := F) x5 i = x5 (idx_main_v5 i) := by
  unfold val_main_v5
  exact broadcastInDim_apply _ bcast_S128_S1x128_1 x5 i (idx_main_v5 i) (fun a => match a with
    | ⟨0, _⟩ => by show (i 1).val = if (128 : Nat) = 1 then 0 else (i 1).val; rw [if_neg (by decide)])

def val_main_v6 (x5 : (⟨S128, .f32⟩ : BufTy).Contents (Elt F)) : (⟨S100000x128, .f32⟩ : BufTy).Contents (Elt F) :=
  broadcastInDim S100000x128 ![0, 1] bcast_S1x128_S100000x128_0_1 (val_main_v5 (F := F) x5)
abbrev idx_main_v6 (i : S100000x128.Idx) : S1x128.Idx := fun a => match a with
  | ⟨0, _⟩ => ⟨0, Nat.one_pos⟩
  | ⟨1, _⟩ => ⟨(i 1).val, (i 1).isLt⟩
theorem val_main_v6_apply (x5 : (⟨S128, .f32⟩ : BufTy).Contents (Elt F)) (i : S100000x128.Idx) :
    val_main_v6 (F := F) x5 i = val_main_v5 (F := F) x5 (idx_main_v6 i) := by
  unfold val_main_v6
  generalize val_main_v5 (F := F) x5 = y
  exact broadcastInDim_apply _ bcast_S1x128_S100000x128_0_1 y i (idx_main_v6 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v7 (x0 : (⟨S100000x64, .f32⟩ : BufTy).Contents (Elt F)) (x4 : (⟨S64x128, .f32⟩ : BufTy).Contents (Elt F)) (x5 : (⟨S128, .f32⟩ : BufTy).Contents (Elt F)) : (⟨S100000x128, .f32⟩ : BufTy).Contents (Elt F) :=
  addf (val_main_v4 (F := F) x0 x4) (val_main_v6 (F := F) x5)
theorem val_main_v7_apply (x0 : (⟨S100000x64, .f32⟩ : BufTy).Contents (Elt F)) (x4 : (⟨S64x128, .f32⟩ : BufTy).Contents (Elt F)) (x5 : (⟨S128, .f32⟩ : BufTy).Contents (Elt F)) (i : S100000x128.Idx) :
    val_main_v7 (F := F) x0 x4 x5 i = FloatOps.addf (val_main_v4 (F := F) x0 x4 i) (val_main_v6 (F := F) x5 i) := rfl

def val_main_v8 (x6 : (⟨S3x128x128, .f32⟩ : BufTy).Contents (Elt F)) : (⟨S1x128x128, .f32⟩ : BufTy).Contents (Elt F) :=
  extractStridedSlice S1x128x128 ![0, 0, 0] (x6) slices_S3x128x128_S1x128x128_0_0_0
def val_main_v9 (x6 : (⟨S3x128x128, .f32⟩ : BufTy).Contents (Elt F)) : (⟨S128x128, .f32⟩ : BufTy).Contents (Elt F) :=
  shapeCast _ (val_main_v8 (F := F) x6) shapeCasts_S1x128x128_S128x128
def val_main_v10 (x7 : (⟨S3x128, .f32⟩ : BufTy).Contents (Elt F)) : (⟨S1x128, .f32⟩ : BufTy).Contents (Elt F) :=
  extractStridedSlice S1x128 ![0, 0] (x7) slices_S3x128_S1x128_0_0
def val_main_v11 (x7 : (⟨S3x128, .f32⟩ : BufTy).Contents (Elt F)) : (⟨S128, .f32⟩ : BufTy).Contents (Elt F) :=
  shapeCast _ (val_main_v10 (F := F) x7) shapeCasts_S1x128_S128
def val_main_v12 (x8 : (⟨S3x128, .f32⟩ : BufTy).Contents (Elt F)) : (⟨S1x128, .f32⟩ : BufTy).Contents (Elt F) :=
  extractStridedSlice S1x128 ![0, 0] (x8) slices_S3x128_S1x128_0_0
def val_main_v13 (x8 : (⟨S3x128, .f32⟩ : BufTy).Contents (Elt F)) : (⟨S128, .f32⟩ : BufTy).Contents (Elt F) :=
  shapeCast _ (val_main_v12 (F := F) x8) shapeCasts_S1x128_S128
def val_main_v14 (x9 : (⟨S3x128, .f32⟩ : BufTy).Contents (Elt F)) : (⟨S1x128, .f32⟩ : BufTy).Contents (Elt F) :=
  extractStridedSlice S1x128 ![0, 0] (x9) slices_S3x128_S1x128_0_0
def val_main_v15 (x9 : (⟨S3x128, .f32⟩ : BufTy).Contents (Elt F)) : (⟨S128, .f32⟩ : BufTy).Contents (Elt F) :=
  shapeCast _ (val_main_v14 (F := F) x9) shapeCasts_S1x128_S128
def val_main_v16 (x10 : (⟨S3x128, .f32⟩ : BufTy).Contents (Elt F)) : (⟨S1x128, .f32⟩ : BufTy).Contents (Elt F) :=
  extractStridedSlice S1x128 ![0, 0] (x10) slices_S3x128_S1x128_0_0
def val_main_v17 (x10 : (⟨S3x128, .f32⟩ : BufTy).Contents (Elt F)) : (⟨S128, .f32⟩ : BufTy).Contents (Elt F) :=
  shapeCast _ (val_main_v16 (F := F) x10) shapeCasts_S1x128_S128
def val_main_v18 (x11 : (⟨S3x128, .f32⟩ : BufTy).Contents (Elt F)) : (⟨S1x128, .f32⟩ : BufTy).Contents (Elt F) :=
  extractStridedSlice S1x128 ![0, 0] (x11) slices_S3x128_S1x128_0_0
def val_main_v19 (x11 : (⟨S3x128, .f32⟩ : BufTy).Contents (Elt F)) : (⟨S128, .f32⟩ : BufTy).Contents (Elt F) :=
  shapeCast _ (val_main_v18 (F := F) x11) shapeCasts_S1x128_S128
def val_main_v20 (x12 : (⟨S3x128x128, .f32⟩ : BufTy).Contents (Elt F)) : (⟨S1x128x128, .f32⟩ : BufTy).Contents (Elt F) :=
  extractStridedSlice S1x128x128 ![0, 0, 0] (x12) slices_S3x128x128_S1x128x128_0_0_0
def val_main_v21 (x12 : (⟨S3x128x128, .f32⟩ : BufTy).Contents (Elt F)) : (⟨S128x128, .f32⟩ : BufTy).Contents (Elt F) :=
  shapeCast _ (val_main_v20 (F := F) x12) shapeCasts_S1x128x128_S128x128
def val_main_v22 (x13 : (⟨S3x128, .f32⟩ : BufTy).Contents (Elt F)) : (⟨S1x128, .f32⟩ : BufTy).Contents (Elt F) :=
  extractStridedSlice S1x128 ![0, 0] (x13) slices_S3x128_S1x128_0_0
def val_main_v23 (x13 : (⟨S3x128, .f32⟩ : BufTy).Contents (Elt F)) : (⟨S128, .f32⟩ : BufTy).Contents (Elt F) :=
  shapeCast _ (val_main_v22 (F := F) x13) shapeCasts_S1x128_S128
def val_main_c : (⟨S_, .i32⟩ : BufTy).Contents (Elt F) :=
  constantI S_ 32 0#32
def val_main_v24 : (⟨S1600000, .i32⟩ : BufTy).Contents (Elt F) :=
  broadcastInDim S1600000 ![] bcast_S_S1600000 (val_main_c (F := F))
def val_main_v25 (x2 : (⟨S2x1600000, .i32⟩ : BufTy).Contents (Elt F)) : (⟨S1600000, .i1⟩ : BufTy).Contents (Elt F) :=
  cmpi .slt (val_main_v1 (F := F) x2) (val_main_v24 (F := F))
def val_main_c_0 : (⟨S_, .i32⟩ : BufTy).Contents (Elt F) :=
  constantI S_ 32 100000#32
def val_main_v26 : (⟨S1600000, .i32⟩ : BufTy).Contents (Elt F) :=
  broadcastInDim S1600000 ![] bcast_S_S1600000 (val_main_c_0 (F := F))
def val_main_v27 (x2 : (⟨S2x1600000, .i32⟩ : BufTy).Contents (Elt F)) : (⟨S1600000, .i32⟩ : BufTy).Contents (Elt F) :=
  addi (val_main_v1 (F := F) x2) (val_main_v26 (F := F))
def val_main_v28 (x2 : (⟨S2x1600000, .i32⟩ : BufTy).Contents (Elt F)) : (⟨S1600000, .i32⟩ : BufTy).Contents (Elt F) :=
  select (val_main_v25 (F := F) x2) (val_main_v27 (F := F) x2) (val_main_v1 (F := F) x2)
def val_main_v29 (x2 : (⟨S2x1600000, .i32⟩ : BufTy).Contents (Elt F)) : (⟨S1600000x1, .i32⟩ : BufTy).Contents (Elt F) :=
  broadcastInDim S1600000x1 ![0] bcast_S1600000_S1600000x1_0 (val_main_v28 (F := F) x2)
def val_main_v30 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) : (⟨S1600000x128, .f32⟩ : BufTy).Contents (Elt F) :=
  Host.gather gather_S100000x128_S1600000x1_S1600000x128_1_0_n_n_0_1_1128 (val_main_v7 (F := F) x0 x4 x5) (val_main_v29 (F := F) x2)

def val_main_cst : (⟨S_, .f32⟩ : BufTy).Contents (Elt F) :=
  constant S_ .f32 0x00000000#32
def val_main_v31 : (⟨S100000x128, .f32⟩ : BufTy).Contents (Elt F) :=
  broadcastInDim S100000x128 ![] bcast_S_S100000x128 (val_main_cst (F := F))
def val_main_v32 (x2 : (⟨S2x1600000, .i32⟩ : BufTy).Contents (Elt F)) : (⟨S1600000x1, .i32⟩ : BufTy).Contents (Elt F) :=
  broadcastInDim S1600000x1 ![0] bcast_S1600000_S1600000x1_0 (val_main_v3 (F := F) x2)
def val_main_v33 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) : (⟨S100000x128, .f32⟩ : BufTy).Contents (Elt F) :=
  Host.scatterAdd scatter_S100000x128_S1600000x1_S1600000x128_1_0_0_1 (val_main_v31 (F := F)) (val_main_v32 (F := F) x2) (val_main_v30 (F := F) x0 x2 x4 x5)

def val_main_v34 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) : (⟨S100000x128, .f32⟩ : BufTy).Contents (Elt F) :=
  addf (val_main_v7 (F := F) x0 x4 x5) (val_main_v33 (F := F) x0 x2 x4 x5)
def val_main_v35 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) : (⟨S100000x128, .f32⟩ : BufTy).Contents (Elt F) :=
  Host.dotGeneral dot_S100000x128_S128x128_S100000x128_1_0_0_1_n_n none (val_main_v34 (F := F) x0 x2 x4 x5) (val_main_v9 (F := F) x6)
theorem lhs_main_v35_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_main_v35_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_main_v35_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_main_v35_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl
def val_main_v36 (x7 : (⟨S3x128, .f32⟩ : BufTy).Contents (Elt F)) : (⟨S1x128, .f32⟩ : BufTy).Contents (Elt F) :=
  broadcastInDim S1x128 ![1] bcast_S128_S1x128_1 (val_main_v11 (F := F) x7)
def val_main_v37 (x7 : (⟨S3x128, .f32⟩ : BufTy).Contents (Elt F)) : (⟨S100000x128, .f32⟩ : BufTy).Contents (Elt F) :=
  broadcastInDim S100000x128 ![0, 1] bcast_S1x128_S100000x128_0_1 (val_main_v36 (F := F) x7)
def val_main_v38 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 : (⟨S3x128, .f32⟩ : BufTy).Contents (Elt F)) : (⟨S100000x128, .f32⟩ : BufTy).Contents (Elt F) :=
  addf (val_main_v35 (F := F) x0 x2 x4 x5 x6) (val_main_v37 (F := F) x7)
def val_main_v39 (x10 : (⟨S3x128, .f32⟩ : BufTy).Contents (Elt F)) : (⟨S1x128, .f32⟩ : BufTy).Contents (Elt F) :=
  broadcastInDim S1x128 ![1] bcast_S128_S1x128_1 (val_main_v17 (F := F) x10)
def val_main_v40 (x10 : (⟨S3x128, .f32⟩ : BufTy).Contents (Elt F)) : (⟨S100000x128, .f32⟩ : BufTy).Contents (Elt F) :=
  broadcastInDim S100000x128 ![0, 1] bcast_S1x128_S100000x128_0_1 (val_main_v39 (F := F) x10)
def val_main_v41 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x10 : (⟨S3x128, .f32⟩ : BufTy).Contents (Elt F)) : (⟨S100000x128, .f32⟩ : BufTy).Contents (Elt F) :=
  subf (val_main_v38 (F := F) x0 x2 x4 x5 x6 x7) (val_main_v40 (F := F) x10)
def val_main_cst_1 : (⟨S_, .f32⟩ : BufTy).Contents (Elt F) :=
  constant S_ .f32 0x3727C5AC#32
def val_main_v42 : (⟨S128, .f32⟩ : BufTy).Contents (Elt F) :=
  broadcastInDim S128 ![] bcast_S_S128 (val_main_cst_1 (F := F))
def val_main_v43 (x11 : (⟨S3x128, .f32⟩ : BufTy).Contents (Elt F)) : (⟨S128, .f32⟩ : BufTy).Contents (Elt F) :=
  addf (val_main_v19 (F := F) x11) (val_main_v42 (F := F))
def val_main_v44 (x11 : (⟨S3x128, .f32⟩ : BufTy).Contents (Elt F)) : (⟨S128, .f32⟩ : BufTy).Contents (Elt F) :=
  Host.rsqrt (val_main_v43 (F := F) x11)
def val_main_v45 (x11 : (⟨S3x128, .f32⟩ : BufTy).Contents (Elt F)) : (⟨S1x128, .f32⟩ : BufTy).Contents (Elt F) :=
  broadcastInDim S1x128 ![1] bcast_S128_S1x128_1 (val_main_v44 (F := F) x11)
def val_main_v46 (x11 : (⟨S3x128, .f32⟩ : BufTy).Contents (Elt F)) : (⟨S100000x128, .f32⟩ : BufTy).Contents (Elt F) :=
  broadcastInDim S100000x128 ![0, 1] bcast_S1x128_S100000x128_0_1 (val_main_v45 (F := F) x11)
def val_main_v47 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x10 x11 : (⟨S3x128, .f32⟩ : BufTy).Contents (Elt F)) : (⟨S100000x128, .f32⟩ : BufTy).Contents (Elt F) :=
  mulf (val_main_v41 (F := F) x0 x2 x4 x5 x6 x7 x10) (val_main_v46 (F := F) x11)
def val_main_v48 (x8 : (⟨S3x128, .f32⟩ : BufTy).Contents (Elt F)) : (⟨S1x128, .f32⟩ : BufTy).Contents (Elt F) :=
  broadcastInDim S1x128 ![1] bcast_S128_S1x128_1 (val_main_v13 (F := F) x8)
def val_main_v49 (x8 : (⟨S3x128, .f32⟩ : BufTy).Contents (Elt F)) : (⟨S100000x128, .f32⟩ : BufTy).Contents (Elt F) :=
  broadcastInDim S100000x128 ![0, 1] bcast_S1x128_S100000x128_0_1 (val_main_v48 (F := F) x8)
def val_main_v50 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x10 x11 : (⟨S3x128, .f32⟩ : BufTy).Contents (Elt F)) : (⟨S100000x128, .f32⟩ : BufTy).Contents (Elt F) :=
  mulf (val_main_v47 (F := F) x0 x2 x4 x5 x6 x7 x10 x11) (val_main_v49 (F := F) x8)
def val_main_v51 (x9 : (⟨S3x128, .f32⟩ : BufTy).Contents (Elt F)) : (⟨S1x128, .f32⟩ : BufTy).Contents (Elt F) :=
  broadcastInDim S1x128 ![1] bcast_S128_S1x128_1 (val_main_v15 (F := F) x9)
def val_main_v52 (x9 : (⟨S3x128, .f32⟩ : BufTy).Contents (Elt F)) : (⟨S100000x128, .f32⟩ : BufTy).Contents (Elt F) :=
  broadcastInDim S100000x128 ![0, 1] bcast_S1x128_S100000x128_0_1 (val_main_v51 (F := F) x9)
def val_main_v53 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) : (⟨S100000x128, .f32⟩ : BufTy).Contents (Elt F) :=
  addf (val_main_v50 (F := F) x0 x2 x4 x5 x6 x7 x8 x10 x11) (val_main_v52 (F := F) x9)
def val_main_call0_cst : (⟨S_, .f32⟩ : BufTy).Contents (Elt F) :=
  constant S_ .f32 0x00000000#32
def val_main_call0_v0 : (⟨S100000x128, .f32⟩ : BufTy).Contents (Elt F) :=
  broadcastInDim S100000x128 ![] bcast_S_S100000x128 (val_main_call0_cst (F := F))
def val_main_v54 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) : (⟨S100000x128, .f32⟩ : BufTy).Contents (Elt F) :=
  maximumf (val_main_v53 (F := F) x0 x2 x4 x5 x6 x7 x8 x9 x10 x11) (val_main_call0_v0 (F := F))
def val_main_v55 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) : (⟨S100000x128, .f32⟩ : BufTy).Contents (Elt F) :=
  Host.dotGeneral dot_S100000x128_S128x128_S100000x128_1_0_0_1_n_n none (val_main_v54 (F := F) x0 x2 x4 x5 x6 x7 x8 x9 x10 x11) (val_main_v21 (F := F) x12)
def val_main_v56 (x13 : (⟨S3x128, .f32⟩ : BufTy).Contents (Elt F)) : (⟨S1x128, .f32⟩ : BufTy).Contents (Elt F) :=
  broadcastInDim S1x128 ![1] bcast_S128_S1x128_1 (val_main_v23 (F := F) x13)
def val_main_v57 (x13 : (⟨S3x128, .f32⟩ : BufTy).Contents (Elt F)) : (⟨S100000x128, .f32⟩ : BufTy).Contents (Elt F) :=
  broadcastInDim S100000x128 ![0, 1] bcast_S1x128_S100000x128_0_1 (val_main_v56 (F := F) x13)
def val_main_v58 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S100000x128, .f32⟩ : BufTy).Contents (Elt F) :=
  addf (val_main_v55 (F := F) x0 x2 x4 x5 x6 x7 x8 x9 x10 x11 x12) (val_main_v57 (F := F) x13)
def val_main_call1_cst : (⟨S_, .f32⟩ : BufTy).Contents (Elt F) :=
  constant S_ .f32 0x00000000#32
def val_main_call1_v0 : (⟨S100000x128, .f32⟩ : BufTy).Contents (Elt F) :=
  broadcastInDim S100000x128 ![] bcast_S_S100000x128 (val_main_call1_cst (F := F))
def val_main_v59 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S100000x128, .f32⟩ : BufTy).Contents (Elt F) :=
  maximumf (val_main_v58 (F := F) x0 x2 x4 x5 x6 x7 x8 x9 x10 x11 x12 x13) (val_main_call1_v0 (F := F))
def val_main_v60 (x6 : (⟨S3x128x128, .f32⟩ : BufTy).Contents (Elt F)) : (⟨S1x128x128, .f32⟩ : BufTy).Contents (Elt F) :=
  extractStridedSlice S1x128x128 ![1, 0, 0] (x6) slices_S3x128x128_S1x128x128_1_0_0
def val_main_v61 (x6 : (⟨S3x128x128, .f32⟩ : BufTy).Contents (Elt F)) : (⟨S128x128, .f32⟩ : BufTy).Contents (Elt F) :=
  shapeCast _ (val_main_v60 (F := F) x6) shapeCasts_S1x128x128_S128x128
def val_main_v62 (x7 : (⟨S3x128, .f32⟩ : BufTy).Contents (Elt F)) : (⟨S1x128, .f32⟩ : BufTy).Contents (Elt F) :=
  extractStridedSlice S1x128 ![1, 0] (x7) slices_S3x128_S1x128_1_0
def val_main_v63 (x7 : (⟨S3x128, .f32⟩ : BufTy).Contents (Elt F)) : (⟨S128, .f32⟩ : BufTy).Contents (Elt F) :=
  shapeCast _ (val_main_v62 (F := F) x7) shapeCasts_S1x128_S128
def val_main_v64 (x8 : (⟨S3x128, .f32⟩ : BufTy).Contents (Elt F)) : (⟨S1x128, .f32⟩ : BufTy).Contents (Elt F) :=
  extractStridedSlice S1x128 ![1, 0] (x8) slices_S3x128_S1x128_1_0
def val_main_v65 (x8 : (⟨S3x128, .f32⟩ : BufTy).Contents (Elt F)) : (⟨S128, .f32⟩ : BufTy).Contents (Elt F) :=
  shapeCast _ (val_main_v64 (F := F) x8) shapeCasts_S1x128_S128
def val_main_v66 (x9 : (⟨S3x128, .f32⟩ : BufTy).Contents (Elt F)) : (⟨S1x128, .f32⟩ : BufTy).Contents (Elt F) :=
  extractStridedSlice S1x128 ![1, 0] (x9) slices_S3x128_S1x128_1_0
def val_main_v67 (x9 : (⟨S3x128, .f32⟩ : BufTy).Contents (Elt F)) : (⟨S128, .f32⟩ : BufTy).Contents (Elt F) :=
  shapeCast _ (val_main_v66 (F := F) x9) shapeCasts_S1x128_S128
def val_main_v68 (x10 : (⟨S3x128, .f32⟩ : BufTy).Contents (Elt F)) : (⟨S1x128, .f32⟩ : BufTy).Contents (Elt F) :=
  extractStridedSlice S1x128 ![1, 0] (x10) slices_S3x128_S1x128_1_0
def val_main_v69 (x10 : (⟨S3x128, .f32⟩ : BufTy).Contents (Elt F)) : (⟨S128, .f32⟩ : BufTy).Contents (Elt F) :=
  shapeCast _ (val_main_v68 (F := F) x10) shapeCasts_S1x128_S128
def val_main_v70 (x11 : (⟨S3x128, .f32⟩ : BufTy).Contents (Elt F)) : (⟨S1x128, .f32⟩ : BufTy).Contents (Elt F) :=
  extractStridedSlice S1x128 ![1, 0] (x11) slices_S3x128_S1x128_1_0
def val_main_v71 (x11 : (⟨S3x128, .f32⟩ : BufTy).Contents (Elt F)) : (⟨S128, .f32⟩ : BufTy).Contents (Elt F) :=
  shapeCast _ (val_main_v70 (F := F) x11) shapeCasts_S1x128_S128
def val_main_v72 (x12 : (⟨S3x128x128, .f32⟩ : BufTy).Contents (Elt F)) : (⟨S1x128x128, .f32⟩ : BufTy).Contents (Elt F) :=
  extractStridedSlice S1x128x128 ![1, 0, 0] (x12) slices_S3x128x128_S1x128x128_1_0_0
def val_main_v73 (x12 : (⟨S3x128x128, .f32⟩ : BufTy).Contents (Elt F)) : (⟨S128x128, .f32⟩ : BufTy).Contents (Elt F) :=
  shapeCast _ (val_main_v72 (F := F) x12) shapeCasts_S1x128x128_S128x128
def val_main_v74 (x13 : (⟨S3x128, .f32⟩ : BufTy).Contents (Elt F)) : (⟨S1x128, .f32⟩ : BufTy).Contents (Elt F) :=
  extractStridedSlice S1x128 ![1, 0] (x13) slices_S3x128_S1x128_1_0
def val_main_v75 (x13 : (⟨S3x128, .f32⟩ : BufTy).Contents (Elt F)) : (⟨S128, .f32⟩ : BufTy).Contents (Elt F) :=
  shapeCast _ (val_main_v74 (F := F) x13) shapeCasts_S1x128_S128
def val_main_c_2 : (⟨S_, .i32⟩ : BufTy).Contents (Elt F) :=
  constantI S_ 32 0#32
def val_main_v76 : (⟨S1600000, .i32⟩ : BufTy).Contents (Elt F) :=
  broadcastInDim S1600000 ![] bcast_S_S1600000 (val_main_c_2 (F := F))
def val_main_v77 (x2 : (⟨S2x1600000, .i32⟩ : BufTy).Contents (Elt F)) : (⟨S1600000, .i1⟩ : BufTy).Contents (Elt F) :=
  cmpi .slt (val_main_v1 (F := F) x2) (val_main_v76 (F := F))
def val_main_c_3 : (⟨S_, .i32⟩ : BufTy).Contents (Elt F) :=
  constantI S_ 32 100000#32
def val_main_v78 : (⟨S1600000, .i32⟩ : BufTy).Contents (Elt F) :=
  broadcastInDim S1600000 ![] bcast_S_S1600000 (val_main_c_3 (F := F))
def val_main_v79 (x2 : (⟨S2x1600000, .i32⟩ : BufTy).Contents (Elt F)) : (⟨S1600000, .i32⟩ : BufTy).Contents (Elt F) :=
  addi (val_main_v1 (F := F) x2) (val_main_v78 (F := F))
def val_main_v80 (x2 : (⟨S2x1600000, .i32⟩ : BufTy).Contents (Elt F)) : (⟨S1600000, .i32⟩ : BufTy).Contents (Elt F) :=
  select (val_main_v77 (F := F) x2) (val_main_v79 (F := F) x2) (val_main_v1 (F := F) x2)
def val_main_v81 (x2 : (⟨S2x1600000, .i32⟩ : BufTy).Contents (Elt F)) : (⟨S1600000x1, .i32⟩ : BufTy).Contents (Elt F) :=
  broadcastInDim S1600000x1 ![0] bcast_S1600000_S1600000x1_0 (val_main_v80 (F := F) x2)
def val_main_v82 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S1600000x128, .f32⟩ : BufTy).Contents (Elt F) :=
  Host.gather gather_S100000x128_S1600000x1_S1600000x128_1_0_n_n_0_1_1128 (val_main_v59 (F := F) x0 x2 x4 x5 x6 x7 x8 x9 x10 x11 x12 x13) (val_main_v81 (F := F) x2)

def val_main_cst_4 : (⟨S_, .f32⟩ : BufTy).Contents (Elt F) :=
  constant S_ .f32 0x00000000#32
def val_main_v83 : (⟨S100000x128, .f32⟩ : BufTy).Contents (Elt F) :=
  broadcastInDim S100000x128 ![] bcast_S_S100000x128 (val_main_cst_4 (F := F))
def val_main_v84 (x2 : (⟨S2x1600000, .i32⟩ : BufTy).Contents (Elt F)) : (⟨S1600000x1, .i32⟩ : BufTy).Contents (Elt F) :=
  broadcastInDim S1600000x1 ![0] bcast_S1600000_S1600000x1_0 (val_main_v3 (F := F) x2)
def val_main_v85 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S100000x128, .f32⟩ : BufTy).Contents (Elt F) :=
  Host.scatterAdd scatter_S100000x128_S1600000x1_S1600000x128_1_0_0_1 (val_main_v83 (F := F)) (val_main_v84 (F := F) x2) (val_main_v82 (F := F) x0 x2 x4 x5 x6 x7 x8 x9 x10 x11 x12 x13)

def val_main_v86 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S100000x128, .f32⟩ : BufTy).Contents (Elt F) :=
  addf (val_main_v59 (F := F) x0 x2 x4 x5 x6 x7 x8 x9 x10 x11 x12 x13) (val_main_v85 (F := F) x0 x2 x4 x5 x6 x7 x8 x9 x10 x11 x12 x13)
def val_main_v87 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S100000x128, .f32⟩ : BufTy).Contents (Elt F) :=
  Host.dotGeneral dot_S100000x128_S128x128_S100000x128_1_0_0_1_n_n none (val_main_v86 (F := F) x0 x2 x4 x5 x6 x7 x8 x9 x10 x11 x12 x13) (val_main_v61 (F := F) x6)
def val_main_v88 (x7 : (⟨S3x128, .f32⟩ : BufTy).Contents (Elt F)) : (⟨S1x128, .f32⟩ : BufTy).Contents (Elt F) :=
  broadcastInDim S1x128 ![1] bcast_S128_S1x128_1 (val_main_v63 (F := F) x7)
def val_main_v89 (x7 : (⟨S3x128, .f32⟩ : BufTy).Contents (Elt F)) : (⟨S100000x128, .f32⟩ : BufTy).Contents (Elt F) :=
  broadcastInDim S100000x128 ![0, 1] bcast_S1x128_S100000x128_0_1 (val_main_v88 (F := F) x7)
def val_main_v90 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S100000x128, .f32⟩ : BufTy).Contents (Elt F) :=
  addf (val_main_v87 (F := F) x0 x2 x4 x5 x6 x7 x8 x9 x10 x11 x12 x13) (val_main_v89 (F := F) x7)
def val_main_v91 (x10 : (⟨S3x128, .f32⟩ : BufTy).Contents (Elt F)) : (⟨S1x128, .f32⟩ : BufTy).Contents (Elt F) :=
  broadcastInDim S1x128 ![1] bcast_S128_S1x128_1 (val_main_v69 (F := F) x10)
def val_main_v92 (x10 : (⟨S3x128, .f32⟩ : BufTy).Contents (Elt F)) : (⟨S100000x128, .f32⟩ : BufTy).Contents (Elt F) :=
  broadcastInDim S100000x128 ![0, 1] bcast_S1x128_S100000x128_0_1 (val_main_v91 (F := F) x10)
def val_main_v93 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S100000x128, .f32⟩ : BufTy).Contents (Elt F) :=
  subf (val_main_v90 (F := F) x0 x2 x4 x5 x6 x7 x8 x9 x10 x11 x12 x13) (val_main_v92 (F := F) x10)
def val_main_cst_5 : (⟨S_, .f32⟩ : BufTy).Contents (Elt F) :=
  constant S_ .f32 0x3727C5AC#32
def val_main_v94 : (⟨S128, .f32⟩ : BufTy).Contents (Elt F) :=
  broadcastInDim S128 ![] bcast_S_S128 (val_main_cst_5 (F := F))
def val_main_v95 (x11 : (⟨S3x128, .f32⟩ : BufTy).Contents (Elt F)) : (⟨S128, .f32⟩ : BufTy).Contents (Elt F) :=
  addf (val_main_v71 (F := F) x11) (val_main_v94 (F := F))
def val_main_v96 (x11 : (⟨S3x128, .f32⟩ : BufTy).Contents (Elt F)) : (⟨S128, .f32⟩ : BufTy).Contents (Elt F) :=
  Host.rsqrt (val_main_v95 (F := F) x11)
def val_main_v97 (x11 : (⟨S3x128, .f32⟩ : BufTy).Contents (Elt F)) : (⟨S1x128, .f32⟩ : BufTy).Contents (Elt F) :=
  broadcastInDim S1x128 ![1] bcast_S128_S1x128_1 (val_main_v96 (F := F) x11)
def val_main_v98 (x11 : (⟨S3x128, .f32⟩ : BufTy).Contents (Elt F)) : (⟨S100000x128, .f32⟩ : BufTy).Contents (Elt F) :=
  broadcastInDim S100000x128 ![0, 1] bcast_S1x128_S100000x128_0_1 (val_main_v97 (F := F) x11)
def val_main_v99 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S100000x128, .f32⟩ : BufTy).Contents (Elt F) :=
  mulf (val_main_v93 (F := F) x0 x2 x4 x5 x6 x7 x8 x9 x10 x11 x12 x13) (val_main_v98 (F := F) x11)
def val_main_v100 (x8 : (⟨S3x128, .f32⟩ : BufTy).Contents (Elt F)) : (⟨S1x128, .f32⟩ : BufTy).Contents (Elt F) :=
  broadcastInDim S1x128 ![1] bcast_S128_S1x128_1 (val_main_v65 (F := F) x8)
def val_main_v101 (x8 : (⟨S3x128, .f32⟩ : BufTy).Contents (Elt F)) : (⟨S100000x128, .f32⟩ : BufTy).Contents (Elt F) :=
  broadcastInDim S100000x128 ![0, 1] bcast_S1x128_S100000x128_0_1 (val_main_v100 (F := F) x8)
def val_main_v102 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S100000x128, .f32⟩ : BufTy).Contents (Elt F) :=
  mulf (val_main_v99 (F := F) x0 x2 x4 x5 x6 x7 x8 x9 x10 x11 x12 x13) (val_main_v101 (F := F) x8)
def val_main_v103 (x9 : (⟨S3x128, .f32⟩ : BufTy).Contents (Elt F)) : (⟨S1x128, .f32⟩ : BufTy).Contents (Elt F) :=
  broadcastInDim S1x128 ![1] bcast_S128_S1x128_1 (val_main_v67 (F := F) x9)
def val_main_v104 (x9 : (⟨S3x128, .f32⟩ : BufTy).Contents (Elt F)) : (⟨S100000x128, .f32⟩ : BufTy).Contents (Elt F) :=
  broadcastInDim S100000x128 ![0, 1] bcast_S1x128_S100000x128_0_1 (val_main_v103 (F := F) x9)
def val_main_v105 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S100000x128, .f32⟩ : BufTy).Contents (Elt F) :=
  addf (val_main_v102 (F := F) x0 x2 x4 x5 x6 x7 x8 x9 x10 x11 x12 x13) (val_main_v104 (F := F) x9)
def val_main_call2_cst : (⟨S_, .f32⟩ : BufTy).Contents (Elt F) :=
  constant S_ .f32 0x00000000#32
def val_main_call2_v0 : (⟨S100000x128, .f32⟩ : BufTy).Contents (Elt F) :=
  broadcastInDim S100000x128 ![] bcast_S_S100000x128 (val_main_call2_cst (F := F))
def val_main_v106 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S100000x128, .f32⟩ : BufTy).Contents (Elt F) :=
  maximumf (val_main_v105 (F := F) x0 x2 x4 x5 x6 x7 x8 x9 x10 x11 x12 x13) (val_main_call2_v0 (F := F))
def val_main_v107 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S100000x128, .f32⟩ : BufTy).Contents (Elt F) :=
  Host.dotGeneral dot_S100000x128_S128x128_S100000x128_1_0_0_1_n_n none (val_main_v106 (F := F) x0 x2 x4 x5 x6 x7 x8 x9 x10 x11 x12 x13) (val_main_v73 (F := F) x12)
def val_main_v108 (x13 : (⟨S3x128, .f32⟩ : BufTy).Contents (Elt F)) : (⟨S1x128, .f32⟩ : BufTy).Contents (Elt F) :=
  broadcastInDim S1x128 ![1] bcast_S128_S1x128_1 (val_main_v75 (F := F) x13)
def val_main_v109 (x13 : (⟨S3x128, .f32⟩ : BufTy).Contents (Elt F)) : (⟨S100000x128, .f32⟩ : BufTy).Contents (Elt F) :=
  broadcastInDim S100000x128 ![0, 1] bcast_S1x128_S100000x128_0_1 (val_main_v108 (F := F) x13)
def val_main_v110 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S100000x128, .f32⟩ : BufTy).Contents (Elt F) :=
  addf (val_main_v107 (F := F) x0 x2 x4 x5 x6 x7 x8 x9 x10 x11 x12 x13) (val_main_v109 (F := F) x13)
def val_main_call3_cst : (⟨S_, .f32⟩ : BufTy).Contents (Elt F) :=
  constant S_ .f32 0x00000000#32
def val_main_call3_v0 : (⟨S100000x128, .f32⟩ : BufTy).Contents (Elt F) :=
  broadcastInDim S100000x128 ![] bcast_S_S100000x128 (val_main_call3_cst (F := F))
def val_main_v111 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S100000x128, .f32⟩ : BufTy).Contents (Elt F) :=
  maximumf (val_main_v110 (F := F) x0 x2 x4 x5 x6 x7 x8 x9 x10 x11 x12 x13) (val_main_call3_v0 (F := F))
def val_main_v112 (x6 : (⟨S3x128x128, .f32⟩ : BufTy).Contents (Elt F)) : (⟨S1x128x128, .f32⟩ : BufTy).Contents (Elt F) :=
  extractStridedSlice S1x128x128 ![2, 0, 0] (x6) slices_S3x128x128_S1x128x128_2_0_0
def val_main_v113 (x6 : (⟨S3x128x128, .f32⟩ : BufTy).Contents (Elt F)) : (⟨S128x128, .f32⟩ : BufTy).Contents (Elt F) :=
  shapeCast _ (val_main_v112 (F := F) x6) shapeCasts_S1x128x128_S128x128
def val_main_v114 (x7 : (⟨S3x128, .f32⟩ : BufTy).Contents (Elt F)) : (⟨S1x128, .f32⟩ : BufTy).Contents (Elt F) :=
  extractStridedSlice S1x128 ![2, 0] (x7) slices_S3x128_S1x128_2_0
def val_main_v115 (x7 : (⟨S3x128, .f32⟩ : BufTy).Contents (Elt F)) : (⟨S128, .f32⟩ : BufTy).Contents (Elt F) :=
  shapeCast _ (val_main_v114 (F := F) x7) shapeCasts_S1x128_S128
def val_main_v116 (x8 : (⟨S3x128, .f32⟩ : BufTy).Contents (Elt F)) : (⟨S1x128, .f32⟩ : BufTy).Contents (Elt F) :=
  extractStridedSlice S1x128 ![2, 0] (x8) slices_S3x128_S1x128_2_0
def val_main_v117 (x8 : (⟨S3x128, .f32⟩ : BufTy).Contents (Elt F)) : (⟨S128, .f32⟩ : BufTy).Contents (Elt F) :=
  shapeCast _ (val_main_v116 (F := F) x8) shapeCasts_S1x128_S128
def val_main_v118 (x9 : (⟨S3x128, .f32⟩ : BufTy).Contents (Elt F)) : (⟨S1x128, .f32⟩ : BufTy).Contents (Elt F) :=
  extractStridedSlice S1x128 ![2, 0] (x9) slices_S3x128_S1x128_2_0
def val_main_v119 (x9 : (⟨S3x128, .f32⟩ : BufTy).Contents (Elt F)) : (⟨S128, .f32⟩ : BufTy).Contents (Elt F) :=
  shapeCast _ (val_main_v118 (F := F) x9) shapeCasts_S1x128_S128
def val_main_v120 (x10 : (⟨S3x128, .f32⟩ : BufTy).Contents (Elt F)) : (⟨S1x128, .f32⟩ : BufTy).Contents (Elt F) :=
  extractStridedSlice S1x128 ![2, 0] (x10) slices_S3x128_S1x128_2_0
def val_main_v121 (x10 : (⟨S3x128, .f32⟩ : BufTy).Contents (Elt F)) : (⟨S128, .f32⟩ : BufTy).Contents (Elt F) :=
  shapeCast _ (val_main_v120 (F := F) x10) shapeCasts_S1x128_S128
def val_main_v122 (x11 : (⟨S3x128, .f32⟩ : BufTy).Contents (Elt F)) : (⟨S1x128, .f32⟩ : BufTy).Contents (Elt F) :=
  extractStridedSlice S1x128 ![2, 0] (x11) slices_S3x128_S1x128_2_0
def val_main_v123 (x11 : (⟨S3x128, .f32⟩ : BufTy).Contents (Elt F)) : (⟨S128, .f32⟩ : BufTy).Contents (Elt F) :=
  shapeCast _ (val_main_v122 (F := F) x11) shapeCasts_S1x128_S128
def val_main_v124 (x12 : (⟨S3x128x128, .f32⟩ : BufTy).Contents (Elt F)) : (⟨S1x128x128, .f32⟩ : BufTy).Contents (Elt F) :=
  extractStridedSlice S1x128x128 ![2, 0, 0] (x12) slices_S3x128x128_S1x128x128_2_0_0
def val_main_v125 (x12 : (⟨S3x128x128, .f32⟩ : BufTy).Contents (Elt F)) : (⟨S128x128, .f32⟩ : BufTy).Contents (Elt F) :=
  shapeCast _ (val_main_v124 (F := F) x12) shapeCasts_S1x128x128_S128x128
def val_main_v126 (x13 : (⟨S3x128, .f32⟩ : BufTy).Contents (Elt F)) : (⟨S1x128, .f32⟩ : BufTy).Contents (Elt F) :=
  extractStridedSlice S1x128 ![2, 0] (x13) slices_S3x128_S1x128_2_0
def val_main_v127 (x13 : (⟨S3x128, .f32⟩ : BufTy).Contents (Elt F)) : (⟨S128, .f32⟩ : BufTy).Contents (Elt F) :=
  shapeCast _ (val_main_v126 (F := F) x13) shapeCasts_S1x128_S128
def val_main_c_6 : (⟨S_, .i32⟩ : BufTy).Contents (Elt F) :=
  constantI S_ 32 0#32
def val_main_v128 : (⟨S1600000, .i32⟩ : BufTy).Contents (Elt F) :=
  broadcastInDim S1600000 ![] bcast_S_S1600000 (val_main_c_6 (F := F))
def val_main_v129 (x2 : (⟨S2x1600000, .i32⟩ : BufTy).Contents (Elt F)) : (⟨S1600000, .i1⟩ : BufTy).Contents (Elt F) :=
  cmpi .slt (val_main_v1 (F := F) x2) (val_main_v128 (F := F))
def val_main_c_7 : (⟨S_, .i32⟩ : BufTy).Contents (Elt F) :=
  constantI S_ 32 100000#32
def val_main_v130 : (⟨S1600000, .i32⟩ : BufTy).Contents (Elt F) :=
  broadcastInDim S1600000 ![] bcast_S_S1600000 (val_main_c_7 (F := F))
def val_main_v131 (x2 : (⟨S2x1600000, .i32⟩ : BufTy).Contents (Elt F)) : (⟨S1600000, .i32⟩ : BufTy).Contents (Elt F) :=
  addi (val_main_v1 (F := F) x2) (val_main_v130 (F := F))
def val_main_v132 (x2 : (⟨S2x1600000, .i32⟩ : BufTy).Contents (Elt F)) : (⟨S1600000, .i32⟩ : BufTy).Contents (Elt F) :=
  select (val_main_v129 (F := F) x2) (val_main_v131 (F := F) x2) (val_main_v1 (F := F) x2)
def val_main_v133 (x2 : (⟨S2x1600000, .i32⟩ : BufTy).Contents (Elt F)) : (⟨S1600000x1, .i32⟩ : BufTy).Contents (Elt F) :=
  broadcastInDim S1600000x1 ![0] bcast_S1600000_S1600000x1_0 (val_main_v132 (F := F) x2)
def val_main_v134 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S1600000x128, .f32⟩ : BufTy).Contents (Elt F) :=
  Host.gather gather_S100000x128_S1600000x1_S1600000x128_1_0_n_n_0_1_1128 (val_main_v111 (F := F) x0 x2 x4 x5 x6 x7 x8 x9 x10 x11 x12 x13) (val_main_v133 (F := F) x2)

def val_main_cst_8 : (⟨S_, .f32⟩ : BufTy).Contents (Elt F) :=
  constant S_ .f32 0x00000000#32
def val_main_v135 : (⟨S100000x128, .f32⟩ : BufTy).Contents (Elt F) :=
  broadcastInDim S100000x128 ![] bcast_S_S100000x128 (val_main_cst_8 (F := F))
def val_main_v136 (x2 : (⟨S2x1600000, .i32⟩ : BufTy).Contents (Elt F)) : (⟨S1600000x1, .i32⟩ : BufTy).Contents (Elt F) :=
  broadcastInDim S1600000x1 ![0] bcast_S1600000_S1600000x1_0 (val_main_v3 (F := F) x2)
def val_main_v137 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S100000x128, .f32⟩ : BufTy).Contents (Elt F) :=
  Host.scatterAdd scatter_S100000x128_S1600000x1_S1600000x128_1_0_0_1 (val_main_v135 (F := F)) (val_main_v136 (F := F) x2) (val_main_v134 (F := F) x0 x2 x4 x5 x6 x7 x8 x9 x10 x11 x12 x13)

def val_main_v138 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S100000x128, .f32⟩ : BufTy).Contents (Elt F) :=
  addf (val_main_v111 (F := F) x0 x2 x4 x5 x6 x7 x8 x9 x10 x11 x12 x13) (val_main_v137 (F := F) x0 x2 x4 x5 x6 x7 x8 x9 x10 x11 x12 x13)
def val_main_v139 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S100000x128, .f32⟩ : BufTy).Contents (Elt F) :=
  Host.dotGeneral dot_S100000x128_S128x128_S100000x128_1_0_0_1_n_n none (val_main_v138 (F := F) x0 x2 x4 x5 x6 x7 x8 x9 x10 x11 x12 x13) (val_main_v113 (F := F) x6)
def val_main_v140 (x7 : (⟨S3x128, .f32⟩ : BufTy).Contents (Elt F)) : (⟨S1x128, .f32⟩ : BufTy).Contents (Elt F) :=
  broadcastInDim S1x128 ![1] bcast_S128_S1x128_1 (val_main_v115 (F := F) x7)
def val_main_v141 (x7 : (⟨S3x128, .f32⟩ : BufTy).Contents (Elt F)) : (⟨S100000x128, .f32⟩ : BufTy).Contents (Elt F) :=
  broadcastInDim S100000x128 ![0, 1] bcast_S1x128_S100000x128_0_1 (val_main_v140 (F := F) x7)
def val_main_v142 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S100000x128, .f32⟩ : BufTy).Contents (Elt F) :=
  addf (val_main_v139 (F := F) x0 x2 x4 x5 x6 x7 x8 x9 x10 x11 x12 x13) (val_main_v141 (F := F) x7)
def val_main_v143 (x10 : (⟨S3x128, .f32⟩ : BufTy).Contents (Elt F)) : (⟨S1x128, .f32⟩ : BufTy).Contents (Elt F) :=
  broadcastInDim S1x128 ![1] bcast_S128_S1x128_1 (val_main_v121 (F := F) x10)
def val_main_v144 (x10 : (⟨S3x128, .f32⟩ : BufTy).Contents (Elt F)) : (⟨S100000x128, .f32⟩ : BufTy).Contents (Elt F) :=
  broadcastInDim S100000x128 ![0, 1] bcast_S1x128_S100000x128_0_1 (val_main_v143 (F := F) x10)
def val_main_v145 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S100000x128, .f32⟩ : BufTy).Contents (Elt F) :=
  subf (val_main_v142 (F := F) x0 x2 x4 x5 x6 x7 x8 x9 x10 x11 x12 x13) (val_main_v144 (F := F) x10)
def val_main_cst_9 : (⟨S_, .f32⟩ : BufTy).Contents (Elt F) :=
  constant S_ .f32 0x3727C5AC#32
def val_main_v146 : (⟨S128, .f32⟩ : BufTy).Contents (Elt F) :=
  broadcastInDim S128 ![] bcast_S_S128 (val_main_cst_9 (F := F))
def val_main_v147 (x11 : (⟨S3x128, .f32⟩ : BufTy).Contents (Elt F)) : (⟨S128, .f32⟩ : BufTy).Contents (Elt F) :=
  addf (val_main_v123 (F := F) x11) (val_main_v146 (F := F))
def val_main_v148 (x11 : (⟨S3x128, .f32⟩ : BufTy).Contents (Elt F)) : (⟨S128, .f32⟩ : BufTy).Contents (Elt F) :=
  Host.rsqrt (val_main_v147 (F := F) x11)
def val_main_v149 (x11 : (⟨S3x128, .f32⟩ : BufTy).Contents (Elt F)) : (⟨S1x128, .f32⟩ : BufTy).Contents (Elt F) :=
  broadcastInDim S1x128 ![1] bcast_S128_S1x128_1 (val_main_v148 (F := F) x11)
def val_main_v150 (x11 : (⟨S3x128, .f32⟩ : BufTy).Contents (Elt F)) : (⟨S100000x128, .f32⟩ : BufTy).Contents (Elt F) :=
  broadcastInDim S100000x128 ![0, 1] bcast_S1x128_S100000x128_0_1 (val_main_v149 (F := F) x11)
def val_main_v151 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S100000x128, .f32⟩ : BufTy).Contents (Elt F) :=
  mulf (val_main_v145 (F := F) x0 x2 x4 x5 x6 x7 x8 x9 x10 x11 x12 x13) (val_main_v150 (F := F) x11)
def val_main_v152 (x8 : (⟨S3x128, .f32⟩ : BufTy).Contents (Elt F)) : (⟨S1x128, .f32⟩ : BufTy).Contents (Elt F) :=
  broadcastInDim S1x128 ![1] bcast_S128_S1x128_1 (val_main_v117 (F := F) x8)
def val_main_v153 (x8 : (⟨S3x128, .f32⟩ : BufTy).Contents (Elt F)) : (⟨S100000x128, .f32⟩ : BufTy).Contents (Elt F) :=
  broadcastInDim S100000x128 ![0, 1] bcast_S1x128_S100000x128_0_1 (val_main_v152 (F := F) x8)
def val_main_v154 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S100000x128, .f32⟩ : BufTy).Contents (Elt F) :=
  mulf (val_main_v151 (F := F) x0 x2 x4 x5 x6 x7 x8 x9 x10 x11 x12 x13) (val_main_v153 (F := F) x8)
def val_main_v155 (x9 : (⟨S3x128, .f32⟩ : BufTy).Contents (Elt F)) : (⟨S1x128, .f32⟩ : BufTy).Contents (Elt F) :=
  broadcastInDim S1x128 ![1] bcast_S128_S1x128_1 (val_main_v119 (F := F) x9)
def val_main_v156 (x9 : (⟨S3x128, .f32⟩ : BufTy).Contents (Elt F)) : (⟨S100000x128, .f32⟩ : BufTy).Contents (Elt F) :=
  broadcastInDim S100000x128 ![0, 1] bcast_S1x128_S100000x128_0_1 (val_main_v155 (F := F) x9)
def val_main_v157 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S100000x128, .f32⟩ : BufTy).Contents (Elt F) :=
  addf (val_main_v154 (F := F) x0 x2 x4 x5 x6 x7 x8 x9 x10 x11 x12 x13) (val_main_v156 (F := F) x9)
def val_main_call4_cst : (⟨S_, .f32⟩ : BufTy).Contents (Elt F) :=
  constant S_ .f32 0x00000000#32
def val_main_call4_v0 : (⟨S100000x128, .f32⟩ : BufTy).Contents (Elt F) :=
  broadcastInDim S100000x128 ![] bcast_S_S100000x128 (val_main_call4_cst (F := F))
def val_main_v158 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S100000x128, .f32⟩ : BufTy).Contents (Elt F) :=
  maximumf (val_main_v157 (F := F) x0 x2 x4 x5 x6 x7 x8 x9 x10 x11 x12 x13) (val_main_call4_v0 (F := F))
def val_main_v159 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S100000x128, .f32⟩ : BufTy).Contents (Elt F) :=
  Host.dotGeneral dot_S100000x128_S128x128_S100000x128_1_0_0_1_n_n none (val_main_v158 (F := F) x0 x2 x4 x5 x6 x7 x8 x9 x10 x11 x12 x13) (val_main_v125 (F := F) x12)
def val_main_v160 (x13 : (⟨S3x128, .f32⟩ : BufTy).Contents (Elt F)) : (⟨S1x128, .f32⟩ : BufTy).Contents (Elt F) :=
  broadcastInDim S1x128 ![1] bcast_S128_S1x128_1 (val_main_v127 (F := F) x13)
def val_main_v161 (x13 : (⟨S3x128, .f32⟩ : BufTy).Contents (Elt F)) : (⟨S100000x128, .f32⟩ : BufTy).Contents (Elt F) :=
  broadcastInDim S100000x128 ![0, 1] bcast_S1x128_S100000x128_0_1 (val_main_v160 (F := F) x13)
def val_main_v162 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S100000x128, .f32⟩ : BufTy).Contents (Elt F) :=
  addf (val_main_v159 (F := F) x0 x2 x4 x5 x6 x7 x8 x9 x10 x11 x12 x13) (val_main_v161 (F := F) x13)
def val_main_call5_cst : (⟨S_, .f32⟩ : BufTy).Contents (Elt F) :=
  constant S_ .f32 0x00000000#32
def val_main_call5_v0 : (⟨S100000x128, .f32⟩ : BufTy).Contents (Elt F) :=
  broadcastInDim S100000x128 ![] bcast_S_S100000x128 (val_main_call5_cst (F := F))
def val_main_v163 (x0 : (⟨S100000x64, .f32⟩ : BufTy).Contents (Elt F)) (x2 : (⟨S2x1600000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S100000x128, .f32⟩ : BufTy).Contents (Elt F) :=
  maximumf (val_main_v162 (F := F) x0 x2 x4 x5 x6 x7 x8 x9 x10 x11 x12 x13) (val_main_call5_v0 (F := F))
def val_main_cst_10 : (⟨S_, .f32⟩ : BufTy).Contents (Elt F) :=
  constant S_ .f32 0x3F800000#32
def val_main_v164 : (⟨S100000, .f32⟩ : BufTy).Contents (Elt F) :=
  broadcastInDim S100000 ![] bcast_S_S100000 (val_main_cst_10 (F := F))
def val_main_cst_11 : (⟨S_, .f32⟩ : BufTy).Contents (Elt F) :=
  constant S_ .f32 0x00000000#32
def val_main_v165 : (⟨S64, .f32⟩ : BufTy).Contents (Elt F) :=
  broadcastInDim S64 ![] bcast_S_S64 (val_main_cst_11 (F := F))
def val_main_v166 (x3 : (⟨S100000, .i32⟩ : BufTy).Contents (Elt F)) : (⟨S100000x1, .i32⟩ : BufTy).Contents (Elt F) :=
  broadcastInDim S100000x1 ![0] bcast_S100000_S100000x1_0 (x3)
def val_main_v167 (x3 : (⟨S100000, .i32⟩ : BufTy).Contents (Elt F)) : (⟨S64, .f32⟩ : BufTy).Contents (Elt F) :=
  Host.scatterAdd scatter_S64_S100000x1_S100000_n_0_0_1 (val_main_v165 (F := F)) (val_main_v166 (F := F) x3) (val_main_v164 (F := F))

def val_main_cst_12 : (⟨S_, .f32⟩ : BufTy).Contents (Elt F) :=
  constant S_ .f32 0x3F800000#32
def val_main_v168 : (⟨S64, .f32⟩ : BufTy).Contents (Elt F) :=
  broadcastInDim S64 ![] bcast_S_S64 (val_main_cst_12 (F := F))
def val_main_v169 (x3 : (⟨S100000, .i32⟩ : BufTy).Contents (Elt F)) : (⟨S64, .f32⟩ : BufTy).Contents (Elt F) :=
  maximumf (val_main_v167 (F := F) x3) (val_main_v168 (F := F))
def val_main_v170 (x3 : (⟨S100000, .i32⟩ : BufTy).Contents (Elt F)) : (⟨S64x1, .f32⟩ : BufTy).Contents (Elt F) :=
  broadcastInDim S64x1 ![0] bcast_S64_S64x1_0 (val_main_v169 (F := F) x3)
def val_main_cst_13 : (⟨S_, .f32⟩ : BufTy).Contents (Elt F) :=
  constant S_ .f32 0x00000000#32
def val_main_v171 : (⟨S64x128, .f32⟩ : BufTy).Contents (Elt F) :=
  broadcastInDim S64x128 ![] bcast_S_S64x128 (val_main_cst_13 (F := F))
def val_main_v172 (x3 : (⟨S100000, .i32⟩ : BufTy).Contents (Elt F)) : (⟨S100000x1, .i32⟩ : BufTy).Contents (Elt F) :=
  broadcastInDim S100000x1 ![0] bcast_S100000_S100000x1_0 (x3)
abbrev idx_main_v172 (i : S100000x1.Idx) : S100000.Idx := fun a => match a with
  | ⟨0, _⟩ => ⟨(i 0).val, (i 0).isLt⟩
theorem val_main_v172_apply (x3 : (⟨S100000, .i32⟩ : BufTy).Contents (Elt F)) (i : S100000x1.Idx) :
    val_main_v172 (F := F) x3 i = x3 (idx_main_v172 i) := by
  unfold val_main_v172
  exact broadcastInDim_apply _ bcast_S100000_S100000x1_0 x3 i (idx_main_v172 i) (fun a => match a with
    | ⟨0, _⟩ => by show (i 0).val = if (100000 : Nat) = 1 then 0 else (i 0).val; rw [if_neg (by decide)])

def val_main_v173 (x0 : (⟨S100000x64, .f32⟩ : BufTy).Contents (Elt F)) (x2 : (⟨S2x1600000, .i32⟩ : BufTy).Contents (Elt F)) (x3 : (⟨S100000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S64x128, .f32⟩ : BufTy).Contents (Elt F) :=
  Host.scatterAdd scatter_S64x128_S100000x1_S100000x128_1_0_0_1 (val_main_v171 (F := F)) (val_main_v172 (F := F) x3) (val_main_v59 (F := F) x0 x2 x4 x5 x6 x7 x8 x9 x10 x11 x12 x13)

def val_main_v174 (x3 : (⟨S100000, .i32⟩ : BufTy).Contents (Elt F)) : (⟨S64x128, .f32⟩ : BufTy).Contents (Elt F) :=
  broadcastInDim S64x128 ![0, 1] bcast_S64x1_S64x128_0_1 (val_main_v170 (F := F) x3)
def val_main_v175 (x0 : (⟨S100000x64, .f32⟩ : BufTy).Contents (Elt F)) (x2 : (⟨S2x1600000, .i32⟩ : BufTy).Contents (Elt F)) (x3 : (⟨S100000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S64x128, .f32⟩ : BufTy).Contents (Elt F) :=
  Host.divf (val_main_v173 (F := F) x0 x2 x3 x4 x5 x6 x7 x8 x9 x10 x11 x12 x13) (val_main_v174 (F := F) x3)
def val_main_cst_14 : (⟨S_, .f32⟩ : BufTy).Contents (Elt F) :=
  constant S_ .f32 0x00000000#32
def val_main_v176 : (⟨S64x128, .f32⟩ : BufTy).Contents (Elt F) :=
  broadcastInDim S64x128 ![] bcast_S_S64x128 (val_main_cst_14 (F := F))
def val_main_v177 (x3 : (⟨S100000, .i32⟩ : BufTy).Contents (Elt F)) : (⟨S100000x1, .i32⟩ : BufTy).Contents (Elt F) :=
  broadcastInDim S100000x1 ![0] bcast_S100000_S100000x1_0 (x3)
def val_main_v178 (x0 : (⟨S100000x64, .f32⟩ : BufTy).Contents (Elt F)) (x2 : (⟨S2x1600000, .i32⟩ : BufTy).Contents (Elt F)) (x3 : (⟨S100000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S64x128, .f32⟩ : BufTy).Contents (Elt F) :=
  Host.scatterAdd scatter_S64x128_S100000x1_S100000x128_1_0_0_1 (val_main_v176 (F := F)) (val_main_v177 (F := F) x3) (val_main_v111 (F := F) x0 x2 x4 x5 x6 x7 x8 x9 x10 x11 x12 x13)

def val_main_v179 (x3 : (⟨S100000, .i32⟩ : BufTy).Contents (Elt F)) : (⟨S64x128, .f32⟩ : BufTy).Contents (Elt F) :=
  broadcastInDim S64x128 ![0, 1] bcast_S64x1_S64x128_0_1 (val_main_v170 (F := F) x3)
def val_main_v180 (x0 : (⟨S100000x64, .f32⟩ : BufTy).Contents (Elt F)) (x2 : (⟨S2x1600000, .i32⟩ : BufTy).Contents (Elt F)) (x3 : (⟨S100000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S64x128, .f32⟩ : BufTy).Contents (Elt F) :=
  Host.divf (val_main_v178 (F := F) x0 x2 x3 x4 x5 x6 x7 x8 x9 x10 x11 x12 x13) (val_main_v179 (F := F) x3)
def val_main_cst_15 : (⟨S_, .f32⟩ : BufTy).Contents (Elt F) :=
  constant S_ .f32 0x00000000#32
def val_main_v181 : (⟨S64x128, .f32⟩ : BufTy).Contents (Elt F) :=
  broadcastInDim S64x128 ![] bcast_S_S64x128 (val_main_cst_15 (F := F))
def val_main_v182 (x3 : (⟨S100000, .i32⟩ : BufTy).Contents (Elt F)) : (⟨S100000x1, .i32⟩ : BufTy).Contents (Elt F) :=
  broadcastInDim S100000x1 ![0] bcast_S100000_S100000x1_0 (x3)
def val_main_v183 (x0 : (⟨S100000x64, .f32⟩ : BufTy).Contents (Elt F)) (x2 : (⟨S2x1600000, .i32⟩ : BufTy).Contents (Elt F)) (x3 : (⟨S100000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S64x128, .f32⟩ : BufTy).Contents (Elt F) :=
  Host.scatterAdd scatter_S64x128_S100000x1_S100000x128_1_0_0_1 (val_main_v181 (F := F)) (val_main_v182 (F := F) x3) (val_main_v163 (F := F) x0 x2 x4 x5 x6 x7 x8 x9 x10 x11 x12 x13)

def val_main_v184 (x3 : (⟨S100000, .i32⟩ : BufTy).Contents (Elt F)) : (⟨S64x128, .f32⟩ : BufTy).Contents (Elt F) :=
  broadcastInDim S64x128 ![0, 1] bcast_S64x1_S64x128_0_1 (val_main_v170 (F := F) x3)
def val_main_v185 (x0 : (⟨S100000x64, .f32⟩ : BufTy).Contents (Elt F)) (x2 : (⟨S2x1600000, .i32⟩ : BufTy).Contents (Elt F)) (x3 : (⟨S100000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S64x128, .f32⟩ : BufTy).Contents (Elt F) :=
  Host.divf (val_main_v183 (F := F) x0 x2 x3 x4 x5 x6 x7 x8 x9 x10 x11 x12 x13) (val_main_v184 (F := F) x3)
def val_main_v186 (x0 : (⟨S100000x64, .f32⟩ : BufTy).Contents (Elt F)) (x2 : (⟨S2x1600000, .i32⟩ : BufTy).Contents (Elt F)) (x3 : (⟨S100000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) : (⟨S64x384, .f32⟩ : BufTy).Contents (Elt F) :=
  concatenate S64x384 1 [⟨S64x128, (val_main_v175 (F := F) x0 x2 x3 x4 x5 x6 x7 x8 x9 x10 x11 x12 x13)⟩, ⟨S64x128, (val_main_v180 (F := F) x0 x2 x3 x4 x5 x6 x7 x8 x9 x10 x11 x12 x13)⟩, ⟨S64x128, (val_main_v185 (F := F) x0 x2 x3 x4 x5 x6 x7 x8 x9 x10 x11 x12 x13)⟩] concatenates_S64x128_S64x128_S64x128_S64x384_d1

def val_main_v187 (x0 : (⟨S100000x64, .f32⟩ : BufTy).Contents (Elt F)) (x2 : (⟨S2x1600000, .i32⟩ : BufTy).Contents (Elt F)) (x3 : (⟨S100000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) (x14 : (⟨S384x384, .f32⟩ : BufTy).Contents (Elt F)) : (⟨S64x384, .f32⟩ : BufTy).Contents (Elt F) :=
  Host.dotGeneral dot_S64x384_S384x384_S64x384_1_0_0_1_n_n none (val_main_v186 (F := F) x0 x2 x3 x4 x5 x6 x7 x8 x9 x10 x11 x12 x13) (x14)
def val_main_v188 (x15 : (⟨S384, .f32⟩ : BufTy).Contents (Elt F)) : (⟨S1x384, .f32⟩ : BufTy).Contents (Elt F) :=
  broadcastInDim S1x384 ![1] bcast_S384_S1x384_1 (x15)
def val_main_v189 (x15 : (⟨S384, .f32⟩ : BufTy).Contents (Elt F)) : (⟨S64x384, .f32⟩ : BufTy).Contents (Elt F) :=
  broadcastInDim S64x384 ![0, 1] bcast_S1x384_S64x384_0_1 (val_main_v188 (F := F) x15)
def val_main_v190 (x0 : (⟨S100000x64, .f32⟩ : BufTy).Contents (Elt F)) (x2 : (⟨S2x1600000, .i32⟩ : BufTy).Contents (Elt F)) (x3 : (⟨S100000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) (x14 : (⟨S384x384, .f32⟩ : BufTy).Contents (Elt F)) (x15 : (⟨S384, .f32⟩ : BufTy).Contents (Elt F)) : (⟨S64x384, .f32⟩ : BufTy).Contents (Elt F) :=
  addf (val_main_v187 (F := F) x0 x2 x3 x4 x5 x6 x7 x8 x9 x10 x11 x12 x13 x14) (val_main_v189 (F := F) x15)
def val_main_call6_cst : (⟨S_, .f32⟩ : BufTy).Contents (Elt F) :=
  constant S_ .f32 0x00000000#32
def val_main_call6_v0 : (⟨S64x384, .f32⟩ : BufTy).Contents (Elt F) :=
  broadcastInDim S64x384 ![] bcast_S_S64x384 (val_main_call6_cst (F := F))
def val_main_v191 (x0 : (⟨S100000x64, .f32⟩ : BufTy).Contents (Elt F)) (x2 : (⟨S2x1600000, .i32⟩ : BufTy).Contents (Elt F)) (x3 : (⟨S100000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) (x14 : (⟨S384x384, .f32⟩ : BufTy).Contents (Elt F)) (x15 : (⟨S384, .f32⟩ : BufTy).Contents (Elt F)) : (⟨S64x384, .f32⟩ : BufTy).Contents (Elt F) :=
  maximumf (val_main_v190 (F := F) x0 x2 x3 x4 x5 x6 x7 x8 x9 x10 x11 x12 x13 x14 x15) (val_main_call6_v0 (F := F))
def val_main_v192 (x0 : (⟨S100000x64, .f32⟩ : BufTy).Contents (Elt F)) (x2 : (⟨S2x1600000, .i32⟩ : BufTy).Contents (Elt F)) (x3 : (⟨S100000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) (x14 : (⟨S384x384, .f32⟩ : BufTy).Contents (Elt F)) (x15 : (⟨S384, .f32⟩ : BufTy).Contents (Elt F)) (x16 : (⟨S384x7, .f32⟩ : BufTy).Contents (Elt F)) : (⟨S64x7, .f32⟩ : BufTy).Contents (Elt F) :=
  Host.dotGeneral dot_S64x384_S384x7_S64x7_1_0_0_1_n_n none (val_main_v191 (F := F) x0 x2 x3 x4 x5 x6 x7 x8 x9 x10 x11 x12 x13 x14 x15) (x16)
def val_main_v193 (x17 : (⟨S7, .f32⟩ : BufTy).Contents (Elt F)) : (⟨S1x7, .f32⟩ : BufTy).Contents (Elt F) :=
  broadcastInDim S1x7 ![1] bcast_S7_S1x7_1 (x17)
def val_main_v194 (x17 : (⟨S7, .f32⟩ : BufTy).Contents (Elt F)) : (⟨S64x7, .f32⟩ : BufTy).Contents (Elt F) :=
  broadcastInDim S64x7 ![0, 1] bcast_S1x7_S64x7_0_1 (val_main_v193 (F := F) x17)
def val_main_v195 (x0 : (⟨S100000x64, .f32⟩ : BufTy).Contents (Elt F)) (x2 : (⟨S2x1600000, .i32⟩ : BufTy).Contents (Elt F)) (x3 : (⟨S100000, .i32⟩ : BufTy).Contents (Elt F)) (x4 : (⟨S64x128, .f32⟩ : BufTy).Contents (Elt F)) (x5 : (⟨S128, .f32⟩ : BufTy).Contents (Elt F)) (x6 : (⟨S3x128x128, .f32⟩ : BufTy).Contents (Elt F)) (x7 x8 x9 x10 x11 : (⟨S3x128, .f32⟩ : BufTy).Contents (Elt F)) (x12 : (⟨S3x128x128, .f32⟩ : BufTy).Contents (Elt F)) (x13 : (⟨S3x128, .f32⟩ : BufTy).Contents (Elt F)) (x14 : (⟨S384x384, .f32⟩ : BufTy).Contents (Elt F)) (x15 : (⟨S384, .f32⟩ : BufTy).Contents (Elt F)) (x16 : (⟨S384x7, .f32⟩ : BufTy).Contents (Elt F)) (x17 : (⟨S7, .f32⟩ : BufTy).Contents (Elt F)) : (⟨S64x7, .f32⟩ : BufTy).Contents (Elt F) :=
  addf (val_main_v192 (F := F) x0 x2 x3 x4 x5 x6 x7 x8 x9 x10 x11 x12 x13 x14 x15 x16) (val_main_v194 (F := F) x17)

end Cert.ReferenceIdeal.ReadP

end
-- ==== Proof.Ref.RefRunInv.lean ====
import proofs.«405256_j52991306498534_2_alg».proof.Proof.Ref.ReadP
import Idealize.ShloMosaic.Lib.StableHlo.Run
import Idealize.ShloMosaic.Lib.Pipeline.Frame
import Idealize.ShloMosaic.Lib.Pipeline.Regions

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev Line : List (HloOp τ sig (Elt F)) → List (Ref sig .tc) → Prop :=
  List.Forall₂ fun op y => op.bufs ⊆ tcRefs τ sig ∧ op.fresh = ∅ ∧ op.writes = {Proc.devRef .tc y}

namespace Line

variable {ops ops' : List (HloOp τ sig (Elt F))} {W W' : List (Ref sig .tc)}

-- By induction on the line: an operation of it is its head or one of its tail.
theorem mem (h : Line ops W) {op : HloOp τ sig (Elt F)} (hop : op ∈ ops) :
    ∃ y ∈ W, op.bufs ⊆ tcRefs τ sig ∧ op.fresh = ∅ ∧ op.writes = {Proc.devRef .tc y} := by
  induction h with
  | nil => cases hop
  | cons a _ ih =>
    rcases List.mem_cons.1 hop with rfl | hm
    · exact ⟨_, List.mem_cons_self, a⟩
    · exact (ih hm).imp fun _ hy => ⟨List.mem_cons_of_mem _ hy.1, hy.2⟩

theorem append (h : Line ops W) (h' : Line ops' W') : Line (ops ++ ops') (W ++ W') := by
  induction h with
  | nil => exact h'
  | cons a _ ih => exact .cons a ih

theorem sub (h : Line ops W) : ops.Forall fun op => op.bufs ⊆ tcRefs τ sig :=
  List.forall_iff_forall_mem.2 fun _ hop => let ⟨_, _, hy⟩ := h.mem hop; hy.1

theorem fresh (h : Line ops W) : ∀ op ∈ ops, op.fresh = ∅ :=
  fun _ hop => let ⟨_, _, hy⟩ := h.mem hop; hy.2.1

-- A buffer the line does not write is written by none of its operations.
theorem keep (h : Line ops W) (V : Valuation τ sig (Elt F)) {r : Ref sig .tc} (hr : r ∉ W) : after ops V r = V r :=
  after_of_forall_not_mem ops V fun _ hop hb => by
    obtain ⟨y, hy, -, -, hw⟩ := h.mem hop
    rw [hw, Finset.mem_singleton] at hb
    exact hr (Proc.devRef_injective _ hb ▸ hy)

end Line

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17]

variable (V₀ V : Valuation τ sig (Elt F))

abbrev x0 := V₀ main_arg0
abbrev x2 := V₀ main_arg2
abbrev x3 := V₀ main_arg3
abbrev x4 := V₀ main_arg4
abbrev x5 := V₀ main_arg5
abbrev x6 := V₀ main_arg6
abbrev x7 := V₀ main_arg7
abbrev x8 := V₀ main_arg8
abbrev x9 := V₀ main_arg9
abbrev x10 := V₀ main_arg10
abbrev x11 := V₀ main_arg11
abbrev x12 := V₀ main_arg12
abbrev x13 := V₀ main_arg13
abbrev x14 := V₀ main_arg14
abbrev x15 := V₀ main_arg15
abbrev x16 := V₀ main_arg16
abbrev x17 := V₀ main_arg17

def Same : Prop := ∀ r ∈ args, V r = V₀ r

variable {V₀ V}

-- No argument is written by the line, so each still holds what it held at the start.
theorem Same.after {ops : List (HloOp τ sig (Elt F))} {W : List (Ref sig .tc)} (h : Same V₀ V) (hl : Line ops W) (hW : ∀ r ∈ args, r ∉ W) :
    Same V₀ (after ops V) := fun r hr => (hl.keep V (hW r hr)).trans (h r hr)

variable (V₀ V)

structure Inv1 : Prop where
  arg : Same V₀ V
  r_v1 : V main_v1 = ReadP.val_main_v1 (x2 V₀)
  r_v3 : V main_v3 = ReadP.val_main_v3 (x2 V₀)
  r_v7 : V main_v7 = ReadP.val_main_v7 (x0 V₀) (x4 V₀) (x5 V₀)
  r_v9 : V main_v9 = ReadP.val_main_v9 (x6 V₀)
  r_v11 : V main_v11 = ReadP.val_main_v11 (x7 V₀)
  r_v13 : V main_v13 = ReadP.val_main_v13 (x8 V₀)
  r_v15 : V main_v15 = ReadP.val_main_v15 (x9 V₀)
  r_v17 : V main_v17 = ReadP.val_main_v17 (x10 V₀)
  r_v19 : V main_v19 = ReadP.val_main_v19 (x11 V₀)
  r_v21 : V main_v21 = ReadP.val_main_v21 (x12 V₀)
  r_v23 : V main_v23 = ReadP.val_main_v23 (x13 V₀)
  r_v29 : V main_v29 = ReadP.val_main_v29 (x2 V₀)

structure Inv2 : Prop where
  arg : Same V₀ V
  r_v1 : V main_v1 = ReadP.val_main_v1 (x2 V₀)
  r_v3 : V main_v3 = ReadP.val_main_v3 (x2 V₀)
  r_v23 : V main_v23 = ReadP.val_main_v23 (x13 V₀)
  r_v55 : V main_v55 = ReadP.val_main_v55 (x0 V₀) (x2 V₀) (x4 V₀) (x5 V₀) (x6 V₀) (x7 V₀) (x8 V₀) (x9 V₀) (x10 V₀) (x11 V₀) (x12 V₀)

structure Inv3 : Prop where
  arg : Same V₀ V
  r_v1 : V main_v1 = ReadP.val_main_v1 (x2 V₀)
  r_v3 : V main_v3 = ReadP.val_main_v3 (x2 V₀)
  r_v59 : V main_v59 = ReadP.val_main_v59 (x0 V₀) (x2 V₀) (x4 V₀) (x5 V₀) (x6 V₀) (x7 V₀) (x8 V₀) (x9 V₀) (x10 V₀) (x11 V₀) (x12 V₀) (x13 V₀)
  r_v61 : V main_v61 = ReadP.val_main_v61 (x6 V₀)
  r_v63 : V main_v63 = ReadP.val_main_v63 (x7 V₀)
  r_v65 : V main_v65 = ReadP.val_main_v65 (x8 V₀)
  r_v67 : V main_v67 = ReadP.val_main_v67 (x9 V₀)
  r_v69 : V main_v69 = ReadP.val_main_v69 (x10 V₀)
  r_v71 : V main_v71 = ReadP.val_main_v71 (x11 V₀)
  r_v73 : V main_v73 = ReadP.val_main_v73 (x12 V₀)
  r_v75 : V main_v75 = ReadP.val_main_v75 (x13 V₀)
  r_v81 : V main_v81 = ReadP.val_main_v81 (x2 V₀)

structure Inv4 : Prop where
  arg : Same V₀ V
  r_v1 : V main_v1 = ReadP.val_main_v1 (x2 V₀)
  r_v3 : V main_v3 = ReadP.val_main_v3 (x2 V₀)
  r_v59 : V main_v59 = ReadP.val_main_v59 (x0 V₀) (x2 V₀) (x4 V₀) (x5 V₀) (x6 V₀) (x7 V₀) (x8 V₀) (x9 V₀) (x10 V₀) (x11 V₀) (x12 V₀) (x13 V₀)
  r_v111 : V main_v111 = ReadP.val_main_v111 (x0 V₀) (x2 V₀) (x4 V₀) (x5 V₀) (x6 V₀) (x7 V₀) (x8 V₀) (x9 V₀) (x10 V₀) (x11 V₀) (x12 V₀) (x13 V₀)

structure Inv5 : Prop where
  arg : Same V₀ V
  r_v59 : V main_v59 = ReadP.val_main_v59 (x0 V₀) (x2 V₀) (x4 V₀) (x5 V₀) (x6 V₀) (x7 V₀) (x8 V₀) (x9 V₀) (x10 V₀) (x11 V₀) (x12 V₀) (x13 V₀)
  r_v111 : V main_v111 = ReadP.val_main_v111 (x0 V₀) (x2 V₀) (x4 V₀) (x5 V₀) (x6 V₀) (x7 V₀) (x8 V₀) (x9 V₀) (x10 V₀) (x11 V₀) (x12 V₀) (x13 V₀)
  r_v113 : V main_v113 = ReadP.val_main_v113 (x6 V₀)
  r_v115 : V main_v115 = ReadP.val_main_v115 (x7 V₀)
  r_v117 : V main_v117 = ReadP.val_main_v117 (x8 V₀)
  r_v119 : V main_v119 = ReadP.val_main_v119 (x9 V₀)
  r_v121 : V main_v121 = ReadP.val_main_v121 (x10 V₀)
  r_v123 : V main_v123 = ReadP.val_main_v123 (x11 V₀)
  r_v125 : V main_v125 = ReadP.val_main_v125 (x12 V₀)
  r_v127 : V main_v127 = ReadP.val_main_v127 (x13 V₀)
  r_v137 : V main_v137 = ReadP.val_main_v137 (x0 V₀) (x2 V₀) (x4 V₀) (x5 V₀) (x6 V₀) (x7 V₀) (x8 V₀) (x9 V₀) (x10 V₀) (x11 V₀) (x12 V₀) (x13 V₀)

structure Inv6 : Prop where
  arg : Same V₀ V
  r_v59 : V main_v59 = ReadP.val_main_v59 (x0 V₀) (x2 V₀) (x4 V₀) (x5 V₀) (x6 V₀) (x7 V₀) (x8 V₀) (x9 V₀) (x10 V₀) (x11 V₀) (x12 V₀) (x13 V₀)
  r_v111 : V main_v111 = ReadP.val_main_v111 (x0 V₀) (x2 V₀) (x4 V₀) (x5 V₀) (x6 V₀) (x7 V₀) (x8 V₀) (x9 V₀) (x10 V₀) (x11 V₀) (x12 V₀) (x13 V₀)
  r_v163 : V main_v163 = ReadP.val_main_v163 (x0 V₀) (x2 V₀) (x4 V₀) (x5 V₀) (x6 V₀) (x7 V₀) (x8 V₀) (x9 V₀) (x10 V₀) (x11 V₀) (x12 V₀) (x13 V₀)
  r_v164 : V main_v164 = ReadP.val_main_v164 (F := F)
  r_v165 : V main_v165 = ReadP.val_main_v165 (F := F)

structure Inv7 : Prop where
  arg : Same V₀ V
  r_v175 : V main_v175 = ReadP.val_main_v175 (x0 V₀) (x2 V₀) (x3 V₀) (x4 V₀) (x5 V₀) (x6 V₀) (x7 V₀) (x8 V₀) (x9 V₀) (x10 V₀) (x11 V₀) (x12 V₀) (x13 V₀)
  r_v180 : V main_v180 = ReadP.val_main_v180 (x0 V₀) (x2 V₀) (x3 V₀) (x4 V₀) (x5 V₀) (x6 V₀) (x7 V₀) (x8 V₀) (x9 V₀) (x10 V₀) (x11 V₀) (x12 V₀) (x13 V₀)
  r_v185 : V main_v185 = ReadP.val_main_v185 (x0 V₀) (x2 V₀) (x3 V₀) (x4 V₀) (x5 V₀) (x6 V₀) (x7 V₀) (x8 V₀) (x9 V₀) (x10 V₀) (x11 V₀) (x12 V₀) (x13 V₀)

structure Inv8 : Prop where
  arg : Same V₀ V
  r_v186 : V main_v186 = ReadP.val_main_v186 (x0 V₀) (x2 V₀) (x3 V₀) (x4 V₀) (x5 V₀) (x6 V₀) (x7 V₀) (x8 V₀) (x9 V₀) (x10 V₀) (x11 V₀) (x12 V₀) (x13 V₀)

structure Inv9 : Prop where
  arg : Same V₀ V
  r_v186 : V main_v186 = ReadP.val_main_v186 (x0 V₀) (x2 V₀) (x3 V₀) (x4 V₀) (x5 V₀) (x6 V₀) (x7 V₀) (x8 V₀) (x9 V₀) (x10 V₀) (x11 V₀) (x12 V₀) (x13 V₀)
  r_v195 : V main_v195 = ReadP.val_main_v195 (x0 V₀) (x2 V₀) (x3 V₀) (x4 V₀) (x5 V₀) (x6 V₀) (x7 V₀) (x8 V₀) (x9 V₀) (x10 V₀) (x11 V₀) (x12 V₀) (x13 V₀) (x14 V₀) (x15 V₀) (x16 V₀) (x17 V₀)

end Cert.ReferenceIdeal.RefRun

end
-- ==== Proof.Ref.RefRunC0.lean ====
import proofs.«405256_j52991306498534_2_alg».proof.Proof.Ref.RefRunInv

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def ops0 : List (HloOp τ sig (Elt F)) :=
  [ unary main_arg2 main_v0 (extractStridedSlice S1x1600000 ![0, 0] · slices_S2x1600000_S1x1600000_0_0),
    reshape main_v0 main_v1 rfl shapeCasts_S1x1600000_S1600000,
    unary main_arg2 main_v2 (extractStridedSlice S1x1600000 ![1, 0] · slices_S2x1600000_S1x1600000_1_0),
    reshape main_v2 main_v3 rfl shapeCasts_S1x1600000_S1600000,
    binary main_arg0 main_arg4 main_v4 (fun l r => Host.dotGeneral dot_S100000x64_S64x128_S100000x128_1_0_0_1_n_n none l r),
    unary main_arg5 main_v5 (broadcastInDim S1x128 ![1] bcast_S128_S1x128_1),
    unary main_v5 main_v6 (broadcastInDim S100000x128 ![0, 1] bcast_S1x128_S100000x128_0_1),
    binary main_v4 main_v6 main_v7 addf,
    unary main_arg6 main_v8 (extractStridedSlice S1x128x128 ![0, 0, 0] · slices_S3x128x128_S1x128x128_0_0_0),
    reshape main_v8 main_v9 rfl shapeCasts_S1x128x128_S128x128,
    unary main_arg7 main_v10 (extractStridedSlice S1x128 ![0, 0] · slices_S3x128_S1x128_0_0),
    reshape main_v10 main_v11 rfl shapeCasts_S1x128_S128,
    unary main_arg8 main_v12 (extractStridedSlice S1x128 ![0, 0] · slices_S3x128_S1x128_0_0),
    reshape main_v12 main_v13 rfl shapeCasts_S1x128_S128,
    unary main_arg9 main_v14 (extractStridedSlice S1x128 ![0, 0] · slices_S3x128_S1x128_0_0),
    reshape main_v14 main_v15 rfl shapeCasts_S1x128_S128,
    unary main_arg10 main_v16 (extractStridedSlice S1x128 ![0, 0] · slices_S3x128_S1x128_0_0),
    reshape main_v16 main_v17 rfl shapeCasts_S1x128_S128,
    unary main_arg11 main_v18 (extractStridedSlice S1x128 ![0, 0] · slices_S3x128_S1x128_0_0),
    reshape main_v18 main_v19 rfl shapeCasts_S1x128_S128,
    unary main_arg12 main_v20 (extractStridedSlice S1x128x128 ![0, 0, 0] · slices_S3x128x128_S1x128x128_0_0_0),
    reshape main_v20 main_v21 rfl shapeCasts_S1x128x128_S128x128,
    unary main_arg13 main_v22 (extractStridedSlice S1x128 ![0, 0] · slices_S3x128_S1x128_0_0),
    reshape main_v22 main_v23 rfl shapeCasts_S1x128_S128,
    nullary main_c (constantI S_ 32 0#32),
    unary main_c main_v24 (broadcastInDim S1600000 ![] bcast_S_S1600000),
    binary main_v1 main_v24 main_v25 (cmpi .slt),
    nullary main_c_0 (constantI S_ 32 100000#32),
    unary main_c_0 main_v26 (broadcastInDim S1600000 ![] bcast_S_S1600000),
    binary main_v1 main_v26 main_v27 addi,
    ternary main_v25 main_v27 main_v1 main_v28 select,
    unary main_v28 main_v29 (broadcastInDim S1600000x1 ![0] bcast_S1600000_S1600000x1_0) ]

abbrev W0 : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_c, main_v24, main_v25, main_c_0, main_v26, main_v27, main_v28, main_v29]

theorem line0 : Line (F := F) ops0 W0 := by
  repeat (first | exact .nil | refine .cons ⟨by simp, rfl, rfl⟩ ?_)

set_option maxHeartbeats 4000000 in
theorem stage0 {V₀ V : Valuation τ sig (Elt F)} (h : Same V₀ V) : Inv1 V₀ (after ops0 V) := by
  refine ⟨h.after line0 (by decide), ?_, ?_, ?_, ?_, ?_, ?_, ?_, ?_, ?_, ?_, ?_, ?_⟩
  all_goals
    unfold ops0
    after_results_simp
    try simp only [h main_arg2 (by decide), h main_arg0 (by decide), h main_arg4 (by decide), h main_arg5 (by decide), h main_arg6 (by decide), h main_arg7 (by decide), h main_arg8 (by decide), h main_arg9 (by decide), h main_arg10 (by decide), h main_arg11 (by decide), h main_arg12 (by decide), h main_arg13 (by decide)]
    try simp only [TRef.ofBuf, TRef.toBuf, cast_eq]
    rfl

end Cert.ReferenceIdeal.RefRun

end
-- ==== Proof.Ref.RefRunC1.lean ====
import proofs.«405256_j52991306498534_2_alg».proof.Proof.Ref.RefRunInv

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def ops1 : List (HloOp τ sig (Elt F)) :=
  [ binary main_v7 main_v29 main_v30 (fun x i => Host.gather gather_S100000x128_S1600000x1_S1600000x128_1_0_n_n_0_1_1128 x i),
    nullary main_cst (constant S_ .f32 0x00000000#32),
    unary main_cst main_v31 (broadcastInDim S100000x128 ![] bcast_S_S100000x128),
    unary main_v3 main_v32 (broadcastInDim S1600000x1 ![0] bcast_S1600000_S1600000x1_0),
    ternary main_v31 main_v32 main_v30 main_v33 (fun x i u => Host.scatterAdd scatter_S100000x128_S1600000x1_S1600000x128_1_0_0_1 x i u),
    binary main_v7 main_v33 main_v34 addf,
    binary main_v34 main_v9 main_v35 (fun l r => Host.dotGeneral dot_S100000x128_S128x128_S100000x128_1_0_0_1_n_n none l r),
    unary main_v11 main_v36 (broadcastInDim S1x128 ![1] bcast_S128_S1x128_1),
    unary main_v36 main_v37 (broadcastInDim S100000x128 ![0, 1] bcast_S1x128_S100000x128_0_1),
    binary main_v35 main_v37 main_v38 addf,
    unary main_v17 main_v39 (broadcastInDim S1x128 ![1] bcast_S128_S1x128_1),
    unary main_v39 main_v40 (broadcastInDim S100000x128 ![0, 1] bcast_S1x128_S100000x128_0_1),
    binary main_v38 main_v40 main_v41 subf,
    nullary main_cst_1 (constant S_ .f32 0x3727C5AC#32),
    unary main_cst_1 main_v42 (broadcastInDim S128 ![] bcast_S_S128),
    binary main_v19 main_v42 main_v43 addf,
    unary main_v43 main_v44 Host.rsqrt,
    unary main_v44 main_v45 (broadcastInDim S1x128 ![1] bcast_S128_S1x128_1),
    unary main_v45 main_v46 (broadcastInDim S100000x128 ![0, 1] bcast_S1x128_S100000x128_0_1),
    binary main_v41 main_v46 main_v47 mulf,
    unary main_v13 main_v48 (broadcastInDim S1x128 ![1] bcast_S128_S1x128_1),
    unary main_v48 main_v49 (broadcastInDim S100000x128 ![0, 1] bcast_S1x128_S100000x128_0_1),
    binary main_v47 main_v49 main_v50 mulf,
    unary main_v15 main_v51 (broadcastInDim S1x128 ![1] bcast_S128_S1x128_1),
    unary main_v51 main_v52 (broadcastInDim S100000x128 ![0, 1] bcast_S1x128_S100000x128_0_1),
    binary main_v50 main_v52 main_v53 addf,
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v53) (TRef.of (T := ⟨S100000x128, .f32⟩) main_call0_v0) (TRef.of (T := ⟨S100000x128, .f32⟩) main_v54) maximumf,
    binary main_v54 main_v21 main_v55 (fun l r => Host.dotGeneral dot_S100000x128_S128x128_S100000x128_1_0_0_1_n_n none l r) ]

abbrev W1 : List (Ref sig .tc) := [main_v30, main_cst, main_v31, main_v32, main_v33, main_v34, main_v35, main_v36, main_v37, main_v38, main_v39, main_v40, main_v41, main_cst_1, main_v42, main_v43, main_v44, main_v45, main_v46, main_v47, main_v48, main_v49, main_v50, main_v51, main_v52, main_v53, main_call0_cst, main_call0_v0, main_v54, main_v55]

theorem line1 : Line (F := F) ops1 W1 := by
  repeat (first | exact .nil | refine .cons ⟨by simp, rfl, rfl⟩ ?_)

set_option maxHeartbeats 4000000 in
theorem stage1 {V₀ V : Valuation τ sig (Elt F)} (h : Inv1 V₀ V) : Inv2 V₀ (after ops1 V) := by
  refine ⟨h.arg.after line1 (by decide), (line1.keep V (by decide)).trans h.r_v1, (line1.keep V (by decide)).trans h.r_v3, (line1.keep V (by decide)).trans h.r_v23, ?_⟩
  all_goals
    unfold ops1
    after_results_simp
    try simp only [h.r_v7, h.r_v29, h.r_v3, h.r_v9, h.r_v11, h.r_v17, h.r_v19, h.r_v13, h.r_v15, h.r_v21]
    try simp only [TRef.ofBuf, TRef.toBuf, cast_eq]
    rfl

end Cert.ReferenceIdeal.RefRun

end
-- ==== Proof.Ref.RefRunC2.lean ====
import proofs.«405256_j52991306498534_2_alg».proof.Proof.Ref.RefRunInv

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def ops2 : List (HloOp τ sig (Elt F)) :=
  [ unary main_v23 main_v56 (broadcastInDim S1x128 ![1] bcast_S128_S1x128_1),
    unary main_v56 main_v57 (broadcastInDim S100000x128 ![0, 1] bcast_S1x128_S100000x128_0_1),
    binary main_v55 main_v57 main_v58 addf,
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v58) (TRef.of (T := ⟨S100000x128, .f32⟩) main_call1_v0) (TRef.of (T := ⟨S100000x128, .f32⟩) main_v59) maximumf,
    unary main_arg6 main_v60 (extractStridedSlice S1x128x128 ![1, 0, 0] · slices_S3x128x128_S1x128x128_1_0_0),
    reshape main_v60 main_v61 rfl shapeCasts_S1x128x128_S128x128,
    unary main_arg7 main_v62 (extractStridedSlice S1x128 ![1, 0] · slices_S3x128_S1x128_1_0),
    reshape main_v62 main_v63 rfl shapeCasts_S1x128_S128,
    unary main_arg8 main_v64 (extractStridedSlice S1x128 ![1, 0] · slices_S3x128_S1x128_1_0),
    reshape main_v64 main_v65 rfl shapeCasts_S1x128_S128,
    unary main_arg9 main_v66 (extractStridedSlice S1x128 ![1, 0] · slices_S3x128_S1x128_1_0),
    reshape main_v66 main_v67 rfl shapeCasts_S1x128_S128,
    unary main_arg10 main_v68 (extractStridedSlice S1x128 ![1, 0] · slices_S3x128_S1x128_1_0),
    reshape main_v68 main_v69 rfl shapeCasts_S1x128_S128,
    unary main_arg11 main_v70 (extractStridedSlice S1x128 ![1, 0] · slices_S3x128_S1x128_1_0),
    reshape main_v70 main_v71 rfl shapeCasts_S1x128_S128,
    unary main_arg12 main_v72 (extractStridedSlice S1x128x128 ![1, 0, 0] · slices_S3x128x128_S1x128x128_1_0_0),
    reshape main_v72 main_v73 rfl shapeCasts_S1x128x128_S128x128,
    unary main_arg13 main_v74 (extractStridedSlice S1x128 ![1, 0] · slices_S3x128_S1x128_1_0),
    reshape main_v74 main_v75 rfl shapeCasts_S1x128_S128,
    nullary main_c_2 (constantI S_ 32 0#32),
    unary main_c_2 main_v76 (broadcastInDim S1600000 ![] bcast_S_S1600000),
    binary main_v1 main_v76 main_v77 (cmpi .slt),
    nullary main_c_3 (constantI S_ 32 100000#32),
    unary main_c_3 main_v78 (broadcastInDim S1600000 ![] bcast_S_S1600000),
    binary main_v1 main_v78 main_v79 addi,
    ternary main_v77 main_v79 main_v1 main_v80 select,
    unary main_v80 main_v81 (broadcastInDim S1600000x1 ![0] bcast_S1600000_S1600000x1_0) ]

abbrev W2 : List (Ref sig .tc) := [main_v56, main_v57, main_v58, main_call1_cst, main_call1_v0, main_v59, main_v60, main_v61, main_v62, main_v63, main_v64, main_v65, main_v66, main_v67, main_v68, main_v69, main_v70, main_v71, main_v72, main_v73, main_v74, main_v75, main_c_2, main_v76, main_v77, main_c_3, main_v78, main_v79, main_v80, main_v81]

theorem line2 : Line (F := F) ops2 W2 := by
  repeat (first | exact .nil | refine .cons ⟨by simp, rfl, rfl⟩ ?_)

set_option maxHeartbeats 4000000 in
theorem stage2 {V₀ V : Valuation τ sig (Elt F)} (h : Inv2 V₀ V) : Inv3 V₀ (after ops2 V) := by
  refine ⟨h.arg.after line2 (by decide), (line2.keep V (by decide)).trans h.r_v1, (line2.keep V (by decide)).trans h.r_v3, ?_, ?_, ?_, ?_, ?_, ?_, ?_, ?_, ?_, ?_⟩
  all_goals
    unfold ops2
    after_results_simp
    try simp only [h.r_v23, h.r_v55, h.arg main_arg6 (by decide), h.arg main_arg7 (by decide), h.arg main_arg8 (by decide), h.arg main_arg9 (by decide), h.arg main_arg10 (by decide), h.arg main_arg11 (by decide), h.arg main_arg12 (by decide), h.arg main_arg13 (by decide), h.r_v1]
    try simp only [TRef.ofBuf, TRef.toBuf, cast_eq]
    rfl

end Cert.ReferenceIdeal.RefRun

end
-- ==== Proof.Ref.RefRunC3.lean ====
import proofs.«405256_j52991306498534_2_alg».proof.Proof.Ref.RefRunInv

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def ops3 : List (HloOp τ sig (Elt F)) :=
  [ binary main_v59 main_v81 main_v82 (fun x i => Host.gather gather_S100000x128_S1600000x1_S1600000x128_1_0_n_n_0_1_1128 x i),
    nullary main_cst_4 (constant S_ .f32 0x00000000#32),
    unary main_cst_4 main_v83 (broadcastInDim S100000x128 ![] bcast_S_S100000x128),
    unary main_v3 main_v84 (broadcastInDim S1600000x1 ![0] bcast_S1600000_S1600000x1_0),
    ternary main_v83 main_v84 main_v82 main_v85 (fun x i u => Host.scatterAdd scatter_S100000x128_S1600000x1_S1600000x128_1_0_0_1 x i u),
    binary main_v59 main_v85 main_v86 addf,
    binary main_v86 main_v61 main_v87 (fun l r => Host.dotGeneral dot_S100000x128_S128x128_S100000x128_1_0_0_1_n_n none l r),
    unary main_v63 main_v88 (broadcastInDim S1x128 ![1] bcast_S128_S1x128_1),
    unary main_v88 main_v89 (broadcastInDim S100000x128 ![0, 1] bcast_S1x128_S100000x128_0_1),
    binary main_v87 main_v89 main_v90 addf,
    unary main_v69 main_v91 (broadcastInDim S1x128 ![1] bcast_S128_S1x128_1),
    unary main_v91 main_v92 (broadcastInDim S100000x128 ![0, 1] bcast_S1x128_S100000x128_0_1),
    binary main_v90 main_v92 main_v93 subf,
    nullary main_cst_5 (constant S_ .f32 0x3727C5AC#32),
    unary main_cst_5 main_v94 (broadcastInDim S128 ![] bcast_S_S128),
    binary main_v71 main_v94 main_v95 addf,
    unary main_v95 main_v96 Host.rsqrt,
    unary main_v96 main_v97 (broadcastInDim S1x128 ![1] bcast_S128_S1x128_1),
    unary main_v97 main_v98 (broadcastInDim S100000x128 ![0, 1] bcast_S1x128_S100000x128_0_1),
    binary main_v93 main_v98 main_v99 mulf,
    unary main_v65 main_v100 (broadcastInDim S1x128 ![1] bcast_S128_S1x128_1),
    unary main_v100 main_v101 (broadcastInDim S100000x128 ![0, 1] bcast_S1x128_S100000x128_0_1),
    binary main_v99 main_v101 main_v102 mulf,
    unary main_v67 main_v103 (broadcastInDim S1x128 ![1] bcast_S128_S1x128_1),
    unary main_v103 main_v104 (broadcastInDim S100000x128 ![0, 1] bcast_S1x128_S100000x128_0_1),
    binary main_v102 main_v104 main_v105 addf,
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v105) (TRef.of (T := ⟨S100000x128, .f32⟩) main_call2_v0) (TRef.of (T := ⟨S100000x128, .f32⟩) main_v106) maximumf,
    binary main_v106 main_v73 main_v107 (fun l r => Host.dotGeneral dot_S100000x128_S128x128_S100000x128_1_0_0_1_n_n none l r),
    unary main_v75 main_v108 (broadcastInDim S1x128 ![1] bcast_S128_S1x128_1),
    unary main_v108 main_v109 (broadcastInDim S100000x128 ![0, 1] bcast_S1x128_S100000x128_0_1),
    binary main_v107 main_v109 main_v110 addf,
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v110) (TRef.of (T := ⟨S100000x128, .f32⟩) main_call3_v0) (TRef.of (T := ⟨S100000x128, .f32⟩) main_v111) maximumf ]

abbrev W3 : List (Ref sig .tc) := [main_v82, main_cst_4, main_v83, main_v84, main_v85, main_v86, main_v87, main_v88, main_v89, main_v90, main_v91, main_v92, main_v93, main_cst_5, main_v94, main_v95, main_v96, main_v97, main_v98, main_v99, main_v100, main_v101, main_v102, main_v103, main_v104, main_v105, main_call2_cst, main_call2_v0, main_v106, main_v107, main_v108, main_v109, main_v110, main_call3_cst, main_call3_v0, main_v111]

theorem line3 : Line (F := F) ops3 W3 := by
  repeat (first | exact .nil | refine .cons ⟨by simp, rfl, rfl⟩ ?_)

set_option maxHeartbeats 4000000 in
theorem stage3 {V₀ V : Valuation τ sig (Elt F)} (h : Inv3 V₀ V) : Inv4 V₀ (after ops3 V) := by
  refine ⟨h.arg.after line3 (by decide), (line3.keep V (by decide)).trans h.r_v1, (line3.keep V (by decide)).trans h.r_v3, (line3.keep V (by decide)).trans h.r_v59, ?_⟩
  all_goals
    unfold ops3
    after_results_simp
    try simp only [h.r_v59, h.r_v81, h.r_v3, h.r_v61, h.r_v63, h.r_v69, h.r_v71, h.r_v65, h.r_v67, h.r_v73, h.r_v75]
    try simp only [TRef.ofBuf, TRef.toBuf, cast_eq]
    rfl

end Cert.ReferenceIdeal.RefRun

end
-- ==== Proof.Ref.RefRunC4.lean ====
import proofs.«405256_j52991306498534_2_alg».proof.Proof.Ref.RefRunInv

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def ops4 : List (HloOp τ sig (Elt F)) :=
  [ unary main_arg6 main_v112 (extractStridedSlice S1x128x128 ![2, 0, 0] · slices_S3x128x128_S1x128x128_2_0_0),
    reshape main_v112 main_v113 rfl shapeCasts_S1x128x128_S128x128,
    unary main_arg7 main_v114 (extractStridedSlice S1x128 ![2, 0] · slices_S3x128_S1x128_2_0),
    reshape main_v114 main_v115 rfl shapeCasts_S1x128_S128,
    unary main_arg8 main_v116 (extractStridedSlice S1x128 ![2, 0] · slices_S3x128_S1x128_2_0),
    reshape main_v116 main_v117 rfl shapeCasts_S1x128_S128,
    unary main_arg9 main_v118 (extractStridedSlice S1x128 ![2, 0] · slices_S3x128_S1x128_2_0),
    reshape main_v118 main_v119 rfl shapeCasts_S1x128_S128,
    unary main_arg10 main_v120 (extractStridedSlice S1x128 ![2, 0] · slices_S3x128_S1x128_2_0),
    reshape main_v120 main_v121 rfl shapeCasts_S1x128_S128,
    unary main_arg11 main_v122 (extractStridedSlice S1x128 ![2, 0] · slices_S3x128_S1x128_2_0),
    reshape main_v122 main_v123 rfl shapeCasts_S1x128_S128,
    unary main_arg12 main_v124 (extractStridedSlice S1x128x128 ![2, 0, 0] · slices_S3x128x128_S1x128x128_2_0_0),
    reshape main_v124 main_v125 rfl shapeCasts_S1x128x128_S128x128,
    unary main_arg13 main_v126 (extractStridedSlice S1x128 ![2, 0] · slices_S3x128_S1x128_2_0),
    reshape main_v126 main_v127 rfl shapeCasts_S1x128_S128,
    nullary main_c_6 (constantI S_ 32 0#32),
    unary main_c_6 main_v128 (broadcastInDim S1600000 ![] bcast_S_S1600000),
    binary main_v1 main_v128 main_v129 (cmpi .slt),
    nullary main_c_7 (constantI S_ 32 100000#32),
    unary main_c_7 main_v130 (broadcastInDim S1600000 ![] bcast_S_S1600000),
    binary main_v1 main_v130 main_v131 addi,
    ternary main_v129 main_v131 main_v1 main_v132 select,
    unary main_v132 main_v133 (broadcastInDim S1600000x1 ![0] bcast_S1600000_S1600000x1_0),
    binary main_v111 main_v133 main_v134 (fun x i => Host.gather gather_S100000x128_S1600000x1_S1600000x128_1_0_n_n_0_1_1128 x i),
    nullary main_cst_8 (constant S_ .f32 0x00000000#32),
    unary main_cst_8 main_v135 (broadcastInDim S100000x128 ![] bcast_S_S100000x128),
    unary main_v3 main_v136 (broadcastInDim S1600000x1 ![0] bcast_S1600000_S1600000x1_0),
    ternary main_v135 main_v136 main_v134 main_v137 (fun x i u => Host.scatterAdd scatter_S100000x128_S1600000x1_S1600000x128_1_0_0_1 x i u) ]

abbrev W4 : List (Ref sig .tc) := [main_v112, main_v113, main_v114, main_v115, main_v116, main_v117, main_v118, main_v119, main_v120, main_v121, main_v122, main_v123, main_v124, main_v125, main_v126, main_v127, main_c_6, main_v128, main_v129, main_c_7, main_v130, main_v131, main_v132, main_v133, main_v134, main_cst_8, main_v135, main_v136, main_v137]

theorem line4 : Line (F := F) ops4 W4 := by
  repeat (first | exact .nil | refine .cons ⟨by simp, rfl, rfl⟩ ?_)

set_option maxHeartbeats 4000000 in
theorem stage4 {V₀ V : Valuation τ sig (Elt F)} (h : Inv4 V₀ V) : Inv5 V₀ (after ops4 V) := by
  refine ⟨h.arg.after line4 (by decide), (line4.keep V (by decide)).trans h.r_v59, (line4.keep V (by decide)).trans h.r_v111, ?_, ?_, ?_, ?_, ?_, ?_, ?_, ?_, ?_⟩
  all_goals
    unfold ops4
    after_results_simp
    try simp only [h.arg main_arg6 (by decide), h.arg main_arg7 (by decide), h.arg main_arg8 (by decide), h.arg main_arg9 (by decide), h.arg main_arg10 (by decide), h.arg main_arg11 (by decide), h.arg main_arg12 (by decide), h.arg main_arg13 (by decide), h.r_v1, h.r_v111, h.r_v3]
    try simp only [TRef.ofBuf, TRef.toBuf, cast_eq]
    rfl

end Cert.ReferenceIdeal.RefRun

end
-- ==== Proof.Ref.RefRunC5.lean ====
import proofs.«405256_j52991306498534_2_alg».proof.Proof.Ref.RefRunInv

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def ops5 : List (HloOp τ sig (Elt F)) :=
  [ binary main_v111 main_v137 main_v138 addf,
    binary main_v138 main_v113 main_v139 (fun l r => Host.dotGeneral dot_S100000x128_S128x128_S100000x128_1_0_0_1_n_n none l r),
    unary main_v115 main_v140 (broadcastInDim S1x128 ![1] bcast_S128_S1x128_1),
    unary main_v140 main_v141 (broadcastInDim S100000x128 ![0, 1] bcast_S1x128_S100000x128_0_1),
    binary main_v139 main_v141 main_v142 addf,
    unary main_v121 main_v143 (broadcastInDim S1x128 ![1] bcast_S128_S1x128_1),
    unary main_v143 main_v144 (broadcastInDim S100000x128 ![0, 1] bcast_S1x128_S100000x128_0_1),
    binary main_v142 main_v144 main_v145 subf,
    nullary main_cst_9 (constant S_ .f32 0x3727C5AC#32),
    unary main_cst_9 main_v146 (broadcastInDim S128 ![] bcast_S_S128),
    binary main_v123 main_v146 main_v147 addf,
    unary main_v147 main_v148 Host.rsqrt,
    unary main_v148 main_v149 (broadcastInDim S1x128 ![1] bcast_S128_S1x128_1),
    unary main_v149 main_v150 (broadcastInDim S100000x128 ![0, 1] bcast_S1x128_S100000x128_0_1),
    binary main_v145 main_v150 main_v151 mulf,
    unary main_v117 main_v152 (broadcastInDim S1x128 ![1] bcast_S128_S1x128_1),
    unary main_v152 main_v153 (broadcastInDim S100000x128 ![0, 1] bcast_S1x128_S100000x128_0_1),
    binary main_v151 main_v153 main_v154 mulf,
    unary main_v119 main_v155 (broadcastInDim S1x128 ![1] bcast_S128_S1x128_1),
    unary main_v155 main_v156 (broadcastInDim S100000x128 ![0, 1] bcast_S1x128_S100000x128_0_1),
    binary main_v154 main_v156 main_v157 addf,
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v157) (TRef.of (T := ⟨S100000x128, .f32⟩) main_call4_v0) (TRef.of (T := ⟨S100000x128, .f32⟩) main_v158) maximumf,
    binary main_v158 main_v125 main_v159 (fun l r => Host.dotGeneral dot_S100000x128_S128x128_S100000x128_1_0_0_1_n_n none l r),
    unary main_v127 main_v160 (broadcastInDim S1x128 ![1] bcast_S128_S1x128_1),
    unary main_v160 main_v161 (broadcastInDim S100000x128 ![0, 1] bcast_S1x128_S100000x128_0_1),
    binary main_v159 main_v161 main_v162 addf,
    TRef.nullary (TRef.of (T := ⟨S_, .f32⟩) main_call5_cst) (constant S_ .f32 0x00000000#32),
    TRef.unary (TRef.of (T := ⟨S_, .f32⟩) main_call5_cst) (TRef.of (T := ⟨S100000x128, .f32⟩) main_call5_v0) (broadcastInDim S100000x128 ![] bcast_S_S100000x128),
    TRef.binary (TRef.of (T := ⟨S100000x128, .f32⟩) main_v162) (TRef.of (T := ⟨S100000x128, .f32⟩) main_call5_v0) (TRef.of (T := ⟨S100000x128, .f32⟩) main_v163) maximumf,
    nullary main_cst_10 (constant S_ .f32 0x3F800000#32),
    unary main_cst_10 main_v164 (broadcastInDim S100000 ![] bcast_S_S100000),
    nullary main_cst_11 (constant S_ .f32 0x00000000#32),
    unary main_cst_11 main_v165 (broadcastInDim S64 ![] bcast_S_S64) ]

abbrev W5 : List (Ref sig .tc) := [main_v138, main_v139, main_v140, main_v141, main_v142, main_v143, main_v144, main_v145, main_cst_9, main_v146, main_v147, main_v148, main_v149, main_v150, main_v151, main_v152, main_v153, main_v154, main_v155, main_v156, main_v157, main_call4_cst, main_call4_v0, main_v158, main_v159, main_v160, main_v161, main_v162, main_call5_cst, main_call5_v0, main_v163, main_cst_10, main_v164, main_cst_11, main_v165]

theorem line5 : Line (F := F) ops5 W5 := by
  repeat (first | exact .nil | refine .cons ⟨by simp, rfl, rfl⟩ ?_)

set_option maxHeartbeats 4000000 in
theorem stage5 {V₀ V : Valuation τ sig (Elt F)} (h : Inv5 V₀ V) : Inv6 V₀ (after ops5 V) := by
  refine ⟨h.arg.after line5 (by decide), (line5.keep V (by decide)).trans h.r_v59, (line5.keep V (by decide)).trans h.r_v111, ?_, ?_, ?_⟩
  all_goals
    unfold ops5
    after_results_simp
    try simp only [h.r_v111, h.r_v137, h.r_v113, h.r_v115, h.r_v121, h.r_v123, h.r_v117, h.r_v119, h.r_v125, h.r_v127]
    try simp only [TRef.ofBuf, TRef.toBuf, cast_eq]
    rfl

end Cert.ReferenceIdeal.RefRun

end
-- ==== Proof.Ref.RefRunC6.lean ====
import proofs.«405256_j52991306498534_2_alg».proof.Proof.Ref.RefRunInv

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def ops6 : List (HloOp τ sig (Elt F)) :=
  [ unary main_arg3 main_v166 (broadcastInDim S100000x1 ![0] bcast_S100000_S100000x1_0),
    ternary main_v165 main_v166 main_v164 main_v167 (fun x i u => Host.scatterAdd scatter_S64_S100000x1_S100000_n_0_0_1 x i u),
    nullary main_cst_12 (constant S_ .f32 0x3F800000#32),
    unary main_cst_12 main_v168 (broadcastInDim S64 ![] bcast_S_S64),
    binary main_v167 main_v168 main_v169 maximumf,
    unary main_v169 main_v170 (broadcastInDim S64x1 ![0] bcast_S64_S64x1_0),
    nullary main_cst_13 (constant S_ .f32 0x00000000#32),
    unary main_cst_13 main_v171 (broadcastInDim S64x128 ![] bcast_S_S64x128),
    unary main_arg3 main_v172 (broadcastInDim S100000x1 ![0] bcast_S100000_S100000x1_0),
    ternary main_v171 main_v172 main_v59 main_v173 (fun x i u => Host.scatterAdd scatter_S64x128_S100000x1_S100000x128_1_0_0_1 x i u),
    unary main_v170 main_v174 (broadcastInDim S64x128 ![0, 1] bcast_S64x1_S64x128_0_1),
    binary main_v173 main_v174 main_v175 Host.divf,
    nullary main_cst_14 (constant S_ .f32 0x00000000#32),
    unary main_cst_14 main_v176 (broadcastInDim S64x128 ![] bcast_S_S64x128),
    unary main_arg3 main_v177 (broadcastInDim S100000x1 ![0] bcast_S100000_S100000x1_0),
    ternary main_v176 main_v177 main_v111 main_v178 (fun x i u => Host.scatterAdd scatter_S64x128_S100000x1_S100000x128_1_0_0_1 x i u),
    unary main_v170 main_v179 (broadcastInDim S64x128 ![0, 1] bcast_S64x1_S64x128_0_1),
    binary main_v178 main_v179 main_v180 Host.divf,
    nullary main_cst_15 (constant S_ .f32 0x00000000#32),
    unary main_cst_15 main_v181 (broadcastInDim S64x128 ![] bcast_S_S64x128),
    unary main_arg3 main_v182 (broadcastInDim S100000x1 ![0] bcast_S100000_S100000x1_0),
    ternary main_v181 main_v182 main_v163 main_v183 (fun x i u => Host.scatterAdd scatter_S64x128_S100000x1_S100000x128_1_0_0_1 x i u),
    unary main_v170 main_v184 (broadcastInDim S64x128 ![0, 1] bcast_S64x1_S64x128_0_1),
    binary main_v183 main_v184 main_v185 Host.divf ]

abbrev W6 : List (Ref sig .tc) := [main_v166, main_v167, main_cst_12, main_v168, main_v169, main_v170, main_cst_13, main_v171, main_v172, main_v173, main_v174, main_v175, main_cst_14, main_v176, main_v177, main_v178, main_v179, main_v180, main_cst_15, main_v181, main_v182, main_v183, main_v184, main_v185]

theorem line6 : Line (F := F) ops6 W6 := by
  repeat (first | exact .nil | refine .cons ⟨by simp, rfl, rfl⟩ ?_)

set_option maxHeartbeats 4000000 in
theorem stage6 {V₀ V : Valuation τ sig (Elt F)} (h : Inv6 V₀ V) : Inv7 V₀ (after ops6 V) := by
  refine ⟨h.arg.after line6 (by decide), ?_, ?_, ?_⟩
  all_goals
    unfold ops6
    after_results_simp
    try simp only [h.arg main_arg3 (by decide), h.r_v165, h.r_v164, h.r_v59, h.r_v111, h.r_v163]
    try simp only [TRef.ofBuf, TRef.toBuf, cast_eq]
    rfl

end Cert.ReferenceIdeal.RefRun

end
-- ==== Proof.Ref.RefRunC7.lean ====
import proofs.«405256_j52991306498534_2_alg».proof.Proof.Ref.RefRunInv

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def ops7 : List (HloOp τ sig (Elt F)) :=
  [ nary ![main_v175, main_v180, main_v185] main_v186 (fun u => concatenate S64x384 1 [⟨S64x128, u 0⟩, ⟨S64x128, u 1⟩, ⟨S64x128, u 2⟩] concatenates_S64x128_S64x128_S64x128_S64x384_d1) ]

abbrev W7 : List (Ref sig .tc) := [main_v186]

theorem line7 : Line (F := F) ops7 W7 := by
  repeat (first | exact .nil | refine .cons ⟨by simp, rfl, rfl⟩ ?_)

set_option maxHeartbeats 2000000 in
theorem stage7 {V₀ V : Valuation τ sig (Elt F)} (h : Inv7 V₀ V) : Inv8 V₀ (after ops7 V) := by
  refine ⟨h.arg.after line7 (by decide), ?_⟩
  unfold ops7
  rw [after_cons, after_nil, nary_result]
  show concatenate S64x384 1 [⟨S64x128, V main_v175⟩, ⟨S64x128, V main_v180⟩, ⟨S64x128, V main_v185⟩] concatenates_S64x128_S64x128_S64x128_S64x384_d1 = _
  rw [h.r_v175, h.r_v180, h.r_v185]
  rfl

end Cert.ReferenceIdeal.RefRun

end
-- ==== Proof.Ref.RefRunC8.lean ====
import proofs.«405256_j52991306498534_2_alg».proof.Proof.Ref.RefRunInv

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def ops8 : List (HloOp τ sig (Elt F)) :=
  [ binary main_v186 main_arg14 main_v187 (fun l r => Host.dotGeneral dot_S64x384_S384x384_S64x384_1_0_0_1_n_n none l r),
    unary main_arg15 main_v188 (broadcastInDim S1x384 ![1] bcast_S384_S1x384_1),
    unary main_v188 main_v189 (broadcastInDim S64x384 ![0, 1] bcast_S1x384_S64x384_0_1),
    binary main_v187 main_v189 main_v190 addf,
    TRef.nullary (TRef.of (T := ⟨S_, .f32⟩) main_call6_cst) (constant S_ .f32 0x00000000#32),
    TRef.unary (TRef.of (T := ⟨S_, .f32⟩) main_call6_cst) (TRef.of (T := ⟨S64x384, .f32⟩) main_call6_v0) (broadcastInDim S64x384 ![] bcast_S_S64x384),
    TRef.binary (TRef.of (T := ⟨S64x384, .f32⟩) main_v190) (TRef.of (T := ⟨S64x384, .f32⟩) main_call6_v0) (TRef.of (T := ⟨S64x384, .f32⟩) main_v191) maximumf,
    binary main_v191 main_arg16 main_v192 (fun l r => Host.dotGeneral dot_S64x384_S384x7_S64x7_1_0_0_1_n_n none l r),
    unary main_arg17 main_v193 (broadcastInDim S1x7 ![1] bcast_S7_S1x7_1),
    unary main_v193 main_v194 (broadcastInDim S64x7 ![0, 1] bcast_S1x7_S64x7_0_1),
    binary main_v192 main_v194 main_v195 addf ]

abbrev W8 : List (Ref sig .tc) := [main_v187, main_v188, main_v189, main_v190, main_call6_cst, main_call6_v0, main_v191, main_v192, main_v193, main_v194, main_v195]

theorem line8 : Line (F := F) ops8 W8 := by
  repeat (first | exact .nil | refine .cons ⟨by simp, rfl, rfl⟩ ?_)

set_option maxHeartbeats 4000000 in
theorem stage8 {V₀ V : Valuation τ sig (Elt F)} (h : Inv8 V₀ V) : Inv9 V₀ (after ops8 V) := by
  refine ⟨h.arg.after line8 (by decide), (line8.keep V (by decide)).trans h.r_v186, ?_⟩
  all_goals
    unfold ops8
    after_results_simp
    try simp only [h.r_v186, h.arg main_arg14 (by decide), h.arg main_arg15 (by decide), h.arg main_arg16 (by decide), h.arg main_arg17 (by decide)]
    try simp only [TRef.ofBuf, TRef.toBuf, cast_eq]
    rfl

end Cert.ReferenceIdeal.RefRun

end
-- ==== Proof.Ref.RefRun.lean ====
import proofs.«405256_j52991306498534_2_alg».proof.Proof.Ref.RefRunC0
import proofs.«405256_j52991306498534_2_alg».proof.Proof.Ref.RefRunC1
import proofs.«405256_j52991306498534_2_alg».proof.Proof.Ref.RefRunC2
import proofs.«405256_j52991306498534_2_alg».proof.Proof.Ref.RefRunC3
import proofs.«405256_j52991306498534_2_alg».proof.Proof.Ref.RefRunC4
import proofs.«405256_j52991306498534_2_alg».proof.Proof.Ref.RefRunC5
import proofs.«405256_j52991306498534_2_alg».proof.Proof.Ref.RefRunC6
import proofs.«405256_j52991306498534_2_alg».proof.Proof.Ref.RefRunC7
import proofs.«405256_j52991306498534_2_alg».proof.Proof.Ref.RefRunC8

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def opsAll : List (HloOp τ sig (Elt F)) := ops0 ++ (ops1 ++ (ops2 ++ (ops3 ++ (ops4 ++ (ops5 ++ (ops6 ++ (ops7 ++ (ops8))))))))

set_option maxHeartbeats 4000000 in
theorem main_part0_eq (c : Dev nD) : main_part0 (F := F) c = seq (ops0 ++ (ops1)) := by chain_rfl

set_option maxHeartbeats 4000000 in
theorem main_part1_eq (c : Dev nD) : main_part1 (F := F) c = seq (ops2 ++ (ops3)) := by chain_rfl

set_option maxHeartbeats 4000000 in
theorem main_part2_eq (c : Dev nD) : main_part2 (F := F) c = seq (ops4 ++ (ops5)) := by chain_rfl

set_option maxHeartbeats 4000000 in
theorem main_part3_eq (c : Dev nD) : main_part3 (F := F) c = seq (ops6 ++ (ops7 ++ (ops8))) := by chain_rfl

theorem main_eq (c : Dev nD) : main (F := F) c = seq (opsAll (F := F)) := by
  unfold main opsAll
  simp only [main_part0_eq, main_part1_eq, main_part2_eq, main_part3_eq, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem lineAll : Line (F := F) opsAll (W0 ++ (W1 ++ (W2 ++ (W3 ++ (W4 ++ (W5 ++ (W6 ++ (W7 ++ W8)))))))) :=
  line0.append (line1.append (line2.append (line3.append (line4.append (line5.append (line6.append (line7.append line8)))))))

set_option maxHeartbeats 4000000 in
theorem final_inv (V₀ : Valuation τ sig (Elt F)) : Inv9 V₀ (after opsAll V₀) := by
  unfold opsAll
  simp only [StableHlo.after_append]
  exact stage8 (stage7 (stage6 (stage5 (stage4 (stage3 (stage2 (stage1 (stage0 fun _ _ => rfl))))))))

set_option maxHeartbeats 4000000 in
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v186) = ReadP.val_main_v186 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v195) = ReadP.val_main_v195 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun s h c =>
    have hI := final_inv (F := F) (launchContents m c)
    have ha : ∀ r ∈ args, s.2.mem ((c.tc : Thread nD τ).loc r) = m ((c.tc : Thread nD τ).loc r) := fun r hr => (h c r).trans (hI.arg r hr)
    ⟨(h c main_v186).trans hI.r_v186, (h c main_v195).trans hI.r_v195, ha main_arg0 (by decide), ha main_arg1 (by decide), ha main_arg2 (by decide), ha main_arg3 (by decide), ha main_arg4 (by decide), ha main_arg5 (by decide), ha main_arg6 (by decide), ha main_arg7 (by decide), ha main_arg8 (by decide), ha main_arg9 (by decide), ha main_arg10 (by decide), ha main_arg11 (by decide), ha main_arg12 (by decide), ha main_arg13 (by decide), ha main_arg14 (by decide), ha main_arg15 (by decide), ha main_arg16 (by decide), ha main_arg17 (by decide)⟩)
    (run_seq scopedRefs_eq scopedSems_eq defs main (fun _ => opsAll) main_eq (fun _ => lineAll.sub) m ρ (fun _ => lineAll.fresh))

end Cert.ReferenceIdeal.RefRun

end
-- ==== Proof.Val.Spec.lean ====
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev A (n0 n1 : Nat) : Type := (⟨2, ![n0, n1]⟩ : Shape).Idx → EReal

def eps : EReal := Ideal.ofBits .f32 0x3727C5AC#32

def embSpec (x : A 100000 64) (w : A 64 128) (b : A 1 128) : A 100000 128 :=
  fun i => (∑ k : Fin 64, x (ix2 (i 0) k) * w (ix2 k (i 1))) + b (ix2 0 (i 1))

def ginHidden (h a : A 100000 128) (w1 : A 128 128) (b1 g bt mn vr : A 1 128) (p : Fin 100000) (k : Fin 128) : EReal :=
  max (((((∑ l : Fin 128, (h (ix2 p l) + a (ix2 p l)) * w1 (ix2 l k)) + b1 (ix2 0 k)) - mn (ix2 0 k))
    * Ideal.rsqrt (vr (ix2 0 k) + eps)) * g (ix2 0 k) + bt (ix2 0 k)) 0

def ginSpec (h a : A 100000 128) (w1 : A 128 128) (b1 g bt mn vr : A 1 128) (w2 : A 128 128) (b2 : A 1 128) : A 100000 128 :=
  fun i => max ((∑ k : Fin 128, ginHidden h a w1 b1 g bt mn vr (i 0) k * w2 (ix2 k (i 1))) + b2 (ix2 0 (i 1))) 0

def poolSpec (b : (⟨2, ![100000, 1]⟩ : Shape).Idx → BitVec 32) (h : A 100000 128) : A 64 128 :=
  fun i => 0 + ∑ n : Fin 100000, if (b (ix2 n 0)).toInt = ((i 0).val : Int) then h (ix2 n (i 1)) else 0

end Cert.Spec

end
-- ==== Proof.Val.EmbVal.lean ====
import proofs.«405256_j52991306498534_2_alg».proof.Proof.KI.Reg0
import proofs.«405256_j52991306498534_2_alg».proof.Proof.Val.Spec
import Idealize.ShloMosaic.Lib.Pipeline.Value
import Idealize.ShloMosaic.Lib.ValueLayout
import Idealize.ShloMosaic.Lib.ValueIdx
import Idealize.ShloMosaic.PureOps.Ideal
import Idealize.ShloMosaic.PureOps.Ideal.Laws

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx
open Idealize.SL.Sem
open Idealize.ShloMosaic.Pipeline (Dat Cfg Window)

abbrev embDot := dot_S5000x64_S64x128_S5000x128_1_0_0_1_n_n

theorem embDot_lhs_0 (i : S5000x128.Idx) (q : embDot.contr.Idx) : (embDot.lhsIdx i q 0).val = (i 0).val := by
  unfold DotDims.lhsIdx
  rw [dif_neg (show ¬(0 : Fin S5000x64.rank) ∈ embDot.lhsBatch by decide), dif_pos (show (0 : Fin S5000x64.rank) ∈ embDot.lhsNonContracting by decide)]
  rfl
theorem embDot_rhs_1 (i : S5000x128.Idx) (q : embDot.contr.Idx) : (embDot.rhsIdx i q 1).val = (i 1).val := by
  unfold DotDims.rhsIdx
  rw [dif_neg (show ¬(1 : Fin S64x128.rank) ∈ embDot.rhsBatch by decide), dif_pos (show (1 : Fin S64x128.rank) ∈ embDot.rhsNonContracting by decide)]
  rfl

theorem emb_pay1_apply (v0 : Vec Ideal S5000x64 .f32) (v2 : Vec Ideal S64x128 .f32) (v5 : Vec Ideal S1x128 .f32) (p : Fin 5000) (q : Fin 128) :
    k0_pay1 (F := Ideal) v0 v2 v5 (ix2 p q) = (∑ k : Fin 64, v0 (ix2 p k) * v2 (ix2 k q)) + v5 (ix2 0 q) := by
  unfold k0_pay1
  rw [addf_apply, shapeCast_self, broadcastTo_1b_ab_apply v5 broadcasts_S1x128_S5000x128 p q]
  congr 1
  simp only [matmul]
  rw [Ideal.matmul_constant_zero_apply, ← Equiv.sum_comp (contrEquiv1 embDot 64 rfl rfl).symm]
  refine Finset.sum_congr rfl fun k _ => ?_
  have hk := contrEquiv1_symm_val embDot 64 rfl rfl k
  rw [truncf_apply, truncf_apply,
    show embDot.lhsIdx (ix2 p q) ((contrEquiv1 embDot 64 rfl rfl).symm k) = ix2 p k from
      Shape.idx_ext₂ (embDot_lhs_0 _ _) ((embDot.lhsIdx_val_of_single rfl _ _).trans hk),
    show embDot.rhsIdx (ix2 p q) ((contrEquiv1 embDot 64 rfl rfl).symm k) = ix2 k q from
      Shape.idx_ext₂ ((embDot.rhsIdx_val_of_single rfl _ _).trans hk) (embDot_rhs_1 _ _)]

theorem emb_hz : (![0, 0] : Fin 2 → Nat) = fun _ => 0 := funext fun a => by fin_cases a <;> rfl

theorem emb_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ t.val < 20 :=
  (by decide +kernel : ∀ t : Fin grid0.N, _)

-- Row r lies in the block of 5000 rows numbered r / 5000, whose columns are all 128.
theorem emb_rows (i : S100000x128.Idx) (idx : Fin 2 → Nat) (h0 : idx 0 = (i 0).val / 5000) (h1 : idx 1 = 0) :
    ∀ a : Fin 2, idx a * S5000x128.size a ≤ (i a).val ∧ (i a).val < idx a * S5000x128.size a + S5000x128.size a := fun a => by
  have hi1 : (i 1).val < 128 := (i 1).isLt
  match a with
  | ⟨0, _⟩ => show idx 0 * 5000 ≤ (i 0).val ∧ (i 0).val < idx 0 * 5000 + 5000; omega
  | ⟨1, _⟩ => show idx 1 * 128 ≤ (i 1).val ∧ (i 1).val < idx 1 * 128 + 128; omega

variable (V : (c : Dev nD) → (b : Ref sig .tc) → Buf (Elt Ideal) ((c : Thread nD τ).loc b))

-- The feature block at point t is rows 5000 t … 5000 t + 4999, the weight and bias blocks are whole: the body's row is that row of x·w + b.
theorem emb_body (c : Dev nD) (t : Fin cfg0.N) (p : Fin 5000) (q : Fin 128) (i : S100000x128.Idx)
    (h0 : (i 0).val = 5000 * t.val + p.val) (h1 : (i 1).val = q.val) :
    k0_pay1 (F := Ideal) (iblk0 V c 0 t) (iblk0 V c 1 t) (iblk0 V c 2 t) (ix2 p q)
      = embSpec (V c (Pipeline.arrRef spec0 0)) (V c (Pipeline.arrRef spec0 1)) (V c (Pipeline.arrRef spec0 2)) i := by
  obtain ⟨e00, e01, e10, e11, e20, e21, -⟩ := emb_idx_facts t
  rw [emb_pay1_apply]
  refine congrArg₂ (· + ·) (Finset.sum_congr rfl fun k _ => congrArg₂ (· * ·)
    (congrArg (V c (Pipeline.arrRef spec0 0)) (Shape.idx_ext₂ ?_ ?_)) (congrArg (V c (Pipeline.arrRef spec0 1)) (Shape.idx_ext₂ ?_ ?_)))
    (congrArg (V c (Pipeline.arrRef spec0 2)) (Shape.idx_ext₂ ?_ ?_))
  · show win0_0.index t (0 : Fin 2) * 5000 + 1 * p.val = (i 0).val; omega
  · show win0_0.index t (1 : Fin 2) * 64 + 1 * k.val = k.val; omega
  · show win0_1.index t (0 : Fin 2) * 64 + 1 * k.val = k.val; omega
  · show win0_1.index t (1 : Fin 2) * 128 + 1 * q.val = (i 1).val; omega
  · show win0_2.index t (0 : Fin 2) * 1 + 1 * 0 = 0; omega
  · show win0_2.index t (1 : Fin 2) * 128 + 1 * q.val = (i 1).val; omega

theorem emb_flushed3_eq (c : Dev nD) (t : Fin cfg0.N) :
    (dat0 (F := Ideal) V c).flushed 3 t = ((cfg0.win 3).blk t).view.read (Elt Ideal)
      (embSpec (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero emb_hz]
  simp only [View.ld_unit_zero (S := S5000x64) emb_hz, View.ld_unit_zero (S := S64x128) emb_hz, View.ld_unit_zero (S := S1x128) emb_hz]
  obtain ⟨-, -, -, -, -, -, e30, e31, e40, e41, -⟩ := emb_idx_facts t
  funext j
  obtain ⟨p, q, rfl⟩ : ∃ (p : Fin 5000) (q : Fin 128), j = ix2 p q := ⟨j 0, j 1, eq_ix2 j⟩
  rw [View.read_apply]
  refine emb_body V c t p q _ ?_ ?_
  · show win0_3.index t (0 : Fin 2) * 5000 + 1 * p.val = _; omega
  · show win0_3.index t (1 : Fin 2) * 128 + 1 * q.val = _; omega

theorem emb_flushed4_eq (c : Dev nD) (t : Fin cfg0.N) :
    (dat0 (F := Ideal) V c).flushed 4 t = ((cfg0.win 4).blk t).view.read (Elt Ideal)
      (embSpec (V c (Pipeline.arrRef spec0 0)) (V c (Pipeline.arrRef spec0 1)) (V c (Pipeline.arrRef spec0 2))) := by
  show (cfg0.win 4).cut (grid0.coords t) ((dat0 V c).after 4 t) = _
  rw [after0_4]
  unfold out0_4
  rw [View.canon_unit_zero emb_hz]
  simp only [View.ld_unit_zero (S := S5000x64) emb_hz, View.ld_unit_zero (S := S64x128) emb_hz, View.ld_unit_zero (S := S1x128) emb_hz]
  obtain ⟨-, -, -, -, -, -, e30, e31, e40, e41, -⟩ := emb_idx_facts t
  funext j
  obtain ⟨p, q, rfl⟩ : ∃ (p : Fin 5000) (q : Fin 128), j = ix2 p q := ⟨j 0, j 1, eq_ix2 j⟩
  rw [View.read_apply]
  refine emb_body V c t p q _ ?_ ?_
  · show win0_4.index t (0 : Fin 2) * 5000 + 1 * p.val = _; omega
  · show win0_4.index t (1 : Fin 2) * 128 + 1 * q.val = _; omega

theorem emb_cover3 (i : S100000x128.Idx) : ∃ t : Fin cfg0.N, (cfg0.win 3).flush t = true ∧ i ∈ ((cfg0.win 3).blk t).view.set := by
  have hi0 : (i 0).val < 100000 := (i 0).isLt
  obtain ⟨t, ht⟩ : ∃ t : Fin cfg0.N, t.val = (i 0).val / 5000 := ⟨⟨(i 0).val / 5000, by show _ < grid0.N; rw [N_0]; omega⟩, rfl⟩
  obtain ⟨-, -, -, -, -, -, e30, e31, e40, e41, -⟩ := emb_idx_facts t
  refine ⟨t, flush0_3 t, ?_⟩
  show i ∈ ((View.whole main_v5_0).slice (win0_3.rect t)).set
  rw [View.set_slice_whole, Rect.mem_set_unit]
  exact emb_rows i _ (e30.trans ht) e31

theorem emb_cover4 (i : S100000x128.Idx) : ∃ t : Fin cfg0.N, (cfg0.win 4).flush t = true ∧ i ∈ ((cfg0.win 4).blk t).view.set := by
  have hi0 : (i 0).val < 100000 := (i 0).isLt
  obtain ⟨t, ht⟩ : ∃ t : Fin cfg0.N, t.val = (i 0).val / 5000 := ⟨⟨(i 0).val / 5000, by show _ < grid0.N; rw [N_0]; omega⟩, rfl⟩
  obtain ⟨-, -, -, -, -, -, e30, e31, e40, e41, -⟩ := emb_idx_facts t
  refine ⟨t, flush0_4 t, ?_⟩
  show i ∈ ((View.whole main_v5_1).slice (win0_4.rect t)).set
  rw [View.set_slice_whole, Rect.mem_set_unit]
  exact emb_rows i _ (e40.trans ht) e41

theorem emb_val3 (c : Dev nD) :
    (dat0 (F := Ideal) V c).arrAt 3 cfg0.N = embSpec (V c (Pipeline.arrRef spec0 0)) (V c (Pipeline.arrRef spec0 1)) (V c (Pipeline.arrRef spec0 2)) :=
  (dat0 V c).arrAt_eq_of_cover 3 _ (fun t _ => emb_flushed3_eq V c t) emb_cover3

theorem emb_val4 (c : Dev nD) :
    (dat0 (F := Ideal) V c).arrAt 4 cfg0.N = embSpec (V c (Pipeline.arrRef spec0 0)) (V c (Pipeline.arrRef spec0 1)) (V c (Pipeline.arrRef spec0 2)) :=
  (dat0 V c).arrAt_eq_of_cover 4 _ (fun t _ => emb_flushed4_eq V c t) emb_cover4

end Cert.KernelIdeal.Val

end
-- ==== Proof.Val.GinPay.lean ====
import proofs.«405256_j52991306498534_2_alg».proof.Proof.Gen.KernelIdeal.Skeleton
import proofs.«405256_j52991306498534_2_alg».proof.Proof.Val.Spec
import Idealize.ShloMosaic.PureOps.Ideal.Laws
import Idealize.ShloMosaic.Lib.ValueIdx
import Idealize.ShloMosaic.Lib.Pipeline.Value

noncomputable section

namespace Cert.KernelIdeal.Val

open Cert.KernelIdeal Cert.KernelIdeal.Gen Cert.Spec
open Idealize.ShloMosaic Idealize.ShloMosaic.ValueIdx

theorem gin_hz : (![0, 0] : Fin 2 → Nat) = fun _ => 0 := funext (Fin.forall_fin_two.2 ⟨rfl, rfl⟩)

-- Entry (p, q) of the product into a zero block is the sum over the contracted axis.
theorem k1_matmul_apply {φl φr : FTy} (l : FVec Ideal S4000x128 φl) (r : FVec Ideal S128x128 φr) (p : Fin 4000) (q : Fin 128) :
    matmul (F := Ideal) dot_S4000x128_S128x128_S4000x128_1_0_0_1_n_n none l r (constant (F := Ideal) S4000x128 .f32 0x00000000#32) (ix2 p q)
      = ∑ k : Fin 128, l (ix2 p k) * r (ix2 k q) := by
  show FloatOps.matmul _ none l r _ _ = _
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  exact congrArg₂ (· * ·) (congrArg l (Shape.idx_ext₂ rfl hk)) (congrArg r (Shape.idx_ext₂ hk rfl))

theorem k1_row_apply (x : FVec Ideal S1x128 .f32) (h : S1x128.Broadcasts S4000x128) (p : Fin 4000) (q : Fin 128) :
    broadcastTo S4000x128 x h (ix2 p q) = x (ix2 0 q) :=
  broadcastTo_apply x h _ (ix2 0 q) (Fin.forall_fin_two.2 ⟨rfl, rfl⟩)

theorem k1_pay3_apply (v0 v2 : Vec Ideal S4000x128 .f32) (v6 : Vec Ideal S128x128 .f32) (v10 v14 v18 v25 v29 : Vec Ideal S1x128 .f32)
    (p : Fin 4000) (k : Fin 128) :
    k1_pay3 (F := Ideal) v0 v2 v6 v10 v14 v18 v25 v29 (ix2 p k)
      = max (((((∑ l : Fin 128, (v0 (ix2 p l) + v2 (ix2 p l)) * v6 (ix2 l k)) + v10 (ix2 0 k)) - v14 (ix2 0 k))
          * Ideal.rsqrt (v18 (ix2 0 k) + eps)) * v25 (ix2 0 k) + v29 (ix2 0 k)) 0 := by
  unfold k1_pay3
  simp only [shapeCast_self]
  rw [truncf_apply, maximumf_apply, addf_apply, mulf_apply, mulf_apply, subf_apply, addf_apply, k1_matmul_apply,
    k1_row_apply, k1_row_apply, k1_row_apply, k1_row_apply, k1_row_apply, broadcast_apply]
  exact congrArg (max _) Ideal.ofBits_zero_f32

theorem k1_pay1_apply (v35 : FVec Ideal S4000x128 .bf16) (v37 : FVec Ideal S128x128 .f32) (v40 : Vec Ideal S1x128 .f32)
    (p : Fin 4000) (q : Fin 128) :
    k1_pay1 (F := Ideal) v35 v37 v40 (ix2 p q) = max ((∑ k : Fin 128, v35 (ix2 p k) * v37 (ix2 k q)) + v40 (ix2 0 q)) 0 := by
  unfold k1_pay1
  simp only [shapeCast_self]
  rw [maximumf_apply, addf_apply, k1_matmul_apply, k1_row_apply, broadcast_apply]
  exact congrArg (max _) Ideal.ofBits_zero_f32

-- The layer on blocks: from the rows `i 0` of the two large arrays and the small arrays whole, the specification at `i`.
theorem gin_block (xa xb : Vec Ideal S4000x128 .f32) (xc : Vec Ideal S128x128 .f32) (xd xe xf xg xh : Vec Ideal S1x128 .f32)
    (xi : Vec Ideal S128x128 .f32) (xj : Vec Ideal S1x128 .f32)
    (h a : A 100000 128) (wa : A 128 128) (ba g bt mn vr : A 1 128) (wb : A 128 128) (bb : A 1 128)
    (p : Fin 4000) (q : Fin 128) (i : (⟨2, ![100000, 128]⟩ : Shape).Idx)
    (eR : ∀ l : Fin 128, xa (ix2 p l) = h (ix2 (i 0) l)) (eC : ∀ l : Fin 128, xb (ix2 p l) = a (ix2 (i 0) l))
    (ec : xc = wa) (ed : xd = ba) (ee : xe = g) (ef : xf = bt) (eg : xg = mn) (eh : xh = vr) (ei : xi = wb) (ej : xj = bb)
    (hq : i 1 = q) :
    k1_pay1 (F := Ideal) (k1_pay3 xa xb xc xd xg xh xe xf) (k1_pay4 xi) xj (ix2 p q) = ginSpec h a wa ba g bt mn vr wb bb i := by
  subst ec ed ee ef eg eh ei ej
  rw [k1_pay1_apply, show k1_pay4 (F := Ideal) xi = xi from shapeCast_self _ _]
  simp only [k1_pay3_apply, ginSpec, ginHidden, eR, eC, hq]

-- A block read at the array's own coordinates is the array.
theorem gin_rd {S : Shape} {α : Type} {X Y : S.Idx → α} {E : S.Idx → S.Idx} (hY : ∀ y, Y y = X (E y))
    (hE : ∀ a y, (E y a).val = (y a).val) : Y = X :=
  funext fun y => (hY y).trans (congrArg X (funext fun a => Fin.ext (hE a y)))

-- The 25 blocks of 4000 whole rows cover the array: row r lies in block r / 4000.
theorem gin_cover (i : (⟨2, ![100000, 128]⟩ : Shape).Idx) {N : Nat} (hN : N = 25) {x : Fin N → Fin 2 → Nat}
    (hx : ∀ t, x t 0 = t.val ∧ x t 1 = 0) :
    ∃ t : Fin N, ∀ inb, i ∈ (Rect.unit (s := ⟨2, ![100000, 128]⟩) (fun a => x t a * S4000x128.size a) S4000x128.size inb).set := by
  have h0 : (i 0).val < 100000 := (i 0).isLt
  have h1 : (i 1).val < 128 := (i 1).isLt
  obtain ⟨t, ht⟩ : ∃ t : Fin N, t.val = (i 0).val / 4000 := ⟨⟨(i 0).val / 4000, by omega⟩, rfl⟩
  obtain ⟨e0, e1⟩ := hx t
  refine ⟨t, fun _ => Rect.mem_set_unit.2 (Fin.forall_fin_two.2 ⟨?_, ?_⟩)⟩
  · show x t 0 * 4000 ≤ (i 0).val ∧ (i 0).val < x t 0 * 4000 + 4000; omega
  · show x t 1 * 128 ≤ (i 1).val ∧ (i 1).val < x t 1 * 128 + 128; omega

end Cert.KernelIdeal.Val

end
-- ==== Proof.Val.GinVal1.lean ====
import proofs.«405256_j52991306498534_2_alg».proof.Proof.KI.Reg1
import proofs.«405256_j52991306498534_2_alg».proof.Proof.Val.GinPay

noncomputable section

namespace Cert.KernelIdeal.Val

open Cert.KernelIdeal Cert.KernelIdeal.Gen Cert.KernelIdeal.Hand Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

-- The index maps at every point: the four row-blocked windows sit at block (t, 0), the eight small ones at (0, 0).
theorem gin_val1_idx : ∀ t : Fin cfg1.N,
    (win1_10.index t (0 : Fin 2) = t.val ∧ win1_10.index t (1 : Fin 2) = 0)
    ∧ (win1_11.index t (0 : Fin 2) = t.val ∧ win1_11.index t (1 : Fin 2) = 0)
    ∧ (win1_0.index t (0 : Fin 2) = t.val ∧ win1_0.index t (1 : Fin 2) = 0)
    ∧ (win1_1.index t (0 : Fin 2) = t.val ∧ win1_1.index t (1 : Fin 2) = 0)
    ∧ (∀ a, win1_2.index t a = 0) ∧ (∀ a, win1_3.index t a = 0) ∧ (∀ a, win1_4.index t a = 0) ∧ (∀ a, win1_5.index t a = 0)
    ∧ (∀ a, win1_6.index t a = 0) ∧ (∀ a, win1_7.index t a = 0) ∧ (∀ a, win1_8.index t a = 0) ∧ (∀ a, win1_9.index t a = 0) :=
  (by decide +kernel : ∀ t : Fin grid1.N, _)

-- A small window's block at any point is its whole array.
theorem gin_val1_rd (c : Dev nD) (t : Fin cfg1.N) :
    iblk1 V c 2 t = V c (Pipeline.arrRef spec1 2) ∧ iblk1 V c 3 t = V c (Pipeline.arrRef spec1 3)
    ∧ iblk1 V c 4 t = V c (Pipeline.arrRef spec1 4) ∧ iblk1 V c 5 t = V c (Pipeline.arrRef spec1 5)
    ∧ iblk1 V c 6 t = V c (Pipeline.arrRef spec1 6) ∧ iblk1 V c 7 t = V c (Pipeline.arrRef spec1 7)
    ∧ iblk1 V c 8 t = V c (Pipeline.arrRef spec1 8) ∧ iblk1 V c 9 t = V c (Pipeline.arrRef spec1 9) := by
  obtain ⟨-, -, -, -, e2, e3, e4, e5, e6, e7, e8, e9⟩ := gin_val1_idx t
  exact ⟨gin_rd (fun _ => rfl) fun a => win1_2.rect_emb_val_of_index_zero t a (e2 a),
    gin_rd (fun _ => rfl) fun a => win1_3.rect_emb_val_of_index_zero t a (e3 a),
    gin_rd (fun _ => rfl) fun a => win1_4.rect_emb_val_of_index_zero t a (e4 a),
    gin_rd (fun _ => rfl) fun a => win1_5.rect_emb_val_of_index_zero t a (e5 a),
    gin_rd (fun _ => rfl) fun a => win1_6.rect_emb_val_of_index_zero t a (e6 a),
    gin_rd (fun _ => rfl) fun a => win1_7.rect_emb_val_of_index_zero t a (e7 a),
    gin_rd (fun _ => rfl) fun a => win1_8.rect_emb_val_of_index_zero t a (e8 a),
    gin_rd (fun _ => rfl) fun a => win1_9.rect_emb_val_of_index_zero t a (e9 a)⟩

set_option maxHeartbeats 2000000 in
-- What point t computes at block index j is the specification at row 4000t + j 0, column j 1.
theorem gin_val1_pt (c : Dev nD) (t : Fin cfg1.N) (j : S4000x128.Idx) (i : (⟨2, ![100000, 128]⟩ : Shape).Idx)
    (hR : (i 0).val = 4000 * t.val + (j 0).val) (hC : (i 1).val = (j 1).val) :
    out1_10 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) j
      = ginSpec (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) i := by
  obtain ⟨-, -, ⟨a0, a1⟩, ⟨b0, b1⟩, -⟩ := gin_val1_idx t
  obtain ⟨r2, r3, r4, r5, r6, r7, r8, r9⟩ := gin_val1_rd V c t
  unfold out1_10
  rw [View.canon_unit_zero gin_hz, eq_ix2 j]
  simp only [View.ld_unit_zero (S := S4000x128) gin_hz, View.ld_unit_zero (S := S128x128) gin_hz, View.ld_unit_zero (S := S1x128) gin_hz]
  exact gin_block _ _ _ _ _ _ _ _ _ _ _ _ _ _ _ _ _ _ _ _ _ _ i
    (fun l => congrArg (V c (Pipeline.arrRef spec1 0)) (Shape.idx_ext₂ (by show win1_0.index t 0 * 4000 + 1 * (j 0).val = (i 0).val; omega) (win1_0.rect_emb_val_of_index_zero t 1 a1 _)))
    (fun l => congrArg (V c (Pipeline.arrRef spec1 1)) (Shape.idx_ext₂ (by show win1_1.index t 0 * 4000 + 1 * (j 0).val = (i 0).val; omega) (win1_1.rect_emb_val_of_index_zero t 1 b1 _)))
    r2 r3 r4 r5 r6 r7 r8 r9 (Fin.ext hC)

theorem gin_val1_cover_10 (i : (⟨2, ![100000, 128]⟩ : Shape).Idx) :
    ∃ t : Fin cfg1.N, (cfg1.win 10).flush t = true ∧ i ∈ ((cfg1.win 10).blk t).view.set := by
  obtain ⟨t, h⟩ := gin_cover i N_1 (x := win1_10.index) fun t => (gin_val1_idx t).1
  exact ⟨t, flush1_10 t, by show i ∈ ((View.whole (Pipeline.arrRef spec1 10)).slice (win1_10.rect t)).set; rw [View.set_slice_whole]; exact h _⟩

theorem gin_val1_cover_11 (i : (⟨2, ![100000, 128]⟩ : Shape).Idx) :
    ∃ t : Fin cfg1.N, (cfg1.win 11).flush t = true ∧ i ∈ ((cfg1.win 11).blk t).view.set := by
  obtain ⟨t, h⟩ := gin_cover i N_1 (x := win1_11.index) fun t => (gin_val1_idx t).2.1
  exact ⟨t, flush1_11 t, by show i ∈ ((View.whole (Pipeline.arrRef spec1 11)).slice (win1_11.rect t)).set; rw [View.set_slice_whole]; exact h _⟩

theorem gin_val1_10 (c : Dev nD) :
    (dat1 (F := Ideal) V c).arrAt 10 cfg1.N = ginSpec (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) := by
  refine (dat1 (F := Ideal) V c).arrAt_eq_of_cover 10 _ (fun t _ => ?_) gin_val1_cover_10
  show (cfg1.win 10).cut (grid1.coords t) ((dat1 (F := Ideal) V c).after 10 t) = _
  rw [after1_10]
  funext j
  exact gin_val1_pt V c t j _
    (by show win1_10.index t 0 * 4000 + 1 * (j 0).val = _; rw [(gin_val1_idx t).1.1]; omega)
    (win1_10.rect_emb_val_of_index_zero t 1 (gin_val1_idx t).1.2 j)

-- Over the extended reals the narrowed block holds the same values as the f32 block.
theorem gin_val1_11 (c : Dev nD) :
    (dat1 (F := Ideal) V c).arrAt 11 cfg1.N = ginSpec (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) := by
  refine (dat1 (F := Ideal) V c).arrAt_eq_of_cover 11 _ (fun t _ => ?_) gin_val1_cover_11
  show (cfg1.win 11).cut (grid1.coords t) ((dat1 (F := Ideal) V c).after 11 t) = _
  rw [after1_11]
  funext j
  exact gin_val1_pt V c t j _
    (by show win1_11.index t 0 * 4000 + 1 * (j 0).val = _; rw [(gin_val1_idx t).2.1.1]; omega)
    (win1_11.rect_emb_val_of_index_zero t 1 (gin_val1_idx t).2.1.2 j)

end Cert.KernelIdeal.Val

end
-- ==== Proof.Val.GinVal2.lean ====
import proofs.«405256_j52991306498534_2_alg».proof.Proof.KI.Reg2
import proofs.«405256_j52991306498534_2_alg».proof.Proof.Val.GinPay

noncomputable section

namespace Cert.KernelIdeal.Val

open Cert.KernelIdeal Cert.KernelIdeal.Gen Cert.KernelIdeal.Hand Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

-- The index maps at every point: the four row-blocked windows sit at block (t, 0), the eight small ones at (0, 0).
theorem gin_val2_idx : ∀ t : Fin cfg2.N,
    (win2_10.index t (0 : Fin 2) = t.val ∧ win2_10.index t (1 : Fin 2) = 0)
    ∧ (win2_11.index t (0 : Fin 2) = t.val ∧ win2_11.index t (1 : Fin 2) = 0)
    ∧ (win2_0.index t (0 : Fin 2) = t.val ∧ win2_0.index t (1 : Fin 2) = 0)
    ∧ (win2_1.index t (0 : Fin 2) = t.val ∧ win2_1.index t (1 : Fin 2) = 0)
    ∧ (∀ a, win2_2.index t a = 0) ∧ (∀ a, win2_3.index t a = 0) ∧ (∀ a, win2_4.index t a = 0) ∧ (∀ a, win2_5.index t a = 0)
    ∧ (∀ a, win2_6.index t a = 0) ∧ (∀ a, win2_7.index t a = 0) ∧ (∀ a, win2_8.index t a = 0) ∧ (∀ a, win2_9.index t a = 0) :=
  (by decide +kernel : ∀ t : Fin grid2.N, _)

-- A small window's block at any point is its whole array.
theorem gin_val2_rd (c : Dev nD) (t : Fin cfg2.N) :
    iblk2 V c 2 t = V c (Pipeline.arrRef spec2 2) ∧ iblk2 V c 3 t = V c (Pipeline.arrRef spec2 3)
    ∧ iblk2 V c 4 t = V c (Pipeline.arrRef spec2 4) ∧ iblk2 V c 5 t = V c (Pipeline.arrRef spec2 5)
    ∧ iblk2 V c 6 t = V c (Pipeline.arrRef spec2 6) ∧ iblk2 V c 7 t = V c (Pipeline.arrRef spec2 7)
    ∧ iblk2 V c 8 t = V c (Pipeline.arrRef spec2 8) ∧ iblk2 V c 9 t = V c (Pipeline.arrRef spec2 9) := by
  obtain ⟨-, -, -, -, e2, e3, e4, e5, e6, e7, e8, e9⟩ := gin_val2_idx t
  exact ⟨gin_rd (fun _ => rfl) fun a => win2_2.rect_emb_val_of_index_zero t a (e2 a),
    gin_rd (fun _ => rfl) fun a => win2_3.rect_emb_val_of_index_zero t a (e3 a),
    gin_rd (fun _ => rfl) fun a => win2_4.rect_emb_val_of_index_zero t a (e4 a),
    gin_rd (fun _ => rfl) fun a => win2_5.rect_emb_val_of_index_zero t a (e5 a),
    gin_rd (fun _ => rfl) fun a => win2_6.rect_emb_val_of_index_zero t a (e6 a),
    gin_rd (fun _ => rfl) fun a => win2_7.rect_emb_val_of_index_zero t a (e7 a),
    gin_rd (fun _ => rfl) fun a => win2_8.rect_emb_val_of_index_zero t a (e8 a),
    gin_rd (fun _ => rfl) fun a => win2_9.rect_emb_val_of_index_zero t a (e9 a)⟩

set_option maxHeartbeats 2000000 in
-- What point t computes at block index j is the specification at row 4000t + j 0, column j 1.
theorem gin_val2_pt (c : Dev nD) (t : Fin cfg2.N) (j : S4000x128.Idx) (i : (⟨2, ![100000, 128]⟩ : Shape).Idx)
    (hR : (i 0).val = 4000 * t.val + (j 0).val) (hC : (i 1).val = (j 1).val) :
    out2_10 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) j
      = ginSpec (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) i := by
  obtain ⟨-, -, ⟨a0, a1⟩, ⟨b0, b1⟩, -⟩ := gin_val2_idx t
  obtain ⟨r2, r3, r4, r5, r6, r7, r8, r9⟩ := gin_val2_rd V c t
  unfold out2_10
  rw [View.canon_unit_zero gin_hz, eq_ix2 j]
  simp only [View.ld_unit_zero (S := S4000x128) gin_hz, View.ld_unit_zero (S := S128x128) gin_hz, View.ld_unit_zero (S := S1x128) gin_hz]
  exact gin_block _ _ _ _ _ _ _ _ _ _ _ _ _ _ _ _ _ _ _ _ _ _ i
    (fun l => congrArg (V c (Pipeline.arrRef spec2 0)) (Shape.idx_ext₂ (by show win2_0.index t 0 * 4000 + 1 * (j 0).val = (i 0).val; omega) (win2_0.rect_emb_val_of_index_zero t 1 a1 _)))
    (fun l => congrArg (V c (Pipeline.arrRef spec2 1)) (Shape.idx_ext₂ (by show win2_1.index t 0 * 4000 + 1 * (j 0).val = (i 0).val; omega) (win2_1.rect_emb_val_of_index_zero t 1 b1 _)))
    r2 r3 r4 r5 r6 r7 r8 r9 (Fin.ext hC)

theorem gin_val2_cover_10 (i : (⟨2, ![100000, 128]⟩ : Shape).Idx) :
    ∃ t : Fin cfg2.N, (cfg2.win 10).flush t = true ∧ i ∈ ((cfg2.win 10).blk t).view.set := by
  obtain ⟨t, h⟩ := gin_cover i N_2 (x := win2_10.index) fun t => (gin_val2_idx t).1
  exact ⟨t, flush2_10 t, by show i ∈ ((View.whole (Pipeline.arrRef spec2 10)).slice (win2_10.rect t)).set; rw [View.set_slice_whole]; exact h _⟩

theorem gin_val2_cover_11 (i : (⟨2, ![100000, 128]⟩ : Shape).Idx) :
    ∃ t : Fin cfg2.N, (cfg2.win 11).flush t = true ∧ i ∈ ((cfg2.win 11).blk t).view.set := by
  obtain ⟨t, h⟩ := gin_cover i N_2 (x := win2_11.index) fun t => (gin_val2_idx t).2.1
  exact ⟨t, flush2_11 t, by show i ∈ ((View.whole (Pipeline.arrRef spec2 11)).slice (win2_11.rect t)).set; rw [View.set_slice_whole]; exact h _⟩

theorem gin_val2_10 (c : Dev nD) :
    (dat2 (F := Ideal) V c).arrAt 10 cfg2.N = ginSpec (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) := by
  refine (dat2 (F := Ideal) V c).arrAt_eq_of_cover 10 _ (fun t _ => ?_) gin_val2_cover_10
  show (cfg2.win 10).cut (grid2.coords t) ((dat2 (F := Ideal) V c).after 10 t) = _
  rw [after2_10]
  funext j
  exact gin_val2_pt V c t j _
    (by show win2_10.index t 0 * 4000 + 1 * (j 0).val = _; rw [(gin_val2_idx t).1.1]; omega)
    (win2_10.rect_emb_val_of_index_zero t 1 (gin_val2_idx t).1.2 j)

-- Over the extended reals the narrowed block holds the same values as the f32 block.
theorem gin_val2_11 (c : Dev nD) :
    (dat2 (F := Ideal) V c).arrAt 11 cfg2.N = ginSpec (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) := by
  refine (dat2 (F := Ideal) V c).arrAt_eq_of_cover 11 _ (fun t _ => ?_) gin_val2_cover_11
  show (cfg2.win 11).cut (grid2.coords t) ((dat2 (F := Ideal) V c).after 11 t) = _
  rw [after2_11]
  funext j
  exact gin_val2_pt V c t j _
    (by show win2_11.index t 0 * 4000 + 1 * (j 0).val = _; rw [(gin_val2_idx t).2.1.1]; omega)
    (win2_11.rect_emb_val_of_index_zero t 1 (gin_val2_idx t).2.1.2 j)

end Cert.KernelIdeal.Val

end
-- ==== Proof.Val.GinVal3.lean ====
import proofs.«405256_j52991306498534_2_alg».proof.Proof.KI.Reg3
import proofs.«405256_j52991306498534_2_alg».proof.Proof.Val.GinPay

noncomputable section

namespace Cert.KernelIdeal.Val

open Cert.KernelIdeal Cert.KernelIdeal.Gen Cert.KernelIdeal.Hand Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

-- The index maps at every point: the four row-blocked windows sit at block (t, 0), the eight small ones at (0, 0).
theorem gin_val3_idx : ∀ t : Fin cfg3.N,
    (win3_10.index t (0 : Fin 2) = t.val ∧ win3_10.index t (1 : Fin 2) = 0)
    ∧ (win3_11.index t (0 : Fin 2) = t.val ∧ win3_11.index t (1 : Fin 2) = 0)
    ∧ (win3_0.index t (0 : Fin 2) = t.val ∧ win3_0.index t (1 : Fin 2) = 0)
    ∧ (win3_1.index t (0 : Fin 2) = t.val ∧ win3_1.index t (1 : Fin 2) = 0)
    ∧ (∀ a, win3_2.index t a = 0) ∧ (∀ a, win3_3.index t a = 0) ∧ (∀ a, win3_4.index t a = 0) ∧ (∀ a, win3_5.index t a = 0)
    ∧ (∀ a, win3_6.index t a = 0) ∧ (∀ a, win3_7.index t a = 0) ∧ (∀ a, win3_8.index t a = 0) ∧ (∀ a, win3_9.index t a = 0) :=
  (by decide +kernel : ∀ t : Fin grid3.N, _)

-- A small window's block at any point is its whole array.
theorem gin_val3_rd (c : Dev nD) (t : Fin cfg3.N) :
    iblk3 V c 2 t = V c (Pipeline.arrRef spec3 2) ∧ iblk3 V c 3 t = V c (Pipeline.arrRef spec3 3)
    ∧ iblk3 V c 4 t = V c (Pipeline.arrRef spec3 4) ∧ iblk3 V c 5 t = V c (Pipeline.arrRef spec3 5)
    ∧ iblk3 V c 6 t = V c (Pipeline.arrRef spec3 6) ∧ iblk3 V c 7 t = V c (Pipeline.arrRef spec3 7)
    ∧ iblk3 V c 8 t = V c (Pipeline.arrRef spec3 8) ∧ iblk3 V c 9 t = V c (Pipeline.arrRef spec3 9) := by
  obtain ⟨-, -, -, -, e2, e3, e4, e5, e6, e7, e8, e9⟩ := gin_val3_idx t
  exact ⟨gin_rd (fun _ => rfl) fun a => win3_2.rect_emb_val_of_index_zero t a (e2 a),
    gin_rd (fun _ => rfl) fun a => win3_3.rect_emb_val_of_index_zero t a (e3 a),
    gin_rd (fun _ => rfl) fun a => win3_4.rect_emb_val_of_index_zero t a (e4 a),
    gin_rd (fun _ => rfl) fun a => win3_5.rect_emb_val_of_index_zero t a (e5 a),
    gin_rd (fun _ => rfl) fun a => win3_6.rect_emb_val_of_index_zero t a (e6 a),
    gin_rd (fun _ => rfl) fun a => win3_7.rect_emb_val_of_index_zero t a (e7 a),
    gin_rd (fun _ => rfl) fun a => win3_8.rect_emb_val_of_index_zero t a (e8 a),
    gin_rd (fun _ => rfl) fun a => win3_9.rect_emb_val_of_index_zero t a (e9 a)⟩

set_option maxHeartbeats 2000000 in
-- What point t computes at block index j is the specification at row 4000t + j 0, column j 1.
theorem gin_val3_pt (c : Dev nD) (t : Fin cfg3.N) (j : S4000x128.Idx) (i : (⟨2, ![100000, 128]⟩ : Shape).Idx)
    (hR : (i 0).val = 4000 * t.val + (j 0).val) (hC : (i 1).val = (j 1).val) :
    out3_10 (F := Ideal) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) j
      = ginSpec (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) i := by
  obtain ⟨-, -, ⟨a0, a1⟩, ⟨b0, b1⟩, -⟩ := gin_val3_idx t
  obtain ⟨r2, r3, r4, r5, r6, r7, r8, r9⟩ := gin_val3_rd V c t
  unfold out3_10
  rw [View.canon_unit_zero gin_hz, eq_ix2 j]
  simp only [View.ld_unit_zero (S := S4000x128) gin_hz, View.ld_unit_zero (S := S128x128) gin_hz, View.ld_unit_zero (S := S1x128) gin_hz]
  exact gin_block _ _ _ _ _ _ _ _ _ _ _ _ _ _ _ _ _ _ _ _ _ _ i
    (fun l => congrArg (V c (Pipeline.arrRef spec3 0)) (Shape.idx_ext₂ (by show win3_0.index t 0 * 4000 + 1 * (j 0).val = (i 0).val; omega) (win3_0.rect_emb_val_of_index_zero t 1 a1 _)))
    (fun l => congrArg (V c (Pipeline.arrRef spec3 1)) (Shape.idx_ext₂ (by show win3_1.index t 0 * 4000 + 1 * (j 0).val = (i 0).val; omega) (win3_1.rect_emb_val_of_index_zero t 1 b1 _)))
    r2 r3 r4 r5 r6 r7 r8 r9 (Fin.ext hC)

theorem gin_val3_cover_10 (i : (⟨2, ![100000, 128]⟩ : Shape).Idx) :
    ∃ t : Fin cfg3.N, (cfg3.win 10).flush t = true ∧ i ∈ ((cfg3.win 10).blk t).view.set := by
  obtain ⟨t, h⟩ := gin_cover i N_3 (x := win3_10.index) fun t => (gin_val3_idx t).1
  exact ⟨t, flush3_10 t, by show i ∈ ((View.whole (Pipeline.arrRef spec3 10)).slice (win3_10.rect t)).set; rw [View.set_slice_whole]; exact h _⟩

theorem gin_val3_cover_11 (i : (⟨2, ![100000, 128]⟩ : Shape).Idx) :
    ∃ t : Fin cfg3.N, (cfg3.win 11).flush t = true ∧ i ∈ ((cfg3.win 11).blk t).view.set := by
  obtain ⟨t, h⟩ := gin_cover i N_3 (x := win3_11.index) fun t => (gin_val3_idx t).2.1
  exact ⟨t, flush3_11 t, by show i ∈ ((View.whole (Pipeline.arrRef spec3 11)).slice (win3_11.rect t)).set; rw [View.set_slice_whole]; exact h _⟩

theorem gin_val3_10 (c : Dev nD) :
    (dat3 (F := Ideal) V c).arrAt 10 cfg3.N = ginSpec (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) := by
  refine (dat3 (F := Ideal) V c).arrAt_eq_of_cover 10 _ (fun t _ => ?_) gin_val3_cover_10
  show (cfg3.win 10).cut (grid3.coords t) ((dat3 (F := Ideal) V c).after 10 t) = _
  rw [after3_10]
  funext j
  exact gin_val3_pt V c t j _
    (by show win3_10.index t 0 * 4000 + 1 * (j 0).val = _; rw [(gin_val3_idx t).1.1]; omega)
    (win3_10.rect_emb_val_of_index_zero t 1 (gin_val3_idx t).1.2 j)

-- Over the extended reals the narrowed block holds the same values as the f32 block.
theorem gin_val3_11 (c : Dev nD) :
    (dat3 (F := Ideal) V c).arrAt 11 cfg3.N = ginSpec (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) := by
  refine (dat3 (F := Ideal) V c).arrAt_eq_of_cover 11 _ (fun t _ => ?_) gin_val3_cover_11
  show (cfg3.win 11).cut (grid3.coords t) ((dat3 (F := Ideal) V c).after 11 t) = _
  rw [after3_11]
  funext j
  exact gin_val3_pt V c t j _
    (by show win3_11.index t 0 * 4000 + 1 * (j 0).val = _; rw [(gin_val3_idx t).2.1.1]; omega)
    (win3_11.rect_emb_val_of_index_zero t 1 (gin_val3_idx t).2.1.2 j)

end Cert.KernelIdeal.Val

end
-- ==== Proof.Val.PoolMath.lean ====
import proofs.«405256_j52991306498534_2_alg».proof.Proof.Gen.KernelIdeal.Skeleton
import proofs.«405256_j52991306498534_2_alg».proof.Proof.Gen.ReferenceIdeal
import proofs.«405256_j52991306498534_2_alg».proof.Proof.Val.Spec
import Idealize.ShloMosaic.Lib.Pipeline.Value
import Idealize.ShloMosaic.Lib.ValueIdx
import Idealize.ShloMosaic.PureOps.Ideal.Laws

set_option maxRecDepth 16384

noncomputable section

namespace Cert.Spec.PoolMath

open Idealize.ShloMosaic Idealize.ShloMosaic.ValueIdx

section Ref
open Cert.ReferenceIdeal

theorem sc_start_0 (j : S100000x128.Idx) (idx : IVec S100000x1 32) :
    scatter_S64x128_S100000x1_S100000x128_1_0_0_1.start j idx 0 = (idx (ix2 (j 0) 0)).toInt := by
  unfold ScatterDims.start
  rw [dif_pos (show (0 : Fin S64x128.rank) ∈ scatter_S64x128_S100000x1_S100000x128_1_0_0_1.scatterDimsToOperandDims from List.mem_singleton.mpr rfl)]
  have hsi : scatter_S64x128_S100000x1_S100000x128_1_0_0_1.siIdx j ⟨List.idxOf (0 : Fin S64x128.rank) scatter_S64x128_S100000x1_S100000x128_1_0_0_1.scatterDimsToOperandDims,
      List.idxOf_lt_length_iff.2 (List.mem_singleton.mpr rfl)⟩ = ix2 (j 0) 0 := Shape.idx_ext₂ rfl rfl
  exact congrArg (fun k => (idx k).toInt) hsi
theorem sc_start_1 (j : S100000x128.Idx) (idx : IVec S100000x1 32) :
    scatter_S64x128_S100000x1_S100000x128_1_0_0_1.start j idx 1 = 0 := by
  unfold ScatterDims.start
  rw [dif_neg (show ¬(1 : Fin S64x128.rank) ∈ scatter_S64x128_S100000x1_S100000x128_1_0_0_1.scatterDimsToOperandDims by decide)]
theorem sc_window_0 (j : S100000x128.Idx) :
    scatter_S64x128_S100000x1_S100000x128_1_0_0_1.window j 0 = 0 := by
  unfold ScatterDims.window
  rw [dif_neg (show ¬(0 : Fin S64x128.rank) ∈ scatter_S64x128_S100000x1_S100000x128_1_0_0_1.sKept by decide)]
theorem sc_window_1 (j : S100000x128.Idx) :
    scatter_S64x128_S100000x1_S100000x128_1_0_0_1.window j 1 = (j 1).val := by
  unfold ScatterDims.window
  rw [dif_pos (show (1 : Fin S64x128.rank) ∈ scatter_S64x128_S100000x1_S100000x128_1_0_0_1.sKept by decide)]
  rfl

theorem resultIdx_eq_some_iff (idx : IVec S100000x1 32) (j : S100000x128.Idx) (i : S64x128.Idx) :
    scatter_S64x128_S100000x1_S100000x128_1_0_0_1.resultIdx? j idx = some i ↔
      (idx (ix2 (j 0) 0)).toInt = ((i 0).val : Int) ∧ (j 1).val = (i 1).val := by
  have hi0 : (i 0).val < 64 := (i 0).isLt
  have hi1 : (i 1).val < 128 := (i 1).isLt
  have hj1 : (j 1).val < 128 := (j 1).isLt
  unfold ScatterDims.resultIdx?
  constructor
  · intro h
    split at h
    · rename_i hc
      have e := Option.some.inj h
      have h0 : _ = (i 0).val := congrArg (fun f => (f 0).val) e
      have h1 : _ = (i 1).val := congrArg (fun f => (f 1).val) e
      have c0 := hc 0
      have c1 := hc 1
      simp only [sc_start_0, sc_window_0, sc_start_1, sc_window_1] at h0 h1 c0 c1
      constructor <;> omega
    · cases h
  · rintro ⟨h0, h1⟩
    have hc : ∀ a, 0 ≤ scatter_S64x128_S100000x1_S100000x128_1_0_0_1.start j idx a + scatter_S64x128_S100000x1_S100000x128_1_0_0_1.window j a ∧
        scatter_S64x128_S100000x1_S100000x128_1_0_0_1.start j idx a + scatter_S64x128_S100000x1_S100000x128_1_0_0_1.window j a < S64x128.size a := fun a => by
      match a with
      | ⟨0, _⟩ => rw [show (⟨0, _⟩ : Fin S64x128.rank) = 0 from rfl, sc_start_0, sc_window_0, h0]; show _ ∧ _ < ((64 : Nat) : Int); omega
      | ⟨1, _⟩ => rw [show (⟨1, _⟩ : Fin S64x128.rank) = 1 from rfl, sc_start_1, sc_window_1]; show _ ∧ _ < ((128 : Nat) : Int); omega
    rw [dif_pos hc]
    congr 1
    funext a
    refine Fin.ext ?_
    match a with
    | ⟨0, _⟩ => show (scatter_S64x128_S100000x1_S100000x128_1_0_0_1.start j idx 0 + scatter_S64x128_S100000x1_S100000x128_1_0_0_1.window j 0).toNat = (i 0).val; rw [sc_start_0, sc_window_0, h0]; omega
    | ⟨1, _⟩ => show (scatter_S64x128_S100000x1_S100000x128_1_0_0_1.start j idx 1 + scatter_S64x128_S100000x1_S100000x128_1_0_0_1.window j 1).toNat = (i 1).val; rw [sc_start_1, sc_window_1]; omega

theorem scatterAdd_eq_poolSpec_ref (idx : IVec S100000x1 32) (upd : FVec Ideal S100000x128 .f32) :
    Host.scatterAdd (F := Ideal) scatter_S64x128_S100000x1_S100000x128_1_0_0_1
      (broadcastInDim S64x128 ![] Gen.bcast_S_S64x128 (constant (F := Ideal) S_ .f32 0x00000000#32)) idx upd = poolSpec idx upd := by
  funext i
  unfold Host.scatterAdd
  rw [Ideal.hostScatterAdd_def]
  unfold Ideal.hostScatterAdd poolSpec
  rw [broadcastInDim_apply _ Gen.bcast_S_S64x128 _ i (fun a => a.elim0) (fun a => a.elim0), constant_apply, Ideal.ofBits_zero_f32]
  refine congrArg (fun x : EReal => 0 + x) ?_
  rw [Finset.sum_filter, sum_idx2]
  refine Finset.sum_congr rfl fun n _ => ?_
  show (∑ c : Fin 128, if scatter_S64x128_S100000x1_S100000x128_1_0_0_1.resultIdx? (ix2 n c) idx = some i then upd (ix2 n c) else 0)
    = if (idx (ix2 n 0)).toInt = ((i 0).val : Int) then upd (ix2 n (i 1)) else 0
  by_cases h : (idx (ix2 n 0)).toInt = ((i 0).val : Int)
  · rw [if_pos h]
    refine (Finset.sum_eq_single (i 1 : Fin 128) (fun c _ hc => if_neg fun hr => hc (Fin.ext ((resultIdx_eq_some_iff idx (ix2 n c) i).1 hr).2))
      (fun h' => absurd (Finset.mem_univ _) h')).trans ?_
    exact if_pos ((resultIdx_eq_some_iff idx (ix2 n (i 1)) i).2 ⟨h, rfl⟩)
  · rw [if_neg h]
    exact Finset.sum_eq_zero fun c _ => if_neg fun hr => h ((resultIdx_eq_some_iff idx (ix2 n c) i).1 hr).1

end Ref

section Ker
open Cert.KernelIdeal Cert.KernelIdeal.Gen

theorem lhs_pool_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem rhs_pool_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

theorem word_eq_iff (x : BitVec 32) (s : Fin 64) : x = BitVec.ofNat 32 s.val ↔ x.toInt = (s.val : Int) := by
  have hs := s.isLt
  have hx := x.isLt
  rw [BitVec.toInt_eq_toNat_cond, ← BitVec.toNat_inj, BitVec.toNat_ofNat, Nat.mod_eq_of_lt (by omega : s.val < 2 ^ 32)]
  split <;> omega

theorem onehot_entry (x : BitVec 32) (s : Fin 64) :
    (FloatOps.sitofp (F := Ideal) .f32 ((IntOp.cmpi .eq x (BitVec.ofNat 32 s.val)).setWidth 32) : EReal) = if x.toInt = (s.val : Int) then 1 else 0 := by
  show (((((IntOp.cmpi .eq x (BitVec.ofNat 32 s.val)).setWidth 32).toInt : ℤ) : ℝ) : EReal) = _
  by_cases h : x = BitVec.ofNat 32 s.val
  · rw [if_pos ((word_eq_iff x s).1 h)]
    have e : IntOp.cmpi .eq x (BitVec.ofNat 32 s.val) = 1#1 := by
      unfold IntOp.cmpi; simp [h]
    rw [e]
    have : ((1#1).setWidth 32 : BitVec 32).toInt = 1 := by decide
    rw [this]; simp
  · rw [if_neg (fun h' => h ((word_eq_iff x s).2 h'))]
    have e : IntOp.cmpi .eq x (BitVec.ofNat 32 s.val) = 0#1 := by
      unfold IntOp.cmpi
      rw [show (x == BitVec.ofNat 32 s.val) = false from beq_eq_false_iff_ne.2 h]
      rfl
    rw [e]
    have : ((0#1).setWidth 32 : BitVec 32).toInt = 0 := by decide
    rw [this]; simp

theorem k4_pay2_apply (v4 : Vec Ideal S5000x1 .i32) (v11 : Vec Ideal S5000x128 .f32) (v15 : Vec Ideal S64x128 .f32) (s : Fin 64) (d : Fin 128) :
    k4_pay2 (F := Ideal) v4 v11 v15 (ix2 s d) = v15 (ix2 s d) + ∑ r : Fin 5000, (if (v4 (ix2 r 0)).toInt = (s.val : Int) then v11 (ix2 r d) else 0) := by
  unfold k4_pay2
  simp only [Idealize.ShloMosaic.matmul]
  rw [shapeCast_apply _ shapeCasts_S64x128_S64x128 (ix2 s d) (ix2 s d) rfl, addf_apply, Ideal.matmul_constant_zero_apply,
    ← Equiv.sum_comp (ValueIdx.contrEquiv1 dot_S5000x64_S5000x128_S64x128_0_0_1_1_n_n 5000 rfl rfl).symm]
  congr 1
  refine Finset.sum_congr rfl fun r _ => ?_
  have hk := ValueIdx.contrEquiv1_symm_val dot_S5000x64_S5000x128_S64x128_0_0_1_1_n_n 5000 rfl rfl r
  have el : dot_S5000x64_S5000x128_S64x128_0_0_1_1_n_n.lhsIdx (ix2 s d) ((ValueIdx.contrEquiv1 dot_S5000x64_S5000x128_S64x128_0_0_1_1_n_n 5000 rfl rfl).symm r) = ix2 r s :=
    Shape.idx_ext₂ ((dot_S5000x64_S5000x128_S64x128_0_0_1_1_n_n.lhsIdx_val_of_single rfl _ _).trans hk) (lhs_pool_1 _ _)
  have er : dot_S5000x64_S5000x128_S64x128_0_0_1_1_n_n.rhsIdx (ix2 s d) ((ValueIdx.contrEquiv1 dot_S5000x64_S5000x128_S64x128_0_0_1_1_n_n 5000 rfl rfl).symm r) = ix2 r d :=
    Shape.idx_ext₂ ((dot_S5000x64_S5000x128_S64x128_0_0_1_1_n_n.rhsIdx_val_of_single rfl _ _).trans hk) (rhs_pool_1 _ _)
  rw [el, er, truncf_apply, truncf_apply, sitofp_apply, extui_apply,
    shapeCast_apply _ shapeCasts_S5000x128_S5000x128 (ix2 r d) (ix2 r d) rfl]
  show (FloatOps.sitofp (F := Ideal) .f32 ((IntOp.cmpi .eq (broadcastTo S5000x64 (shapeCast S5000x1 v4 shapeCasts_S5000x1_S5000x1) broadcasts_S5000x1_S5000x64 (ix2 r s))
      (iota .tc S5000x64 32 [1] iota_S5000x64_d1_w32 (ix2 r s))).setWidth 32) : EReal) * v11 (ix2 r d) = _
  rw [iota_single_apply, broadcastTo_apply _ broadcasts_S5000x1_S5000x64 (ix2 r s) (ix2 r 0) (fun a => by
      match a with
      | ⟨0, _⟩ => rfl
      | ⟨1, _⟩ => rfl),
    shapeCast_apply _ shapeCasts_S5000x1_S5000x1 (ix2 r 0) (ix2 r 0) rfl]
  show (FloatOps.sitofp (F := Ideal) .f32 ((IntOp.cmpi .eq (v4 (ix2 r 0)) (BitVec.ofNat 32 s.val)).setWidth 32) : EReal) * v11 (ix2 r d) = _
  rw [onehot_entry]
  split
  · rw [one_mul]
  · rw [zero_mul]

theorem k4_pay1_apply (i : S64x128.Idx) : k4_pay1 (F := Ideal) i = 0 := by
  unfold k4_pay1
  rw [shapeCast_apply _ shapeCasts_S64x128_S64x128 i i rfl, broadcast_apply]
  exact Ideal.ofBits_zero_f32

theorem sum_blocks {M : Type*} [AddCommMonoid M] (f : Fin 100000 → M) :
    ∑ n : Fin 100000, f n = ∑ t ∈ Finset.range 20, ∑ r : Fin 5000, (if hh : 5000 * t + r.val < 100000 then f ⟨5000 * t + r.val, hh⟩ else 0) := by
  rw [Finset.sum_range, ← Fintype.sum_prod_type' (f := fun (t : Fin 20) (r : Fin 5000) => if hh : 5000 * t.val + r.val < 100000 then f ⟨5000 * t.val + r.val, hh⟩ else 0),
    ← Equiv.sum_comp ((finProdFinEquiv (m := 20) (n := 5000)).trans (finCongr (by norm_num))) f]
  refine Finset.sum_congr rfl fun x _ => ?_
  have hx : 5000 * x.1.val + x.2.val < 100000 := by have := x.1.isLt; have := x.2.isLt; omega
  rw [dif_pos hx]
  congr 1
  apply Fin.ext
  simp [finProdFinEquiv]
  omega

theorem pool_fold (b : (⟨2, ![100000, 1]⟩ : Shape).Idx → BitVec 32) (h : A 100000 128) (acc : (n : ℕ) → n < 20 → A 64 128)
    (B : (n : ℕ) → n < 20 → Vec Ideal S5000x1 .i32) (H : (n : ℕ) → n < 20 → Vec Ideal S5000x128 .f32)
    (hB : ∀ n hn (r : Fin 5000), B n hn (ix2 r 0) = b (ix2 ⟨5000 * n + r.val, by have := r.isLt; omega⟩ 0))
    (hH : ∀ n hn (r : Fin 5000) (d : Fin 128), H n hn (ix2 r d) = h (ix2 ⟨5000 * n + r.val, by have := r.isLt; omega⟩ d))
    (h0 : acc 0 (by omega) = k4_pay2 (F := Ideal) (B 0 (by omega)) (H 0 (by omega)) (k4_pay1 (F := Ideal)))
    (hs : ∀ n (hn : n + 1 < 20), acc (n + 1) hn = k4_pay2 (F := Ideal) (B (n + 1) hn) (H (n + 1) hn) (acc n (by omega))) :
    acc 19 (by omega) = poolSpec b h := by
  have key : ∀ n (hn : n < 20) (s : Fin 64) (d : Fin 128), acc n hn (ix2 s d) = 0 + ∑ t ∈ Finset.range (n + 1), ∑ r : Fin 5000,
      (if hh : 5000 * t + r.val < 100000 then (if (b (ix2 ⟨5000 * t + r.val, hh⟩ 0)).toInt = (s.val : Int) then h (ix2 ⟨5000 * t + r.val, hh⟩ d) else 0) else 0) := by
    intro n
    induction n with
    | zero =>
      intro hn s d
      rw [h0, k4_pay2_apply, k4_pay1_apply, Finset.sum_range_one]
      congr 1
      refine Finset.sum_congr rfl fun r _ => ?_
      have hh : 5000 * 0 + r.val < 100000 := by have := r.isLt; omega
      rw [dif_pos hh, hB, hH]
    | succ n ih =>
      intro hn s d
      rw [hs n hn, k4_pay2_apply, ih (by omega), Finset.sum_range_succ _ (n + 1), add_assoc]
      congr 2
      refine Finset.sum_congr rfl fun r _ => ?_
      have hh : 5000 * (n + 1) + r.val < 100000 := by have := r.isLt; omega
      rw [dif_pos hh, hB, hH]
  funext i
  obtain ⟨s, d, rfl⟩ : ∃ (s : Fin 64) (d : Fin 128), i = ix2 s d := ⟨i 0, i 1, eq_ix2 i⟩
  rw [key 19 (by omega) s d]
  show _ = 0 + ∑ n : Fin 100000, if (b (ix2 n 0)).toInt = (s.val : Int) then h (ix2 n d) else 0
  rw [sum_blocks]

end Ker

end Cert.Spec.PoolMath

end
-- ==== Proof.Val.RefSpec.lean ====
import proofs.«405256_j52991306498534_2_alg».proof.Proof.Ref.ReadP
import proofs.«405256_j52991306498534_2_alg».proof.Proof.Val.Spec
import proofs.«405256_j52991306498534_2_alg».proof.Proof.Val.PoolMath

noncomputable section

namespace Cert.ReferenceIdeal.RefSpec

open Cert.ReferenceIdeal Cert.ReferenceIdeal.Gen Cert.ReferenceIdeal.ReadP Cert.Spec Idealize.ShloMosaic Idealize.ShloMosaic.ValueIdx

def row (v : (⟨1, ![128]⟩ : Shape).Idx → EReal) : A 1 128 :=
  fun i => v (ix1 (i 1))

variable (x0 : (⟨S100000x64, .f32⟩ : BufTy).Contents (Elt Ideal)) (x2 : (⟨S2x1600000, .i32⟩ : BufTy).Contents (Elt Ideal))
  (x3 : (⟨S100000, .i32⟩ : BufTy).Contents (Elt Ideal)) (x4 : (⟨S64x128, .f32⟩ : BufTy).Contents (Elt Ideal)) (x5 : (⟨S128, .f32⟩ : BufTy).Contents (Elt Ideal))
  (x6 : (⟨S3x128x128, .f32⟩ : BufTy).Contents (Elt Ideal)) (x7 x8 x9 x10 x11 : (⟨S3x128, .f32⟩ : BufTy).Contents (Elt Ideal))
  (x12 : (⟨S3x128x128, .f32⟩ : BufTy).Contents (Elt Ideal)) (x13 : (⟨S3x128, .f32⟩ : BufTy).Contents (Elt Ideal))

theorem ref_emb : val_main_v7 (F := Ideal) x0 x4 x5 = embSpec x0 x4 (row x5) := by
  funext i
  obtain ⟨p, q, rfl⟩ : ∃ (p : Fin 100000) (q : Fin 128), i = ix2 p q := ⟨i 0, i 1, eq_ix2 i⟩
  rw [val_main_v7_apply, val_main_v4_apply, val_main_v6_apply, val_main_v5_apply]
  have el : ∀ k : Fin 64, lidx_main_v4 (ix2 p q) k = ix2 p k := fun k => Shape.idx_ext₂ rfl rfl
  have er : ∀ k : Fin 64, ridx_main_v4 (ix2 p q) k = ix2 k q := fun k => Shape.idx_ext₂ rfl rfl
  simp only [Ideal.addf_def, el, er, eq_ix1 (idx_main_v5 _)]
  rfl

def bc (v : FVec Ideal S128 .f32) : FVec Ideal S100000x128 .f32 :=
  broadcastInDim S100000x128 ![0, 1] bcast_S1x128_S100000x128_0_1 (broadcastInDim S1x128 ![1] bcast_S128_S1x128_1 v)

theorem bc_apply (v : FVec Ideal S128 .f32) (p : Fin 100000) (k : Fin 128) : bc v (ix2 p k) = v (ix1 k) := by
  unfold bc
  rw [broadcastInDim_apply _ bcast_S1x128_S100000x128_0_1 _ (ix2 p k) (ix2 0 k) (fun a => match a with
      | ⟨0, _⟩ => by show 0 = if (1 : Nat) = 1 then 0 else p.val; rw [if_pos rfl]
      | ⟨1, _⟩ => by show k.val = if (128 : Nat) = 1 then 0 else k.val; rw [if_neg (by decide)]),
    broadcastInDim_apply _ bcast_S128_S1x128_1 v (ix2 0 k) (ix1 k) (fun a => match a with
      | ⟨0, _⟩ => by show k.val = if (128 : Nat) = 1 then 0 else k.val; rw [if_neg (by decide)])]

def zeros : FVec Ideal S100000x128 .f32 :=
  broadcastInDim S100000x128 ![] bcast_S_S100000x128 (constant S_ .f32 0x00000000#32)

theorem zeros_apply (i : S100000x128.Idx) : zeros i = 0 := by
  unfold zeros
  rw [broadcastInDim_apply _ bcast_S_S100000x128 _ i (fun a => a.elim0) (fun a => a.elim0), constant_apply, Ideal.ofBits_zero_f32]

def epsv : FVec Ideal S128 .f32 := broadcastInDim S128 ![] bcast_S_S128 (constant S_ .f32 0x3727C5AC#32)

theorem epsv_apply (i : S128.Idx) : epsv i = eps := by
  unfold epsv
  rw [broadcastInDim_apply _ bcast_S_S128 _ i (fun a => a.elim0) (fun a => a.elim0), constant_apply]
  rfl

theorem dot_apply (y : FVec Ideal S100000x128 .f32) (w : FVec Ideal S128x128 .f32) (p : Fin 100000) (k : Fin 128) :
    Host.dotGeneral dot_S100000x128_S128x128_S100000x128_1_0_0_1_n_n none y w (ix2 p k) = ∑ l : Fin 128, y (ix2 p l) * w (ix2 l k) := by
  simp only [Host.dotGeneral]
  rw [Ideal.dotGeneral_apply, ← Equiv.sum_comp (contrEquiv1 dot_S100000x128_S128x128_S100000x128_1_0_0_1_n_n 128 rfl rfl).symm]
  refine Finset.sum_congr rfl fun l _ => ?_
  have hl := contrEquiv1_symm_val dot_S100000x128_S128x128_S100000x128_1_0_0_1_n_n 128 rfl rfl l
  rw [show dot_S100000x128_S128x128_S100000x128_1_0_0_1_n_n.lhsIdx (ix2 p k) ((contrEquiv1 dot_S100000x128_S128x128_S100000x128_1_0_0_1_n_n 128 rfl rfl).symm l) = ix2 p l from
      Shape.idx_ext₂ (lhs_main_v35_0 _ _) ((lhs_main_v35_1 _ _).trans hl),
    show dot_S100000x128_S128x128_S100000x128_1_0_0_1_n_n.rhsIdx (ix2 p k) ((contrEquiv1 dot_S100000x128_S128x128_S100000x128_1_0_0_1_n_n 128 rfl rfl).symm l) = ix2 l k from
      Shape.idx_ext₂ ((rhs_main_v35_0 _ _).trans hl) (rhs_main_v35_1 _ _)]

def hidden (h a : FVec Ideal S100000x128 .f32) (w1 : FVec Ideal S128x128 .f32) (b1 g bt mn vr : FVec Ideal S128 .f32) : FVec Ideal S100000x128 .f32 :=
  maximumf (addf (mulf (mulf (subf (addf (Host.dotGeneral dot_S100000x128_S128x128_S100000x128_1_0_0_1_n_n none (addf h a) w1) (bc b1)) (bc mn))
    (bc (Host.rsqrt (addf vr epsv)))) (bc g)) (bc bt)) zeros

def layer (h a : FVec Ideal S100000x128 .f32) (w1 : FVec Ideal S128x128 .f32) (b1 g bt mn vr : FVec Ideal S128 .f32)
    (w2 : FVec Ideal S128x128 .f32) (b2 : FVec Ideal S128 .f32) : FVec Ideal S100000x128 .f32 :=
  maximumf (addf (Host.dotGeneral dot_S100000x128_S128x128_S100000x128_1_0_0_1_n_n none (hidden h a w1 b1 g bt mn vr) w2) (bc b2)) zeros

theorem hidden_apply (h a : FVec Ideal S100000x128 .f32) (w1 : FVec Ideal S128x128 .f32) (b1 g bt mn vr : FVec Ideal S128 .f32)
    (p : Fin 100000) (k : Fin 128) :
    hidden h a w1 b1 g bt mn vr (ix2 p k) = ginHidden h a w1 (row b1) (row g) (row bt) (row mn) (row vr) p k := by
  unfold hidden
  rw [maximumf_apply, addf_apply, mulf_apply, mulf_apply, subf_apply, addf_apply, dot_apply, bc_apply, bc_apply, bc_apply, bc_apply,
    bc_apply, zeros_apply]
  show max (_ * FloatOps.hostUnary .rsqrt (vr (ix1 k) + epsv (ix1 k)) * _ + _) 0 = _
  rw [epsv_apply, Ideal.hostUnary_rsqrt_def]
  rfl

-- The reference's layer, one function of its inputs, is the layer function of the specification.
theorem layer_eq (h a : FVec Ideal S100000x128 .f32) (w1 : FVec Ideal S128x128 .f32) (b1 g bt mn vr : FVec Ideal S128 .f32)
    (w2 : FVec Ideal S128x128 .f32) (b2 : FVec Ideal S128 .f32) :
    layer h a w1 b1 g bt mn vr w2 b2 = ginSpec h a w1 (row b1) (row g) (row bt) (row mn) (row vr) w2 (row b2) := by
  funext i
  obtain ⟨p, q, rfl⟩ : ∃ (p : Fin 100000) (q : Fin 128), i = ix2 p q := ⟨i 0, i 1, eq_ix2 i⟩
  unfold layer
  rw [maximumf_apply, addf_apply, dot_apply, bc_apply, zeros_apply]
  simp only [hidden_apply]
  rfl

theorem ref_gin1 : val_main_v59 (F := Ideal) x0 x2 x4 x5 x6 x7 x8 x9 x10 x11 x12 x13 = ginSpec (val_main_v7 (F := Ideal) x0 x4 x5) (val_main_v33 (F := Ideal) x0 x2 x4 x5) (val_main_v9 (F := Ideal) x6) (row (val_main_v11 (F := Ideal) x7)) (row (val_main_v13 (F := Ideal) x8)) (row (val_main_v15 (F := Ideal) x9)) (row (val_main_v17 (F := Ideal) x10)) (row (val_main_v19 (F := Ideal) x11)) (val_main_v21 (F := Ideal) x12) (row (val_main_v23 (F := Ideal) x13)) := by
  rw [← layer_eq]; rfl

theorem ref_gin2 : val_main_v111 (F := Ideal) x0 x2 x4 x5 x6 x7 x8 x9 x10 x11 x12 x13 = ginSpec (val_main_v59 (F := Ideal) x0 x2 x4 x5 x6 x7 x8 x9 x10 x11 x12 x13) (val_main_v85 (F := Ideal) x0 x2 x4 x5 x6 x7 x8 x9 x10 x11 x12 x13) (val_main_v61 (F := Ideal) x6) (row (val_main_v63 (F := Ideal) x7)) (row (val_main_v65 (F := Ideal) x8)) (row (val_main_v67 (F := Ideal) x9)) (row (val_main_v69 (F := Ideal) x10)) (row (val_main_v71 (F := Ideal) x11)) (val_main_v73 (F := Ideal) x12) (row (val_main_v75 (F := Ideal) x13)) := by
  rw [← layer_eq]; rfl

theorem ref_gin3 : val_main_v163 (F := Ideal) x0 x2 x4 x5 x6 x7 x8 x9 x10 x11 x12 x13 = ginSpec (val_main_v111 (F := Ideal) x0 x2 x4 x5 x6 x7 x8 x9 x10 x11 x12 x13) (val_main_v137 (F := Ideal) x0 x2 x4 x5 x6 x7 x8 x9 x10 x11 x12 x13) (val_main_v113 (F := Ideal) x6) (row (val_main_v115 (F := Ideal) x7)) (row (val_main_v117 (F := Ideal) x8)) (row (val_main_v119 (F := Ideal) x9)) (row (val_main_v121 (F := Ideal) x10)) (row (val_main_v123 (F := Ideal) x11)) (val_main_v125 (F := Ideal) x12) (row (val_main_v127 (F := Ideal) x13)) := by
  rw [← layer_eq]; rfl

theorem ref_pool1 : val_main_v173 (F := Ideal) x0 x2 x3 x4 x5 x6 x7 x8 x9 x10 x11 x12 x13 = poolSpec (val_main_v172 (F := Ideal) x3) (val_main_v59 (F := Ideal) x0 x2 x4 x5 x6 x7 x8 x9 x10 x11 x12 x13) :=
  Cert.Spec.PoolMath.scatterAdd_eq_poolSpec_ref _ _

theorem ref_pool2 : val_main_v178 (F := Ideal) x0 x2 x3 x4 x5 x6 x7 x8 x9 x10 x11 x12 x13 = poolSpec (val_main_v177 (F := Ideal) x3) (val_main_v111 (F := Ideal) x0 x2 x4 x5 x6 x7 x8 x9 x10 x11 x12 x13) :=
  Cert.Spec.PoolMath.scatterAdd_eq_poolSpec_ref _ _

theorem ref_pool3 : val_main_v183 (F := Ideal) x0 x2 x3 x4 x5 x6 x7 x8 x9 x10 x11 x12 x13 = poolSpec (val_main_v182 (F := Ideal) x3) (val_main_v163 (F := Ideal) x0 x2 x4 x5 x6 x7 x8 x9 x10 x11 x12 x13) :=
  Cert.Spec.PoolMath.scatterAdd_eq_poolSpec_ref _ _

end Cert.ReferenceIdeal.RefSpec

end
-- ==== Proof.Val.HostBridge.lean ====
import proofs.«405256_j52991306498534_2_alg».proof.Proof.Gen.KernelIdeal.Launch
import proofs.«405256_j52991306498534_2_alg».proof.Proof.Ref.ReadP
import Idealize.ShloMosaic.Lib.StableHlo.Run
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal

def rowv (v : (⟨1, ![128]⟩ : Shape).Idx → EReal) : (⟨2, ![1, 128]⟩ : Shape).Idx → EReal :=
  fun i => v (ix1 (i 1))

theorem shapeCast_rowv (v : (⟨1, ![128]⟩ : Shape).Idx → EReal) (h : (⟨1, ![128]⟩ : Shape).ShapeCasts ⟨2, ![1, 128]⟩) :
    shapeCast (⟨2, ![1, 128]⟩ : Shape) v h = rowv v :=
  funext fun j => (congrArg _ (eq_ix2 j)).trans (shapeCast_a_1a_apply v h (j 0) (j 1))

theorem extf_ideal {s : Shape} {φ ψ : FTy} (a : FVec Ideal s φ) (h : φ.bits < ψ.bits) : (extf ψ a h : FVec Ideal s ψ) = a := rfl

variable (W : Valuation τ sig (Elt Ideal))
  (x0 : (⟨S100000x64, .f32⟩ : BufTy).Contents (Elt Ideal)) (x2 : (⟨S2x1600000, .i32⟩ : BufTy).Contents (Elt Ideal))
  (x4 : (⟨S64x128, .f32⟩ : BufTy).Contents (Elt Ideal)) (x5 : (⟨S128, .f32⟩ : BufTy).Contents (Elt Ideal))
  (x6 : (⟨S3x128x128, .f32⟩ : BufTy).Contents (Elt Ideal)) (x7 x8 x9 x10 x11 : (⟨S3x128, .f32⟩ : BufTy).Contents (Elt Ideal))
  (x12 : (⟨S3x128x128, .f32⟩ : BufTy).Contents (Elt Ideal)) (x13 : (⟨S3x128, .f32⟩ : BufTy).Contents (Elt Ideal))

theorem stretch0 (h2 : W main_arg2 = x2) (h5 : W main_arg5 = x5) :
    StableHlo.after hostOps0 W main_v1 = ReadP.val_main_v1 (F := Ideal) x2
    ∧ StableHlo.after hostOps0 W main_v3 = ReadP.val_main_v3 (F := Ideal) x2
    ∧ StableHlo.after hostOps0 W main_v4 = rowv x5 := by
  subst h2 h5
  refine ⟨?_, ?_, ?_⟩ <;> after_results
  iterate 2 rfl
  exact shapeCast_rowv _ _

theorem stretch1 (hh : W main_v5_1 = ReadP.val_main_v7 (F := Ideal) x0 x4 x5)
    (h1 : W main_v1 = ReadP.val_main_v1 (F := Ideal) x2) (h3 : W main_v3 = ReadP.val_main_v3 (F := Ideal) x2)
    (h6 : W main_arg6 = x6) (h7 : W main_arg7 = x7) (h8 : W main_arg8 = x8) (h9 : W main_arg9 = x9) (h10 : W main_arg10 = x10)
    (h11 : W main_arg11 = x11) (h12 : W main_arg12 = x12) (h13 : W main_arg13 = x13) :
    StableHlo.after hostOps1 W main_v16 = ReadP.val_main_v33 (F := Ideal) x0 x2 x4 x5
    ∧ StableHlo.after hostOps1 W main_v18 = ReadP.val_main_v9 (F := Ideal) x6
    ∧ StableHlo.after hostOps1 W main_v30 = ReadP.val_main_v21 (F := Ideal) x12
    ∧ StableHlo.after hostOps1 W main_v33 = rowv (ReadP.val_main_v11 (F := Ideal) x7)
    ∧ StableHlo.after hostOps1 W main_v34 = rowv (ReadP.val_main_v13 (F := Ideal) x8)
    ∧ StableHlo.after hostOps1 W main_v35 = rowv (ReadP.val_main_v15 (F := Ideal) x9)
    ∧ StableHlo.after hostOps1 W main_v36 = rowv (ReadP.val_main_v17 (F := Ideal) x10)
    ∧ StableHlo.after hostOps1 W main_v37 = rowv (ReadP.val_main_v19 (F := Ideal) x11)
    ∧ StableHlo.after hostOps1 W main_v38 = rowv (ReadP.val_main_v23 (F := Ideal) x13) := by
  subst h6 h7 h8 h9 h10 h11 h12 h13
  refine ⟨?_, ?_, ?_, ?_, ?_, ?_, ?_, ?_, ?_⟩ <;> after_results_simp
  · rw [hh, h1, h3, extf_ideal]
    rfl
  iterate 2 rfl
  all_goals exact shapeCast_rowv _ _

theorem stretch2 (hh : W main_v39_1 = ReadP.val_main_v59 (F := Ideal) x0 x2 x4 x5 x6 x7 x8 x9 x10 x11 x12 x13)
    (h1 : W main_v1 = ReadP.val_main_v1 (F := Ideal) x2) (h3 : W main_v3 = ReadP.val_main_v3 (F := Ideal) x2)
    (h6 : W main_arg6 = x6) (h7 : W main_arg7 = x7) (h8 : W main_arg8 = x8) (h9 : W main_arg9 = x9) (h10 : W main_arg10 = x10)
    (h11 : W main_arg11 = x11) (h12 : W main_arg12 = x12) (h13 : W main_arg13 = x13) :
    StableHlo.after hostOps2 W main_v50 = ReadP.val_main_v85 (F := Ideal) x0 x2 x4 x5 x6 x7 x8 x9 x10 x11 x12 x13
    ∧ StableHlo.after hostOps2 W main_v52 = ReadP.val_main_v61 (F := Ideal) x6
    ∧ StableHlo.after hostOps2 W main_v64 = ReadP.val_main_v73 (F := Ideal) x12
    ∧ StableHlo.after hostOps2 W main_v67 = rowv (ReadP.val_main_v63 (F := Ideal) x7)
    ∧ StableHlo.after hostOps2 W main_v68 = rowv (ReadP.val_main_v65 (F := Ideal) x8)
    ∧ StableHlo.after hostOps2 W main_v69 = rowv (ReadP.val_main_v67 (F := Ideal) x9)
    ∧ StableHlo.after hostOps2 W main_v70 = rowv (ReadP.val_main_v69 (F := Ideal) x10)
    ∧ StableHlo.after hostOps2 W main_v71 = rowv (ReadP.val_main_v71 (F := Ideal) x11)
    ∧ StableHlo.after hostOps2 W main_v72 = rowv (ReadP.val_main_v75 (F := Ideal) x13) := by
  subst h6 h7 h8 h9 h10 h11 h12 h13
  refine ⟨?_, ?_, ?_, ?_, ?_, ?_, ?_, ?_, ?_⟩ <;> after_results_simp
  · rw [hh, h1, h3, extf_ideal]
    rfl
  iterate 2 rfl
  all_goals exact shapeCast_rowv _ _

theorem stretch3 (hh : W main_v73_1 = ReadP.val_main_v111 (F := Ideal) x0 x2 x4 x5 x6 x7 x8 x9 x10 x11 x12 x13)
    (h1 : W main_v1 = ReadP.val_main_v1 (F := Ideal) x2) (h3 : W main_v3 = ReadP.val_main_v3 (F := Ideal) x2)
    (h6 : W main_arg6 = x6) (h7 : W main_arg7 = x7) (h8 : W main_arg8 = x8) (h9 : W main_arg9 = x9) (h10 : W main_arg10 = x10)
    (h11 : W main_arg11 = x11) (h12 : W main_arg12 = x12) (h13 : W main_arg13 = x13) :
    StableHlo.after hostOps3 W main_v84 = ReadP.val_main_v137 (F := Ideal) x0 x2 x4 x5 x6 x7 x8 x9 x10 x11 x12 x13
    ∧ StableHlo.after hostOps3 W main_v86 = ReadP.val_main_v113 (F := Ideal) x6
    ∧ StableHlo.after hostOps3 W main_v98 = ReadP.val_main_v125 (F := Ideal) x12
    ∧ StableHlo.after hostOps3 W main_v101 = rowv (ReadP.val_main_v115 (F := Ideal) x7)
    ∧ StableHlo.after hostOps3 W main_v102 = rowv (ReadP.val_main_v117 (F := Ideal) x8)
    ∧ StableHlo.after hostOps3 W main_v103 = rowv (ReadP.val_main_v119 (F := Ideal) x9)
    ∧ StableHlo.after hostOps3 W main_v104 = rowv (ReadP.val_main_v121 (F := Ideal) x10)
    ∧ StableHlo.after hostOps3 W main_v105 = rowv (ReadP.val_main_v123 (F := Ideal) x11)
    ∧ StableHlo.after hostOps3 W main_v106 = rowv (ReadP.val_main_v127 (F := Ideal) x13) := by
  subst h6 h7 h8 h9 h10 h11 h12 h13
  refine ⟨?_, ?_, ?_, ?_, ?_, ?_, ?_, ?_, ?_⟩ <;> after_results_simp
  · rw [hh, h1, h3, extf_ideal]
    rfl
  iterate 2 rfl
  all_goals exact shapeCast_rowv _ _

end Cert.KernelIdeal.Val

end
-- ==== Proof.Val.Chain1.lean ====
import proofs.«405256_j52991306498534_2_alg».proof.Proof.KI.Run
import proofs.«405256_j52991306498534_2_alg».proof.Proof.KI.Keep
import proofs.«405256_j52991306498534_2_alg».proof.Proof.Val.EmbVal
import proofs.«405256_j52991306498534_2_alg».proof.Proof.Val.GinVal1
import proofs.«405256_j52991306498534_2_alg».proof.Proof.Val.GinVal2
import proofs.«405256_j52991306498534_2_alg».proof.Proof.Val.GinVal3
import proofs.«405256_j52991306498534_2_alg».proof.Proof.Val.RefSpec
import proofs.«405256_j52991306498534_2_alg».proof.Proof.Val.HostBridge

noncomputable section

namespace Cert.KernelIdeal.Val

open Cert.KernelIdeal Cert.KernelIdeal.Gen Cert.KernelIdeal.Hand Cert.Spec
open Cert.ReferenceIdeal.ReadP Cert.ReferenceIdeal.RefSpec
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

-- The valuations at the segment boundaries, as one sequence.
def Bs : ℕ → Valuation τ sig (Elt Ideal)
  | 0 => B0 m ρ c | 1 => B1 m ρ c | 2 => B2 m ρ c | 3 => B3 m ρ c | 4 => B4 m ρ c | 5 => B5 m ρ c | 6 => B6 m ρ c
  | 7 => B7 m ρ c | 8 => B8 m ρ c | 9 => B9 m ρ c | 10 => B10 m ρ c | 11 => B11 m ρ c | 12 => B12 m ρ c | 13 => B13 m ρ c
  | _ => B14 m ρ c

-- What segment `j`, from boundary `j` to boundary `j + 1`, may write.
noncomputable def Ws : ℕ → List (Ref sig .tc)
  | 0 => hostOps0_W | 1 => [main_v5_0, main_v5_1] | 2 => hostOps1_W | 3 => [main_v39_0, main_v39_1] | 4 => hostOps2_W
  | 5 => [main_v73_0, main_v73_1] | 6 => hostOps3_W | 7 => [main_v107_0, main_v107_1] | 8 => hostOps4_W | 9 => [main_v116]
  | 10 => hostOps5_W | 11 => [main_v120] | 12 => hostOps6_W | 13 => [main_v124] | _ => []

theorem step (r : Ref sig .tc) : ∀ j, r ∉ Ws j → Bs m ρ c (j + 1) r = Bs m ρ c j r
  | 0, h => B1_of m ρ c r h | 1, h => B2_keep m ρ c r h | 2, h => B3_of m ρ c r h | 3, h => B4_keep m ρ c r h
  | 4, h => B5_of m ρ c r h | 5, h => B6_keep m ρ c r h | 6, h => B7_of m ρ c r h | 7, h => B8_keep m ρ c r h
  | 8, h => B9_of m ρ c r h | 9, h => B10_keep m ρ c r h | 10, h => B11_of m ρ c r h | 11, h => B12_keep m ρ c r h
  | 12, h => B13_of m ρ c r h | 13, h => B14_keep m ρ c r h | _ + 14, _ => rfl

-- If none of the `n` segments after boundary `i` writes `r`, then `r` holds at boundary `i + n` what it held at boundary `i`.
theorem carry (r : Ref sig .tc) (i : ℕ) : ∀ n, (∀ k < n, r ∉ Ws (i + k)) → Bs m ρ c (i + n) r = Bs m ρ c i r
  | 0, _ => rfl
  | n + 1, h => (step m ρ c r (i + n) (h n n.lt_succ_self)).trans (carry r i n fun k hk => h k (hk.trans n.lt_succ_self))

-- The initial contents of `r`.
abbrev X (r : Ref sig .tc) := m ((c : Thread nD τ).loc r)

theorem arg (r : Ref sig .tc) (n : ℕ) (h : ∀ k < n, r ∉ Ws (0 + k)) : Bs m ρ c (0 + n) r = X m c r := carry m ρ c r 0 n h

-- The reference's embedding and its three layers, of the initial contents.
abbrev H0 := val_main_v7 (F := Ideal) (X m c main_arg0) (X m c main_arg4) (X m c main_arg5)
abbrev H1 := val_main_v59 (F := Ideal) (X m c main_arg0) (X m c main_arg2) (X m c main_arg4) (X m c main_arg5) (X m c main_arg6) (X m c main_arg7) (X m c main_arg8) (X m c main_arg9) (X m c main_arg10) (X m c main_arg11) (X m c main_arg12) (X m c main_arg13)
abbrev H2 := val_main_v111 (F := Ideal) (X m c main_arg0) (X m c main_arg2) (X m c main_arg4) (X m c main_arg5) (X m c main_arg6) (X m c main_arg7) (X m c main_arg8) (X m c main_arg9) (X m c main_arg10) (X m c main_arg11) (X m c main_arg12) (X m c main_arg13)
abbrev H3 := val_main_v163 (F := Ideal) (X m c main_arg0) (X m c main_arg2) (X m c main_arg4) (X m c main_arg5) (X m c main_arg6) (X m c main_arg7) (X m c main_arg8) (X m c main_arg9) (X m c main_arg10) (X m c main_arg11) (X m c main_arg12) (X m c main_arg13)

theorem seg1 : B1 m ρ c main_v1 = val_main_v1 (F := Ideal) (X m c main_arg2) ∧ B1 m ρ c main_v3 = val_main_v3 (F := Ideal) (X m c main_arg2)
    ∧ B1 m ρ c main_v4 = rowv (X m c main_arg5) :=
  stretch0 (B0 m ρ c) _ _ rfl rfl

theorem emb : B2 m ρ c main_v5_0 = H0 m c ∧ B2 m ρ c main_v5_1 = H0 m c := by
  have s : embSpec (B1 m ρ c main_arg0) (B1 m ρ c main_arg4) (B1 m ρ c main_v4) = H0 m c :=
    (congr (congrArg₂ embSpec (arg m ρ c main_arg0 1 (by decide)) (arg m ρ c main_arg4 1 (by decide))) (seg1 m ρ c).2.2).trans (ref_emb _ _ _).symm
  exact ⟨(B2_arr m ρ c 3).trans ((emb_val3 (R1 m ρ) c).trans s), (B2_arr m ρ c 4).trans ((emb_val4 (R1 m ρ) c).trans s)⟩

theorem gin1 : B4 m ρ c main_v39_0 = H1 m c := by
  obtain ⟨a, b, d, e, f, g, h, i, j⟩ := stretch1 (B2 m ρ c) _ _ _ _ _ _ _ _ _ _ _ _ (emb m ρ c).2
    ((carry m ρ c main_v1 1 1 (by decide)).trans (seg1 m ρ c).1) ((carry m ρ c main_v3 1 1 (by decide)).trans (seg1 m ρ c).2.1)
    (arg m ρ c main_arg6 2 (by decide)) (arg m ρ c main_arg7 2 (by decide)) (arg m ρ c main_arg8 2 (by decide)) (arg m ρ c main_arg9 2 (by decide))
    (arg m ρ c main_arg10 2 (by decide)) (arg m ρ c main_arg11 2 (by decide)) (arg m ρ c main_arg12 2 (by decide)) (arg m ρ c main_arg13 2 (by decide))
  exact (B4_arr m ρ c 10).trans ((gin_val1_10 (R3 m ρ) c).trans ((congr (congr (congr (congr (congr (congr (congr (congr (congrArg₂ ginSpec
    ((carry m ρ c main_v5_0 2 1 (by decide)).trans (emb m ρ c).1) a) b) e) f) g) h) i) d) j).trans (ref_gin1 _ _ _ _ _ _ _ _ _ _ _ _).symm))

-- Both outputs of a layer are the same function of its inputs.
theorem gin1' : B4 m ρ c main_v39_1 = H1 m c :=
  (B4_arr m ρ c 11).trans ((gin_val1_11 (R3 m ρ) c).trans (((B4_arr m ρ c 10).trans (gin_val1_10 (R3 m ρ) c)).symm.trans (gin1 m ρ c)))

theorem gin2 : B6 m ρ c main_v73_0 = H2 m c := by
  obtain ⟨a, b, d, e, f, g, h, i, j⟩ := stretch2 (B4 m ρ c) _ _ _ _ _ _ _ _ _ _ _ _ (gin1' m ρ c)
    ((carry m ρ c main_v1 1 3 (by decide)).trans (seg1 m ρ c).1) ((carry m ρ c main_v3 1 3 (by decide)).trans (seg1 m ρ c).2.1)
    (arg m ρ c main_arg6 4 (by decide)) (arg m ρ c main_arg7 4 (by decide)) (arg m ρ c main_arg8 4 (by decide)) (arg m ρ c main_arg9 4 (by decide))
    (arg m ρ c main_arg10 4 (by decide)) (arg m ρ c main_arg11 4 (by decide)) (arg m ρ c main_arg12 4 (by decide)) (arg m ρ c main_arg13 4 (by decide))
  exact (B6_arr m ρ c 10).trans ((gin_val2_10 (R5 m ρ) c).trans ((congr (congr (congr (congr (congr (congr (congr (congr (congrArg₂ ginSpec
    ((carry m ρ c main_v39_0 4 1 (by decide)).trans (gin1 m ρ c)) a) b) e) f) g) h) i) d) j).trans (ref_gin2 _ _ _ _ _ _ _ _ _ _ _ _).symm))

theorem gin2' : B6 m ρ c main_v73_1 = H2 m c :=
  (B6_arr m ρ c 11).trans ((gin_val2_11 (R5 m ρ) c).trans (((B6_arr m ρ c 10).trans (gin_val2_10 (R5 m ρ) c)).symm.trans (gin2 m ρ c)))

theorem gin3 : B8 m ρ c main_v107_0 = H3 m c := by
  obtain ⟨a, b, d, e, f, g, h, i, j⟩ := stretch3 (B6 m ρ c) _ _ _ _ _ _ _ _ _ _ _ _ (gin2' m ρ c)
    ((carry m ρ c main_v1 1 5 (by decide)).trans (seg1 m ρ c).1) ((carry m ρ c main_v3 1 5 (by decide)).trans (seg1 m ρ c).2.1)
    (arg m ρ c main_arg6 6 (by decide)) (arg m ρ c main_arg7 6 (by decide)) (arg m ρ c main_arg8 6 (by decide)) (arg m ρ c main_arg9 6 (by decide))
    (arg m ρ c main_arg10 6 (by decide)) (arg m ρ c main_arg11 6 (by decide)) (arg m ρ c main_arg12 6 (by decide)) (arg m ρ c main_arg13 6 (by decide))
  exact (B8_arr m ρ c 10).trans ((gin_val3_10 (R7 m ρ) c).trans ((congr (congr (congr (congr (congr (congr (congr (congr (congrArg₂ ginSpec
    ((carry m ρ c main_v73_0 6 1 (by decide)).trans (gin2 m ρ c)) a) b) e) f) g) h) i) d) j).trans (ref_gin3 _ _ _ _ _ _ _ _ _ _ _ _).symm))

end Cert.KernelIdeal.Val

end
-- ==== Proof.Val.PoolVal4.lean ====
import proofs.«405256_j52991306498534_2_alg».proof.Proof.KI.Reg4
import proofs.«405256_j52991306498534_2_alg».proof.Proof.Val.Spec
import proofs.«405256_j52991306498534_2_alg».proof.Proof.Val.PoolMath
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx
open Idealize.SL.Sem
open Idealize.ShloMosaic.Pipeline (Dat Cfg Window)

theorem pool_idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ t.val < 20 :=
  (by decide +kernel : ∀ t : Fin grid4.N, _)

variable (V : (c : Dev nD) → (b : Ref sig .tc) → Buf (Elt Ideal) ((c : Thread nD τ).loc b))

-- The id block and the feature block at point n are rows 5000 n … 5000 n + 4999 of their arrays, so the last accumulator is the segment sum.
theorem pool_acc4 (c : Dev nD) :
    acc4 (F := Ideal) V c 19 (by decide) = poolSpec (V c (Pipeline.arrRef spec4 0)) (V c (Pipeline.arrRef spec4 1)) := by
  refine PoolMath.pool_fold _ _ (fun n hn => acc4 (F := Ideal) V c n hn) (fun n hn => iblk4 (F := Ideal) V c 0 ⟨n, hn⟩)
    (fun n hn => iblk4 (F := Ideal) V c 1 ⟨n, hn⟩) (fun n hn r => ?_) (fun n hn r d => ?_) (acc4_zero V c _) (fun n hn => acc4_succ V c n hn)
  all_goals obtain ⟨e00, e01, e10, e11, -⟩ := pool_idx_facts4 ⟨n, hn⟩
  · refine congrArg (V c (Pipeline.arrRef spec4 0)) (Shape.idx_ext₂ ?_ ?_)
    · show win4_0.index ⟨n, hn⟩ (0 : Fin 2) * 5000 + 1 * r.val = 5000 * n + r.val; rw [e00]; show n * 5000 + 1 * r.val = _; omega
    · show win4_0.index ⟨n, hn⟩ (1 : Fin 2) * 1 + 1 * 0 = 0; omega
  · refine congrArg (V c (Pipeline.arrRef spec4 1)) (Shape.idx_ext₂ ?_ ?_)
    · show win4_1.index ⟨n, hn⟩ (0 : Fin 2) * 5000 + 1 * r.val = 5000 * n + r.val; rw [e10]; show n * 5000 + 1 * r.val = _; omega
    · show win4_1.index ⟨n, hn⟩ (1 : Fin 2) * 128 + 1 * d.val = d.val; omega

-- The output array is the accumulator after the last point, index for index.
theorem pool_val4 (c : Dev nD) :
    (dat4 (F := Ideal) V c).arrAt 2 cfg4.N = poolSpec (V c (Pipeline.arrRef spec4 0)) (V c (Pipeline.arrRef spec4 1)) := by
  refine (dat4 V c).arrAt_eq_of_cover 2 _ (fun t hf => ?_) (fun i => ?_)
  · obtain ⟨-, -, -, -, e20, e21, ht⟩ := pool_idx_facts4 t
    have h19 : t.val = 19 := by have := (flush4_2 t).1 hf; omega
    show (cfg4.win 2).cut (grid4.coords t) ((dat4 V c).after 2 t) = _
    rw [after4_2]
    obtain ⟨n, hn⟩ := t
    obtain rfl : n = 19 := h19
    rw [pool_acc4]
    funext j
    rw [View.read_apply]
    show poolSpec (V c (Pipeline.arrRef spec4 0)) (V c (Pipeline.arrRef spec4 1)) j = _
    refine congrArg (poolSpec (V c (Pipeline.arrRef spec4 0)) (V c (Pipeline.arrRef spec4 1))) (Shape.idx_ext₂ ?_ ?_)
    · show (j 0).val = win4_2.index ⟨19, hn⟩ (0 : Fin 2) * 64 + 1 * (j 0).val; omega
    · show (j 1).val = win4_2.index ⟨19, hn⟩ (1 : Fin 2) * 128 + 1 * (j 1).val; omega
  · have hi0 : (i 0).val < 64 := (i 0).isLt
    have hi1 : (i 1).val < 128 := (i 1).isLt
    obtain ⟨t, htv⟩ : ∃ t : Fin cfg4.N, t.val = 19 := ⟨⟨19, by decide⟩, rfl⟩
    obtain ⟨-, -, -, -, e20, e21, -⟩ := pool_idx_facts4 t
    refine ⟨t, (flush4_2 t).2 (by omega), ?_⟩
    show i ∈ ((View.whole (Pipeline.arrRef spec4 2)).slice (win4_2.rect t)).set
    rw [View.set_slice_whole, Rect.mem_set_unit]
    intro a
    match a with
    | ⟨0, _⟩ => show win4_2.index t (0 : Fin 2) * 64 ≤ (i 0).val ∧ (i 0).val < win4_2.index t (0 : Fin 2) * 64 + 64; omega
    | ⟨1, _⟩ => show win4_2.index t (1 : Fin 2) * 128 ≤ (i 1).val ∧ (i 1).val < win4_2.index t (1 : Fin 2) * 128 + 128; omega

end Cert.KernelIdeal.Val

end
-- ==== Proof.Val.PoolVal5.lean ====
import proofs.«405256_j52991306498534_2_alg».proof.Proof.KI.Reg5
import proofs.«405256_j52991306498534_2_alg».proof.Proof.Val.Spec
import proofs.«405256_j52991306498534_2_alg».proof.Proof.Val.PoolMath
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx
open Idealize.SL.Sem
open Idealize.ShloMosaic.Pipeline (Dat Cfg Window)

theorem pool_idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ t.val < 20 :=
  (by decide +kernel : ∀ t : Fin grid5.N, _)

variable (V : (c : Dev nD) → (b : Ref sig .tc) → Buf (Elt Ideal) ((c : Thread nD τ).loc b))

-- The id block and the feature block at point n are rows 5000 n … 5000 n + 4999 of their arrays, so the last accumulator is the segment sum.
theorem pool_acc5 (c : Dev nD) :
    acc5 (F := Ideal) V c 19 (by decide) = poolSpec (V c (Pipeline.arrRef spec5 0)) (V c (Pipeline.arrRef spec5 1)) := by
  refine PoolMath.pool_fold _ _ (fun n hn => acc5 (F := Ideal) V c n hn) (fun n hn => iblk5 (F := Ideal) V c 0 ⟨n, hn⟩)
    (fun n hn => iblk5 (F := Ideal) V c 1 ⟨n, hn⟩) (fun n hn r => ?_) (fun n hn r d => ?_) (acc5_zero V c _) (fun n hn => acc5_succ V c n hn)
  all_goals obtain ⟨e00, e01, e10, e11, -⟩ := pool_idx_facts5 ⟨n, hn⟩
  · refine congrArg (V c (Pipeline.arrRef spec5 0)) (Shape.idx_ext₂ ?_ ?_)
    · show win5_0.index ⟨n, hn⟩ (0 : Fin 2) * 5000 + 1 * r.val = 5000 * n + r.val; rw [e00]; show n * 5000 + 1 * r.val = _; omega
    · show win5_0.index ⟨n, hn⟩ (1 : Fin 2) * 1 + 1 * 0 = 0; omega
  · refine congrArg (V c (Pipeline.arrRef spec5 1)) (Shape.idx_ext₂ ?_ ?_)
    · show win5_1.index ⟨n, hn⟩ (0 : Fin 2) * 5000 + 1 * r.val = 5000 * n + r.val; rw [e10]; show n * 5000 + 1 * r.val = _; omega
    · show win5_1.index ⟨n, hn⟩ (1 : Fin 2) * 128 + 1 * d.val = d.val; omega

-- The output array is the accumulator after the last point, index for index.
theorem pool_val5 (c : Dev nD) :
    (dat5 (F := Ideal) V c).arrAt 2 cfg5.N = poolSpec (V c (Pipeline.arrRef spec5 0)) (V c (Pipeline.arrRef spec5 1)) := by
  refine (dat5 V c).arrAt_eq_of_cover 2 _ (fun t hf => ?_) (fun i => ?_)
  · obtain ⟨-, -, -, -, e20, e21, ht⟩ := pool_idx_facts5 t
    have h19 : t.val = 19 := by have := (flush5_2 t).1 hf; omega
    show (cfg5.win 2).cut (grid5.coords t) ((dat5 V c).after 2 t) = _
    rw [after5_2]
    obtain ⟨n, hn⟩ := t
    obtain rfl : n = 19 := h19
    rw [pool_acc5]
    funext j
    rw [View.read_apply]
    show poolSpec (V c (Pipeline.arrRef spec5 0)) (V c (Pipeline.arrRef spec5 1)) j = _
    refine congrArg (poolSpec (V c (Pipeline.arrRef spec5 0)) (V c (Pipeline.arrRef spec5 1))) (Shape.idx_ext₂ ?_ ?_)
    · show (j 0).val = win5_2.index ⟨19, hn⟩ (0 : Fin 2) * 64 + 1 * (j 0).val; omega
    · show (j 1).val = win5_2.index ⟨19, hn⟩ (1 : Fin 2) * 128 + 1 * (j 1).val; omega
  · have hi0 : (i 0).val < 64 := (i 0).isLt
    have hi1 : (i 1).val < 128 := (i 1).isLt
    obtain ⟨t, htv⟩ : ∃ t : Fin cfg5.N, t.val = 19 := ⟨⟨19, by decide⟩, rfl⟩
    obtain ⟨-, -, -, -, e20, e21, -⟩ := pool_idx_facts5 t
    refine ⟨t, (flush5_2 t).2 (by omega), ?_⟩
    show i ∈ ((View.whole (Pipeline.arrRef spec5 2)).slice (win5_2.rect t)).set
    rw [View.set_slice_whole, Rect.mem_set_unit]
    intro a
    match a with
    | ⟨0, _⟩ => show win5_2.index t (0 : Fin 2) * 64 ≤ (i 0).val ∧ (i 0).val < win5_2.index t (0 : Fin 2) * 64 + 64; omega
    | ⟨1, _⟩ => show win5_2.index t (1 : Fin 2) * 128 ≤ (i 1).val ∧ (i 1).val < win5_2.index t (1 : Fin 2) * 128 + 128; omega

end Cert.KernelIdeal.Val

end
-- ==== Proof.Val.PoolVal6.lean ====
import proofs.«405256_j52991306498534_2_alg».proof.Proof.KI.Reg6
import proofs.«405256_j52991306498534_2_alg».proof.Proof.Val.Spec
import proofs.«405256_j52991306498534_2_alg».proof.Proof.Val.PoolMath
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx
open Idealize.SL.Sem
open Idealize.ShloMosaic.Pipeline (Dat Cfg Window)

theorem pool_idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ t.val < 20 :=
  (by decide +kernel : ∀ t : Fin grid6.N, _)

variable (V : (c : Dev nD) → (b : Ref sig .tc) → Buf (Elt Ideal) ((c : Thread nD τ).loc b))

-- The id block and the feature block at point n are rows 5000 n … 5000 n + 4999 of their arrays, so the last accumulator is the segment sum.
theorem pool_acc6 (c : Dev nD) :
    acc6 (F := Ideal) V c 19 (by decide) = poolSpec (V c (Pipeline.arrRef spec6 0)) (V c (Pipeline.arrRef spec6 1)) := by
  refine PoolMath.pool_fold _ _ (fun n hn => acc6 (F := Ideal) V c n hn) (fun n hn => iblk6 (F := Ideal) V c 0 ⟨n, hn⟩)
    (fun n hn => iblk6 (F := Ideal) V c 1 ⟨n, hn⟩) (fun n hn r => ?_) (fun n hn r d => ?_) (acc6_zero V c _) (fun n hn => acc6_succ V c n hn)
  all_goals obtain ⟨e00, e01, e10, e11, -⟩ := pool_idx_facts6 ⟨n, hn⟩
  · refine congrArg (V c (Pipeline.arrRef spec6 0)) (Shape.idx_ext₂ ?_ ?_)
    · show win6_0.index ⟨n, hn⟩ (0 : Fin 2) * 5000 + 1 * r.val = 5000 * n + r.val; rw [e00]; show n * 5000 + 1 * r.val = _; omega
    · show win6_0.index ⟨n, hn⟩ (1 : Fin 2) * 1 + 1 * 0 = 0; omega
  · refine congrArg (V c (Pipeline.arrRef spec6 1)) (Shape.idx_ext₂ ?_ ?_)
    · show win6_1.index ⟨n, hn⟩ (0 : Fin 2) * 5000 + 1 * r.val = 5000 * n + r.val; rw [e10]; show n * 5000 + 1 * r.val = _; omega
    · show win6_1.index ⟨n, hn⟩ (1 : Fin 2) * 128 + 1 * d.val = d.val; omega

-- The output array is the accumulator after the last point, index for index.
theorem pool_val6 (c : Dev nD) :
    (dat6 (F := Ideal) V c).arrAt 2 cfg6.N = poolSpec (V c (Pipeline.arrRef spec6 0)) (V c (Pipeline.arrRef spec6 1)) := by
  refine (dat6 V c).arrAt_eq_of_cover 2 _ (fun t hf => ?_) (fun i => ?_)
  · obtain ⟨-, -, -, -, e20, e21, ht⟩ := pool_idx_facts6 t
    have h19 : t.val = 19 := by have := (flush6_2 t).1 hf; omega
    show (cfg6.win 2).cut (grid6.coords t) ((dat6 V c).after 2 t) = _
    rw [after6_2]
    obtain ⟨n, hn⟩ := t
    obtain rfl : n = 19 := h19
    rw [pool_acc6]
    funext j
    rw [View.read_apply]
    show poolSpec (V c (Pipeline.arrRef spec6 0)) (V c (Pipeline.arrRef spec6 1)) j = _
    refine congrArg (poolSpec (V c (Pipeline.arrRef spec6 0)) (V c (Pipeline.arrRef spec6 1))) (Shape.idx_ext₂ ?_ ?_)
    · show (j 0).val = win6_2.index ⟨19, hn⟩ (0 : Fin 2) * 64 + 1 * (j 0).val; omega
    · show (j 1).val = win6_2.index ⟨19, hn⟩ (1 : Fin 2) * 128 + 1 * (j 1).val; omega
  · have hi0 : (i 0).val < 64 := (i 0).isLt
    have hi1 : (i 1).val < 128 := (i 1).isLt
    obtain ⟨t, htv⟩ : ∃ t : Fin cfg6.N, t.val = 19 := ⟨⟨19, by decide⟩, rfl⟩
    obtain ⟨-, -, -, -, e20, e21, -⟩ := pool_idx_facts6 t
    refine ⟨t, (flush6_2 t).2 (by omega), ?_⟩
    show i ∈ ((View.whole (Pipeline.arrRef spec6 2)).slice (win6_2.rect t)).set
    rw [View.set_slice_whole, Rect.mem_set_unit]
    intro a
    match a with
    | ⟨0, _⟩ => show win6_2.index t (0 : Fin 2) * 64 ≤ (i 0).val ∧ (i 0).val < win6_2.index t (0 : Fin 2) * 64 + 64; omega
    | ⟨1, _⟩ => show win6_2.index t (1 : Fin 2) * 128 ≤ (i 1).val ∧ (i 1).val < win6_2.index t (1 : Fin 2) * 128 + 128; omega

end Cert.KernelIdeal.Val

end
-- ==== Proof.Val.HostBridge2.lean ====
import proofs.«405256_j52991306498534_2_alg».proof.Proof.Gen.KernelIdeal.Launch
import proofs.«405256_j52991306498534_2_alg».proof.Proof.Ref.ReadP
import Idealize.ShloMosaic.Lib.StableHlo.Run
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.ShloMosaic.StableHlo
open Cert.ReferenceIdeal

theorem tail_scatter_count_eq : scatter_S64_S100000x1_S100000_n_0_0_1 = Cert.ReferenceIdeal.scatter_S64_S100000x1_S100000_n_0_0_1 := rfl
theorem tail_dot1_eq : dot_S64x384_S384x384_S64x384_1_0_0_1_n_n = Cert.ReferenceIdeal.dot_S64x384_S384x384_S64x384_1_0_0_1_n_n := rfl
theorem tail_dot2_eq : dot_S64x384_S384x7_S64x7_1_0_0_1_n_n = Cert.ReferenceIdeal.dot_S64x384_S384x7_S64x7_1_0_0_1_n_n := rfl

theorem tail_nary3_result {x a b y : Ref sig .tc}
    (f : ((k : Fin 3) → ((![x, a, b] : Fin 3 → Ref sig .tc) k).ty.Contents (Elt Ideal)) → y.ty.Contents (Elt Ideal)) (hxs hy)
    (G : Valuation τ sig (Elt Ideal)) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

macro "after_results_tail3" : tactic =>
  `(tactic| (simp only [StableHlo.after_cons, StableHlo.after_nil]
             repeat (first
               | rw [StableHlo.nullary_result] | rw [StableHlo.unary_result] | rw [StableHlo.binary_result] | rw [tail_nary3_result]
               | (rw [StableHlo.nullary_result_ne]; rotate_left; decide)
               | (rw [StableHlo.unary_result_ne]; rotate_left; decide)
               | (rw [StableHlo.binary_result_ne]; rotate_left; decide)
               | (rw [StableHlo.nary_result_ne]; rotate_left; decide))))

variable (W : Valuation τ sig (Elt Ideal))
  (x0 : (⟨S100000x64, .f32⟩ : BufTy).Contents (Elt Ideal)) (x2 : (⟨S2x1600000, .i32⟩ : BufTy).Contents (Elt Ideal))
  (x3 : (⟨S100000, .i32⟩ : BufTy).Contents (Elt Ideal)) (x4 : (⟨S64x128, .f32⟩ : BufTy).Contents (Elt Ideal)) (x5 : (⟨S128, .f32⟩ : BufTy).Contents (Elt Ideal))
  (x6 : (⟨S3x128x128, .f32⟩ : BufTy).Contents (Elt Ideal)) (x7 x8 x9 x10 x11 : (⟨S3x128, .f32⟩ : BufTy).Contents (Elt Ideal))
  (x12 : (⟨S3x128x128, .f32⟩ : BufTy).Contents (Elt Ideal)) (x13 : (⟨S3x128, .f32⟩ : BufTy).Contents (Elt Ideal))
  (x14 : (⟨S384x384, .f32⟩ : BufTy).Contents (Elt Ideal)) (x15 : (⟨S384, .f32⟩ : BufTy).Contents (Elt Ideal))
  (x16 : (⟨S384x7, .f32⟩ : BufTy).Contents (Elt Ideal)) (x17 : (⟨S7, .f32⟩ : BufTy).Contents (Elt Ideal))

-- Row n of the ids reshaped to a column is id n, which is what the reference's broadcast reads there.
theorem ids_col : shapeCast S100000x1 x3 shapeCasts_S100000_S100000x1 = ReadP.val_main_v172 (F := Ideal) x3 := by
  funext i
  rw [ReadP.val_main_v172_apply]
  refine shapeCast_apply x3 shapeCasts_S100000_S100000x1 i _ ?_
  rw [Shape.rowMajor_val_one, Shape.rowMajor_val_two]
  have h1 : (i 1).val < 1 := (i 1).isLt
  show (i 0).val = (i 0).val * 1 + (i 1).val
  omega

theorem stretch4 (h3 : W main_arg3 = x3) :
    StableHlo.after (hostOps4 (F := Ideal)) W main_v114 = ReadP.val_main_v170 (F := Ideal) x3
    ∧ StableHlo.after (hostOps4 (F := Ideal)) W main_v115 = ReadP.val_main_v172 (F := Ideal) x3 := by
  subst h3
  constructor <;> after_results
  · rw [tail_scatter_count_eq]; rfl
  · exact ids_col _

theorem stretch5 (h116 : W main_v116 = ReadP.val_main_v173 (F := Ideal) x0 x2 x3 x4 x5 x6 x7 x8 x9 x10 x11 x12 x13)
    (h114 : W main_v114 = ReadP.val_main_v170 (F := Ideal) x3) (h3 : W main_arg3 = x3) :
    StableHlo.after (hostOps5 (F := Ideal)) W main_v118 = ReadP.val_main_v175 (F := Ideal) x0 x2 x3 x4 x5 x6 x7 x8 x9 x10 x11 x12 x13
    ∧ StableHlo.after (hostOps5 (F := Ideal)) W main_v119 = ReadP.val_main_v177 (F := Ideal) x3 := by
  subst h3
  constructor <;> after_results
  · rw [h116, h114]; rfl
  · exact ids_col _

theorem stretch6 (h120 : W main_v120 = ReadP.val_main_v178 (F := Ideal) x0 x2 x3 x4 x5 x6 x7 x8 x9 x10 x11 x12 x13)
    (h114 : W main_v114 = ReadP.val_main_v170 (F := Ideal) x3) (h3 : W main_arg3 = x3) :
    StableHlo.after (hostOps6 (F := Ideal)) W main_v122 = ReadP.val_main_v180 (F := Ideal) x0 x2 x3 x4 x5 x6 x7 x8 x9 x10 x11 x12 x13
    ∧ StableHlo.after (hostOps6 (F := Ideal)) W main_v123 = ReadP.val_main_v182 (F := Ideal) x3 := by
  subst h3
  constructor <;> after_results
  · rw [h120, h114]; rfl
  · exact ids_col _

theorem stretch7 (h118 : W main_v118 = ReadP.val_main_v175 (F := Ideal) x0 x2 x3 x4 x5 x6 x7 x8 x9 x10 x11 x12 x13)
    (h122 : W main_v122 = ReadP.val_main_v180 (F := Ideal) x0 x2 x3 x4 x5 x6 x7 x8 x9 x10 x11 x12 x13)
    (h124 : W main_v124 = ReadP.val_main_v183 (F := Ideal) x0 x2 x3 x4 x5 x6 x7 x8 x9 x10 x11 x12 x13)
    (h114 : W main_v114 = ReadP.val_main_v170 (F := Ideal) x3)
    (h14 : W main_arg14 = x14) (h15 : W main_arg15 = x15) :
    StableHlo.after (hostOps7 (F := Ideal)) W main_v127 = ReadP.val_main_v186 (F := Ideal) x0 x2 x3 x4 x5 x6 x7 x8 x9 x10 x11 x12 x13
    ∧ StableHlo.after (hostOps7 (F := Ideal)) W main_v131 = ReadP.val_main_v190 (F := Ideal) x0 x2 x3 x4 x5 x6 x7 x8 x9 x10 x11 x12 x13 x14 x15 := by
  subst h14 h15
  constructor <;> after_results_tail3 <;> rw [h118, h122, h124, h114]
  · rfl
  · rw [tail_dot1_eq]; rfl

theorem stretch7_1 (h131 : W main_v131 = ReadP.val_main_v190 (F := Ideal) x0 x2 x3 x4 x5 x6 x7 x8 x9 x10 x11 x12 x13 x14 x15) :
    StableHlo.after (hostOps7_1 (F := Ideal)) W main_v132 = ReadP.val_main_v191 (F := Ideal) x0 x2 x3 x4 x5 x6 x7 x8 x9 x10 x11 x12 x13 x14 x15 := by
  after_results
  dsimp only [TRef.of, TRef.toBuf, TRef.ofBuf]
  simp only [cast_eq]
  rw [h131]
  rfl

theorem stretch7_2 (h132 : W main_v132 = ReadP.val_main_v191 (F := Ideal) x0 x2 x3 x4 x5 x6 x7 x8 x9 x10 x11 x12 x13 x14 x15)
    (h16 : W main_arg16 = x16) (h17 : W main_arg17 = x17) :
    StableHlo.after (hostOps7_2 (F := Ideal)) W main_v136 = ReadP.val_main_v195 (F := Ideal) x0 x2 x3 x4 x5 x6 x7 x8 x9 x10 x11 x12 x13 x14 x15 x16 x17 := by
  after_results
  rw [h132, h16, h17, tail_dot2_eq]
  rfl

theorem keep7_arg16 : StableHlo.after (hostOps7 (F := Ideal)) W main_arg16 = W main_arg16 := by after_results
theorem keep7_arg17 : StableHlo.after (hostOps7 (F := Ideal)) W main_arg17 = W main_arg17 := by after_results
theorem keep7_1_arg16 : StableHlo.after (hostOps7_1 (F := Ideal)) W main_arg16 = W main_arg16 := by after_results
theorem keep7_1_arg17 : StableHlo.after (hostOps7_1 (F := Ideal)) W main_arg17 = W main_arg17 := by after_results
theorem keep7_1_v127 : StableHlo.after (hostOps7_1 (F := Ideal)) W main_v127 = W main_v127 := by after_results
theorem keep7_2_v127 : StableHlo.after (hostOps7_2 (F := Ideal)) W main_v127 = W main_v127 := by after_results

theorem stretch7_all (h118 : W main_v118 = ReadP.val_main_v175 (F := Ideal) x0 x2 x3 x4 x5 x6 x7 x8 x9 x10 x11 x12 x13)
    (h122 : W main_v122 = ReadP.val_main_v180 (F := Ideal) x0 x2 x3 x4 x5 x6 x7 x8 x9 x10 x11 x12 x13)
    (h124 : W main_v124 = ReadP.val_main_v183 (F := Ideal) x0 x2 x3 x4 x5 x6 x7 x8 x9 x10 x11 x12 x13)
    (h114 : W main_v114 = ReadP.val_main_v170 (F := Ideal) x3)
    (h14 : W main_arg14 = x14) (h15 : W main_arg15 = x15) (h16 : W main_arg16 = x16) (h17 : W main_arg17 = x17) :
    StableHlo.after (hostOps7_2 (F := Ideal)) (StableHlo.after (hostOps7_1 (F := Ideal)) (StableHlo.after (hostOps7 (F := Ideal)) W)) main_v127
        = ReadP.val_main_v186 (F := Ideal) x0 x2 x3 x4 x5 x6 x7 x8 x9 x10 x11 x12 x13
    ∧ StableHlo.after (hostOps7_2 (F := Ideal)) (StableHlo.after (hostOps7_1 (F := Ideal)) (StableHlo.after (hostOps7 (F := Ideal)) W)) main_v136
        = ReadP.val_main_v195 (F := Ideal) x0 x2 x3 x4 x5 x6 x7 x8 x9 x10 x11 x12 x13 x14 x15 x16 x17 := by
  obtain ⟨e127, e131⟩ := stretch7 W x0 x2 x3 x4 x5 x6 x7 x8 x9 x10 x11 x12 x13 x14 x15 h118 h122 h124 h114 h14 h15
  exact ⟨by rw [keep7_2_v127, keep7_1_v127]; exact e127,
    stretch7_2 _ x0 x2 x3 x4 x5 x6 x7 x8 x9 x10 x11 x12 x13 x14 x15 x16 x17 (stretch7_1 _ x0 x2 x3 x4 x5 x6 x7 x8 x9 x10 x11 x12 x13 x14 x15 e131)
      ((keep7_1_arg16 _).trans ((keep7_arg16 W).trans h16)) ((keep7_1_arg17 _).trans ((keep7_arg17 W).trans h17))⟩

end Cert.KernelIdeal.Val

end
-- ==== Proof.Val.Chain2.lean ====
import proofs.«405256_j52991306498534_2_alg».proof.Proof.Val.Chain1
import proofs.«405256_j52991306498534_2_alg».proof.Proof.Val.PoolVal4
import proofs.«405256_j52991306498534_2_alg».proof.Proof.Val.PoolVal5
import proofs.«405256_j52991306498534_2_alg».proof.Proof.Val.PoolVal6
import proofs.«405256_j52991306498534_2_alg».proof.Proof.Val.HostBridge2

noncomputable section

namespace Cert.KernelIdeal.Val

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (ρ : Dev nD → PrngReg) (c : Dev nD)

set_option quotPrecheck false

local notation "X0" => m ((c : Thread nD τ).loc main_arg0)
local notation "X2" => m ((c : Thread nD τ).loc main_arg2)
local notation "X3" => m ((c : Thread nD τ).loc main_arg3)
local notation "X4" => m ((c : Thread nD τ).loc main_arg4)
local notation "X5" => m ((c : Thread nD τ).loc main_arg5)
local notation "X6" => m ((c : Thread nD τ).loc main_arg6)
local notation "X7" => m ((c : Thread nD τ).loc main_arg7)
local notation "X8" => m ((c : Thread nD τ).loc main_arg8)
local notation "X9" => m ((c : Thread nD τ).loc main_arg9)
local notation "X10" => m ((c : Thread nD τ).loc main_arg10)
local notation "X11" => m ((c : Thread nD τ).loc main_arg11)
local notation "X12" => m ((c : Thread nD τ).loc main_arg12)
local notation "X13" => m ((c : Thread nD τ).loc main_arg13)
local notation "X14" => m ((c : Thread nD τ).loc main_arg14)
local notation "X15" => m ((c : Thread nD τ).loc main_arg15)
local notation "X16" => m ((c : Thread nD τ).loc main_arg16)
local notation "X17" => m ((c : Thread nD τ).loc main_arg17)
local notation "DEN" => Cert.ReferenceIdeal.ReadP.val_main_v170 (F := Ideal) X3
local notation "I1" => Cert.ReferenceIdeal.ReadP.val_main_v172 (F := Ideal) X3
local notation "I2" => Cert.ReferenceIdeal.ReadP.val_main_v177 (F := Ideal) X3
local notation "I3" => Cert.ReferenceIdeal.ReadP.val_main_v182 (F := Ideal) X3
local notation "P1" => Cert.ReferenceIdeal.ReadP.val_main_v173 (F := Ideal) X0 X2 X3 X4 X5 X6 X7 X8 X9 X10 X11 X12 X13
local notation "P2" => Cert.ReferenceIdeal.ReadP.val_main_v178 (F := Ideal) X0 X2 X3 X4 X5 X6 X7 X8 X9 X10 X11 X12 X13
local notation "P3" => Cert.ReferenceIdeal.ReadP.val_main_v183 (F := Ideal) X0 X2 X3 X4 X5 X6 X7 X8 X9 X10 X11 X12 X13
local notation "Q1" => Cert.ReferenceIdeal.ReadP.val_main_v175 (F := Ideal) X0 X2 X3 X4 X5 X6 X7 X8 X9 X10 X11 X12 X13
local notation "Q2" => Cert.ReferenceIdeal.ReadP.val_main_v180 (F := Ideal) X0 X2 X3 X4 X5 X6 X7 X8 X9 X10 X11 X12 X13

theorem den : B9 m ρ c main_v114 = DEN ∧ B9 m ρ c main_v115 = I1 :=
  stretch4 (B8 m ρ c) X3 (arg m ρ c main_arg3 8 (by decide))

-- A pooling region sums the rows it is given by the ids it is given; both are the reference's.
theorem pool1 : B10 m ρ c main_v116 = P1 :=
  (B10_arr m ρ c 2).trans ((pool_val4 (R9 m ρ) c).trans ((congrArg₂ Cert.Spec.poolSpec (den m ρ c).2
    ((carry m ρ c main_v39_0 4 5 (by decide)).trans (gin1 m ρ c))).trans (Cert.ReferenceIdeal.RefSpec.ref_pool1 X0 X2 X3 X4 X5 X6 X7 X8 X9 X10 X11 X12 X13).symm))

theorem mean1 : B11 m ρ c main_v118 = Q1 ∧ B11 m ρ c main_v119 = I2 :=
  stretch5 (B10 m ρ c) X0 X2 X3 X4 X5 X6 X7 X8 X9 X10 X11 X12 X13 (pool1 m ρ c) ((carry m ρ c main_v114 9 1 (by decide)).trans (den m ρ c).1) (arg m ρ c main_arg3 10 (by decide))

theorem pool2 : B12 m ρ c main_v120 = P2 :=
  (B12_arr m ρ c 2).trans ((pool_val5 (R11 m ρ) c).trans ((congrArg₂ Cert.Spec.poolSpec (mean1 m ρ c).2
    ((carry m ρ c main_v73_0 6 5 (by decide)).trans (gin2 m ρ c))).trans (Cert.ReferenceIdeal.RefSpec.ref_pool2 X0 X2 X3 X4 X5 X6 X7 X8 X9 X10 X11 X12 X13).symm))

theorem mean2 : B13 m ρ c main_v122 = Q2 ∧ B13 m ρ c main_v123 = I3 :=
  stretch6 (B12 m ρ c) X0 X2 X3 X4 X5 X6 X7 X8 X9 X10 X11 X12 X13 (pool2 m ρ c) ((carry m ρ c main_v114 9 3 (by decide)).trans (den m ρ c).1) (arg m ρ c main_arg3 12 (by decide))

theorem pool3 : B14 m ρ c main_v124 = P3 :=
  (B14_arr m ρ c 2).trans ((pool_val6 (R13 m ρ) c).trans ((congrArg₂ Cert.Spec.poolSpec (mean2 m ρ c).2
    ((carry m ρ c main_v107_0 8 5 (by decide)).trans (gin3 m ρ c))).trans (Cert.ReferenceIdeal.RefSpec.ref_pool3 X0 X2 X3 X4 X5 X6 X7 X8 X9 X10 X11 X12 X13).symm))

theorem results : B17 (F := Ideal) m ρ c (Proc.devRef .tc main_v127) = Cert.ReferenceIdeal.ReadP.val_main_v186 (F := Ideal) X0 X2 X3 X4 X5 X6 X7 X8 X9 X10 X11 X12 X13
    ∧ B17 (F := Ideal) m ρ c (Proc.devRef .tc main_v136) = Cert.ReferenceIdeal.ReadP.val_main_v195 (F := Ideal) X0 X2 X3 X4 X5 X6 X7 X8 X9 X10 X11 X12 X13 X14 X15 X16 X17 :=
  stretch7_all (B14 m ρ c) X0 X2 X3 X4 X5 X6 X7 X8 X9 X10 X11 X12 X13 X14 X15 X16 X17 ((carry m ρ c main_v118 11 3 (by decide)).trans (mean1 m ρ c).1)
    ((carry m ρ c main_v122 13 1 (by decide)).trans (mean2 m ρ c).1) (pool3 m ρ c) ((carry m ρ c main_v114 9 5 (by decide)).trans (den m ρ c).1)
    (arg m ρ c main_arg14 14 (by decide)) (arg m ρ c main_arg15 14 (by decide)) (arg m ρ c main_arg16 14 (by decide)) (arg m ρ c main_arg17 14 (by decide))

theorem result0 : B17 (F := Ideal) m ρ c (Proc.devRef .tc main_v127) = Cert.ReferenceIdeal.ReadP.val_main_v186 (F := Ideal) X0 X2 X3 X4 X5 X6 X7 X8 X9 X10 X11 X12 X13 :=
  (results m ρ c).1

theorem result1 : B17 (F := Ideal) m ρ c (Proc.devRef .tc main_v136) = Cert.ReferenceIdeal.ReadP.val_main_v195 (F := Ideal) X0 X2 X3 X4 X5 X6 X7 X8 X9 X10 X11 X12 X13 X14 X15 X16 X17 :=
  (results m ρ c).2

end Cert.KernelIdeal.Val

end
-- ==== Proof.Val.Claims.lean ====
import proofs.«405256_j52991306498534_2_alg».proof.Defs
import proofs.«405256_j52991306498534_2_alg».proof.Proof.Gen.Kernel
import proofs.«405256_j52991306498534_2_alg».proof.Proof.Gen.KernelIdeal
import proofs.«405256_j52991306498534_2_alg».proof.Proof.Gen.ReferenceIdeal
import proofs.«405256_j52991306498534_2_alg».proof.Proof.Gen.Pre_finite_inputs
import proofs.«405256_j52991306498534_2_alg».proof.Proof.K.Args
import proofs.«405256_j52991306498534_2_alg».proof.Proof.KI.Args
import proofs.«405256_j52991306498534_2_alg».proof.Proof.Ref.RefRun
import proofs.«405256_j52991306498534_2_alg».proof.Proof.Val.Chain2

noncomputable section

namespace Cert.Proof.Claims

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2.2) (Cert.ReferenceIdeal.RefRun.run (F := Ideal) m ρ)

theorem algebraic : Cert.algebraic_KernelIdeal_ReferenceIdeal := by
  intro m ρ m' ρ' _ hagree
  refine ⟨fun c => Cert.ReferenceIdeal.ReadP.val_main_v186 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.ReferenceIdeal.ReadP.val_main_v195 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · refine (θ_run Cert.KernelIdeal.defs _ _).mono (fun r h c => ?_) (Cert.KernelIdeal.Hand.run (F := Ideal) m ρ)
    exact ⟨(h c _ (Cert.KernelIdeal.Hand.mem_uc Cert.KernelIdeal.main_v127 (by decide))).trans (Cert.KernelIdeal.Val.result0 m ρ c),
      (h c _ (Cert.KernelIdeal.Hand.mem_uc Cert.KernelIdeal.main_v136 (by decide))).trans (Cert.KernelIdeal.Val.result1 m ρ c),
      Cert.KernelIdeal.Hand.args_kept m ρ c (h c)⟩
  · refine (θ_run Cert.ReferenceIdeal.defs _ _).mono (fun r h c => ?_) (Cert.ReferenceIdeal.RefRun.run (F := Ideal) m' ρ')
    obtain ⟨e0, e1, e2, e3, e4, e5, e6, e7, e8, e9, e10, e11, e12, e13, e14, e15, e16, e17⟩ := hagree c
    obtain ⟨h186, h195, hargs⟩ := h c
    refine ⟨h186.trans ?_, h195.trans ?_, hargs⟩
    · rw [e0, e2, e3, e4, e5, e6, e7, e8, e9, e10, e11, e12, e13]
    · rw [e0, e2, e3, e4, e5, e6, e7, e8, e9, e10, e11, e12, e13, e14, e15, e16, e17]

end Cert.Proof.Claims

end
-- ==== Proof.lean ====
import proofs.«405256_j52991306498534_2_alg».proof.Defs
import proofs.«405256_j52991306498534_2_alg».proof.Proof.Gen.Kernel
import proofs.«405256_j52991306498534_2_alg».proof.Proof.Gen.Kernel.Skeleton
import proofs.«405256_j52991306498534_2_alg».proof.Proof.Gen.Kernel.Launch
import proofs.«405256_j52991306498534_2_alg».proof.Proof.Gen.Kernel.Regions
import proofs.«405256_j52991306498534_2_alg».proof.Proof.Gen.Kernel.Points
import proofs.«405256_j52991306498534_2_alg».proof.Proof.Gen.KernelIdeal
import proofs.«405256_j52991306498534_2_alg».proof.Proof.Gen.KernelIdeal.Skeleton
import proofs.«405256_j52991306498534_2_alg».proof.Proof.Gen.KernelIdeal.Launch
import proofs.«405256_j52991306498534_2_alg».proof.Proof.Gen.KernelIdeal.Regions
import proofs.«405256_j52991306498534_2_alg».proof.Proof.Gen.KernelIdeal.Points
import proofs.«405256_j52991306498534_2_alg».proof.Proof.Gen.ReferenceIdeal
import proofs.«405256_j52991306498534_2_alg».proof.Proof.Gen.Pre_finite_inputs
import proofs.«405256_j52991306498534_2_alg».proof.Proof.Val.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
